-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S3x128x128 : Shape := ⟨3, ![3, 128, 128]⟩
abbrev S3x128 : Shape := ⟨2, ![3, 128]⟩
abbrev S2x128 : Shape := ⟨2, ![2, 128]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_
  bcast_S_S800000 : S_.BroadcastsInDim S800000 (![] : Fin 0 → Fin S800000.rank)
  reducesTo_S800000_S_d0 : S800000.ReducesTo [0] S_

variable [Facts]

def fn_part3 {F : FTy → Type} [FloatOps F] (main_v47 : IVec S_ 1) (main_v49 : IVec S800000 1) (main_c_19 : IVec S_ 1) : IVec S_ 1 :=
  let main_v50 : IVec S_ 1 := (fun x v => Host.reduce IntOp.andi x v reducesTo_S800000_S_d0 h_S_) main_v49 main_c_19
  let main_v51 : IVec S_ 1 := andi main_v47 main_v50
  main_v51

def fn_part2 {F : FTy → Type} [FloatOps F] (main_arg1 : IVec S800000 32) (main_arg9 : FVec F S2x128 .f32) (main_arg10 : FVec F S2 .f32) (main_v33 : IVec S_ 1) : IVec S_ 1 :=
  let main_v34 : FVec F S2x128 .f32 := Host.absf main_arg9
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S2 .f32 := Host.absf main_arg10
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  let main_c_16 : IVec S_ 32 := constantI S_ 32 0#32
  let main_v44 : IVec S800000 32 := broadcastInDim S800000 ![] bcast_S_S800000 main_c_16
  let main_v45 : IVec S800000 1 := cmpi .sge main_arg1 main_v44
  let main_c_17 : IVec S_ 1 := constantI S_ 1 1#1
  let main_v46 : IVec S_ 1 := (fun x v => Host.reduce IntOp.andi x v reducesTo_S800000_S_d0 h_S_) main_v45 main_c_17
  let main_v47 : IVec S_ 1 := andi main_v43 main_v46
  let main_c_18 : IVec S_ 32 := constantI S_ 32 50000#32
  let main_v48 : IVec S800000 32 := broadcastInDim S800000 ![] bcast_S_S800000 main_c_18
  let main_v49 : IVec S800000 1 := cmpi .slt main_arg1 main_v48
  let main_c_19 : IVec S_ 1 := constantI S_ 1 1#1
  fn_part3 (F := F) main_v47 main_v49 main_c_19

def fn_part1 {F : FTy → Type} [FloatOps F] (main_arg1 : IVec S800000 32) (main_arg6 : FVec F S3x128 .f32) (main_arg7 : FVec F S3x128x128 .f32) (main_arg8 : FVec F S3x128 .f32) (main_arg9 : FVec F S2x128 .f32) (main_arg10 : FVec F S2 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128x128 .f32 := Host.absf main_arg7
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S3x128 .f32 := Host.absf main_arg8
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg1 main_arg9 main_arg10 main_v33

def fn {F : FTy → Type} [FloatOps F] (main_arg0 : FVec F S50000x128 .f32) (main_arg1 : IVec S800000 32) (main_arg2 : IVec S800000 32) (main_arg3 : FVec F S3x128x128 .f32) (main_arg4 : FVec F S3x128 .f32) (main_arg5 : FVec F S3x128x128 .f32) (main_arg6 : FVec F S3x128 .f32) (main_arg7 : FVec F S3x128x128 .f32) (main_arg8 : FVec F S3x128 .f32) (main_arg9 : FVec F S2x128 .f32) (main_arg10 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg1 main_arg6 main_arg7 main_arg8 main_arg9 main_arg10 main_v13 main_v16
-- ==== Kernel.lean ====
abbrev S50000x128 : Shape := ⟨2, ![50000, 128]⟩
abbrev S800000 : Shape := ⟨1, ![800000]⟩
abbrev S3x128x128 : Shape := ⟨3, ![3, 128, 128]⟩
abbrev S3x128 : Shape := ⟨2, ![3, 128]⟩
abbrev S2x128 : Shape := ⟨2, ![2, 128]⟩
abbrev S2 : Shape := ⟨1, ![2]⟩
abbrev S800000x128 : Shape := ⟨2, ![800000, 128]⟩
abbrev S256 : Shape := ⟨1, ![256]⟩
abbrev S10000x128 : Shape := ⟨2, ![10000, 128]⟩
abbrev S256x128 : Shape := ⟨2, ![256, 128]⟩
abbrev S1x10000 : Shape := ⟨2, ![1, 10000]⟩
abbrev S256x1 : Shape := ⟨2, ![256, 1]⟩
abbrev S256x10000 : Shape := ⟨2, ![256, 10000]⟩
abbrev S_ : Shape := ⟨0, ![]⟩
abbrev S128 : Shape := ⟨1, ![128]⟩
abbrev S1x128 : Shape := ⟨2, ![1, 128]⟩
abbrev S1x128x128 : Shape := ⟨3, ![1, 128, 128]⟩
abbrev S128x128 : Shape := ⟨2, ![128, 128]⟩
abbrev S5000x128 : Shape := ⟨2, ![5000, 128]⟩
abbrev S5000x1 : Shape := ⟨2, ![5000, 1]⟩
abbrev S1x256 : Shape := ⟨2, ![1, 256]⟩
abbrev S5000x256 : Shape := ⟨2, ![5000, 256]⟩
abbrev S128x2 : Shape := ⟨2, ![128, 2]⟩
abbrev S50000x2 : Shape := ⟨2, ![50000, 2]⟩
abbrev S1x2 : Shape := ⟨2, ![1, 2]⟩

abbrev nBuf : Space → Nat
  | .hbm => 92
  | .vmem => 63
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S3x128x128, .f32⟩
  | .hbm, ⟨4, _⟩ => ⟨S3x128, .f32⟩
  | .hbm, ⟨5, _⟩ => ⟨S3x128x128, .f32⟩
  | .hbm, ⟨6, _⟩ => ⟨S3x128, .f32⟩
  | .hbm, ⟨7, _⟩ => ⟨S3x128x128, .f32⟩
  | .hbm, ⟨8, _⟩ => ⟨S3x128, .f32⟩
  | .hbm, ⟨9, _⟩ => ⟨S2x128, .f32⟩
  | .hbm, ⟨10, _⟩ => ⟨S2, .f32⟩
  | .hbm, ⟨11, _⟩ => ⟨S3x128x128, .f32⟩
  | .hbm, ⟨12, _⟩ => ⟨S3x128x128, .f32⟩
  | .hbm, ⟨13, _⟩ => ⟨S50000x128, .bf16⟩
  | .hbm, ⟨14, _⟩ => ⟨S800000x128, .bf16⟩
  | .hbm, ⟨15, _⟩ => ⟨S_, .f32⟩
  | .hbm, ⟨16, _⟩ => ⟨S128, .f32⟩
  | .hbm, ⟨17, _⟩ => ⟨S1x128, .f32⟩
  | .hbm, ⟨18, _⟩ => ⟨S1x128x128, .f32⟩
  | .hbm, ⟨19, _⟩ => ⟨S128x128, .f32⟩
  | .hbm, ⟨20, _⟩ => ⟨S128x128, .f32⟩
  | .hbm, ⟨21, _⟩ => ⟨S1x128, .f32⟩
  | .hbm, ⟨22, _⟩ => ⟨S1x128, .f32⟩
  | .hbm, ⟨23, _⟩ => ⟨S128, .f32⟩
  | .hbm, ⟨24, _⟩ => ⟨S1x128, .f32⟩
  | .hbm, ⟨25, _⟩ => ⟨S1x128, .f32⟩
  | .hbm, ⟨26, _⟩ => ⟨S1x128x128, .f32⟩
  | .hbm, ⟨27, _⟩ => ⟨S128x128, .f32⟩
  | .hbm, ⟨28, _⟩ => ⟨S1x128, .f32⟩
  | .hbm, ⟨29, _⟩ => ⟨S128, .f32⟩
  | .hbm, ⟨30, _⟩ => ⟨S1x128x128, .f32⟩
  | .hbm, ⟨31, _⟩ => ⟨S128x128, .f32⟩
  | .hbm, ⟨32, _⟩ => ⟨S1x128, .f32⟩
  | .hbm, ⟨33, _⟩ => ⟨S128, .f32⟩
  | .hbm, ⟨34, _⟩ => ⟨S50000x128, .f32⟩
  | .hbm, ⟨35, _⟩ => ⟨S50000x128, .bf16⟩
  | .hbm, ⟨36, _⟩ => ⟨S800000x128, .bf16⟩
  | .hbm, ⟨37, _⟩ => ⟨S_, .f32⟩
  | .hbm, ⟨38, _⟩ => ⟨S128, .f32⟩
  | .hbm, ⟨39, _⟩ => ⟨S1x128, .f32⟩
  | .hbm, ⟨40, _⟩ => ⟨S1x128x128, .f32⟩
  | .hbm, ⟨41, _⟩ => ⟨S128x128, .f32⟩
  | .hbm, ⟨42, _⟩ => ⟨S128x128, .f32⟩
  | .hbm, ⟨43, _⟩ => ⟨S1x128, .f32⟩
  | .hbm, ⟨44, _⟩ => ⟨S1x128, .f32⟩
  | .hbm, ⟨45, _⟩ => ⟨S128, .f32⟩
  | .hbm, ⟨46, _⟩ => ⟨S1x128, .f32⟩
  | .hbm, ⟨47, _⟩ => ⟨S1x128, .f32⟩
  | .hbm, ⟨48, _⟩ => ⟨S1x128x128, .f32⟩
  | .hbm, ⟨49, _⟩ => ⟨S128x128, .f32⟩
  | .hbm, ⟨50, _⟩ => ⟨S1x128, .f32⟩
  | .hbm, ⟨51, _⟩ => ⟨S128, .f32⟩
  | .hbm, ⟨52, _⟩ => ⟨S1x128x128, .f32⟩
  | .hbm, ⟨53, _⟩ => ⟨S128x128, .f32⟩
  | .hbm, ⟨54, _⟩ => ⟨S1x128, .f32⟩
  | .hbm, ⟨55, _⟩ => ⟨S128, .f32⟩
  | .hbm, ⟨56, _⟩ => ⟨S50000x128, .f32⟩
  | .hbm, ⟨57, _⟩ => ⟨S50000x128, .bf16⟩
  | .hbm, ⟨58, _⟩ => ⟨S800000x128, .bf16⟩
  | .hbm, ⟨59, _⟩ => ⟨S_, .f32⟩
  | .hbm, ⟨60, _⟩ => ⟨S128, .f32⟩
  | .hbm, ⟨61, _⟩ => ⟨S1x128, .f32⟩
  | .hbm, ⟨62, _⟩ => ⟨S1x128x128, .f32⟩
  | .hbm, ⟨63, _⟩ => ⟨S128x128, .f32⟩
  | .hbm, ⟨64, _⟩ => ⟨S128x128, .f32⟩
  | .hbm, ⟨65, _⟩ => ⟨S1x128, .f32⟩
  | .hbm, ⟨66, _⟩ => ⟨S1x128, .f32⟩
  | .hbm, ⟨67, _⟩ => ⟨S128, .f32⟩
  | .hbm, ⟨68, _⟩ => ⟨S1x128, .f32⟩
  | .hbm, ⟨69, _⟩ => ⟨S1x128, .f32⟩
  | .hbm, ⟨70, _⟩ => ⟨S1x128x128, .f32⟩
  | .hbm, ⟨71, _⟩ => ⟨S128x128, .f32⟩
  | .hbm, ⟨72, _⟩ => ⟨S1x128, .f32⟩
  | .hbm, ⟨73, _⟩ => ⟨S128, .f32⟩
  | .hbm, ⟨74, _⟩ => ⟨S1x128x128, .f32⟩
  | .hbm, ⟨75, _⟩ => ⟨S128x128, .f32⟩
  | .hbm, ⟨76, _⟩ => ⟨S1x128, .f32⟩
  | .hbm, ⟨77, _⟩ => ⟨S128, .f32⟩
  | .hbm, ⟨78, _⟩ => ⟨S50000x128, .f32⟩
  | .hbm, ⟨79, _⟩ => ⟨S128x2, .f32⟩
  | .hbm, ⟨80, _⟩ => ⟨S50000x2, .f32⟩
  | .hbm, ⟨81, _⟩ => ⟨S1x2, .f32⟩
  | .hbm, ⟨82, _⟩ => ⟨S50000x2, .f32⟩
  | .hbm, ⟨83, _⟩ => ⟨S50000x2, .f32⟩
  | .hbm, ⟨84, _⟩ => ⟨S50000x2, .f32⟩
  | .hbm, ⟨85, _⟩ => ⟨S50000x2, .f32⟩
  | .hbm, ⟨86, _⟩ => ⟨S_, .f32⟩
  | .hbm, ⟨87, _⟩ => ⟨S50000x2, .f32⟩
  | .hbm, ⟨88, _⟩ => ⟨S50000x2, .f32⟩
  | .hbm, ⟨89, _⟩ => ⟨S_, .f32⟩
  | .hbm, ⟨90, _⟩ => ⟨S50000x2, .f32⟩
  | .hbm, ⟨91, _⟩ => ⟨S50000x2, .f32⟩
  | .local _ .vmem, ⟨0, _⟩ => ⟨S256, .i32⟩
  | .local _ .vmem, ⟨1, _⟩ => ⟨S256, .i32⟩
  | .local _ .vmem, ⟨2, _⟩ => ⟨S10000x128, .bf16⟩
  | .local _ .vmem, ⟨3, _⟩ => ⟨S10000x128, .bf16⟩
  | .local _ .vmem, ⟨4, _⟩ => ⟨S256x128, .bf16⟩
  | .local _ .vmem, ⟨5, _⟩ => ⟨S256x128, .bf16⟩
  | .local _ .vmem, ⟨6, _⟩ => ⟨S256x128, .f32⟩
  | .local _ .vmem, ⟨7, _⟩ => ⟨S256x128, .bf16⟩
  | .local _ .vmem, ⟨8, _⟩ => ⟨S256x128, .bf16⟩
  | .local _ .vmem, ⟨9, _⟩ => ⟨S256, .i32⟩
  | .local _ .vmem, ⟨10, _⟩ => ⟨S256, .i32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128, .f32⟩
  | .local _ .vmem, ⟨15, _⟩ => ⟨S128x128, .f32⟩
  | .local _ .vmem, ⟨16, _⟩ => ⟨S128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S256, .i32⟩
  | .local _ .vmem, ⟨22, _⟩ => ⟨S256, .i32⟩
  | .local _ .vmem, ⟨23, _⟩ => ⟨S10000x128, .bf16⟩
  | .local _ .vmem, ⟨24, _⟩ => ⟨S10000x128, .bf16⟩
  | .local _ .vmem, ⟨25, _⟩ => ⟨S256x128, .bf16⟩
  | .local _ .vmem, ⟨26, _⟩ => ⟨S256x128, .bf16⟩
  | .local _ .vmem, ⟨27, _⟩ => ⟨S256x128, .f32⟩
  | .local _ .vmem, ⟨28, _⟩ => ⟨S256x128, .bf16⟩
  | .local _ .vmem, ⟨29, _⟩ => ⟨S256x128, .bf16⟩
  | .local _ .vmem, ⟨30, _⟩ => ⟨S256, .i32⟩
  | .local _ .vmem, ⟨31, _⟩ => ⟨S256, .i32⟩
  | .local _ .vmem, ⟨32, _⟩ => ⟨S5000x128, .f32⟩
  | .local _ .vmem, ⟨33, _⟩ => ⟨S5000x128, .f32⟩
  | .local _ .vmem, ⟨34, _⟩ => ⟨S128x128, .f32⟩
  | .local _ .vmem, ⟨35, _⟩ => ⟨S128, .f32⟩
  | .local _ .vmem, ⟨36, _⟩ => ⟨S128x128, .f32⟩
  | .local _ .vmem, ⟨37, _⟩ => ⟨S128, .f32⟩
  | .local _ .vmem, ⟨38, _⟩ => ⟨S1x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S256, .i32⟩
  | .local _ .vmem, ⟨43, _⟩ => ⟨S256, .i32⟩
  | .local _ .vmem, ⟨44, _⟩ => ⟨S10000x128, .bf16⟩
  | .local _ .vmem, ⟨45, _⟩ => ⟨S10000x128, .bf16⟩
  | .local _ .vmem, ⟨46, _⟩ => ⟨S256x128, .bf16⟩
  | .local _ .vmem, ⟨47, _⟩ => ⟨S256x128, .bf16⟩
  | .local _ .vmem, ⟨48, _⟩ => ⟨S256x128, .f32⟩
  | .local _ .vmem, ⟨49, _⟩ => ⟨S256x128, .bf16⟩
  | .local _ .vmem, ⟨50, _⟩ => ⟨S256x128, .bf16⟩
  | .local _ .vmem, ⟨51, _⟩ => ⟨S256, .i32⟩
  | .local _ .vmem, ⟨52, _⟩ => ⟨S256, .i32⟩
  | .local _ .vmem, ⟨53, _⟩ => ⟨S5000x128, .f32⟩
  | .local _ .vmem, ⟨54, _⟩ => ⟨S5000x128, .f32⟩
  | .local _ .vmem, ⟨55, _⟩ => ⟨S128x128, .f32⟩
  | .local _ .vmem, ⟨56, _⟩ => ⟨S128, .f32⟩
  | .local _ .vmem, ⟨57, _⟩ => ⟨S128x128, .f32⟩
  | .local _ .vmem, ⟨58, _⟩ => ⟨S128, .f32⟩
  | .local _ .vmem, ⟨59, _⟩ => ⟨S1x128, .f32⟩
  | .local _ .vmem, ⟨60, _⟩ => ⟨S5000x128, .f32⟩
  | .local _ .vmem, ⟨61, _⟩ => ⟨S5000x128, .f32⟩
  | .local _ .vmem, ⟨62, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_0 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_1 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_cst_2 : Ref sig .tc := ⟨.hbm, 86, rfl⟩
abbrev main_v72 : Ref sig .tc := ⟨.hbm, 87, rfl⟩
abbrev main_v73 : Ref sig .tc := ⟨.hbm, 88, rfl⟩
abbrev main_cst_3 : Ref sig .tc := ⟨.hbm, 89, rfl⟩
abbrev main_v74 : Ref sig .tc := ⟨.hbm, 90, rfl⟩
abbrev main_v75 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg8_1 : Ref sig .tc := ⟨.vmem, 19, rfl⟩
abbrev cc1_scratch0 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_scratch0 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg7_0 : Ref sig .tc := ⟨.vmem, 38, rfl⟩
abbrev cc3_stg8_0 : Ref sig .tc := ⟨.vmem, 39, rfl⟩
abbrev cc3_stg8_1 : Ref sig .tc := ⟨.vmem, 40, rfl⟩
abbrev cc3_scratch0 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg2_1 : Ref sig .tc := ⟨.vmem, 47, rfl⟩
abbrev cc4_scratch0 : Ref sig .tc := ⟨.vmem, 48, rfl⟩
abbrev cc5_stg0_0 : Ref sig .tc := ⟨.vmem, 49, rfl⟩
abbrev cc5_stg0_1 : Ref sig .tc := ⟨.vmem, 50, rfl⟩
abbrev cc5_stg1_0 : Ref sig .tc := ⟨.vmem, 51, rfl⟩
abbrev cc5_stg1_1 : Ref sig .tc := ⟨.vmem, 52, rfl⟩
abbrev cc5_stg2_0 : Ref sig .tc := ⟨.vmem, 53, rfl⟩
abbrev cc5_stg2_1 : Ref sig .tc := ⟨.vmem, 54, rfl⟩
abbrev cc5_stg3_0 : Ref sig .tc := ⟨.vmem, 55, rfl⟩
abbrev cc5_stg4_0 : Ref sig .tc := ⟨.vmem, 56, rfl⟩
abbrev cc5_stg5_0 : Ref sig .tc := ⟨.vmem, 57, rfl⟩
abbrev cc5_stg6_0 : Ref sig .tc := ⟨.vmem, 58, rfl⟩
abbrev cc5_stg7_0 : Ref sig .tc := ⟨.vmem, 59, rfl⟩
abbrev cc5_stg8_0 : Ref sig .tc := ⟨.vmem, 60, rfl⟩
abbrev cc5_stg8_1 : Ref sig .tc := ⟨.vmem, 61, rfl⟩
abbrev cc5_scratch0 : Ref sig .tc := ⟨.vmem, 62, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem8_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem7_0 : DmaSem sig := 35
abbrev cc3_sem8_0 : DmaSem sig := 36
abbrev cc3_sem8_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem2_1 : DmaSem sig := 43
abbrev cc5_sem0_0 : DmaSem sig := 44
abbrev cc5_sem0_1 : DmaSem sig := 45
abbrev cc5_sem1_0 : DmaSem sig := 46
abbrev cc5_sem1_1 : DmaSem sig := 47
abbrev cc5_sem2_0 : DmaSem sig := 48
abbrev cc5_sem2_1 : DmaSem sig := 49
abbrev cc5_sem3_0 : DmaSem sig := 50
abbrev cc5_sem4_0 : DmaSem sig := 51
abbrev cc5_sem5_0 : DmaSem sig := 52
abbrev cc5_sem6_0 : DmaSem sig := 53
abbrev cc5_sem7_0 : DmaSem sig := 54
abbrev cc5_sem8_0 : DmaSem sig := 55
abbrev cc5_sem8_1 : DmaSem sig := 56

abbrev nD : Nat := 1
abbrev τ : Topo := Topo.v7x

variable {F : FTy → Type} [FloatOps F]

abbrev grid0 : Pipeline.Grid := ⟨2, ![3125, 5], ![false, false]⟩

def k0_cond2 (i : grid0.Coords) : BitVec 1 :=
  let arg1 : BitVec 32 := BitVec.ofNat 32 (i 1).val
  let c4_i32 : BitVec 32 := 4#32
  let v23 : BitVec 1 := Scalar.cmpi .eq arg1 c4_i32
  let v24 : BitVec 32 := Scalar.extui v23
  let c0_i32_7 : BitVec 32 := 0#32
  let v25 : BitVec 1 := Scalar.cmpi .ne v24 c0_i32_7
  v25

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S10000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![10, 3125], ![false, false]⟩

def k1_cond2 (i : grid1.Coords) : BitVec 1 :=
  let arg1 : BitVec 32 := BitVec.ofNat 32 (i 1).val
  let c3124_i32 : BitVec 32 := 3124#32
  let v23 : BitVec 1 := Scalar.cmpi .eq arg1 c3124_i32
  let v24 : BitVec 32 := Scalar.extui v23
  let c0_i32_7 : BitVec 32 := 0#32
  let v25 : BitVec 1 := Scalar.cmpi .ne v24 c0_i32_7
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S256 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S5000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev grid2 : Pipeline.Grid := ⟨2, ![3125, 5], ![false, false]⟩

def k2_cond2 (i : grid2.Coords) : BitVec 1 :=
  let arg1 : BitVec 32 := BitVec.ofNat 32 (i 1).val
  let c4_i32 : BitVec 32 := 4#32
  let v23 : BitVec 1 := Scalar.cmpi .eq arg1 c4_i32
  let v24 : BitVec 32 := Scalar.extui v23
  let c0_i32_7 : BitVec 32 := 0#32
  let v25 : BitVec 1 := Scalar.cmpi .ne v24 c0_i32_7
  v25

def cc2_transform_0 (i : grid2.Coords) : Fin 1 → Nat :=
  let arg0 : BitVec 32 := BitVec.ofNat 32 (i 0).val
  let arg1 : BitVec 32 := BitVec.ofNat 32 (i 1).val
  let c0_i32 : BitVec 32 := 0#32
  ![arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S256 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S10000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S256x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![10, 3125], ![false, false]⟩

def k3_cond2 (i : grid3.Coords) : BitVec 1 :=
  let arg1 : BitVec 32 := BitVec.ofNat 32 (i 1).val
  let c3124_i32 : BitVec 32 := 3124#32
  let v23 : BitVec 1 := Scalar.cmpi .eq arg1 c3124_i32
  let v24 : BitVec 32 := Scalar.extui v23
  let c0_i32_7 : BitVec 32 := 0#32
  let v25 : BitVec 1 := Scalar.cmpi .ne v24 c0_i32_7
  v25

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 1 → Nat :=
  let arg0 : BitVec 32 := BitVec.ofNat 32 (i 0).val
  let arg1 : BitVec 32 := BitVec.ofNat 32 (i 1).val
  let c0_i32 : BitVec 32 := 0#32
  ![arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S256x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S256 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 1 → Memref sig .tc .vmem S128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false, false]

abbrev stage3_8 : Fin 2 → Memref sig .tc .vmem S5000x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, false]

abbrev grid4 : Pipeline.Grid := ⟨2, ![3125, 5], ![false, false]⟩

def k4_cond2 (i : grid4.Coords) : BitVec 1 :=
  let arg1 : BitVec 32 := BitVec.ofNat 32 (i 1).val
  let c4_i32 : BitVec 32 := 4#32
  let v23 : BitVec 1 := Scalar.cmpi .eq arg1 c4_i32
  let v24 : BitVec 32 := Scalar.extui v23
  let c0_i32_7 : BitVec 32 := 0#32
  let v25 : BitVec 1 := Scalar.cmpi .ne v24 c0_i32_7
  v25

def cc4_transform_0 (i : grid4.Coords) : Fin 1 → Nat :=
  let arg0 : BitVec 32 := BitVec.ofNat 32 (i 0).val
  let arg1 : BitVec 32 := BitVec.ofNat 32 (i 1).val
  let c0_i32 : BitVec 32 := 0#32
  ![arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S256 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S10000x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S256x128 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev grid5 : Pipeline.Grid := ⟨2, ![10, 3125], ![false, false]⟩

def k5_cond2 (i : grid5.Coords) : BitVec 1 :=
  let arg1 : BitVec 32 := BitVec.ofNat 32 (i 1).val
  let c3124_i32 : BitVec 32 := 3124#32
  let v23 : BitVec 1 := Scalar.cmpi .eq arg1 c3124_i32
  let v24 : BitVec 32 := Scalar.extui v23
  let c0_i32_7 : BitVec 32 := 0#32
  let v25 : BitVec 1 := Scalar.cmpi .ne v24 c0_i32_7
  v25

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_1 (i : grid5.Coords) : Fin 1 → Nat :=
  let arg0 : BitVec 32 := BitVec.ofNat 32 (i 0).val
  let arg1 : BitVec 32 := BitVec.ofNat 32 (i 1).val
  let c0_i32 : BitVec 32 := 0#32
  ![arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc5_transform_7 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S256x128 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S256 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false, false]

abbrev stage5_4 : Fin 1 → Memref sig .tc .vmem S128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false, false]

abbrev stage5_5 : Fin 1 → Memref sig .tc .vmem S128x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false, false]

abbrev stage5_6 : Fin 1 → Memref sig .tc .vmem S128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false, false]

abbrev stage5_7 : Fin 1 → Memref sig .tc .vmem S1x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false, false]

abbrev stage5_8 : Fin 2 → Memref sig .tc .vmem S5000x128 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true, false]

class Facts₀ : Prop where
  transposes_S3x128x128_S3x128x128_0_2_1 : S3x128x128.Transposes [0, 2, 1] S3x128x128
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  iota_S1x10000_d1_w32 : S1x10000.Iotas .tc 32 [1]
  inb_S256_S256_0 : ∀ a, (![0] : Fin 1 → Nat) a + S256.size a ≤ S256.size a
  h_S256 : 0 < S256.numel
  shapeCasts_S256_S256x1 : S256.ShapeCasts S256x1
  broadcasts_S256x1_S256x10000 : S256x1.Broadcasts S256x10000
  broadcasts_S1x10000_S256x10000 : S1x10000.Broadcasts S256x10000
  natLt_1_32 : 1 < 32
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  packedbf16_S256x128_S256x128_0_0 : (Rect.unit (s := S256x128) ![0, 0] S256x128.size inb_S256x128_S256x128_0_0).PackedRows (EltTy.packing .bf16)
  reducesTo_S50000x128_S128_d0 : S50000x128.ReducesTo [0] S128
  h_S_ : 0 < S_.numel
  bcast_S128_S1x128_1 : S128.BroadcastsInDim S1x128 (![1] : Fin 1 → Fin S1x128.rank)
  slices_S3x128x128_S1x128x128_0_0_0 : S3x128x128.Slices ![0, 0, 0] S1x128x128
  shapeCasts_S1x128x128_S128x128 : S1x128x128.ShapeCasts S128x128
  transposes_S128x128_S128x128_1_0 : S128x128.Transposes [1, 0] S128x128
  slices_S3x128_S1x128_0_0 : S3x128.Slices ![0, 0] S1x128
  shapeCasts_S1x128_S128 : S1x128.ShapeCasts S128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  iota_S5000x1_d0_w32 : S5000x1.Iotas .tc 32 [0]
  shapeCasts_S256_S1x256 : S256.ShapeCasts S1x256
  broadcasts_S5000x1_S5000x256 : S5000x1.Broadcasts S5000x256
  broadcasts_S1x256_S5000x256 : S1x256.Broadcasts S5000x256
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S5000x128 : S1x128.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  transposes_S2x128_S128x2_1_0 : S2x128.Transposes [1, 0] S128x2
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  bcast_S_S50000x2 : S_.BroadcastsInDim S50000x2 (![] : Fin 0 → Fin S50000x2.rank)
  dot_S256x10000_S10000x128_S256x128_1_0_0_1_n_n_wf : DotDims.WF S256x10000 S10000x128 S256x128 [1] [0] [0] [1] [] []
  dot_S1x128_S128x128_S1x128_1_0_0_1_n_n_wf : DotDims.WF S1x128 S128x128 S1x128 [1] [0] [0] [1] [] []
  dot_S5000x256_S256x128_S5000x128_1_0_0_1_n_n_wf : DotDims.WF S5000x256 S256x128 S5000x128 [1] [0] [0] [1] [] []
  dot_S5000x128_S128x128_S5000x128_1_0_0_1_n_n_wf : DotDims.WF S5000x128 S128x128 S5000x128 [1] [0] [0] [1] [] []
  dot_S50000x128_S128x2_S50000x2_1_0_0_1_n_n_wf : DotDims.WF S50000x128 S128x2 S50000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256.size a ≤ S800000.size a
  hwx0_0 : ∀ i : grid0.Coords, EltTy.bits .i32 = 32 ∨ (Rect.block (s := S800000) S256.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S50000x128.size a
  hwx0_1 : ∀ i : grid0.Coords, EltTy.bits .bf16 = 32 ∨ (Rect.block (s := S50000x128) S10000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S800000x128.size a
  hwx0_2 : ∀ i : grid0.Coords, EltTy.bits .bf16 = 32 ∨ (Rect.block (s := S800000x128) S256x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x128.size a ≤ S800000x128.size a
  hwx1_0 : ∀ i : grid1.Coords, EltTy.bits .bf16 = 32 ∨ (Rect.block (s := S800000x128) S256x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256.size a ≤ S800000.size a
  hwx1_1 : ∀ i : grid1.Coords, EltTy.bits .i32 = 32 ∨ (Rect.block (s := S800000) S256.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x128.size a ≤ S50000x128.size a
  hwx1_8 : ∀ i : grid1.Coords, EltTy.bits .f32 = 32 ∨ (Rect.block (s := S50000x128) S5000x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256.size a ≤ S800000.size a
  hwx2_0 : ∀ i : grid2.Coords, EltTy.bits .i32 = 32 ∨ (Rect.block (s := S800000) S256.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S50000x128.size a
  hwx2_1 : ∀ i : grid2.Coords, EltTy.bits .bf16 = 32 ∨ (Rect.block (s := S50000x128) S10000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S800000x128.size a
  hwx2_2 : ∀ i : grid2.Coords, EltTy.bits .bf16 = 32 ∨ (Rect.block (s := S800000x128) S256x128.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x128.size a ≤ S800000x128.size a
  hwx3_0 : ∀ i : grid3.Coords, EltTy.bits .bf16 = 32 ∨ (Rect.block (s := S800000x128) S256x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S256.size a ≤ S800000.size a
  hwx3_1 : ∀ i : grid3.Coords, EltTy.bits .i32 = 32 ∨ (Rect.block (s := S800000) S256.size (cc3_transform_1 i) (hinb3_1 i)).WholeWords (EltTy.packing .i32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128.size a ≤ S128.size a
  hwx3_6 : ∀ i : grid3.Coords, EltTy.bits .f32 = 32 ∨ (Rect.block (s := S128) S128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S5000x128.size a ≤ S50000x128.size a
  hwx3_8 : ∀ i : grid3.Coords, EltTy.bits .f32 = 32 ∨ (Rect.block (s := S50000x128) S5000x128.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S256.size a ≤ S800000.size a
  hwx4_0 : ∀ i : grid4.Coords, EltTy.bits .i32 = 32 ∨ (Rect.block (s := S800000) S256.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x128.size a ≤ S50000x128.size a
  hwx4_1 : ∀ i : grid4.Coords, EltTy.bits .bf16 = 32 ∨ (Rect.block (s := S50000x128) S10000x128.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S256x128.size a ≤ S800000x128.size a
  hwx4_2 : ∀ i : grid4.Coords, EltTy.bits .bf16 = 32 ∨ (Rect.block (s := S800000x128) S256x128.size (cc4_transform_2 i) (hinb4_2 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S256x128.size a ≤ S800000x128.size a
  hwx5_0 : ∀ i : grid5.Coords, EltTy.bits .bf16 = 32 ∨ (Rect.block (s := S800000x128) S256x128.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S256.size a ≤ S800000.size a
  hwx5_1 : ∀ i : grid5.Coords, EltTy.bits .i32 = 32 ∨ (Rect.block (s := S800000) S256.size (cc5_transform_1 i) (hinb5_1 i)).WholeWords (EltTy.packing .i32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128.size a ≤ S128.size a
  hwx5_4 : ∀ i : grid5.Coords, EltTy.bits .f32 = 32 ∨ (Rect.block (s := S128) S128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x128.size a ≤ S128x128.size a
  hwx5_5 : ∀ i : grid5.Coords, EltTy.bits .f32 = 32 ∨ (Rect.block (s := S128x128) S128x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S128.size a ≤ S128.size a
  hwx5_6 : ∀ i : grid5.Coords, EltTy.bits .f32 = 32 ∨ (Rect.block (s := S128) S128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x128.size a ≤ S1x128.size a
  hwx5_7 : ∀ i : grid5.Coords, EltTy.bits .f32 = 32 ∨ (Rect.block (s := S1x128) S1x128.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S5000x128.size a ≤ S50000x128.size a
  hwx5_8 : ∀ i : grid5.Coords, EltTy.bits .f32 = 32 ∨ (Rect.block (s := S50000x128) S5000x128.size (cc5_transform_8 i) (hinb5_8 i)).WholeWords (EltTy.packing .f32)

variable [Facts₀]

def dot_S256x10000_S10000x128_S256x128_1_0_0_1_n_n : DotDims S256x10000 S10000x128 S256x128 where
  lhsContracting := [1]
  rhsContracting := [0]
  lhsNonContracting := [0]
  rhsNonContracting := [1]
  lhsBatch := []
  rhsBatch := []
  wf := dot_S256x10000_S10000x128_S256x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf

abbrev win0_0 : Pipeline.Window sig grid0 :=
  Pipeline.Window.ofSpec (Memref.whole main_arg1) S256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v3) S256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v19) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v21) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v13) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v22) S5000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun _ => false | 6 => fun _ => false | 7 => fun _ => false | 8 => fun i => !(k1_cond2 i == 1#1) | ⟨_ + 9, h⟩ => absurd h (Nat.not_lt.2 (Nat.le_add_left _ _))

abbrev win2_0 : Pipeline.Window sig grid2 :=
  Pipeline.Window.ofSpec (Memref.whole main_arg1) S256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v24) S256x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v24) S256x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg2) S256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v22) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v36) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v38) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v40) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v42) S128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v34) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v43) S5000x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev idle3 : Fin 9 → grid3.Coords → Bool := fun | 0 => fun _ => false | 1 => fun _ => false | 2 => fun _ => false | 3 => fun _ => false | 4 => fun _ => false | 5 => fun _ => false | 6 => fun _ => false | 7 => fun _ => false | 8 => fun i => !(k3_cond2 i == 1#1) | ⟨_ + 9, h⟩ => absurd h (Nat.not_lt.2 (Nat.le_add_left _ _))

abbrev win4_0 : Pipeline.Window sig grid4 :=
  Pipeline.Window.ofSpec (Memref.whole main_arg1) S256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v44) S10000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v45) S256x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v45) S256x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg2) S256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v43) S5000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v57) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v59) S128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v61) S128x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v63) S128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v55) S1x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v64) S5000x128.size cc5_transform_8 reads5_8 true false 2 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

abbrev idle5 : Fin 9 → grid5.Coords → Bool := fun | 0 => fun _ => false | 1 => fun _ => false | 2 => fun _ => false | 3 => fun _ => false | 4 => fun _ => false | 5 => fun _ => false | 6 => fun _ => false | 7 => fun _ => false | 8 => fun i => !(k5_cond2 i == 1#1) | ⟨_ + 9, h⟩ => absurd h (Nat.not_lt.2 (Nat.le_add_left _ _))

class Facts : Prop extends Facts₀ where

variable [Facts]
-- ==== ReferenceIdeal.lean ====
abbrev S50000x128 : Shape := ⟨2, ![50000, 128]⟩
abbrev S800000 : Shape := ⟨1, ![800000]⟩
abbrev S3x128x128 : Shape := ⟨3, ![3, 128, 128]⟩
abbrev S3x128 : Shape := ⟨2, ![3, 128]⟩
abbrev S2x128 : Shape := ⟨2, ![2, 128]⟩
abbrev S2 : Shape := ⟨1, ![2]⟩
abbrev S_ : Shape := ⟨0, ![]⟩
abbrev S800000x1 : Shape := ⟨2, ![800000, 1]⟩
abbrev S800000x128 : Shape := ⟨2, ![800000, 128]⟩
abbrev S128 : Shape := ⟨1, ![128]⟩
abbrev S1x128 : Shape := ⟨2, ![1, 128]⟩
abbrev S1x128x128 : Shape := ⟨3, ![1, 128, 128]⟩
abbrev S128x128 : Shape := ⟨2, ![128, 128]⟩
abbrev S128x2 : Shape := ⟨2, ![128, 2]⟩
abbrev S50000x2 : Shape := ⟨2, ![50000, 2]⟩
abbrev S1x2 : Shape := ⟨2, ![1, 2]⟩

abbrev nBuf : Space → Nat
  | .hbm => 174
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S3x128x128, .f32⟩
  | 4 => ⟨S3x128, .f32⟩
  | 5 => ⟨S3x128x128, .f32⟩
  | 6 => ⟨S3x128, .f32⟩
  | 7 => ⟨S3x128x128, .f32⟩
  | 8 => ⟨S3x128, .f32⟩
  | 9 => ⟨S2x128, .f32⟩
  | 10 => ⟨S2, .f32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000x128, .f32⟩
  | 20 => ⟨S_, .f32⟩
  | 21 => ⟨S50000x128, .f32⟩
  | 22 => ⟨S800000x1, .i32⟩
  | 23 => ⟨S50000x128, .f32⟩
  | 24 => ⟨S50000x128, .f32⟩
  | 25 => ⟨S_, .f32⟩
  | 26 => ⟨S128, .f32⟩
  | 27 => ⟨S1x128, .f32⟩
  | 28 => ⟨S1x128x128, .f32⟩
  | 29 => ⟨S128x128, .f32⟩
  | 30 => ⟨S128x128, .f32⟩
  | 31 => ⟨S50000x128, .f32⟩
  | 32 => ⟨S1x128, .f32⟩
  | 33 => ⟨S128, .f32⟩
  | 34 => ⟨S1x128, .f32⟩
  | 35 => ⟨S50000x128, .f32⟩
  | 36 => ⟨S50000x128, .f32⟩
  | 37 => ⟨S1x128x128, .f32⟩
  | 38 => ⟨S128x128, .f32⟩
  | 39 => ⟨S128x128, .f32⟩
  | 40 => ⟨S50000x128, .f32⟩
  | 41 => ⟨S50000x128, .f32⟩
  | 42 => ⟨S1x128, .f32⟩
  | 43 => ⟨S128, .f32⟩
  | 44 => ⟨S1x128, .f32⟩
  | 45 => ⟨S50000x128, .f32⟩
  | 46 => ⟨S50000x128, .f32⟩
  | 47 => ⟨S1x128x128, .f32⟩
  | 48 => ⟨S128x128, .f32⟩
  | 49 => ⟨S128x128, .f32⟩
  | 50 => ⟨S1x128, .f32⟩
  | 51 => ⟨S50000x128, .f32⟩
  | 52 => ⟨S50000x128, .f32⟩
  | 53 => ⟨S1x128, .f32⟩
  | 54 => ⟨S128, .f32⟩
  | 55 => ⟨S1x128, .f32⟩
  | 56 => ⟨S50000x128, .f32⟩
  | 57 => ⟨S50000x128, .f32⟩
  | 58 => ⟨S_, .f32⟩
  | 59 => ⟨S50000x128, .f32⟩
  | 60 => ⟨S50000x128, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x128, .f32⟩
  | 70 => ⟨S_, .f32⟩
  | 71 => ⟨S50000x128, .f32⟩
  | 72 => ⟨S800000x1, .i32⟩
  | 73 => ⟨S50000x128, .f32⟩
  | 74 => ⟨S50000x128, .f32⟩
  | 75 => ⟨S_, .f32⟩
  | 76 => ⟨S128, .f32⟩
  | 77 => ⟨S1x128, .f32⟩
  | 78 => ⟨S1x128x128, .f32⟩
  | 79 => ⟨S128x128, .f32⟩
  | 80 => ⟨S128x128, .f32⟩
  | 81 => ⟨S50000x128, .f32⟩
  | 82 => ⟨S1x128, .f32⟩
  | 83 => ⟨S128, .f32⟩
  | 84 => ⟨S1x128, .f32⟩
  | 85 => ⟨S50000x128, .f32⟩
  | 86 => ⟨S50000x128, .f32⟩
  | 87 => ⟨S1x128x128, .f32⟩
  | 88 => ⟨S128x128, .f32⟩
  | 89 => ⟨S128x128, .f32⟩
  | 90 => ⟨S50000x128, .f32⟩
  | 91 => ⟨S50000x128, .f32⟩
  | 92 => ⟨S1x128, .f32⟩
  | 93 => ⟨S128, .f32⟩
  | 94 => ⟨S1x128, .f32⟩
  | 95 => ⟨S50000x128, .f32⟩
  | 96 => ⟨S50000x128, .f32⟩
  | 97 => ⟨S1x128x128, .f32⟩
  | 98 => ⟨S128x128, .f32⟩
  | 99 => ⟨S128x128, .f32⟩
  | 100 => ⟨S1x128, .f32⟩
  | 101 => ⟨S50000x128, .f32⟩
  | 102 => ⟨S50000x128, .f32⟩
  | 103 => ⟨S1x128, .f32⟩
  | 104 => ⟨S128, .f32⟩
  | 105 => ⟨S1x128, .f32⟩
  | 106 => ⟨S50000x128, .f32⟩
  | 107 => ⟨S50000x128, .f32⟩
  | 108 => ⟨S_, .f32⟩
  | 109 => ⟨S50000x128, .f32⟩
  | 110 => ⟨S50000x128, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000x128, .f32⟩
  | 120 => ⟨S_, .f32⟩
  | 121 => ⟨S50000x128, .f32⟩
  | 122 => ⟨S800000x1, .i32⟩
  | 123 => ⟨S50000x128, .f32⟩
  | 124 => ⟨S50000x128, .f32⟩
  | 125 => ⟨S_, .f32⟩
  | 126 => ⟨S128, .f32⟩
  | 127 => ⟨S1x128, .f32⟩
  | _ => ⟨S50000x128, .f32⟩

abbrev hbmTy0_1 (i : Nat) : BufTy := match i % 128 with
  | 0 => ⟨S1x128x128, .f32⟩
  | 1 => ⟨S128x128, .f32⟩
  | 2 => ⟨S128x128, .f32⟩
  | 3 => ⟨S50000x128, .f32⟩
  | 4 => ⟨S1x128, .f32⟩
  | 5 => ⟨S128, .f32⟩
  | 6 => ⟨S1x128, .f32⟩
  | 7 => ⟨S50000x128, .f32⟩
  | 8 => ⟨S50000x128, .f32⟩
  | 9 => ⟨S1x128x128, .f32⟩
  | 10 => ⟨S128x128, .f32⟩
  | 11 => ⟨S128x128, .f32⟩
  | 12 => ⟨S50000x128, .f32⟩
  | 13 => ⟨S50000x128, .f32⟩
  | 14 => ⟨S1x128, .f32⟩
  | 15 => ⟨S128, .f32⟩
  | 16 => ⟨S1x128, .f32⟩
  | 17 => ⟨S50000x128, .f32⟩
  | 18 => ⟨S50000x128, .f32⟩
  | 19 => ⟨S1x128x128, .f32⟩
  | 20 => ⟨S128x128, .f32⟩
  | 21 => ⟨S128x128, .f32⟩
  | 22 => ⟨S1x128, .f32⟩
  | 23 => ⟨S50000x128, .f32⟩
  | 24 => ⟨S50000x128, .f32⟩
  | 25 => ⟨S1x128, .f32⟩
  | 26 => ⟨S128, .f32⟩
  | 27 => ⟨S1x128, .f32⟩
  | 28 => ⟨S50000x128, .f32⟩
  | 29 => ⟨S50000x128, .f32⟩
  | 30 => ⟨S_, .f32⟩
  | 31 => ⟨S50000x128, .f32⟩
  | 32 => ⟨S50000x128, .f32⟩
  | 33 => ⟨S128x2, .f32⟩
  | 34 => ⟨S50000x2, .f32⟩
  | 35 => ⟨S1x2, .f32⟩
  | 36 => ⟨S50000x2, .f32⟩
  | 37 => ⟨S50000x2, .f32⟩
  | 38 => ⟨S50000x2, .f32⟩
  | 39 => ⟨S50000x2, .f32⟩
  | 40 => ⟨S_, .f32⟩
  | 41 => ⟨S50000x2, .f32⟩
  | 42 => ⟨S50000x2, .f32⟩
  | 43 => ⟨S_, .f32⟩
  | 44 => ⟨S50000x2, .f32⟩
  | 45 => ⟨S50000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_call0_cst : Ref sig .tc := ⟨.hbm, 58, rfl⟩
abbrev main_call0_v0 : Ref sig .tc := ⟨.hbm, 59, rfl⟩
abbrev main_v43 : Ref sig .tc := ⟨.hbm, 60, rfl⟩
abbrev main_c_2 : Ref sig .tc := ⟨.hbm, 61, rfl⟩
abbrev main_v44 : Ref sig .tc := ⟨.hbm, 62, rfl⟩
abbrev main_v45 : Ref sig .tc := ⟨.hbm, 63, rfl⟩
abbrev main_c_3 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_4 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_5 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_call1_cst : Ref sig .tc := ⟨.hbm, 108, rfl⟩
abbrev main_call1_v0 : Ref sig .tc := ⟨.hbm, 109, rfl⟩
abbrev main_v87 : Ref sig .tc := ⟨.hbm, 110, rfl⟩
abbrev main_c_6 : Ref sig .tc := ⟨.hbm, 111, rfl⟩
abbrev main_v88 : Ref sig .tc := ⟨.hbm, 112, rfl⟩
abbrev main_v89 : Ref sig .tc := ⟨.hbm, 113, rfl⟩
abbrev main_c_7 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_cst_8 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_cst_9 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_call2_cst : Ref sig .tc := ⟨.hbm, 158, rfl⟩
abbrev main_call2_v0 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_cst_10 : Ref sig .tc := ⟨.hbm, 168, rfl⟩
abbrev main_v139 : Ref sig .tc := ⟨.hbm, 169, rfl⟩
abbrev main_v140 : Ref sig .tc := ⟨.hbm, 170, rfl⟩
abbrev main_cst_11 : Ref sig .tc := ⟨.hbm, 171, rfl⟩
abbrev main_v141 : Ref sig .tc := ⟨.hbm, 172, rfl⟩
abbrev main_v142 : Ref sig .tc := ⟨.hbm, 173, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  reducesTo_S50000x128_S128_d0 : S50000x128.ReducesTo [0] S128
  h_S_ : 0 < S_.numel
  bcast_S128_S1x128_1 : S128.BroadcastsInDim S1x128 (![1] : Fin 1 → Fin S1x128.rank)
  slices_S3x128x128_S1x128x128_0_0_0 : S3x128x128.Slices ![0, 0, 0] S1x128x128
  shapeCasts_S1x128x128_S128x128 : S1x128x128.ShapeCasts S128x128
  transposes_S128x128_S128x128_1_0 : S128x128.Transposes [1, 0] S128x128
  slices_S3x128_S1x128_0_0 : S3x128.Slices ![0, 0] S1x128
  shapeCasts_S1x128_S128 : S1x128.ShapeCasts S128
  bcast_S1x128_S50000x128_0_1 : S1x128.BroadcastsInDim S50000x128 (![0, 1] : Fin 2 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  transposes_S2x128_S128x2_1_0 : S2x128.Transposes [1, 0] S128x2
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  bcast_S_S50000x2 : S_.BroadcastsInDim S50000x2 (![] : Fin 0 → Fin S50000x2.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S1x128_S128x128_S1x128_1_0_0_1_n_n_wf : DotDims.WF S1x128 S128x128 S1x128 [1] [0] [0] [1] [] []
  dot_S50000x128_S128x2_S50000x2_1_0_0_1_n_n_wf : DotDims.WF S50000x128 S128x2 S50000x2 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf

class Facts : Prop extends Facts₀ where

variable [Facts]
-- ==== Proof.K.Cond0.lean ====
import proofs.«415291_j87935160418912_3_alg».proof.Proof.Gen.Kernel.Launch
import proofs.«415291_j87935160418912_3_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic

variable {F : FTy → Type} [FloatOps F]

abbrev first0 (i : grid0.Coords) : Prop := (Scalar.cmpi .ne (Scalar.extui (Scalar.cmpi .eq (BitVec.ofNat 32 (i 1).val) 0#32)) 0#32) = 1#1

abbrev last0 (i : grid0.Coords) : Prop := k0_cond2 i = 1#1

abbrev acc0 : Memref sig .tc .vmem S256x128 .f32 := Memref.whole cc0_scratch0

abbrev accV0 : View sig .tc .vmem S256x128 .f32 := acc0.view

abbrev outV0 : View sig .tc .vmem S256x128 .bf16 := (Memref.whole cc0_stg2_0 : Memref sig .tc .vmem S256x128 .bf16).view

end Cert.Kernel.Hand

end
-- ==== Proof.K.Flush0.lean ====
import proofs.«415291_j87935160418912_3_alg».proof.Proof.K.Cond0

noncomputable section

namespace Cert.Kernel.Hand

open Cert.Kernel Cert.Kernel.Gen
open Idealize.ShloMosaic Idealize.ShloMosaic.TcCoe Idealize.ShloMosaic.Tactic

variable {F : FTy → Type} [FloatOps F]

theorem blk0_out (t : Fin cfg0.N) : win0_2.index t = ![t.val / 5 % 3125, 0] := by
  have h0 : ((grid0.coords t) 0).val = t.val / 5 % 3125 := by
    show t.val / grid0.stride 0 % 3125 = _
    rw [show grid0.stride 0 = 5 from by decide]
  show cc0_transform_2 (grid0.coords t) = _
  unfold cc0_transform_2
  dsimp only
  rw [h0, BitVec.toNat_ofNat, Nat.mod_eq_of_lt (by omega : t.val / 5 % 3125 < 2 ^ 32)]
  rfl

theorem flushOut0 : ∀ t : Fin cfg0.N, (cfg0.win 2).flush t = true ↔ t.val % 5 = 4 := fun t => by
  have hN : grid0.N = 15625 := N_0
  have hlt : t.val < grid0.N := t.isLt
  show win0_2.flush t = true ↔ _
  unfold Pipeline.Window.flush
  rw [show win0_2.isOut = true from rfl, Bool.true_and, Bool.or_eq_true, decide_eq_true_eq, decide_eq_true_eq]
  constructor
  · rintro (h | ⟨h, hne⟩)
    · omega
    · rw [blk0_out, blk0_out] at hne
      by_contra hc
      apply hne
      have e : (t.val + 1) / 5 % 3125 = t.val / 5 % 3125 := by omega
      show ![(t.val + 1) / 5 % 3125, 0] = ![t.val / 5 % 3125, 0]
      rw [e]
  · intro h
    by_cases hl : t.val + 1 = grid0.N
    · exact Or.inl hl
    · refine Or.inr ⟨by omega, fun he => ?_⟩
      rw [blk0_out, blk0_out] at he
      have h0 := congrFun he 0
      simp only [Matrix.cons_val_zero] at h0
      omega

end Cert.Kernel.Hand

end
-- ==== Proof.K.Sched0.lean ====
import proofs.«415291_j87935160418912_3_alg».proof.Proof.K.Flush0

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev stg0_0 (t : Fin cfg0.N) : Memref sig .tc .vmem S256 .i32 := win0_0.stage (cfg0.slots t 0)
abbrev hstg0_0 (t : Fin cfg0.N) : (stg0_0 t).IsWhole := hstage0_0 ((cfg0.slots t 0).cast nbuf0_0)
abbrev stg0_1 (t : Fin cfg0.N) : Memref sig .tc .vmem S10000x128 .bf16 := win0_1.stage (cfg0.slots t 1)
abbrev hstg0_1 (t : Fin cfg0.N) : (stg0_1 t).IsWhole := hstage0_1 ((cfg0.slots t 1).cast nbuf0_1)
abbrev stg0_2 (t : Fin cfg0.N) : Memref sig .tc .vmem S256x128 .bf16 := win0_2.stage (cfg0.slots t 2)
abbrev hstg0_2 (t : Fin cfg0.N) : (stg0_2 t).IsWhole := hstage0_2 ((cfg0.slots t 2).cast nbuf0_2)

abbrev body0 (t : Fin cfg0.N) : Prog (TpuEff nD τ sig (Elt F) Λ₀ .tc) PUnit :=
  cc0__gather_kernel (grid0.coords t) (stg0_0 t) (hstg0_0 t) (stg0_1 t) (hstg0_1 t) (stg0_2 t) (hstg0_2 t) (Memref.whole cc0_scratch0) (Memref.isWhole_whole _)

theorem coord0_1 (t : Fin cfg0.N) : ((grid0.coords t) 1).val = t.val % 5 := by
  show t.val / grid0.stride 1 % 5 = t.val % 5
  rw [show grid0.stride 1 = 1 from by decide, Nat.div_one]

theorem kcond0_eq (i : grid0.Coords) :
    k0_cond2 i = Scalar.cmpi .ne (Scalar.extui (Scalar.cmpi .eq (BitVec.ofNat 32 (i 1).val) 4#32)) 0#32 := rfl

theorem hfirst0 : ∀ t : Fin cfg0.N, first0 (grid0.coords t) ↔ t.val % 5 = 0 := fun t => by
  have key : ∀ n : Fin 5, ((Scalar.cmpi .ne (Scalar.extui (Scalar.cmpi .eq (BitVec.ofNat 32 n.val) 0#32)) 0#32) = 1#1) ↔ n.val = 0 := by
    decide +kernel
  rw [← coord0_1 t]
  exact key ((grid0.coords t) 1)

theorem hlast0 : ∀ t : Fin cfg0.N, last0 (grid0.coords t) ↔ t.val % 5 = 4 := fun t => by
  have key : ∀ n : Fin 5, ((Scalar.cmpi .ne (Scalar.extui (Scalar.cmpi .eq (BitVec.ofNat 32 n.val) 4#32)) 0#32) = 1#1) ↔ n.val = 4 := by
    decide +kernel
  rw [← coord0_1 t]
  show k0_cond2 (grid0.coords t) = 1#1 ↔ _
  rw [kcond0_eq]
  exact key ((grid0.coords t) 1)

theorem live0_0 (t : Fin cfg0.N) : cfg0.idle 0 (grid0.coords t) = false := rfl
theorem live0_1 (t : Fin cfg0.N) : cfg0.idle 1 (grid0.coords t) = false := rfl

theorem idle0_2 (t : Fin cfg0.N) (h : ¬last0 (grid0.coords t)) : cfg0.idle 2 (grid0.coords t) = true := by
  show (!(k0_cond2 (grid0.coords t) == 1#1)) = true
  simp only [Bool.not_eq_true', beq_eq_false_iff_ne, ne_eq]; exact h

theorem live0_2 (t : Fin cfg0.N) (h : last0 (grid0.coords t)) : cfg0.idle 2 (grid0.coords t) = false := by
  show (!(k0_cond2 (grid0.coords t) == 1#1)) = false
  simp only [Bool.not_eq_false', beq_iff_eq]; exact h

theorem noFlush0_2 (t : Fin cfg0.N) (h : ¬last0 (grid0.coords t)) : (cfg0.win 2).flush t = false := by
  cases hf : (cfg0.win 2).flush t with
  | false => rfl
  | true => exact absurd ((hlast0 t).mpr ((flushOut0 t).mp hf)) h

theorem PhiA0_eq (c : Dev nD) :
    (Pipeline.ΦA spec0 c : sProp 𝕄)
      = iprop(iprop((∃ d, owns (c : Thread nD τ) acc0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [acc0, owns_whole]; try rfl

end Cert.Kernel.Hand

end
-- ==== Proof.K.Run0A.lean ====
import proofs.«415291_j87935160418912_3_alg».proof.Proof.K.Cond0

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in

noncomputable def run0_A (c : Dev nD) (i : grid0.Coords) (arg2 : Memref sig .tc .vmem S256 .i32) (harg2 : arg2.IsWhole) (arg3 : Memref sig .tc .vmem S10000x128 .bf16) (harg3 : arg3.IsWhole) (arg4 : Memref sig .tc .vmem S256x128 .bf16) (harg4 : arg4.IsWhole) (arg5 : Memref sig .tc .vmem S256x128 .f32) (harg5 : arg5.IsWhole) (hc0 : first0 i) (hc1 : ¬last0 i)
    (x0 : Vec F S256 .i32) (x1 : Vec F S10000x128 .bf16) :
    { LS : List (View.Piece (Elt F) S256x128 .f32) //
      ∀ (xi : Vec F S256x128 .bf16) (E : Set ℕ) (K : PUnit → sProp 𝕄),
        iprop(owns (c : Thread nD τ) arg2 fullShare x0 ∗ owns (c : Thread nD τ) arg3 fullShare x1 ∗ owns (c : Thread nD τ) arg4 fullShare xi ∗ (∃ d, owns (c : Thread nD τ) arg5 fullShare d)
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__gather_kernel i arg2 harg2 arg3 harg3 arg4 harg4 arg5 harg5) K } := by
  refine ⟨?_, fun xi E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Hand

end
-- ==== Proof.K.Run0B.lean ====
import proofs.«415291_j87935160418912_3_alg».proof.Proof.K.Cond0

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in

noncomputable def run0_B (c : Dev nD) (i : grid0.Coords) (arg2 : Memref sig .tc .vmem S256 .i32) (harg2 : arg2.IsWhole) (arg3 : Memref sig .tc .vmem S10000x128 .bf16) (harg3 : arg3.IsWhole) (arg4 : Memref sig .tc .vmem S256x128 .bf16) (harg4 : arg4.IsWhole) (arg5 : Memref sig .tc .vmem S256x128 .f32) (harg5 : arg5.IsWhole) (hc0 : ¬first0 i) (hc1 : ¬last0 i)
    (x0 : Vec F S256 .i32) (x1 : Vec F S10000x128 .bf16) (xs : Vec F S256x128 .f32) :
    { LS : List (View.Piece (Elt F) S256x128 .f32) //
      ∀ (xi : Vec F S256x128 .bf16) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xs
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__gather_kernel i arg2 harg2 arg3 harg3 arg4 harg4 arg5 harg5) K } := by
  refine ⟨?_, fun xi E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Hand

end
-- ==== Proof.K.Run0C.lean ====
import proofs.«415291_j87935160418912_3_alg».proof.Proof.K.Cond0

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in

noncomputable def run0_C (c : Dev nD) (i : grid0.Coords) (arg2 : Memref sig .tc .vmem S256 .i32) (harg2 : arg2.IsWhole) (arg3 : Memref sig .tc .vmem S10000x128 .bf16) (harg3 : arg3.IsWhole) (arg4 : Memref sig .tc .vmem S256x128 .bf16) (harg4 : arg4.IsWhole) (arg5 : Memref sig .tc .vmem S256x128 .f32) (harg5 : arg5.IsWhole) (hc0 : ¬first0 i) (hc1 : last0 i)
    (x0 : Vec F S256 .i32) (x1 : Vec F S10000x128 .bf16) (xs : Vec F S256x128 .f32) :
    Σ' (LO : List (View.Piece (Elt F) S256x128 .bf16)), { LS : List (View.Piece (Elt F) S256x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc0__gather_kernel i arg2 harg2 arg3 harg3 arg4 harg4 arg5 harg5) K } := by
  refine ⟨?_, ?_, fun E K => ?run⟩
  case run =>
    simp only [cc0__gather_kernel_eq_skeleton]; unfold cc0__gather_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Hand

end
-- ==== Proof.K.Case0.lean ====
import proofs.«415291_j87935160418912_3_alg».proof.Proof.K.Run0A
import proofs.«415291_j87935160418912_3_alg».proof.Proof.K.Run0B
import proofs.«415291_j87935160418912_3_alg».proof.Proof.K.Run0C

noncomputable section

namespace Cert.Kernel.Hand

open Idealize.ShloMosaic Idealize.ShloMosaic.TcCoe Idealize.ShloMosaic.Tactic

variable {F : FTy → Type} [FloatOps F]

section Cases
variable (c : Dev nD) (i : grid0.Coords) (arg2 : Memref sig .tc .vmem S256 .i32) (harg2 : arg2.IsWhole) (arg3 : Memref sig .tc .vmem S10000x128 .bf16) (harg3 : arg3.IsWhole) (arg4 : Memref sig .tc .vmem S256x128 .bf16) (harg4 : arg4.IsWhole) (arg5 : Memref sig .tc .vmem S256x128 .f32) (harg5 : arg5.IsWhole)

theorem scover0_A (hc0 : first0 i) (hc1 : ¬last0 i) (x0 : Vec F S256 .i32) (x1 : Vec F S10000x128 .bf16) (y : S256x128.Idx) :
    ∃ pc ∈ (run0_A c i arg2 harg2 arg3 harg3 arg4 harg4 arg5 harg5 hc0 hc1 x0 x1).1, y ∈ pc.1.set :=
  View.cover_of_tiledL (run0_A c i arg2 harg2 arg3 harg3 arg4 harg4 arg5 harg5 hc0 hc1 x0 x1).1 S256x128.size (by sl_kernel_rfl) y

-- What the first node block leaves in the accumulator: the pieces the body wrote, read as one array.
def sacc0_A (hc0 : first0 i) (hc1 : ¬last0 i) (x0 : Vec F S256 .i32) (x1 : Vec F S10000x128 .bf16) : Vec F S256x128 .f32 :=
  View.canon (run0_A c i arg2 harg2 arg3 harg3 arg4 harg4 arg5 harg5 hc0 hc1 x0 x1).1

theorem scover0_B (hc0 : ¬first0 i) (hc1 : ¬last0 i) (x0 : Vec F S256 .i32) (x1 : Vec F S10000x128 .bf16) (xs : Vec F S256x128 .f32) (y : S256x128.Idx) :
    ∃ pc ∈ (run0_B c i arg2 harg2 arg3 harg3 arg4 harg4 arg5 harg5 hc0 hc1 x0 x1 xs).1, y ∈ pc.1.set :=
  View.cover_of_tiledL (run0_B c i arg2 harg2 arg3 harg3 arg4 harg4 arg5 harg5 hc0 hc1 x0 x1 xs).1 S256x128.size (by sl_kernel_rfl) y

def sacc0_B (hc0 : ¬first0 i) (hc1 : ¬last0 i) (x0 : Vec F S256 .i32) (x1 : Vec F S10000x128 .bf16) (xs : Vec F S256x128 .f32) : Vec F S256x128 .f32 :=
  View.canon (run0_B c i arg2 harg2 arg3 harg3 arg4 harg4 arg5 harg5 hc0 hc1 x0 x1 xs).1

theorem cover0_C (hc0 : ¬first0 i) (hc1 : last0 i) (x0 : Vec F S256 .i32) (x1 : Vec F S10000x128 .bf16) (xs : Vec F S256x128 .f32) (y : S256x128.Idx) :
    ∃ pc ∈ (run0_C c i arg2 harg2 arg3 harg3 arg4 harg4 arg5 harg5 hc0 hc1 x0 x1 xs).1, y ∈ pc.1.set :=
  View.cover_of_tiledL (run0_C c i arg2 harg2 arg3 harg3 arg4 harg4 arg5 harg5 hc0 hc1 x0 x1 xs).1 S256x128.size (by sl_kernel_rfl) y

theorem scover0_C (hc0 : ¬first0 i) (hc1 : last0 i) (x0 : Vec F S256 .i32) (x1 : Vec F S10000x128 .bf16) (xs : Vec F S256x128 .f32) (y : S256x128.Idx) :
    ∃ pc ∈ (run0_C c i arg2 harg2 arg3 harg3 arg4 harg4 arg5 harg5 hc0 hc1 x0 x1 xs).2.1, y ∈ pc.1.set :=
  View.cover_of_tiledL (run0_C c i arg2 harg2 arg3 harg3 arg4 harg4 arg5 harg5 hc0 hc1 x0 x1 xs).2.1 S256x128.size (by sl_kernel_rfl) y

def out0_C (hc0 : ¬first0 i) (hc1 : last0 i) (x0 : Vec F S256 .i32) (x1 : Vec F S10000x128 .bf16) (xs : Vec F S256x128 .f32) : Vec F S256x128 .bf16 :=
  View.canon (run0_C c i arg2 harg2 arg3 harg3 arg4 harg4 arg5 harg5 hc0 hc1 x0 x1 xs).1

def sacc0_C (hc0 : ¬first0 i) (hc1 : last0 i) (x0 : Vec F S256 .i32) (x1 : Vec F S10000x128 .bf16) (xs : Vec F S256x128 .f32) : Vec F S256x128 .f32 :=
  View.canon (run0_C c i arg2 harg2 arg3 harg3 arg4 harg4 arg5 harg5 hc0 hc1 x0 x1 xs).2.1

end Cases

end Cert.Kernel.Hand

end
-- ==== Proof.K.Dat0.lean ====
import proofs.«415291_j87935160418912_3_alg».proof.Proof.K.Sched0
import proofs.«415291_j87935160418912_3_alg».proof.Proof.K.Case0

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Region

def idleOut0 : Vec F S256x128 .bf16 := outV0.read (Elt F) outV0.junk

section Region
variable (V : (c : Dev nD) → (b : Ref sig .tc) → Buf (Elt F) ((c : Thread nD τ).loc b))

def accA0 (c : Dev nD) (t : Fin cfg0.N) (h0 : t.val % 5 = 0) (h1 : ¬t.val % 5 = 4) : Vec F S256x128 .f32 :=
  sacc0_A c (grid0.coords t) (stg0_0 t) (hstg0_0 t) (stg0_1 t) (hstg0_1 t) (stg0_2 t) (hstg0_2 t) acc0 (Memref.isWhole_whole _) ((hfirst0 t).mpr h0) (fun h => h1 ((hlast0 t).mp h)) (iblk0 V c 0 t) (iblk0 V c 1 t)
def accB0 (c : Dev nD) (t : Fin cfg0.N) (h0 : ¬t.val % 5 = 0) (h1 : ¬t.val % 5 = 4) (xs : Vec F S256x128 .f32) : Vec F S256x128 .f32 :=
  sacc0_B c (grid0.coords t) (stg0_0 t) (hstg0_0 t) (stg0_1 t) (hstg0_1 t) (stg0_2 t) (hstg0_2 t) acc0 (Memref.isWhole_whole _) (fun h => h0 ((hfirst0 t).mp h)) (fun h => h1 ((hlast0 t).mp h)) (iblk0 V c 0 t) (iblk0 V c 1 t) xs
def accC0 (c : Dev nD) (t : Fin cfg0.N) (h0 : ¬t.val % 5 = 0) (h1 : t.val % 5 = 4) (xs : Vec F S256x128 .f32) : Vec F S256x128 .f32 :=
  sacc0_C c (grid0.coords t) (stg0_0 t) (hstg0_0 t) (stg0_1 t) (hstg0_1 t) (stg0_2 t) (hstg0_2 t) acc0 (Memref.isWhole_whole _) (fun h => h0 ((hfirst0 t).mp h)) ((hlast0 t).mpr h1) (iblk0 V c 0 t) (iblk0 V c 1 t) xs
def outC0 (c : Dev nD) (t : Fin cfg0.N) (h0 : ¬t.val % 5 = 0) (h1 : t.val % 5 = 4) (xs : Vec F S256x128 .f32) : Vec F S256x128 .bf16 :=
  out0_C c (grid0.coords t) (stg0_0 t) (hstg0_0 t) (stg0_1 t) (hstg0_1 t) (stg0_2 t) (hstg0_2 t) acc0 (Memref.isWhole_whole _) (fun h => h0 ((hfirst0 t).mp h)) ((hlast0 t).mpr h1) (iblk0 V c 0 t) (iblk0 V c 1 t) xs

-- The output block and the accumulator after point n: the point's case applied to its two input blocks and to what point n - 1 left.
def outsAt0 (c : Dev nD) : (n : ℕ) → n < cfg0.N → Vec F S256x128 .bf16 × Vec F S256x128 .f32
  | 0, hn => (idleOut0, accA0 V c ⟨0, hn⟩ (Nat.zero_mod _) (show ¬(0 % 5 = 4) by decide))
  | n + 1, hn =>
    if h0 : (n + 1) % 5 = 0 then
      if h1 : (n + 1) % 5 = 4 then False.elim (by omega)
      else (idleOut0, accA0 V c ⟨n + 1, hn⟩ h0 h1)
    else
      if h1 : (n + 1) % 5 = 4 then
        (outC0 V c ⟨n + 1, hn⟩ h0 h1 (outsAt0 c n (Nat.lt_of_succ_lt hn)).2, accC0 V c ⟨n + 1, hn⟩ h0 h1 (outsAt0 c n (Nat.lt_of_succ_lt hn)).2)
      else (idleOut0, accB0 V c ⟨n + 1, hn⟩ h0 h1 (outsAt0 c n (Nat.lt_of_succ_lt hn)).2)

theorem outsAt0_A (c : Dev nD) (t : Fin cfg0.N) (h0 : t.val % 5 = 0) (h1 : ¬t.val % 5 = 4) :
    outsAt0 V c t.val t.isLt = (idleOut0, accA0 V c t h0 h1) := by
  obtain ⟨n, hn⟩ := t
  cases n with
  | zero => exact rfl
  | succ n => exact (dif_pos h0).trans ((dif_neg h1).trans rfl)

theorem outsAt0_B (c : Dev nD) (t : Fin cfg0.N) (h0 : ¬t.val % 5 = 0) (h1 : ¬t.val % 5 = 4) :
    outsAt0 V c t.val t.isLt = (idleOut0, accB0 V c t h0 h1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 5 = 0) (h1 : t.val % 5 = 4) :
    outsAt0 V c t.val t.isLt = (outC0 V c t h0 h1 (outsAt0 V c (t.val - 1) (Nat.lt_of_le_of_lt (Nat.sub_le _ _) t.isLt)).2,
      accC0 V c t h0 h1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS0 (c : Dev nD) : (n : ℕ) → n ≤ cfg0.N → sProp 𝕄
  | 0, _ => Pipeline.ΦA spec0 c
  | n + 1, hn => iprop(iprop(owns (c : Thread nD τ) acc0 fullShare ((outsAt0 V c n hn).2) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) acc0 fullShare ((outsAt0 V c n hn).2) ∗ Pipeline.scopedRestBut (Ix := Unit) (Name := ℕ) (U := UR sig nD τ) (Lvl := ℕ) (Val := Elt F) spec0 c [cc0_scratch0]) ∗ (∃ r, prngReg c r)) := rfl
theorem PhiS0_pos (c : Dev nD) (n : ℕ) (h : n ≤ cfg0.N) (hz : n ≠ 0) :
    PhiS0 V c n h = iprop(iprop(owns (c : Thread nD τ) acc0 fullShare ((outsAt0 V c (n - 1) (by omega)).2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

-- The invariant after any point implies the one before the first: what the accumulator holds is forgotten.
theorem PhiS0_weak (c : Dev nD) (n : ℕ) (h : n ≤ cfg0.N) : PhiS0 V c n h ⊢ Pipeline.ΦA spec0 c := by
  cases n with
  | zero => rw [PhiS0_zero V c 0 h rfl]; try exact Entails.refl _
  | succ n =>
    rw [PhiS0_succ, PhiA0_eq]
    iintro ⟨⟨HS, Hrest⟩, Hg⟩
    isplitl [HS Hrest]
    · isplitl [HS]
      · iexists _; iexact HS
      iexact Hrest
    iexact Hg

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (stg0_0 t) fullShare ((dat0 V c).before 0 t d))
    ∗ (∃ d, owns (c : Thread nD τ) (stg0_1 t) fullShare ((dat0 V c).before 1 t d))
    ∗ (∃ d, owns (c : Thread nD τ) (stg0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

-- The body keeps the invariant at every point: the accumulator is reset at a run's first point, added to at each, written out at the last.
set_option maxHeartbeats 4800000 in

theorem sound_body0 (c : Dev nD) (t : Fin cfg0.N) :
    bodyPre0 V c t ⊢ wp frame (wpE (defs₀ (F := F)) Variants.none c none) Set.univ (body0 t) (fun _ => bodyPost0 V c t) := by
  unfold bodyPre0 bodyPost0 body0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (stg0_0 t) fullShare ((dat0 V c).after 0 t) from by
    unfold Dat.leavesExact; rw [live0_0 t], after0_0]
  rw [show (dat0 V c).leavesExact 1 t = owns (c : Thread nD τ) (stg0_1 t) fullShare ((dat0 V c).after 1 t) from by
    unfold Dat.leavesExact; rw [live0_1 t], after0_1]
  by_cases h0 : t.val % 5 = 0
  · have h1 : ¬t.val % 5 = 4 := by omega
    rw [Dat.leavesExact_idle (dat0 V c) 2 t (idle0_2 t (fun h => h1 ((hlast0 t).mp h))) (noFlush0_2 t (fun h => h1 ((hlast0 t).mp h)))]
    rw [outsAt0_A V c t h0 h1]
    unfold accA0 sacc0_A; (try dsimp only)
    rw [PhiS0_castSucc V c t]
    refine BIBase.Entails.trans (sep_mono_left (PhiS0_weak V c _ _)) ?_
    rw [PhiA0_eq]
    iintro ⟨⟨⟨HS, Hrest⟩, Hg⟩, Ho, ⟨%d0, H0⟩, ⟨%d1, H1⟩, ⟨%d2, H2⟩⟩
    iapply ((run0_A c (grid0.coords t) _ (hstg0_0 t) _ (hstg0_1 t) _ (hstg0_2 t) _ (Memref.isWhole_whole _) ((hfirst0 t).mpr h0) (fun h => h1 ((hlast0 t).mp h)) (iblk0 V c 0 t) (iblk0 V c 1 t)).2 _ Set.univ _)
    iframe H0 H1 H2 HS
    iintro ⟨H0, H1, H2, ⟨%es, HS⟩⟩
    iframe Hrest Hg Ho H0 H1
    isplitl [HS]
    · unfold owns; iexists _; isplitr
      swap; · iexact HS
      ipureintro; exact View.read_writes_eq_canon _ _ _ (scover0_A c _ _ _ _ _ _ _ _ _ _ _ _ _)
    iexists _; iexact H2
  · have hz : t.val ≠ 0 := fun h => h0 (by rw [h])
    by_cases h1 : t.val % 5 = 4
    · rw [show (dat0 V c).leavesExact 2 t = owns (c : Thread nD τ) (stg0_2 t) fullShare ((dat0 V c).after 2 t) from by
        unfold Dat.leavesExact; rw [live0_2 t ((hlast0 t).mpr h1)], after0_2]
      rw [outsAt0_C V c t h0 h1]
      unfold outC0 accC0 out0_C sacc0_C; (try dsimp only)
      rw [PhiS0_castSucc V c t, PhiS0_pos V c _ _ hz]
      iintro ⟨⟨⟨HS, Hrest⟩, Hg⟩, Ho, ⟨%d0, H0⟩, ⟨%d1, H1⟩, ⟨%d2, H2⟩⟩
      iapply ((run0_C c (grid0.coords t) _ (hstg0_0 t) _ (hstg0_1 t) _ (hstg0_2 t) _ (Memref.isWhole_whole _) (fun h => h0 ((hfirst0 t).mp h)) ((hlast0 t).mpr h1) (iblk0 V c 0 t) (iblk0 V c 1 t) _).2.2 Set.univ _)
      iframe H0 H1 HS
      isplitl [H2]; · iexists _; iexact H2
      iintro ⟨H0, H1, ⟨%e2, H2⟩, ⟨%es, HS⟩⟩
      iframe Hrest Hg Ho H0 H1
      isplitl [HS]
      · unfold owns; iexists _; isplitr
        swap; · iexact HS
        ipureintro; exact View.read_writes_eq_canon _ _ _ (scover0_C c _ _ _ _ _ _ _ _ _ _ _ _ _ _)
      unfold owns; iexists _; isplitr
      swap; · iexact H2
      ipureintro; exact View.read_writes_eq_canon _ _ _ (cover0_C c _ _ _ _ _ _ _ _ _ _ _ _ _ _)
    · rw [Dat.leavesExact_idle (dat0 V c) 2 t (idle0_2 t (fun h => h1 ((hlast0 t).mp h))) (noFlush0_2 t (fun h => h1 ((hlast0 t).mp h)))]
      rw [outsAt0_B V c t h0 h1]
      unfold accB0 sacc0_B; (try dsimp only)
      rw [PhiS0_castSucc V c t, PhiS0_pos V c _ _ hz]
      iintro ⟨⟨⟨HS, Hrest⟩, Hg⟩, Ho, ⟨%d0, H0⟩, ⟨%d1, H1⟩, ⟨%d2, H2⟩⟩
      iapply ((run0_B c (grid0.coords t) _ (hstg0_0 t) _ (hstg0_1 t) _ (hstg0_2 t) _ (Memref.isWhole_whole _) (fun h => h0 ((hfirst0 t).mp h)) (fun h => h1 ((hlast0 t).mp h)) (iblk0 V c 0 t) (iblk0 V c 1 t) _).2 _ Set.univ _)
      iframe H0 H1 H2 HS
      iintro ⟨H0, H1, H2, ⟨%es, HS⟩⟩
      iframe Hrest Hg Ho H0 H1
      isplitl [HS]
      · unfold owns; iexists _; isplitr
        swap; · iexact HS
        ipureintro; exact View.read_writes_eq_canon _ _ _ (scover0_B c _ _ _ _ _ _ _ _ _ _ _ _ _ _)
      iexists _; iexact H2

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ Pipeline.ΦA spec0 c :=
  PhiS0_weak V c _ _

theorem hout0 (c : Dev nD) : (dat0 V c).Φ (Fin.last cfg0.N) ⊢ Pipeline.ΦA spec0 c :=
  Phi_out0 V c _ (by rw [Fin.val_last]; have : cfg0.N = 15625 := N_0; omega)

end Region

end Cert.Kernel.Hand

end
-- ==== Proof.K.Cond1.lean ====
import proofs.«415291_j87935160418912_3_alg».proof.Proof.Gen.Kernel.Launch
import proofs.«415291_j87935160418912_3_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic

variable {F : FTy → Type} [FloatOps F]

abbrev first1 (i : grid1.Coords) : Prop := (Scalar.cmpi .ne (Scalar.extui (Scalar.cmpi .eq (BitVec.ofNat 32 (i 1).val) 0#32)) 0#32) = 1#1

abbrev last1 (i : grid1.Coords) : Prop := k1_cond2 i = 1#1

abbrev acc1 : Memref sig .tc .vmem S5000x128 .f32 := Memref.whole cc1_scratch0

abbrev accV1 : View sig .tc .vmem S5000x128 .f32 := acc1.view

abbrev outV1 : View sig .tc .vmem S5000x128 .f32 := (Memref.whole cc1_stg8_0 : Memref sig .tc .vmem S5000x128 .f32).view

end Cert.Kernel.Hand

end
-- ==== Proof.K.Flush1.lean ====
import proofs.«415291_j87935160418912_3_alg».proof.Proof.K.Cond1

noncomputable section

namespace Cert.Kernel.Hand

open Cert.Kernel Cert.Kernel.Gen
open Idealize.ShloMosaic Idealize.ShloMosaic.TcCoe Idealize.ShloMosaic.Tactic

variable {F : FTy → Type} [FloatOps F]

theorem blk1_out (t : Fin cfg1.N) : win1_8.index t = ![t.val / 3125 % 10, 0] := by
  have h0 : ((grid1.coords t) 0).val = t.val / 3125 % 10 := by
    show t.val / grid1.stride 0 % 10 = _
    rw [show grid1.stride 0 = 3125 from by decide]
  show cc1_transform_8 (grid1.coords t) = _
  unfold cc1_transform_8
  dsimp only
  rw [h0, BitVec.toNat_ofNat, Nat.mod_eq_of_lt (by omega : t.val / 3125 % 10 < 2 ^ 32)]
  rfl

theorem flushOut1 : ∀ t : Fin cfg1.N, (cfg1.win 8).flush t = true ↔ t.val % 3125 = 3124 := fun t => by
  have hN : grid1.N = 31250 := N_1
  have hlt : t.val < grid1.N := t.isLt
  show win1_8.flush t = true ↔ _
  unfold Pipeline.Window.flush
  rw [show win1_8.isOut = true from rfl, Bool.true_and, Bool.or_eq_true, decide_eq_true_eq, decide_eq_true_eq]
  constructor
  · rintro (h | ⟨h, hne⟩)
    · omega
    · rw [blk1_out, blk1_out] at hne
      by_contra hc
      apply hne
      have e : (t.val + 1) / 3125 % 10 = t.val / 3125 % 10 := by omega
      show ![(t.val + 1) / 3125 % 10, 0] = ![t.val / 3125 % 10, 0]
      rw [e]
  · intro h
    by_cases hl : t.val + 1 = grid1.N
    · exact Or.inl hl
    · refine Or.inr ⟨by omega, fun he => ?_⟩
      rw [blk1_out, blk1_out] at he
      have h0 := congrFun he 0
      simp only [Matrix.cons_val_zero] at h0
      omega

end Cert.Kernel.Hand

end
-- ==== Proof.K.Sched1.lean ====
import proofs.«415291_j87935160418912_3_alg».proof.Proof.K.Flush1

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev stg1_0 (t : Fin cfg1.N) : Memref sig .tc .vmem S256x128 .bf16 := win1_0.stage (cfg1.slots t 0)
abbrev hstg1_0 (t : Fin cfg1.N) : (stg1_0 t).IsWhole := hstage1_0 ((cfg1.slots t 0).cast nbuf1_0)
abbrev stg1_1 (t : Fin cfg1.N) : Memref sig .tc .vmem S256 .i32 := win1_1.stage (cfg1.slots t 1)
abbrev hstg1_1 (t : Fin cfg1.N) : (stg1_1 t).IsWhole := hstage1_1 ((cfg1.slots t 1).cast nbuf1_1)
abbrev stg1_2 (t : Fin cfg1.N) : Memref sig .tc .vmem S5000x128 .f32 := win1_2.stage (cfg1.slots t 2)
abbrev hstg1_2 (t : Fin cfg1.N) : (stg1_2 t).IsWhole := hstage1_2 ((cfg1.slots t 2).cast nbuf1_2)
abbrev stg1_3 (t : Fin cfg1.N) : Memref sig .tc .vmem S128x128 .f32 := win1_3.stage (cfg1.slots t 3)
abbrev hstg1_3 (t : Fin cfg1.N) : (stg1_3 t).IsWhole := hstage1_3 ((cfg1.slots t 3).cast nbuf1_3)
abbrev stg1_4 (t : Fin cfg1.N) : Memref sig .tc .vmem S128 .f32 := win1_4.stage (cfg1.slots t 4)
abbrev hstg1_4 (t : Fin cfg1.N) : (stg1_4 t).IsWhole := hstage1_4 ((cfg1.slots t 4).cast nbuf1_4)
abbrev stg1_5 (t : Fin cfg1.N) : Memref sig .tc .vmem S128x128 .f32 := win1_5.stage (cfg1.slots t 5)
abbrev hstg1_5 (t : Fin cfg1.N) : (stg1_5 t).IsWhole := hstage1_5 ((cfg1.slots t 5).cast nbuf1_5)
abbrev stg1_6 (t : Fin cfg1.N) : Memref sig .tc .vmem S128 .f32 := win1_6.stage (cfg1.slots t 6)
abbrev hstg1_6 (t : Fin cfg1.N) : (stg1_6 t).IsWhole := hstage1_6 ((cfg1.slots t 6).cast nbuf1_6)
abbrev stg1_7 (t : Fin cfg1.N) : Memref sig .tc .vmem S1x128 .f32 := win1_7.stage (cfg1.slots t 7)
abbrev hstg1_7 (t : Fin cfg1.N) : (stg1_7 t).IsWhole := hstage1_7 ((cfg1.slots t 7).cast nbuf1_7)
abbrev stg1_8 (t : Fin cfg1.N) : Memref sig .tc .vmem S5000x128 .f32 := win1_8.stage (cfg1.slots t 8)
abbrev hstg1_8 (t : Fin cfg1.N) : (stg1_8 t).IsWhole := hstage1_8 ((cfg1.slots t 8).cast nbuf1_8)

abbrev body1 (t : Fin cfg1.N) : Prog (TpuEff nD τ sig (Elt F) Λ₀ .tc) PUnit :=
  cc1__scatter_combine_kernel (grid1.coords t) (stg1_0 t) (hstg1_0 t) (stg1_1 t) (hstg1_1 t) (stg1_2 t) (hstg1_2 t) (stg1_3 t) (hstg1_3 t) (stg1_4 t) (hstg1_4 t) (stg1_5 t) (hstg1_5 t) (stg1_6 t) (hstg1_6 t) (stg1_7 t) (hstg1_7 t) (stg1_8 t) (hstg1_8 t) (Memref.whole cc1_scratch0) (Memref.isWhole_whole _)

theorem coord1_1 (t : Fin cfg1.N) : ((grid1.coords t) 1).val = t.val % 3125 := by
  show t.val / grid1.stride 1 % 3125 = t.val % 3125
  rw [show grid1.stride 1 = 1 from by decide, Nat.div_one]

theorem kcond1_eq (i : grid1.Coords) :
    k1_cond2 i = Scalar.cmpi .ne (Scalar.extui (Scalar.cmpi .eq (BitVec.ofNat 32 (i 1).val) 3124#32)) 0#32 := rfl

theorem hfirst1 : ∀ t : Fin cfg1.N, first1 (grid1.coords t) ↔ t.val % 3125 = 0 := fun t => by
  have key : ∀ n : Fin 3125, ((Scalar.cmpi .ne (Scalar.extui (Scalar.cmpi .eq (BitVec.ofNat 32 n.val) 0#32)) 0#32) = 1#1) ↔ n.val = 0 := by
    decide +kernel
  rw [← coord1_1 t]
  exact key ((grid1.coords t) 1)

theorem hlast1 : ∀ t : Fin cfg1.N, last1 (grid1.coords t) ↔ t.val % 3125 = 3124 := fun t => by
  have key : ∀ n : Fin 3125, ((Scalar.cmpi .ne (Scalar.extui (Scalar.cmpi .eq (BitVec.ofNat 32 n.val) 3124#32)) 0#32) = 1#1) ↔ n.val = 3124 := by
    decide +kernel
  rw [← coord1_1 t]
  show k1_cond2 (grid1.coords t) = 1#1 ↔ _
  rw [kcond1_eq]
  exact key ((grid1.coords t) 1)

theorem live1_0 (t : Fin cfg1.N) : cfg1.idle 0 (grid1.coords t) = false := rfl
theorem live1_1 (t : Fin cfg1.N) : cfg1.idle 1 (grid1.coords t) = false := rfl
theorem live1_2 (t : Fin cfg1.N) : cfg1.idle 2 (grid1.coords t) = false := rfl
theorem live1_3 (t : Fin cfg1.N) : cfg1.idle 3 (grid1.coords t) = false := rfl
theorem live1_4 (t : Fin cfg1.N) : cfg1.idle 4 (grid1.coords t) = false := rfl
theorem live1_5 (t : Fin cfg1.N) : cfg1.idle 5 (grid1.coords t) = false := rfl
theorem live1_6 (t : Fin cfg1.N) : cfg1.idle 6 (grid1.coords t) = false := rfl
theorem live1_7 (t : Fin cfg1.N) : cfg1.idle 7 (grid1.coords t) = false := rfl

theorem idle1_8 (t : Fin cfg1.N) (h : ¬last1 (grid1.coords t)) : cfg1.idle 8 (grid1.coords t) = true := by
  show (!(k1_cond2 (grid1.coords t) == 1#1)) = true
  simp only [Bool.not_eq_true', beq_eq_false_iff_ne, ne_eq]; exact h

theorem live1_8 (t : Fin cfg1.N) (h : last1 (grid1.coords t)) : cfg1.idle 8 (grid1.coords t) = false := by
  show (!(k1_cond2 (grid1.coords t) == 1#1)) = false
  simp only [Bool.not_eq_false', beq_iff_eq]; exact h

theorem noFlush1_8 (t : Fin cfg1.N) (h : ¬last1 (grid1.coords t)) : (cfg1.win 8).flush t = false := by
  cases hf : (cfg1.win 8).flush t with
  | false => rfl
  | true => exact absurd ((hlast1 t).mpr ((flushOut1 t).mp hf)) h

theorem PhiA1_eq (c : Dev nD) :
    (Pipeline.ΦA spec1 c : sProp 𝕄)
      = iprop(iprop((∃ d, owns (c : Thread nD τ) acc1 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [acc1, owns_whole]; try rfl

end Cert.Kernel.Hand

end
-- ==== Proof.K.Run1A.lean ====
import proofs.«415291_j87935160418912_3_alg».proof.Proof.K.Cond1

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 8000000 in

noncomputable def run1_A (c : Dev nD) (i : grid1.Coords) (arg2 : Memref sig .tc .vmem S256x128 .bf16) (harg2 : arg2.IsWhole) (arg3 : Memref sig .tc .vmem S256 .i32) (harg3 : arg3.IsWhole) (arg4 : Memref sig .tc .vmem S5000x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S1x128 .f32) (harg9 : arg9.IsWhole) (arg10 : Memref sig .tc .vmem S5000x128 .f32) (harg10 : arg10.IsWhole) (arg11 : Memref sig .tc .vmem S5000x128 .f32) (harg11 : arg11.IsWhole) (hc0 : first1 i) (hc1 : ¬last1 i)
    (x0 : Vec F S256x128 .bf16) (x1 : Vec F S256 .i32) (x2 : Vec F S5000x128 .f32) (x3 : Vec F S128x128 .f32) (x4 : Vec F S128 .f32) (x5 : Vec F S128x128 .f32) (x6 : Vec F S128 .f32) (x7 : Vec F S1x128 .f32) :
    { LS : List (View.Piece (Elt F) S5000x128 .f32) //
      ∀ (xi : Vec F S5000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi ∗ (∃ f, arg11.view.loc (c : Thread nD τ) ↦[arg11.view.set]{fullShare} arg11.view.writes (Elt F) f LS)) -∗ K ⟨⟩))
          ⊢ wp frame (wpE (defs₀ (F := F)) Variants.none c none) E (cc1__scatter_combine_kernel i arg2 harg2 arg3 harg3 arg4 harg4 arg5 harg5 arg6 harg6 arg7 harg7 arg8 harg8 arg9 harg9 arg10 harg10 arg11 harg11) K } := by
  refine ⟨?_, fun xi E K => ?run⟩
  case run =>
    simp only [cc1__scatter_combine_kernel_eq_skeleton]; unfold cc1__scatter_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fO, %hfO, HO⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfO
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HO]
    · iexists _; isplitr; · ipureintro; exact harg10.read_unread _
      iexact HO
    iexists _; iexact HS

end Cert.Kernel.Hand

end
-- ==== Proof.K.Run1B.lean ====
import proofs.«415291_j87935160418912_3_alg».proof.Proof.K.Cond1

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 8000000 in

noncomputable def run1_B (c : Dev nD) (i : grid1.Coords) (arg2 : Memref sig .tc .vmem S256x128 .bf16) (harg2 : arg2.IsWhole) (arg3 : Memref sig .tc .vmem S256 .i32) (harg3 : arg3.IsWhole) (arg4 : Memref sig .tc .vmem S5000x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S1x128 .f32) (harg9 : arg9.IsWhole) (arg10 : Memref sig .tc .vmem S5000x128 .f32) (harg10 : arg10.IsWhole) (arg11 : Memref sig .tc .vmem S5000x128 .f32) (harg11 : arg11.IsWhole) (hc0 : ¬first1 i) (hc1 : ¬last1 i)
    (x0 : Vec F S256x128 .bf16) (x1 : Vec F S256 .i32) (x2 : Vec F S5000x128 .f32) (x3 : Vec F S128x128 .f32) (x4 : Vec F S128 .f32) (x5 : Vec F S128x128 .f32) (x6 : Vec F S128 .f32) (x7 : Vec F S1x128 .f32) (xs : Vec F S5000x128 .f32) :
    { LS : List (View.Piece (Elt F) S5000x128 .f32) //
      ∀ (xi : Vec F S5000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi ∗ (∃ f, arg11.view.loc (c : Thread nD τ) ↦[arg11.view.set]{fullShare} arg11.view.writes (Elt F) f LS)) -∗ K ⟨⟩))
          ⊢ wp frame (wpE (defs₀ (F := F)) Variants.none c none) E (cc1__scatter_combine_kernel i arg2 harg2 arg3 harg3 arg4 harg4 arg5 harg5 arg6 harg6 arg7 harg7 arg8 harg8 arg9 harg9 arg10 harg10 arg11 harg11) K } := by
  refine ⟨?_, fun xi E K => ?run⟩
  case run =>
    simp only [cc1__scatter_combine_kernel_eq_skeleton]; unfold cc1__scatter_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fO, %hfO, HO⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfO; obtain rfl := harg11.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HO]
    · iexists _; isplitr; · ipureintro; exact harg10.read_unread _
      iexact HO
    iexists _; iexact HS

end Cert.Kernel.Hand

end
-- ==== Proof.K.Run1C.lean ====
import proofs.«415291_j87935160418912_3_alg».proof.Proof.K.Cond1

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 8000000 in

noncomputable def run1_C (c : Dev nD) (i : grid1.Coords) (arg2 : Memref sig .tc .vmem S256x128 .bf16) (harg2 : arg2.IsWhole) (arg3 : Memref sig .tc .vmem S256 .i32) (harg3 : arg3.IsWhole) (arg4 : Memref sig .tc .vmem S5000x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S1x128 .f32) (harg9 : arg9.IsWhole) (arg10 : Memref sig .tc .vmem S5000x128 .f32) (harg10 : arg10.IsWhole) (arg11 : Memref sig .tc .vmem S5000x128 .f32) (harg11 : arg11.IsWhole) (hc0 : ¬first1 i) (hc1 : last1 i)
    (x0 : Vec F S256x128 .bf16) (x1 : Vec F S256 .i32) (x2 : Vec F S5000x128 .f32) (x3 : Vec F S128x128 .f32) (x4 : Vec F S128 .f32) (x5 : Vec F S128x128 .f32) (x6 : Vec F S128 .f32) (x7 : Vec F S1x128 .f32) (xs : Vec F S5000x128 .f32) :
    Σ' (LO : List (View.Piece (Elt F) S5000x128 .f32)), { LS : List (View.Piece (Elt F) S5000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f LO) ∗ (∃ f, arg11.view.loc (c : Thread nD τ) ↦[arg11.view.set]{fullShare} arg11.view.writes (Elt F) f LS)) -∗ K ⟨⟩))
          ⊢ wp frame (wpE (defs₀ (F := F)) Variants.none c none) E (cc1__scatter_combine_kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc1__scatter_combine_kernel_eq_skeleton]; unfold cc1__scatter_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%dO, %fO, -, HO⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HO]; · iexists _; iexact HO
    iexists _; iexact HS

end Cert.Kernel.Hand

end
-- ==== Proof.K.Case1.lean ====
import proofs.«415291_j87935160418912_3_alg».proof.Proof.K.Run1A
import proofs.«415291_j87935160418912_3_alg».proof.Proof.K.Run1B
import proofs.«415291_j87935160418912_3_alg».proof.Proof.K.Run1C

noncomputable section

namespace Cert.Kernel.Hand

open Idealize.ShloMosaic Idealize.ShloMosaic.TcCoe Idealize.ShloMosaic.Tactic

variable {F : FTy → Type} [FloatOps F]

section Cases
variable (c : Dev nD) (i : grid1.Coords) (arg2 : Memref sig .tc .vmem S256x128 .bf16) (harg2 : arg2.IsWhole) (arg3 : Memref sig .tc .vmem S256 .i32) (harg3 : arg3.IsWhole) (arg4 : Memref sig .tc .vmem S5000x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S1x128 .f32) (harg9 : arg9.IsWhole) (arg10 : Memref sig .tc .vmem S5000x128 .f32) (harg10 : arg10.IsWhole) (arg11 : Memref sig .tc .vmem S5000x128 .f32) (harg11 : arg11.IsWhole)

theorem scover1_A (hc0 : first1 i) (hc1 : ¬last1 i) (x0 : Vec F S256x128 .bf16) (x1 : Vec F S256 .i32) (x2 : Vec F S5000x128 .f32) (x3 : Vec F S128x128 .f32) (x4 : Vec F S128 .f32) (x5 : Vec F S128x128 .f32) (x6 : Vec F S128 .f32) (x7 : Vec F S1x128 .f32) (y : S5000x128.Idx) :
    ∃ pc ∈ (run1_A c i arg2 harg2 arg3 harg3 arg4 harg4 arg5 harg5 arg6 harg6 arg7 harg7 arg8 harg8 arg9 harg9 arg10 harg10 arg11 harg11 hc0 hc1 x0 x1 x2 x3 x4 x5 x6 x7).1, y ∈ pc.1.set :=
  View.cover_of_tiledL (run1_A c i arg2 harg2 arg3 harg3 arg4 harg4 arg5 harg5 arg6 harg6 arg7 harg7 arg8 harg8 arg9 harg9 arg10 harg10 arg11 harg11 hc0 hc1 x0 x1 x2 x3 x4 x5 x6 x7).1 S5000x128.size (by sl_kernel_rfl) y

-- What the first edge chunk leaves in the accumulator: the pieces the body wrote, read as one array.
def sacc1_A (hc0 : first1 i) (hc1 : ¬last1 i) (x0 : Vec F S256x128 .bf16) (x1 : Vec F S256 .i32) (x2 : Vec F S5000x128 .f32) (x3 : Vec F S128x128 .f32) (x4 : Vec F S128 .f32) (x5 : Vec F S128x128 .f32) (x6 : Vec F S128 .f32) (x7 : Vec F S1x128 .f32) : Vec F S5000x128 .f32 :=
  View.canon (run1_A c i arg2 harg2 arg3 harg3 arg4 harg4 arg5 harg5 arg6 harg6 arg7 harg7 arg8 harg8 arg9 harg9 arg10 harg10 arg11 harg11 hc0 hc1 x0 x1 x2 x3 x4 x5 x6 x7).1

theorem scover1_B (hc0 : ¬first1 i) (hc1 : ¬last1 i) (x0 : Vec F S256x128 .bf16) (x1 : Vec F S256 .i32) (x2 : Vec F S5000x128 .f32) (x3 : Vec F S128x128 .f32) (x4 : Vec F S128 .f32) (x5 : Vec F S128x128 .f32) (x6 : Vec F S128 .f32) (x7 : Vec F S1x128 .f32) (xs : Vec F S5000x128 .f32) (y : S5000x128.Idx) :
    ∃ pc ∈ (run1_B c i arg2 harg2 arg3 harg3 arg4 harg4 arg5 harg5 arg6 harg6 arg7 harg7 arg8 harg8 arg9 harg9 arg10 harg10 arg11 harg11 hc0 hc1 x0 x1 x2 x3 x4 x5 x6 x7 xs).1, y ∈ pc.1.set :=
  View.cover_of_tiledL (run1_B c i arg2 harg2 arg3 harg3 arg4 harg4 arg5 harg5 arg6 harg6 arg7 harg7 arg8 harg8 arg9 harg9 arg10 harg10 arg11 harg11 hc0 hc1 x0 x1 x2 x3 x4 x5 x6 x7 xs).1 S5000x128.size (by sl_kernel_rfl) y

def sacc1_B (hc0 : ¬first1 i) (hc1 : ¬last1 i) (x0 : Vec F S256x128 .bf16) (x1 : Vec F S256 .i32) (x2 : Vec F S5000x128 .f32) (x3 : Vec F S128x128 .f32) (x4 : Vec F S128 .f32) (x5 : Vec F S128x128 .f32) (x6 : Vec F S128 .f32) (x7 : Vec F S1x128 .f32) (xs : Vec F S5000x128 .f32) : Vec F S5000x128 .f32 :=
  View.canon (run1_B c i arg2 harg2 arg3 harg3 arg4 harg4 arg5 harg5 arg6 harg6 arg7 harg7 arg8 harg8 arg9 harg9 arg10 harg10 arg11 harg11 hc0 hc1 x0 x1 x2 x3 x4 x5 x6 x7 xs).1

theorem cover1_C (hc0 : ¬first1 i) (hc1 : last1 i) (x0 : Vec F S256x128 .bf16) (x1 : Vec F S256 .i32) (x2 : Vec F S5000x128 .f32) (x3 : Vec F S128x128 .f32) (x4 : Vec F S128 .f32) (x5 : Vec F S128x128 .f32) (x6 : Vec F S128 .f32) (x7 : Vec F S1x128 .f32) (xs : Vec F S5000x128 .f32) (y : S5000x128.Idx) :
    ∃ pc ∈ (run1_C c i arg2 harg2 arg3 harg3 arg4 harg4 arg5 harg5 arg6 harg6 arg7 harg7 arg8 harg8 arg9 harg9 arg10 harg10 arg11 harg11 hc0 hc1 x0 x1 x2 x3 x4 x5 x6 x7 xs).1, y ∈ pc.1.set :=
  View.cover_of_tiledL (run1_C c i arg2 harg2 arg3 harg3 arg4 harg4 arg5 harg5 arg6 harg6 arg7 harg7 arg8 harg8 arg9 harg9 arg10 harg10 arg11 harg11 hc0 hc1 x0 x1 x2 x3 x4 x5 x6 x7 xs).1 S5000x128.size (by sl_kernel_rfl) y

theorem scover1_C (hc0 : ¬first1 i) (hc1 : last1 i) (x0 : Vec F S256x128 .bf16) (x1 : Vec F S256 .i32) (x2 : Vec F S5000x128 .f32) (x3 : Vec F S128x128 .f32) (x4 : Vec F S128 .f32) (x5 : Vec F S128x128 .f32) (x6 : Vec F S128 .f32) (x7 : Vec F S1x128 .f32) (xs : Vec F S5000x128 .f32) (y : S5000x128.Idx) :
    ∃ pc ∈ (run1_C c i arg2 harg2 arg3 harg3 arg4 harg4 arg5 harg5 arg6 harg6 arg7 harg7 arg8 harg8 arg9 harg9 arg10 harg10 arg11 harg11 hc0 hc1 x0 x1 x2 x3 x4 x5 x6 x7 xs).2.1, y ∈ pc.1.set :=
  View.cover_of_tiledL (run1_C c i arg2 harg2 arg3 harg3 arg4 harg4 arg5 harg5 arg6 harg6 arg7 harg7 arg8 harg8 arg9 harg9 arg10 harg10 arg11 harg11 hc0 hc1 x0 x1 x2 x3 x4 x5 x6 x7 xs).2.1 S5000x128.size (by sl_kernel_rfl) y

def out1_C (hc0 : ¬first1 i) (hc1 : last1 i) (x0 : Vec F S256x128 .bf16) (x1 : Vec F S256 .i32) (x2 : Vec F S5000x128 .f32) (x3 : Vec F S128x128 .f32) (x4 : Vec F S128 .f32) (x5 : Vec F S128x128 .f32) (x6 : Vec F S128 .f32) (x7 : Vec F S1x128 .f32) (xs : Vec F S5000x128 .f32) : Vec F S5000x128 .f32 :=
  View.canon (run1_C c i arg2 harg2 arg3 harg3 arg4 harg4 arg5 harg5 arg6 harg6 arg7 harg7 arg8 harg8 arg9 harg9 arg10 harg10 arg11 harg11 hc0 hc1 x0 x1 x2 x3 x4 x5 x6 x7 xs).1

def sacc1_C (hc0 : ¬first1 i) (hc1 : last1 i) (x0 : Vec F S256x128 .bf16) (x1 : Vec F S256 .i32) (x2 : Vec F S5000x128 .f32) (x3 : Vec F S128x128 .f32) (x4 : Vec F S128 .f32) (x5 : Vec F S128x128 .f32) (x6 : Vec F S128 .f32) (x7 : Vec F S1x128 .f32) (xs : Vec F S5000x128 .f32) : Vec F S5000x128 .f32 :=
  View.canon (run1_C c i arg2 harg2 arg3 harg3 arg4 harg4 arg5 harg5 arg6 harg6 arg7 harg7 arg8 harg8 arg9 harg9 arg10 harg10 arg11 harg11 hc0 hc1 x0 x1 x2 x3 x4 x5 x6 x7 xs).2.1

end Cases

end Cert.Kernel.Hand

end
-- ==== Proof.K.Dat1.lean ====
import proofs.«415291_j87935160418912_3_alg».proof.Proof.K.Sched1
import proofs.«415291_j87935160418912_3_alg».proof.Proof.K.Case1

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

end Region

def idleOut1 : Vec F S5000x128 .f32 := outV1.read (Elt F) outV1.junk

section Region
variable (V : (c : Dev nD) → (b : Ref sig .tc) → Buf (Elt F) ((c : Thread nD τ).loc b))

def accA1 (c : Dev nD) (t : Fin cfg1.N) (h0 : t.val % 3125 = 0) (h1 : ¬t.val % 3125 = 3124) : Vec F S5000x128 .f32 :=
  sacc1_A c (grid1.coords t) (stg1_0 t) (hstg1_0 t) (stg1_1 t) (hstg1_1 t) (stg1_2 t) (hstg1_2 t) (stg1_3 t) (hstg1_3 t) (stg1_4 t) (hstg1_4 t) (stg1_5 t) (hstg1_5 t) (stg1_6 t) (hstg1_6 t) (stg1_7 t) (hstg1_7 t) (stg1_8 t) (hstg1_8 t) acc1 (Memref.isWhole_whole _) ((hfirst1 t).mpr h0) (fun h => h1 ((hlast1 t).mp h)) (iblk1 V c 0 t) (iblk1 V c 1 t) (iblk1 V c 2 t) (iblk1 V c 3 t) (iblk1 V c 4 t) (iblk1 V c 5 t) (iblk1 V c 6 t) (iblk1 V c 7 t)
def accB1 (c : Dev nD) (t : Fin cfg1.N) (h0 : ¬t.val % 3125 = 0) (h1 : ¬t.val % 3125 = 3124) (xs : Vec F S5000x128 .f32) : Vec F S5000x128 .f32 :=
  sacc1_B c (grid1.coords t) (stg1_0 t) (hstg1_0 t) (stg1_1 t) (hstg1_1 t) (stg1_2 t) (hstg1_2 t) (stg1_3 t) (hstg1_3 t) (stg1_4 t) (hstg1_4 t) (stg1_5 t) (hstg1_5 t) (stg1_6 t) (hstg1_6 t) (stg1_7 t) (hstg1_7 t) (stg1_8 t) (hstg1_8 t) acc1 (Memref.isWhole_whole _) (fun h => h0 ((hfirst1 t).mp h)) (fun h => h1 ((hlast1 t).mp h)) (iblk1 V c 0 t) (iblk1 V c 1 t) (iblk1 V c 2 t) (iblk1 V c 3 t) (iblk1 V c 4 t) (iblk1 V c 5 t) (iblk1 V c 6 t) (iblk1 V c 7 t) xs
def accC1 (c : Dev nD) (t : Fin cfg1.N) (h0 : ¬t.val % 3125 = 0) (h1 : t.val % 3125 = 3124) (xs : Vec F S5000x128 .f32) : Vec F S5000x128 .f32 :=
  sacc1_C c (grid1.coords t) (stg1_0 t) (hstg1_0 t) (stg1_1 t) (hstg1_1 t) (stg1_2 t) (hstg1_2 t) (stg1_3 t) (hstg1_3 t) (stg1_4 t) (hstg1_4 t) (stg1_5 t) (hstg1_5 t) (stg1_6 t) (hstg1_6 t) (stg1_7 t) (hstg1_7 t) (stg1_8 t) (hstg1_8 t) acc1 (Memref.isWhole_whole _) (fun h => h0 ((hfirst1 t).mp h)) ((hlast1 t).mpr h1) (iblk1 V c 0 t) (iblk1 V c 1 t) (iblk1 V c 2 t) (iblk1 V c 3 t) (iblk1 V c 4 t) (iblk1 V c 5 t) (iblk1 V c 6 t) (iblk1 V c 7 t) xs
def outC1 (c : Dev nD) (t : Fin cfg1.N) (h0 : ¬t.val % 3125 = 0) (h1 : t.val % 3125 = 3124) (xs : Vec F S5000x128 .f32) : Vec F S5000x128 .f32 :=
  out1_C c (grid1.coords t) (stg1_0 t) (hstg1_0 t) (stg1_1 t) (hstg1_1 t) (stg1_2 t) (hstg1_2 t) (stg1_3 t) (hstg1_3 t) (stg1_4 t) (hstg1_4 t) (stg1_5 t) (hstg1_5 t) (stg1_6 t) (hstg1_6 t) (stg1_7 t) (hstg1_7 t) (stg1_8 t) (hstg1_8 t) acc1 (Memref.isWhole_whole _) (fun h => h0 ((hfirst1 t).mp h)) ((hlast1 t).mpr h1) (iblk1 V c 0 t) (iblk1 V c 1 t) (iblk1 V c 2 t) (iblk1 V c 3 t) (iblk1 V c 4 t) (iblk1 V c 5 t) (iblk1 V c 6 t) (iblk1 V c 7 t) xs

-- The output block and the accumulator after point n: the point's case applied to its input blocks and to what point n - 1 left.
def outsAt1 (c : Dev nD) : (n : ℕ) → n < cfg1.N → Vec F S5000x128 .f32 × Vec F S5000x128 .f32
  | 0, hn => (idleOut1, accA1 V c ⟨0, hn⟩ (Nat.zero_mod _) (show ¬(0 % 3125 = 3124) by decide))
  | n + 1, hn =>
    if h0 : (n + 1) % 3125 = 0 then
      if h1 : (n + 1) % 3125 = 3124 then False.elim (by omega)
      else (idleOut1, accA1 V c ⟨n + 1, hn⟩ h0 h1)
    else
      if h1 : (n + 1) % 3125 = 3124 then
        (outC1 V c ⟨n + 1, hn⟩ h0 h1 (outsAt1 c n (Nat.lt_of_succ_lt hn)).2, accC1 V c ⟨n + 1, hn⟩ h0 h1 (outsAt1 c n (Nat.lt_of_succ_lt hn)).2)
      else (idleOut1, accB1 V c ⟨n + 1, hn⟩ h0 h1 (outsAt1 c n (Nat.lt_of_succ_lt hn)).2)

theorem outsAt1_A (c : Dev nD) (t : Fin cfg1.N) (h0 : t.val % 3125 = 0) (h1 : ¬t.val % 3125 = 3124) :
    outsAt1 V c t.val t.isLt = (idleOut1, accA1 V c t h0 h1) := by
  obtain ⟨n, hn⟩ := t
  cases n with
  | zero => exact rfl
  | succ n => exact (dif_pos h0).trans ((dif_neg h1).trans rfl)

theorem outsAt1_B (c : Dev nD) (t : Fin cfg1.N) (h0 : ¬t.val % 3125 = 0) (h1 : ¬t.val % 3125 = 3124) :
    outsAt1 V c t.val t.isLt = (idleOut1, accB1 V c t h0 h1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 3125 = 0) (h1 : t.val % 3125 = 3124) :
    outsAt1 V c t.val t.isLt = (outC1 V c t h0 h1 (outsAt1 V c (t.val - 1) (Nat.lt_of_le_of_lt (Nat.sub_le _ _) t.isLt)).2,
      accC1 V c t h0 h1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS1 (c : Dev nD) : (n : ℕ) → n ≤ cfg1.N → sProp 𝕄
  | 0, _ => Pipeline.ΦA spec1 c
  | n + 1, hn => iprop(iprop(owns (c : Thread nD τ) acc1 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) acc1 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) acc1 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

-- The invariant after any point implies the one before the first: what the accumulator holds is forgotten.
theorem PhiS1_weak (c : Dev nD) (n : ℕ) (h : n ≤ cfg1.N) : PhiS1 V c n h ⊢ Pipeline.ΦA spec1 c := by
  cases n with
  | zero => rw [PhiS1_zero V c 0 h rfl]; try exact Entails.refl _
  | succ n =>
    rw [PhiS1_succ, PhiA1_eq]
    iintro ⟨⟨HS, Hrest⟩, Hg⟩
    isplitl [HS Hrest]
    · isplitl [HS]
      · iexists _; iexact HS
      iexact Hrest
    iexact Hg

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

def bodyPre1 (c : Dev nD) (t : Fin cfg1.N) : sProp 𝕄 :=
  iprop((dat1 V c).Φ t.castSucc ∗ (dat1 V c).owesAt () t.castSucc
    ∗ (∃ d, owns (c : Thread nD τ) (stg1_0 t) fullShare ((dat1 V c).before 0 t d))
    ∗ (∃ d, owns (c : Thread nD τ) (stg1_1 t) fullShare ((dat1 V c).before 1 t d))
    ∗ (∃ d, owns (c : Thread nD τ) (stg1_2 t) fullShare ((dat1 V c).before 2 t d))
    ∗ (∃ d, owns (c : Thread nD τ) (stg1_3 t) fullShare ((dat1 V c).before 3 t d))
    ∗ (∃ d, owns (c : Thread nD τ) (stg1_4 t) fullShare ((dat1 V c).before 4 t d))
    ∗ (∃ d, owns (c : Thread nD τ) (stg1_5 t) fullShare ((dat1 V c).before 5 t d))
    ∗ (∃ d, owns (c : Thread nD τ) (stg1_6 t) fullShare ((dat1 V c).before 6 t d))
    ∗ (∃ d, owns (c : Thread nD τ) (stg1_7 t) fullShare ((dat1 V c).before 7 t d))
    ∗ (∃ d, owns (c : Thread nD τ) (stg1_8 t) fullShare ((dat1 V c).before 8 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

-- The body keeps the invariant at every point: the accumulator is reset at a run's first point, added to at each, combined and written out at the last.
set_option maxHeartbeats 9600000 in

theorem sound_body1 (c : Dev nD) (t : Fin cfg1.N) :
    bodyPre1 V c t ⊢ wp frame (wpE (defs₀ (F := F)) Variants.none c none) Set.univ (body1 t) (fun _ => bodyPost1 V c t) := by
  unfold bodyPre1 bodyPost1 body1
  simp only [before1_0, before1_1, before1_2, before1_3, before1_4, before1_5, before1_6, before1_7]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (stg1_0 t) fullShare ((dat1 V c).after 0 t) from by
    unfold Dat.leavesExact; rw [live1_0 t], after1_0]
  rw [show (dat1 V c).leavesExact 1 t = owns (c : Thread nD τ) (stg1_1 t) fullShare ((dat1 V c).after 1 t) from by
    unfold Dat.leavesExact; rw [live1_1 t], after1_1]
  rw [show (dat1 V c).leavesExact 2 t = owns (c : Thread nD τ) (stg1_2 t) fullShare ((dat1 V c).after 2 t) from by
    unfold Dat.leavesExact; rw [live1_2 t], after1_2]
  rw [show (dat1 V c).leavesExact 3 t = owns (c : Thread nD τ) (stg1_3 t) fullShare ((dat1 V c).after 3 t) from by
    unfold Dat.leavesExact; rw [live1_3 t], after1_3]
  rw [show (dat1 V c).leavesExact 4 t = owns (c : Thread nD τ) (stg1_4 t) fullShare ((dat1 V c).after 4 t) from by
    unfold Dat.leavesExact; rw [live1_4 t], after1_4]
  rw [show (dat1 V c).leavesExact 5 t = owns (c : Thread nD τ) (stg1_5 t) fullShare ((dat1 V c).after 5 t) from by
    unfold Dat.leavesExact; rw [live1_5 t], after1_5]
  rw [show (dat1 V c).leavesExact 6 t = owns (c : Thread nD τ) (stg1_6 t) fullShare ((dat1 V c).after 6 t) from by
    unfold Dat.leavesExact; rw [live1_6 t], after1_6]
  rw [show (dat1 V c).leavesExact 7 t = owns (c : Thread nD τ) (stg1_7 t) fullShare ((dat1 V c).after 7 t) from by
    unfold Dat.leavesExact; rw [live1_7 t], after1_7]
  by_cases h0 : t.val % 3125 = 0
  · have h1 : ¬t.val % 3125 = 3124 := by omega
    rw [Dat.leavesExact_idle (dat1 V c) 8 t (idle1_8 t (fun h => h1 ((hlast1 t).mp h))) (noFlush1_8 t (fun h => h1 ((hlast1 t).mp h)))]
    rw [outsAt1_A V c t h0 h1]
    unfold accA1 sacc1_A; (try dsimp only)
    rw [PhiS1_castSucc V c t]
    refine BIBase.Entails.trans (sep_mono_left (PhiS1_weak V c _ _)) ?_
    rw [PhiA1_eq]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((run1_A c (grid1.coords t) _ (hstg1_0 t) _ (hstg1_1 t) _ (hstg1_2 t) _ (hstg1_3 t) _ (hstg1_4 t) _ (hstg1_5 t) _ (hstg1_6 t) _ (hstg1_7 t) _ (hstg1_8 t) _ (Memref.isWhole_whole _) ((hfirst1 t).mpr h0) (fun h => h1 ((hlast1 t).mp h)) (iblk1 V c 0 t) (iblk1 V c 1 t) (iblk1 V c 2 t) (iblk1 V c 3 t) (iblk1 V c 4 t) (iblk1 V c 5 t) (iblk1 V c 6 t) (iblk1 V c 7 t)).2 _ Set.univ _)
    iframe H0 H1 H2 H3 H4 H5 H6 H7 H8 HS
    iintro ⟨H0, H1, H2, H3, H4, H5, H6, H7, H8, ⟨%es, HS⟩⟩
    iframe Hrest Hg Ho H0 H1 H2 H3 H4 H5 H6 H7
    isplitl [HS]
    · unfold owns; iexists _; isplitr
      swap; · iexact HS
      ipureintro; exact View.read_writes_eq_canon _ _ _ (scover1_A c _ _ _ _ _ _ _ _ _ _ _ _ _ _ _ _ _ _ _ _ _ _ _ _ _ _ _ _ _ _ _)
    iexists _; iexact H8
  · have hz : t.val ≠ 0 := fun h => h0 (by rw [h])
    by_cases h1 : t.val % 3125 = 3124
    · rw [show (dat1 V c).leavesExact 8 t = owns (c : Thread nD τ) (stg1_8 t) fullShare ((dat1 V c).after 8 t) from by
        unfold Dat.leavesExact; rw [live1_8 t ((hlast1 t).mpr h1)], after1_8]
      rw [outsAt1_C V c t h0 h1]
      unfold outC1 accC1 out1_C sacc1_C; (try dsimp only)
      rw [PhiS1_castSucc V c t, PhiS1_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((run1_C c (grid1.coords t) _ (hstg1_0 t) _ (hstg1_1 t) _ (hstg1_2 t) _ (hstg1_3 t) _ (hstg1_4 t) _ (hstg1_5 t) _ (hstg1_6 t) _ (hstg1_7 t) _ (hstg1_8 t) _ (Memref.isWhole_whole _) (fun h => h0 ((hfirst1 t).mp h)) ((hlast1 t).mpr h1) (iblk1 V c 0 t) (iblk1 V c 1 t) (iblk1 V c 2 t) (iblk1 V c 3 t) (iblk1 V c 4 t) (iblk1 V c 5 t) (iblk1 V c 6 t) (iblk1 V c 7 t) _).2.2 Set.univ _)
      iframe H0 H1 H2 H3 H4 H5 H6 H7 HS
      isplitl [H8]; · iexists _; iexact H8
      iintro ⟨H0, H1, H2, H3, H4, H5, H6, H7, ⟨%e8, H8⟩, ⟨%es, HS⟩⟩
      iframe Hrest Hg Ho H0 H1 H2 H3 H4 H5 H6 H7
      isplitl [HS]
      · unfold owns; iexists _; isplitr
        swap; · iexact HS
        ipureintro; exact View.read_writes_eq_canon _ _ _ (scover1_C c _ _ _ _ _ _ _ _ _ _ _ _ _ _ _ _ _ _ _ _ _ _ _ _ _ _ _ _ _ _ _ _)
      unfold owns; iexists _; isplitr
      swap; · iexact H8
      ipureintro; exact View.read_writes_eq_canon _ _ _ (cover1_C c _ _ _ _ _ _ _ _ _ _ _ _ _ _ _ _ _ _ _ _ _ _ _ _ _ _ _ _ _ _ _ _)
    · rw [Dat.leavesExact_idle (dat1 V c) 8 t (idle1_8 t (fun h => h1 ((hlast1 t).mp h))) (noFlush1_8 t (fun h => h1 ((hlast1 t).mp h)))]
      rw [outsAt1_B V c t h0 h1]
      unfold accB1 sacc1_B; (try dsimp only)
      rw [PhiS1_castSucc V c t, PhiS1_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((run1_B c (grid1.coords t) _ (hstg1_0 t) _ (hstg1_1 t) _ (hstg1_2 t) _ (hstg1_3 t) _ (hstg1_4 t) _ (hstg1_5 t) _ (hstg1_6 t) _ (hstg1_7 t) _ (hstg1_8 t) _ (Memref.isWhole_whole _) (fun h => h0 ((hfirst1 t).mp h)) (fun h => h1 ((hlast1 t).mp h)) (iblk1 V c 0 t) (iblk1 V c 1 t) (iblk1 V c 2 t) (iblk1 V c 3 t) (iblk1 V c 4 t) (iblk1 V c 5 t) (iblk1 V c 6 t) (iblk1 V c 7 t) _).2 _ Set.univ _)
      iframe H0 H1 H2 H3 H4 H5 H6 H7 H8 HS
      iintro ⟨H0, H1, H2, H3, H4, H5, H6, H7, H8, ⟨%es, HS⟩⟩
      iframe Hrest Hg Ho H0 H1 H2 H3 H4 H5 H6 H7
      isplitl [HS]
      · unfold owns; iexists _; isplitr
        swap; · iexact HS
        ipureintro; exact View.read_writes_eq_canon _ _ _ (scover1_B c _ _ _ _ _ _ _ _ _ _ _ _ _ _ _ _ _ _ _ _ _ _ _ _ _ _ _ _ _ _ _ _)
      iexists _; iexact H8

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c :=
  PhiS1_weak V c _ _

theorem hout1 (c : Dev nD) : (dat1 V c).Φ (Fin.last cfg1.N) ⊢ Pipeline.ΦA spec1 c :=
  Phi_out1 V c _ (by rw [Fin.val_last]; have : cfg1.N = 31250 := N_1; omega)

end Region

end Cert.Kernel.Hand

end
-- ==== Proof.K.Cond2.lean ====
import proofs.«415291_j87935160418912_3_alg».proof.Proof.Gen.Kernel.Launch
import proofs.«415291_j87935160418912_3_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic

variable {F : FTy → Type} [FloatOps F]

abbrev first2 (i : grid2.Coords) : Prop := (Scalar.cmpi .ne (Scalar.extui (Scalar.cmpi .eq (BitVec.ofNat 32 (i 1).val) 0#32)) 0#32) = 1#1

abbrev last2 (i : grid2.Coords) : Prop := k2_cond2 i = 1#1

abbrev acc2 : Memref sig .tc .vmem S256x128 .f32 := Memref.whole cc2_scratch0

abbrev accV2 : View sig .tc .vmem S256x128 .f32 := acc2.view

abbrev outV2 : View sig .tc .vmem S256x128 .bf16 := (Memref.whole cc2_stg2_0 : Memref sig .tc .vmem S256x128 .bf16).view

end Cert.Kernel.Hand

end
-- ==== Proof.K.Flush2.lean ====
import proofs.«415291_j87935160418912_3_alg».proof.Proof.K.Cond2

noncomputable section

namespace Cert.Kernel.Hand

open Cert.Kernel Cert.Kernel.Gen
open Idealize.ShloMosaic Idealize.ShloMosaic.TcCoe Idealize.ShloMosaic.Tactic

variable {F : FTy → Type} [FloatOps F]

theorem blk2_out (t : Fin cfg2.N) : win2_2.index t = ![t.val / 5 % 3125, 0] := by
  have h0 : ((grid2.coords t) 0).val = t.val / 5 % 3125 := by
    show t.val / grid2.stride 0 % 3125 = _
    rw [show grid2.stride 0 = 5 from by decide]
  show cc2_transform_2 (grid2.coords t) = _
  unfold cc2_transform_2
  dsimp only
  rw [h0, BitVec.toNat_ofNat, Nat.mod_eq_of_lt (by omega : t.val / 5 % 3125 < 2 ^ 32)]
  rfl

theorem flushOut2 : ∀ t : Fin cfg2.N, (cfg2.win 2).flush t = true ↔ t.val % 5 = 4 := fun t => by
  have hN : grid2.N = 15625 := N_2
  have hlt : t.val < grid2.N := t.isLt
  show win2_2.flush t = true ↔ _
  unfold Pipeline.Window.flush
  rw [show win2_2.isOut = true from rfl, Bool.true_and, Bool.or_eq_true, decide_eq_true_eq, decide_eq_true_eq]
  constructor
  · rintro (h | ⟨h, hne⟩)
    · omega
    · rw [blk2_out, blk2_out] at hne
      by_contra hc
      apply hne
      have e : (t.val + 1) / 5 % 3125 = t.val / 5 % 3125 := by omega
      show ![(t.val + 1) / 5 % 3125, 0] = ![t.val / 5 % 3125, 0]
      rw [e]
  · intro h
    by_cases hl : t.val + 1 = grid2.N
    · exact Or.inl hl
    · refine Or.inr ⟨by omega, fun he => ?_⟩
      rw [blk2_out, blk2_out] at he
      have h0 := congrFun he 0
      simp only [Matrix.cons_val_zero] at h0
      omega

end Cert.Kernel.Hand

end
-- ==== Proof.K.Sched2.lean ====
import proofs.«415291_j87935160418912_3_alg».proof.Proof.K.Flush2

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev stg2_0 (t : Fin cfg2.N) : Memref sig .tc .vmem S256 .i32 := win2_0.stage (cfg2.slots t 0)
abbrev hstg2_0 (t : Fin cfg2.N) : (stg2_0 t).IsWhole := hstage2_0 ((cfg2.slots t 0).cast nbuf2_0)
abbrev stg2_1 (t : Fin cfg2.N) : Memref sig .tc .vmem S10000x128 .bf16 := win2_1.stage (cfg2.slots t 1)
abbrev hstg2_1 (t : Fin cfg2.N) : (stg2_1 t).IsWhole := hstage2_1 ((cfg2.slots t 1).cast nbuf2_1)
abbrev stg2_2 (t : Fin cfg2.N) : Memref sig .tc .vmem S256x128 .bf16 := win2_2.stage (cfg2.slots t 2)
abbrev hstg2_2 (t : Fin cfg2.N) : (stg2_2 t).IsWhole := hstage2_2 ((cfg2.slots t 2).cast nbuf2_2)

abbrev body2 (t : Fin cfg2.N) : Prog (TpuEff nD τ sig (Elt F) Λ₀ .tc) PUnit :=
  cc2__gather_kernel (grid2.coords t) (stg2_0 t) (hstg2_0 t) (stg2_1 t) (hstg2_1 t) (stg2_2 t) (hstg2_2 t) (Memref.whole cc2_scratch0) (Memref.isWhole_whole _)

theorem coord2_1 (t : Fin cfg2.N) : ((grid2.coords t) 1).val = t.val % 5 := by
  show t.val / grid2.stride 1 % 5 = t.val % 5
  rw [show grid2.stride 1 = 1 from by decide, Nat.div_one]

theorem kcond2_eq (i : grid2.Coords) :
    k2_cond2 i = Scalar.cmpi .ne (Scalar.extui (Scalar.cmpi .eq (BitVec.ofNat 32 (i 1).val) 4#32)) 0#32 := rfl

theorem hfirst2 : ∀ t : Fin cfg2.N, first2 (grid2.coords t) ↔ t.val % 5 = 0 := fun t => by
  have key : ∀ n : Fin 5, ((Scalar.cmpi .ne (Scalar.extui (Scalar.cmpi .eq (BitVec.ofNat 32 n.val) 0#32)) 0#32) = 1#1) ↔ n.val = 0 := by
    decide +kernel
  rw [← coord2_1 t]
  exact key ((grid2.coords t) 1)

theorem hlast2 : ∀ t : Fin cfg2.N, last2 (grid2.coords t) ↔ t.val % 5 = 4 := fun t => by
  have key : ∀ n : Fin 5, ((Scalar.cmpi .ne (Scalar.extui (Scalar.cmpi .eq (BitVec.ofNat 32 n.val) 4#32)) 0#32) = 1#1) ↔ n.val = 4 := by
    decide +kernel
  rw [← coord2_1 t]
  show k2_cond2 (grid2.coords t) = 1#1 ↔ _
  rw [kcond2_eq]
  exact key ((grid2.coords t) 1)

theorem live2_0 (t : Fin cfg2.N) : cfg2.idle 0 (grid2.coords t) = false := rfl
theorem live2_1 (t : Fin cfg2.N) : cfg2.idle 1 (grid2.coords t) = false := rfl

theorem idle2_2 (t : Fin cfg2.N) (h : ¬last2 (grid2.coords t)) : cfg2.idle 2 (grid2.coords t) = true := by
  show (!(k2_cond2 (grid2.coords t) == 1#1)) = true
  simp only [Bool.not_eq_true', beq_eq_false_iff_ne, ne_eq]; exact h

theorem live2_2 (t : Fin cfg2.N) (h : last2 (grid2.coords t)) : cfg2.idle 2 (grid2.coords t) = false := by
  show (!(k2_cond2 (grid2.coords t) == 1#1)) = false
  simp only [Bool.not_eq_false', beq_iff_eq]; exact h

theorem noFlush2_2 (t : Fin cfg2.N) (h : ¬last2 (grid2.coords t)) : (cfg2.win 2).flush t = false := by
  cases hf : (cfg2.win 2).flush t with
  | false => rfl
  | true => exact absurd ((hlast2 t).mpr ((flushOut2 t).mp hf)) h

theorem PhiA2_eq (c : Dev nD) :
    (Pipeline.ΦA spec2 c : sProp 𝕄)
      = iprop(iprop((∃ d, owns (c : Thread nD τ) acc2 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [acc2, owns_whole]; try rfl

end Cert.Kernel.Hand

end
-- ==== Proof.K.Dat2.lean ====
import proofs.«415291_j87935160418912_3_alg».proof.Proof.K.Sched2
import proofs.«415291_j87935160418912_3_alg».proof.Proof.K.Case0

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

end Region

def idleOut2 : Vec F S256x128 .bf16 := outV2.read (Elt F) outV2.junk

section Region
variable (V : (c : Dev nD) → (b : Ref sig .tc) → Buf (Elt F) ((c : Thread nD τ).loc b))

def accA2 (c : Dev nD) (t : Fin cfg2.N) (h0 : t.val % 5 = 0) (h1 : ¬t.val % 5 = 4) : Vec F S256x128 .f32 :=
  sacc0_A c (grid2.coords t) (stg2_0 t) (hstg2_0 t) (stg2_1 t) (hstg2_1 t) (stg2_2 t) (hstg2_2 t) acc2 (Memref.isWhole_whole _) ((hfirst2 t).mpr h0) (fun h => h1 ((hlast2 t).mp h)) (iblk2 V c 0 t) (iblk2 V c 1 t)
def accB2 (c : Dev nD) (t : Fin cfg2.N) (h0 : ¬t.val % 5 = 0) (h1 : ¬t.val % 5 = 4) (xs : Vec F S256x128 .f32) : Vec F S256x128 .f32 :=
  sacc0_B c (grid2.coords t) (stg2_0 t) (hstg2_0 t) (stg2_1 t) (hstg2_1 t) (stg2_2 t) (hstg2_2 t) acc2 (Memref.isWhole_whole _) (fun h => h0 ((hfirst2 t).mp h)) (fun h => h1 ((hlast2 t).mp h)) (iblk2 V c 0 t) (iblk2 V c 1 t) xs
def accC2 (c : Dev nD) (t : Fin cfg2.N) (h0 : ¬t.val % 5 = 0) (h1 : t.val % 5 = 4) (xs : Vec F S256x128 .f32) : Vec F S256x128 .f32 :=
  sacc0_C c (grid2.coords t) (stg2_0 t) (hstg2_0 t) (stg2_1 t) (hstg2_1 t) (stg2_2 t) (hstg2_2 t) acc2 (Memref.isWhole_whole _) (fun h => h0 ((hfirst2 t).mp h)) ((hlast2 t).mpr h1) (iblk2 V c 0 t) (iblk2 V c 1 t) xs
def outC2 (c : Dev nD) (t : Fin cfg2.N) (h0 : ¬t.val % 5 = 0) (h1 : t.val % 5 = 4) (xs : Vec F S256x128 .f32) : Vec F S256x128 .bf16 :=
  out0_C c (grid2.coords t) (stg2_0 t) (hstg2_0 t) (stg2_1 t) (hstg2_1 t) (stg2_2 t) (hstg2_2 t) acc2 (Memref.isWhole_whole _) (fun h => h0 ((hfirst2 t).mp h)) ((hlast2 t).mpr h1) (iblk2 V c 0 t) (iblk2 V c 1 t) xs

-- The output block and the accumulator after point n: the point's case applied to its two input blocks and to what point n - 1 left.
def outsAt2 (c : Dev nD) : (n : ℕ) → n < cfg2.N → Vec F S256x128 .bf16 × Vec F S256x128 .f32
  | 0, hn => (idleOut2, accA2 V c ⟨0, hn⟩ (Nat.zero_mod _) (show ¬(0 % 5 = 4) by decide))
  | n + 1, hn =>
    if h0 : (n + 1) % 5 = 0 then
      if h1 : (n + 1) % 5 = 4 then False.elim (by omega)
      else (idleOut2, accA2 V c ⟨n + 1, hn⟩ h0 h1)
    else
      if h1 : (n + 1) % 5 = 4 then
        (outC2 V c ⟨n + 1, hn⟩ h0 h1 (outsAt2 c n (Nat.lt_of_succ_lt hn)).2, accC2 V c ⟨n + 1, hn⟩ h0 h1 (outsAt2 c n (Nat.lt_of_succ_lt hn)).2)
      else (idleOut2, accB2 V c ⟨n + 1, hn⟩ h0 h1 (outsAt2 c n (Nat.lt_of_succ_lt hn)).2)

theorem outsAt2_A (c : Dev nD) (t : Fin cfg2.N) (h0 : t.val % 5 = 0) (h1 : ¬t.val % 5 = 4) :
    outsAt2 V c t.val t.isLt = (idleOut2, accA2 V c t h0 h1) := by
  obtain ⟨n, hn⟩ := t
  cases n with
  | zero => exact rfl
  | succ n => exact (dif_pos h0).trans ((dif_neg h1).trans rfl)

theorem outsAt2_B (c : Dev nD) (t : Fin cfg2.N) (h0 : ¬t.val % 5 = 0) (h1 : ¬t.val % 5 = 4) :
    outsAt2 V c t.val t.isLt = (idleOut2, accB2 V c t h0 h1 (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 5 = 0) (h1 : t.val % 5 = 4) :
    outsAt2 V c t.val t.isLt = (outC2 V c t h0 h1 (outsAt2 V c (t.val - 1) (Nat.lt_of_le_of_lt (Nat.sub_le _ _) t.isLt)).2,
      accC2 V c t h0 h1 (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS2 (c : Dev nD) : (n : ℕ) → n ≤ cfg2.N → sProp 𝕄
  | 0, _ => Pipeline.ΦA spec2 c
  | n + 1, hn => iprop(iprop(owns (c : Thread nD τ) acc2 fullShare ((outsAt2 V c n hn).2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) acc2 fullShare ((outsAt2 V c n hn).2) ∗ Pipeline.scopedRestBut (Ix := Unit) (Name := ℕ) (U := UR sig nD τ) (Lvl := ℕ) (Val := Elt F) spec2 c [cc2_scratch0]) ∗ (∃ r, prngReg c r)) := rfl
theorem PhiS2_pos (c : Dev nD) (n : ℕ) (h : n ≤ cfg2.N) (hz : n ≠ 0) :
    PhiS2 V c n h = iprop(iprop(owns (c : Thread nD τ) acc2 fullShare ((outsAt2 V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

-- The invariant after any point implies the one before the first: what the accumulator holds is forgotten.
theorem PhiS2_weak (c : Dev nD) (n : ℕ) (h : n ≤ cfg2.N) : PhiS2 V c n h ⊢ Pipeline.ΦA spec2 c := by
  cases n with
  | zero => rw [PhiS2_zero V c 0 h rfl]; try exact Entails.refl _
  | succ n =>
    rw [PhiS2_succ, PhiA2_eq]
    iintro ⟨⟨HS, Hrest⟩, Hg⟩
    isplitl [HS Hrest]
    · isplitl [HS]
      · iexists _; iexact HS
      iexact Hrest
    iexact Hg

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (stg2_0 t) fullShare ((dat2 V c).before 0 t d))
    ∗ (∃ d, owns (c : Thread nD τ) (stg2_1 t) fullShare ((dat2 V c).before 1 t d))
    ∗ (∃ d, owns (c : Thread nD τ) (stg2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

-- The body keeps the invariant at every point: the accumulator is reset at a run's first point, added to at each, written out at the last.
set_option maxHeartbeats 4800000 in

theorem sound_body2 (c : Dev nD) (t : Fin cfg2.N) :
    bodyPre2 V c t ⊢ wp frame (wpE (defs₀ (F := F)) Variants.none c none) Set.univ (body2 t) (fun _ => bodyPost2 V c t) := by
  unfold bodyPre2 bodyPost2 body2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (stg2_0 t) fullShare ((dat2 V c).after 0 t) from by
    unfold Dat.leavesExact; rw [live2_0 t], after2_0]
  rw [show (dat2 V c).leavesExact 1 t = owns (c : Thread nD τ) (stg2_1 t) fullShare ((dat2 V c).after 1 t) from by
    unfold Dat.leavesExact; rw [live2_1 t], after2_1]
  by_cases h0 : t.val % 5 = 0
  · have h1 : ¬t.val % 5 = 4 := by omega
    rw [Dat.leavesExact_idle (dat2 V c) 2 t (idle2_2 t (fun h => h1 ((hlast2 t).mp h))) (noFlush2_2 t (fun h => h1 ((hlast2 t).mp h)))]
    rw [outsAt2_A V c t h0 h1]
    unfold accA2 sacc0_A; (try dsimp only)
    rw [PhiS2_castSucc V c t]
    refine BIBase.Entails.trans (sep_mono_left (PhiS2_weak V c _ _)) ?_
    rw [PhiA2_eq]
    iintro ⟨⟨⟨HS, Hrest⟩, Hg⟩, Ho, ⟨%d0, H0⟩, ⟨%d1, H1⟩, ⟨%d2, H2⟩⟩
    iapply ((run0_A c (grid2.coords t) _ (hstg2_0 t) _ (hstg2_1 t) _ (hstg2_2 t) _ (Memref.isWhole_whole _) ((hfirst2 t).mpr h0) (fun h => h1 ((hlast2 t).mp h)) (iblk2 V c 0 t) (iblk2 V c 1 t)).2 _ Set.univ _)
    iframe H0 H1 H2 HS
    iintro ⟨H0, H1, H2, ⟨%es, HS⟩⟩
    iframe Hrest Hg Ho H0 H1
    isplitl [HS]
    · unfold owns; iexists _; isplitr
      swap; · iexact HS
      ipureintro; exact View.read_writes_eq_canon _ _ _ (scover0_A c _ _ _ _ _ _ _ _ _ _ _ _ _)
    iexists _; iexact H2
  · have hz : t.val ≠ 0 := fun h => h0 (by rw [h])
    by_cases h1 : t.val % 5 = 4
    · rw [show (dat2 V c).leavesExact 2 t = owns (c : Thread nD τ) (stg2_2 t) fullShare ((dat2 V c).after 2 t) from by
        unfold Dat.leavesExact; rw [live2_2 t ((hlast2 t).mpr h1)], after2_2]
      rw [outsAt2_C V c t h0 h1]
      unfold outC2 accC2 out0_C sacc0_C; (try dsimp only)
      rw [PhiS2_castSucc V c t, PhiS2_pos V c _ _ hz]
      iintro ⟨⟨⟨HS, Hrest⟩, Hg⟩, Ho, ⟨%d0, H0⟩, ⟨%d1, H1⟩, ⟨%d2, H2⟩⟩
      iapply ((run0_C c (grid2.coords t) _ (hstg2_0 t) _ (hstg2_1 t) _ (hstg2_2 t) _ (Memref.isWhole_whole _) (fun h => h0 ((hfirst2 t).mp h)) ((hlast2 t).mpr h1) (iblk2 V c 0 t) (iblk2 V c 1 t) _).2.2 Set.univ _)
      iframe H0 H1 HS
      isplitl [H2]; · iexists _; iexact H2
      iintro ⟨H0, H1, ⟨%e2, H2⟩, ⟨%es, HS⟩⟩
      iframe Hrest Hg Ho H0 H1
      isplitl [HS]
      · unfold owns; iexists _; isplitr
        swap; · iexact HS
        ipureintro; exact View.read_writes_eq_canon _ _ _ (scover0_C c _ _ _ _ _ _ _ _ _ _ _ _ _ _)
      unfold owns; iexists _; isplitr
      swap; · iexact H2
      ipureintro; exact View.read_writes_eq_canon _ _ _ (cover0_C c _ _ _ _ _ _ _ _ _ _ _ _ _ _)
    · rw [Dat.leavesExact_idle (dat2 V c) 2 t (idle2_2 t (fun h => h1 ((hlast2 t).mp h))) (noFlush2_2 t (fun h => h1 ((hlast2 t).mp h)))]
      rw [outsAt2_B V c t h0 h1]
      unfold accB2 sacc0_B; (try dsimp only)
      rw [PhiS2_castSucc V c t, PhiS2_pos V c _ _ hz]
      iintro ⟨⟨⟨HS, Hrest⟩, Hg⟩, Ho, ⟨%d0, H0⟩, ⟨%d1, H1⟩, ⟨%d2, H2⟩⟩
      iapply ((run0_B c (grid2.coords t) _ (hstg2_0 t) _ (hstg2_1 t) _ (hstg2_2 t) _ (Memref.isWhole_whole _) (fun h => h0 ((hfirst2 t).mp h)) (fun h => h1 ((hlast2 t).mp h)) (iblk2 V c 0 t) (iblk2 V c 1 t) _).2 _ Set.univ _)
      iframe H0 H1 H2 HS
      iintro ⟨H0, H1, H2, ⟨%es, HS⟩⟩
      iframe Hrest Hg Ho H0 H1
      isplitl [HS]
      · unfold owns; iexists _; isplitr
        swap; · iexact HS
        ipureintro; exact View.read_writes_eq_canon _ _ _ (scover0_B c _ _ _ _ _ _ _ _ _ _ _ _ _ _)
      iexists _; iexact H2

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 V c).Φ t ⊢ Pipeline.ΦA spec2 c :=
  PhiS2_weak V c _ _

theorem hout2 (c : Dev nD) : (dat2 V c).Φ (Fin.last cfg2.N) ⊢ Pipeline.ΦA spec2 c :=
  Phi_out2 V c _ (by rw [Fin.val_last]; have : cfg2.N = 15625 := N_2; omega)

end Region

end Cert.Kernel.Hand

end
-- ==== Proof.K.Cond3.lean ====
import proofs.«415291_j87935160418912_3_alg».proof.Proof.Gen.Kernel.Launch
import proofs.«415291_j87935160418912_3_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic

variable {F : FTy → Type} [FloatOps F]

abbrev first3 (i : grid3.Coords) : Prop := (Scalar.cmpi .ne (Scalar.extui (Scalar.cmpi .eq (BitVec.ofNat 32 (i 1).val) 0#32)) 0#32) = 1#1

abbrev last3 (i : grid3.Coords) : Prop := k3_cond2 i = 1#1

abbrev acc3 : Memref sig .tc .vmem S5000x128 .f32 := Memref.whole cc3_scratch0

abbrev accV3 : View sig .tc .vmem S5000x128 .f32 := acc3.view

abbrev outV3 : View sig .tc .vmem S5000x128 .f32 := (Memref.whole cc3_stg8_0 : Memref sig .tc .vmem S5000x128 .f32).view

end Cert.Kernel.Hand

end
-- ==== Proof.K.Flush3.lean ====
import proofs.«415291_j87935160418912_3_alg».proof.Proof.K.Cond3

noncomputable section

namespace Cert.Kernel.Hand

open Cert.Kernel Cert.Kernel.Gen
open Idealize.ShloMosaic Idealize.ShloMosaic.TcCoe Idealize.ShloMosaic.Tactic

variable {F : FTy → Type} [FloatOps F]

theorem blk3_out (t : Fin cfg3.N) : win3_8.index t = ![t.val / 3125 % 10, 0] := by
  have h0 : ((grid3.coords t) 0).val = t.val / 3125 % 10 := by
    show t.val / grid3.stride 0 % 10 = _
    rw [show grid3.stride 0 = 3125 from by decide]
  show cc3_transform_8 (grid3.coords t) = _
  unfold cc3_transform_8
  dsimp only
  rw [h0, BitVec.toNat_ofNat, Nat.mod_eq_of_lt (by omega : t.val / 3125 % 10 < 2 ^ 32)]
  rfl

theorem flushOut3 : ∀ t : Fin cfg3.N, (cfg3.win 8).flush t = true ↔ t.val % 3125 = 3124 := fun t => by
  have hN : grid3.N = 31250 := N_3
  have hlt : t.val < grid3.N := t.isLt
  show win3_8.flush t = true ↔ _
  unfold Pipeline.Window.flush
  rw [show win3_8.isOut = true from rfl, Bool.true_and, Bool.or_eq_true, decide_eq_true_eq, decide_eq_true_eq]
  constructor
  · rintro (h | ⟨h, hne⟩)
    · omega
    · rw [blk3_out, blk3_out] at hne
      by_contra hc
      apply hne
      have e : (t.val + 1) / 3125 % 10 = t.val / 3125 % 10 := by omega
      show ![(t.val + 1) / 3125 % 10, 0] = ![t.val / 3125 % 10, 0]
      rw [e]
  · intro h
    by_cases hl : t.val + 1 = grid3.N
    · exact Or.inl hl
    · refine Or.inr ⟨by omega, fun he => ?_⟩
      rw [blk3_out, blk3_out] at he
      have h0 := congrFun he 0
      simp only [Matrix.cons_val_zero] at h0
      omega

end Cert.Kernel.Hand

end
-- ==== Proof.K.Sched3.lean ====
import proofs.«415291_j87935160418912_3_alg».proof.Proof.K.Flush3

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev stg3_0 (t : Fin cfg3.N) : Memref sig .tc .vmem S256x128 .bf16 := win3_0.stage (cfg3.slots t 0)
abbrev hstg3_0 (t : Fin cfg3.N) : (stg3_0 t).IsWhole := hstage3_0 ((cfg3.slots t 0).cast nbuf3_0)
abbrev stg3_1 (t : Fin cfg3.N) : Memref sig .tc .vmem S256 .i32 := win3_1.stage (cfg3.slots t 1)
abbrev hstg3_1 (t : Fin cfg3.N) : (stg3_1 t).IsWhole := hstage3_1 ((cfg3.slots t 1).cast nbuf3_1)
abbrev stg3_2 (t : Fin cfg3.N) : Memref sig .tc .vmem S5000x128 .f32 := win3_2.stage (cfg3.slots t 2)
abbrev hstg3_2 (t : Fin cfg3.N) : (stg3_2 t).IsWhole := hstage3_2 ((cfg3.slots t 2).cast nbuf3_2)
abbrev stg3_3 (t : Fin cfg3.N) : Memref sig .tc .vmem S128x128 .f32 := win3_3.stage (cfg3.slots t 3)
abbrev hstg3_3 (t : Fin cfg3.N) : (stg3_3 t).IsWhole := hstage3_3 ((cfg3.slots t 3).cast nbuf3_3)
abbrev stg3_4 (t : Fin cfg3.N) : Memref sig .tc .vmem S128 .f32 := win3_4.stage (cfg3.slots t 4)
abbrev hstg3_4 (t : Fin cfg3.N) : (stg3_4 t).IsWhole := hstage3_4 ((cfg3.slots t 4).cast nbuf3_4)
abbrev stg3_5 (t : Fin cfg3.N) : Memref sig .tc .vmem S128x128 .f32 := win3_5.stage (cfg3.slots t 5)
abbrev hstg3_5 (t : Fin cfg3.N) : (stg3_5 t).IsWhole := hstage3_5 ((cfg3.slots t 5).cast nbuf3_5)
abbrev stg3_6 (t : Fin cfg3.N) : Memref sig .tc .vmem S128 .f32 := win3_6.stage (cfg3.slots t 6)
abbrev hstg3_6 (t : Fin cfg3.N) : (stg3_6 t).IsWhole := hstage3_6 ((cfg3.slots t 6).cast nbuf3_6)
abbrev stg3_7 (t : Fin cfg3.N) : Memref sig .tc .vmem S1x128 .f32 := win3_7.stage (cfg3.slots t 7)
abbrev hstg3_7 (t : Fin cfg3.N) : (stg3_7 t).IsWhole := hstage3_7 ((cfg3.slots t 7).cast nbuf3_7)
abbrev stg3_8 (t : Fin cfg3.N) : Memref sig .tc .vmem S5000x128 .f32 := win3_8.stage (cfg3.slots t 8)
abbrev hstg3_8 (t : Fin cfg3.N) : (stg3_8 t).IsWhole := hstage3_8 ((cfg3.slots t 8).cast nbuf3_8)

abbrev body3 (t : Fin cfg3.N) : Prog (TpuEff nD τ sig (Elt F) Λ₀ .tc) PUnit :=
  cc3__scatter_combine_kernel (grid3.coords t) (stg3_0 t) (hstg3_0 t) (stg3_1 t) (hstg3_1 t) (stg3_2 t) (hstg3_2 t) (stg3_3 t) (hstg3_3 t) (stg3_4 t) (hstg3_4 t) (stg3_5 t) (hstg3_5 t) (stg3_6 t) (hstg3_6 t) (stg3_7 t) (hstg3_7 t) (stg3_8 t) (hstg3_8 t) (Memref.whole cc3_scratch0) (Memref.isWhole_whole _)

theorem coord3_1 (t : Fin cfg3.N) : ((grid3.coords t) 1).val = t.val % 3125 := by
  show t.val / grid3.stride 1 % 3125 = t.val % 3125
  rw [show grid3.stride 1 = 1 from by decide, Nat.div_one]

theorem kcond3_eq (i : grid3.Coords) :
    k3_cond2 i = Scalar.cmpi .ne (Scalar.extui (Scalar.cmpi .eq (BitVec.ofNat 32 (i 1).val) 3124#32)) 0#32 := rfl

theorem hfirst3 : ∀ t : Fin cfg3.N, first3 (grid3.coords t) ↔ t.val % 3125 = 0 := fun t => by
  have key : ∀ n : Fin 3125, ((Scalar.cmpi .ne (Scalar.extui (Scalar.cmpi .eq (BitVec.ofNat 32 n.val) 0#32)) 0#32) = 1#1) ↔ n.val = 0 := by
    decide +kernel
  rw [← coord3_1 t]
  exact key ((grid3.coords t) 1)

theorem hlast3 : ∀ t : Fin cfg3.N, last3 (grid3.coords t) ↔ t.val % 3125 = 3124 := fun t => by
  have key : ∀ n : Fin 3125, ((Scalar.cmpi .ne (Scalar.extui (Scalar.cmpi .eq (BitVec.ofNat 32 n.val) 3124#32)) 0#32) = 1#1) ↔ n.val = 3124 := by
    decide +kernel
  rw [← coord3_1 t]
  show k3_cond2 (grid3.coords t) = 1#1 ↔ _
  rw [kcond3_eq]
  exact key ((grid3.coords t) 1)

theorem live3_0 (t : Fin cfg3.N) : cfg3.idle 0 (grid3.coords t) = false := rfl
theorem live3_1 (t : Fin cfg3.N) : cfg3.idle 1 (grid3.coords t) = false := rfl
theorem live3_2 (t : Fin cfg3.N) : cfg3.idle 2 (grid3.coords t) = false := rfl
theorem live3_3 (t : Fin cfg3.N) : cfg3.idle 3 (grid3.coords t) = false := rfl
theorem live3_4 (t : Fin cfg3.N) : cfg3.idle 4 (grid3.coords t) = false := rfl
theorem live3_5 (t : Fin cfg3.N) : cfg3.idle 5 (grid3.coords t) = false := rfl
theorem live3_6 (t : Fin cfg3.N) : cfg3.idle 6 (grid3.coords t) = false := rfl
theorem live3_7 (t : Fin cfg3.N) : cfg3.idle 7 (grid3.coords t) = false := rfl

theorem idle3_8 (t : Fin cfg3.N) (h : ¬last3 (grid3.coords t)) : cfg3.idle 8 (grid3.coords t) = true := by
  show (!(k3_cond2 (grid3.coords t) == 1#1)) = true
  simp only [Bool.not_eq_true', beq_eq_false_iff_ne, ne_eq]; exact h

theorem live3_8 (t : Fin cfg3.N) (h : last3 (grid3.coords t)) : cfg3.idle 8 (grid3.coords t) = false := by
  show (!(k3_cond2 (grid3.coords t) == 1#1)) = false
  simp only [Bool.not_eq_false', beq_iff_eq]; exact h

theorem noFlush3_8 (t : Fin cfg3.N) (h : ¬last3 (grid3.coords t)) : (cfg3.win 8).flush t = false := by
  cases hf : (cfg3.win 8).flush t with
  | false => rfl
  | true => exact absurd ((hlast3 t).mpr ((flushOut3 t).mp hf)) h

theorem PhiA3_eq (c : Dev nD) :
    (Pipeline.ΦA spec3 c : sProp 𝕄)
      = iprop(iprop((∃ d, owns (c : Thread nD τ) acc3 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [acc3, owns_whole]; try rfl

end Cert.Kernel.Hand

end
-- ==== Proof.K.Run3A.lean ====
import proofs.«415291_j87935160418912_3_alg».proof.Proof.K.Cond3

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 8000000 in

noncomputable def run3_A (c : Dev nD) (i : grid3.Coords) (arg2 : Memref sig .tc .vmem S256x128 .bf16) (harg2 : arg2.IsWhole) (arg3 : Memref sig .tc .vmem S256 .i32) (harg3 : arg3.IsWhole) (arg4 : Memref sig .tc .vmem S5000x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S1x128 .f32) (harg9 : arg9.IsWhole) (arg10 : Memref sig .tc .vmem S5000x128 .f32) (harg10 : arg10.IsWhole) (arg11 : Memref sig .tc .vmem S5000x128 .f32) (harg11 : arg11.IsWhole) (hc0 : first3 i) (hc1 : ¬last3 i)
    (x0 : Vec F S256x128 .bf16) (x1 : Vec F S256 .i32) (x2 : Vec F S5000x128 .f32) (x3 : Vec F S128x128 .f32) (x4 : Vec F S128 .f32) (x5 : Vec F S128x128 .f32) (x6 : Vec F S128 .f32) (x7 : Vec F S1x128 .f32) :
    { LS : List (View.Piece (Elt F) S5000x128 .f32) //
      ∀ (xi : Vec F S5000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi ∗ (∃ f, arg11.view.loc (c : Thread nD τ) ↦[arg11.view.set]{fullShare} arg11.view.writes (Elt F) f LS)) -∗ K ⟨⟩))
          ⊢ wp frame (wpE (defs₀ (F := F)) Variants.none c none) E (cc3__scatter_combine_kernel i arg2 harg2 arg3 harg3 arg4 harg4 arg5 harg5 arg6 harg6 arg7 harg7 arg8 harg8 arg9 harg9 arg10 harg10 arg11 harg11) K } := by
  refine ⟨?_, fun xi E K => ?run⟩
  case run =>
    simp only [cc3__scatter_combine_kernel_eq_skeleton]; unfold cc3__scatter_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fO, %hfO, HO⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfO
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HO]
    · iexists _; isplitr; · ipureintro; exact harg10.read_unread _
      iexact HO
    iexists _; iexact HS

end Cert.Kernel.Hand

end
-- ==== Proof.K.Run3B.lean ====
import proofs.«415291_j87935160418912_3_alg».proof.Proof.K.Cond3

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 8000000 in

noncomputable def run3_B (c : Dev nD) (i : grid3.Coords) (arg2 : Memref sig .tc .vmem S256x128 .bf16) (harg2 : arg2.IsWhole) (arg3 : Memref sig .tc .vmem S256 .i32) (harg3 : arg3.IsWhole) (arg4 : Memref sig .tc .vmem S5000x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S1x128 .f32) (harg9 : arg9.IsWhole) (arg10 : Memref sig .tc .vmem S5000x128 .f32) (harg10 : arg10.IsWhole) (arg11 : Memref sig .tc .vmem S5000x128 .f32) (harg11 : arg11.IsWhole) (hc0 : ¬first3 i) (hc1 : ¬last3 i)
    (x0 : Vec F S256x128 .bf16) (x1 : Vec F S256 .i32) (x2 : Vec F S5000x128 .f32) (x3 : Vec F S128x128 .f32) (x4 : Vec F S128 .f32) (x5 : Vec F S128x128 .f32) (x6 : Vec F S128 .f32) (x7 : Vec F S1x128 .f32) (xs : Vec F S5000x128 .f32) :
    { LS : List (View.Piece (Elt F) S5000x128 .f32) //
      ∀ (xi : Vec F S5000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi ∗ (∃ f, arg11.view.loc (c : Thread nD τ) ↦[arg11.view.set]{fullShare} arg11.view.writes (Elt F) f LS)) -∗ K ⟨⟩))
          ⊢ wp frame (wpE (defs₀ (F := F)) Variants.none c none) E (cc3__scatter_combine_kernel i arg2 harg2 arg3 harg3 arg4 harg4 arg5 harg5 arg6 harg6 arg7 harg7 arg8 harg8 arg9 harg9 arg10 harg10 arg11 harg11) K } := by
  refine ⟨?_, fun xi E K => ?run⟩
  case run =>
    simp only [cc3__scatter_combine_kernel_eq_skeleton]; unfold cc3__scatter_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fO, %hfO, HO⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfO; obtain rfl := harg11.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HO]
    · iexists _; isplitr; · ipureintro; exact harg10.read_unread _
      iexact HO
    iexists _; iexact HS

end Cert.Kernel.Hand

end
-- ==== Proof.K.Run3C.lean ====
import proofs.«415291_j87935160418912_3_alg».proof.Proof.K.Cond3

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 8000000 in

noncomputable def run3_C (c : Dev nD) (i : grid3.Coords) (arg2 : Memref sig .tc .vmem S256x128 .bf16) (harg2 : arg2.IsWhole) (arg3 : Memref sig .tc .vmem S256 .i32) (harg3 : arg3.IsWhole) (arg4 : Memref sig .tc .vmem S5000x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S1x128 .f32) (harg9 : arg9.IsWhole) (arg10 : Memref sig .tc .vmem S5000x128 .f32) (harg10 : arg10.IsWhole) (arg11 : Memref sig .tc .vmem S5000x128 .f32) (harg11 : arg11.IsWhole) (hc0 : ¬first3 i) (hc1 : last3 i)
    (x0 : Vec F S256x128 .bf16) (x1 : Vec F S256 .i32) (x2 : Vec F S5000x128 .f32) (x3 : Vec F S128x128 .f32) (x4 : Vec F S128 .f32) (x5 : Vec F S128x128 .f32) (x6 : Vec F S128 .f32) (x7 : Vec F S1x128 .f32) (xs : Vec F S5000x128 .f32) :
    Σ' (LO : List (View.Piece (Elt F) S5000x128 .f32)), { LS : List (View.Piece (Elt F) S5000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f LO) ∗ (∃ f, arg11.view.loc (c : Thread nD τ) ↦[arg11.view.set]{fullShare} arg11.view.writes (Elt F) f LS)) -∗ K ⟨⟩))
          ⊢ wp frame (wpE (defs₀ (F := F)) Variants.none c none) E (cc3__scatter_combine_kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc3__scatter_combine_kernel_eq_skeleton]; unfold cc3__scatter_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%dO, %fO, -, HO⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HO]; · iexists _; iexact HO
    iexists _; iexact HS

end Cert.Kernel.Hand

end
-- ==== Proof.K.Case3.lean ====
import proofs.«415291_j87935160418912_3_alg».proof.Proof.K.Run3A
import proofs.«415291_j87935160418912_3_alg».proof.Proof.K.Run3B
import proofs.«415291_j87935160418912_3_alg».proof.Proof.K.Run3C

noncomputable section

namespace Cert.Kernel.Hand

open Idealize.ShloMosaic Idealize.ShloMosaic.TcCoe Idealize.ShloMosaic.Tactic

variable {F : FTy → Type} [FloatOps F]

section Cases
variable (c : Dev nD) (i : grid3.Coords) (arg2 : Memref sig .tc .vmem S256x128 .bf16) (harg2 : arg2.IsWhole) (arg3 : Memref sig .tc .vmem S256 .i32) (harg3 : arg3.IsWhole) (arg4 : Memref sig .tc .vmem S5000x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S1x128 .f32) (harg9 : arg9.IsWhole) (arg10 : Memref sig .tc .vmem S5000x128 .f32) (harg10 : arg10.IsWhole) (arg11 : Memref sig .tc .vmem S5000x128 .f32) (harg11 : arg11.IsWhole)

theorem scover3_A (hc0 : first3 i) (hc1 : ¬last3 i) (x0 : Vec F S256x128 .bf16) (x1 : Vec F S256 .i32) (x2 : Vec F S5000x128 .f32) (x3 : Vec F S128x128 .f32) (x4 : Vec F S128 .f32) (x5 : Vec F S128x128 .f32) (x6 : Vec F S128 .f32) (x7 : Vec F S1x128 .f32) (y : S5000x128.Idx) :
    ∃ pc ∈ (run3_A c i arg2 harg2 arg3 harg3 arg4 harg4 arg5 harg5 arg6 harg6 arg7 harg7 arg8 harg8 arg9 harg9 arg10 harg10 arg11 harg11 hc0 hc1 x0 x1 x2 x3 x4 x5 x6 x7).1, y ∈ pc.1.set :=
  View.cover_of_tiledL (run3_A c i arg2 harg2 arg3 harg3 arg4 harg4 arg5 harg5 arg6 harg6 arg7 harg7 arg8 harg8 arg9 harg9 arg10 harg10 arg11 harg11 hc0 hc1 x0 x1 x2 x3 x4 x5 x6 x7).1 S5000x128.size (by sl_kernel_rfl) y

-- What the first edge chunk leaves in the accumulator: the pieces the body wrote, read as one array.
def sacc3_A (hc0 : first3 i) (hc1 : ¬last3 i) (x0 : Vec F S256x128 .bf16) (x1 : Vec F S256 .i32) (x2 : Vec F S5000x128 .f32) (x3 : Vec F S128x128 .f32) (x4 : Vec F S128 .f32) (x5 : Vec F S128x128 .f32) (x6 : Vec F S128 .f32) (x7 : Vec F S1x128 .f32) : Vec F S5000x128 .f32 :=
  View.canon (run3_A c i arg2 harg2 arg3 harg3 arg4 harg4 arg5 harg5 arg6 harg6 arg7 harg7 arg8 harg8 arg9 harg9 arg10 harg10 arg11 harg11 hc0 hc1 x0 x1 x2 x3 x4 x5 x6 x7).1

theorem scover3_B (hc0 : ¬first3 i) (hc1 : ¬last3 i) (x0 : Vec F S256x128 .bf16) (x1 : Vec F S256 .i32) (x2 : Vec F S5000x128 .f32) (x3 : Vec F S128x128 .f32) (x4 : Vec F S128 .f32) (x5 : Vec F S128x128 .f32) (x6 : Vec F S128 .f32) (x7 : Vec F S1x128 .f32) (xs : Vec F S5000x128 .f32) (y : S5000x128.Idx) :
    ∃ pc ∈ (run3_B c i arg2 harg2 arg3 harg3 arg4 harg4 arg5 harg5 arg6 harg6 arg7 harg7 arg8 harg8 arg9 harg9 arg10 harg10 arg11 harg11 hc0 hc1 x0 x1 x2 x3 x4 x5 x6 x7 xs).1, y ∈ pc.1.set :=
  View.cover_of_tiledL (run3_B c i arg2 harg2 arg3 harg3 arg4 harg4 arg5 harg5 arg6 harg6 arg7 harg7 arg8 harg8 arg9 harg9 arg10 harg10 arg11 harg11 hc0 hc1 x0 x1 x2 x3 x4 x5 x6 x7 xs).1 S5000x128.size (by sl_kernel_rfl) y

def sacc3_B (hc0 : ¬first3 i) (hc1 : ¬last3 i) (x0 : Vec F S256x128 .bf16) (x1 : Vec F S256 .i32) (x2 : Vec F S5000x128 .f32) (x3 : Vec F S128x128 .f32) (x4 : Vec F S128 .f32) (x5 : Vec F S128x128 .f32) (x6 : Vec F S128 .f32) (x7 : Vec F S1x128 .f32) (xs : Vec F S5000x128 .f32) : Vec F S5000x128 .f32 :=
  View.canon (run3_B c i arg2 harg2 arg3 harg3 arg4 harg4 arg5 harg5 arg6 harg6 arg7 harg7 arg8 harg8 arg9 harg9 arg10 harg10 arg11 harg11 hc0 hc1 x0 x1 x2 x3 x4 x5 x6 x7 xs).1

theorem cover3_C (hc0 : ¬first3 i) (hc1 : last3 i) (x0 : Vec F S256x128 .bf16) (x1 : Vec F S256 .i32) (x2 : Vec F S5000x128 .f32) (x3 : Vec F S128x128 .f32) (x4 : Vec F S128 .f32) (x5 : Vec F S128x128 .f32) (x6 : Vec F S128 .f32) (x7 : Vec F S1x128 .f32) (xs : Vec F S5000x128 .f32) (y : S5000x128.Idx) :
    ∃ pc ∈ (run3_C c i arg2 harg2 arg3 harg3 arg4 harg4 arg5 harg5 arg6 harg6 arg7 harg7 arg8 harg8 arg9 harg9 arg10 harg10 arg11 harg11 hc0 hc1 x0 x1 x2 x3 x4 x5 x6 x7 xs).1, y ∈ pc.1.set :=
  View.cover_of_tiledL (run3_C c i arg2 harg2 arg3 harg3 arg4 harg4 arg5 harg5 arg6 harg6 arg7 harg7 arg8 harg8 arg9 harg9 arg10 harg10 arg11 harg11 hc0 hc1 x0 x1 x2 x3 x4 x5 x6 x7 xs).1 S5000x128.size (by sl_kernel_rfl) y

theorem scover3_C (hc0 : ¬first3 i) (hc1 : last3 i) (x0 : Vec F S256x128 .bf16) (x1 : Vec F S256 .i32) (x2 : Vec F S5000x128 .f32) (x3 : Vec F S128x128 .f32) (x4 : Vec F S128 .f32) (x5 : Vec F S128x128 .f32) (x6 : Vec F S128 .f32) (x7 : Vec F S1x128 .f32) (xs : Vec F S5000x128 .f32) (y : S5000x128.Idx) :
    ∃ pc ∈ (run3_C c i arg2 harg2 arg3 harg3 arg4 harg4 arg5 harg5 arg6 harg6 arg7 harg7 arg8 harg8 arg9 harg9 arg10 harg10 arg11 harg11 hc0 hc1 x0 x1 x2 x3 x4 x5 x6 x7 xs).2.1, y ∈ pc.1.set :=
  View.cover_of_tiledL (run3_C c i arg2 harg2 arg3 harg3 arg4 harg4 arg5 harg5 arg6 harg6 arg7 harg7 arg8 harg8 arg9 harg9 arg10 harg10 arg11 harg11 hc0 hc1 x0 x1 x2 x3 x4 x5 x6 x7 xs).2.1 S5000x128.size (by sl_kernel_rfl) y

def out3_C (hc0 : ¬first3 i) (hc1 : last3 i) (x0 : Vec F S256x128 .bf16) (x1 : Vec F S256 .i32) (x2 : Vec F S5000x128 .f32) (x3 : Vec F S128x128 .f32) (x4 : Vec F S128 .f32) (x5 : Vec F S128x128 .f32) (x6 : Vec F S128 .f32) (x7 : Vec F S1x128 .f32) (xs : Vec F S5000x128 .f32) : Vec F S5000x128 .f32 :=
  View.canon (run3_C c i arg2 harg2 arg3 harg3 arg4 harg4 arg5 harg5 arg6 harg6 arg7 harg7 arg8 harg8 arg9 harg9 arg10 harg10 arg11 harg11 hc0 hc1 x0 x1 x2 x3 x4 x5 x6 x7 xs).1

def sacc3_C (hc0 : ¬first3 i) (hc1 : last3 i) (x0 : Vec F S256x128 .bf16) (x1 : Vec F S256 .i32) (x2 : Vec F S5000x128 .f32) (x3 : Vec F S128x128 .f32) (x4 : Vec F S128 .f32) (x5 : Vec F S128x128 .f32) (x6 : Vec F S128 .f32) (x7 : Vec F S1x128 .f32) (xs : Vec F S5000x128 .f32) : Vec F S5000x128 .f32 :=
  View.canon (run3_C c i arg2 harg2 arg3 harg3 arg4 harg4 arg5 harg5 arg6 harg6 arg7 harg7 arg8 harg8 arg9 harg9 arg10 harg10 arg11 harg11 hc0 hc1 x0 x1 x2 x3 x4 x5 x6 x7 xs).2.1

end Cases

end Cert.Kernel.Hand

end
-- ==== Proof.K.Dat3.lean ====
import proofs.«415291_j87935160418912_3_alg».proof.Proof.K.Sched3
import proofs.«415291_j87935160418912_3_alg».proof.Proof.K.Case3

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

end Region

def idleOut3 : Vec F S5000x128 .f32 := outV3.read (Elt F) outV3.junk

section Region
variable (V : (c : Dev nD) → (b : Ref sig .tc) → Buf (Elt F) ((c : Thread nD τ).loc b))

def accA3 (c : Dev nD) (t : Fin cfg3.N) (h0 : t.val % 3125 = 0) (h1 : ¬t.val % 3125 = 3124) : Vec F S5000x128 .f32 :=
  sacc3_A c (grid3.coords t) (stg3_0 t) (hstg3_0 t) (stg3_1 t) (hstg3_1 t) (stg3_2 t) (hstg3_2 t) (stg3_3 t) (hstg3_3 t) (stg3_4 t) (hstg3_4 t) (stg3_5 t) (hstg3_5 t) (stg3_6 t) (hstg3_6 t) (stg3_7 t) (hstg3_7 t) (stg3_8 t) (hstg3_8 t) acc3 (Memref.isWhole_whole _) ((hfirst3 t).mpr h0) (fun h => h1 ((hlast3 t).mp h)) (iblk3 V c 0 t) (iblk3 V c 1 t) (iblk3 V c 2 t) (iblk3 V c 3 t) (iblk3 V c 4 t) (iblk3 V c 5 t) (iblk3 V c 6 t) (iblk3 V c 7 t)
def accB3 (c : Dev nD) (t : Fin cfg3.N) (h0 : ¬t.val % 3125 = 0) (h1 : ¬t.val % 3125 = 3124) (xs : Vec F S5000x128 .f32) : Vec F S5000x128 .f32 :=
  sacc3_B c (grid3.coords t) (stg3_0 t) (hstg3_0 t) (stg3_1 t) (hstg3_1 t) (stg3_2 t) (hstg3_2 t) (stg3_3 t) (hstg3_3 t) (stg3_4 t) (hstg3_4 t) (stg3_5 t) (hstg3_5 t) (stg3_6 t) (hstg3_6 t) (stg3_7 t) (hstg3_7 t) (stg3_8 t) (hstg3_8 t) acc3 (Memref.isWhole_whole _) (fun h => h0 ((hfirst3 t).mp h)) (fun h => h1 ((hlast3 t).mp h)) (iblk3 V c 0 t) (iblk3 V c 1 t) (iblk3 V c 2 t) (iblk3 V c 3 t) (iblk3 V c 4 t) (iblk3 V c 5 t) (iblk3 V c 6 t) (iblk3 V c 7 t) xs
def accC3 (c : Dev nD) (t : Fin cfg3.N) (h0 : ¬t.val % 3125 = 0) (h1 : t.val % 3125 = 3124) (xs : Vec F S5000x128 .f32) : Vec F S5000x128 .f32 :=
  sacc3_C c (grid3.coords t) (stg3_0 t) (hstg3_0 t) (stg3_1 t) (hstg3_1 t) (stg3_2 t) (hstg3_2 t) (stg3_3 t) (hstg3_3 t) (stg3_4 t) (hstg3_4 t) (stg3_5 t) (hstg3_5 t) (stg3_6 t) (hstg3_6 t) (stg3_7 t) (hstg3_7 t) (stg3_8 t) (hstg3_8 t) acc3 (Memref.isWhole_whole _) (fun h => h0 ((hfirst3 t).mp h)) ((hlast3 t).mpr h1) (iblk3 V c 0 t) (iblk3 V c 1 t) (iblk3 V c 2 t) (iblk3 V c 3 t) (iblk3 V c 4 t) (iblk3 V c 5 t) (iblk3 V c 6 t) (iblk3 V c 7 t) xs
def outC3 (c : Dev nD) (t : Fin cfg3.N) (h0 : ¬t.val % 3125 = 0) (h1 : t.val % 3125 = 3124) (xs : Vec F S5000x128 .f32) : Vec F S5000x128 .f32 :=
  out3_C c (grid3.coords t) (stg3_0 t) (hstg3_0 t) (stg3_1 t) (hstg3_1 t) (stg3_2 t) (hstg3_2 t) (stg3_3 t) (hstg3_3 t) (stg3_4 t) (hstg3_4 t) (stg3_5 t) (hstg3_5 t) (stg3_6 t) (hstg3_6 t) (stg3_7 t) (hstg3_7 t) (stg3_8 t) (hstg3_8 t) acc3 (Memref.isWhole_whole _) (fun h => h0 ((hfirst3 t).mp h)) ((hlast3 t).mpr h1) (iblk3 V c 0 t) (iblk3 V c 1 t) (iblk3 V c 2 t) (iblk3 V c 3 t) (iblk3 V c 4 t) (iblk3 V c 5 t) (iblk3 V c 6 t) (iblk3 V c 7 t) xs

-- The output block and the accumulator after point n: the point's case applied to its input blocks and to what point n - 1 left.
def outsAt3 (c : Dev nD) : (n : ℕ) → n < cfg3.N → Vec F S5000x128 .f32 × Vec F S5000x128 .f32
  | 0, hn => (idleOut3, accA3 V c ⟨0, hn⟩ (Nat.zero_mod _) (show ¬(0 % 3125 = 3124) by decide))
  | n + 1, hn =>
    if h0 : (n + 1) % 3125 = 0 then
      if h1 : (n + 1) % 3125 = 3124 then False.elim (by omega)
      else (idleOut3, accA3 V c ⟨n + 1, hn⟩ h0 h1)
    else
      if h1 : (n + 1) % 3125 = 3124 then
        (outC3 V c ⟨n + 1, hn⟩ h0 h1 (outsAt3 c n (Nat.lt_of_succ_lt hn)).2, accC3 V c ⟨n + 1, hn⟩ h0 h1 (outsAt3 c n (Nat.lt_of_succ_lt hn)).2)
      else (idleOut3, accB3 V c ⟨n + 1, hn⟩ h0 h1 (outsAt3 c n (Nat.lt_of_succ_lt hn)).2)

theorem outsAt3_A (c : Dev nD) (t : Fin cfg3.N) (h0 : t.val % 3125 = 0) (h1 : ¬t.val % 3125 = 3124) :
    outsAt3 V c t.val t.isLt = (idleOut3, accA3 V c t h0 h1) := by
  obtain ⟨n, hn⟩ := t
  cases n with
  | zero => exact rfl
  | succ n => exact (dif_pos h0).trans ((dif_neg h1).trans rfl)

theorem outsAt3_B (c : Dev nD) (t : Fin cfg3.N) (h0 : ¬t.val % 3125 = 0) (h1 : ¬t.val % 3125 = 3124) :
    outsAt3 V c t.val t.isLt = (idleOut3, accB3 V c t h0 h1 (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 3125 = 0) (h1 : t.val % 3125 = 3124) :
    outsAt3 V c t.val t.isLt = (outC3 V c t h0 h1 (outsAt3 V c (t.val - 1) (Nat.lt_of_le_of_lt (Nat.sub_le _ _) t.isLt)).2,
      accC3 V c t h0 h1 (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS3 (c : Dev nD) : (n : ℕ) → n ≤ cfg3.N → sProp 𝕄
  | 0, _ => Pipeline.ΦA spec3 c
  | n + 1, hn => iprop(iprop(owns (c : Thread nD τ) acc3 fullShare ((outsAt3 V c n hn).2) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(owns (c : Thread nD τ) acc3 fullShare ((outsAt3 V c n hn).2) ∗ Pipeline.scopedRestBut (Ix := Unit) (Name := ℕ) (U := UR sig nD τ) (Lvl := ℕ) (Val := Elt F) spec3 c [cc3_scratch0]) ∗ (∃ r, prngReg c r)) := rfl
theorem PhiS3_pos (c : Dev nD) (n : ℕ) (h : n ≤ cfg3.N) (hz : n ≠ 0) :
    PhiS3 V c n h = iprop(iprop(owns (c : Thread nD τ) acc3 fullShare ((outsAt3 V c (n - 1) (by omega)).2) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

-- The invariant after any point implies the one before the first: what the accumulator holds is forgotten.
theorem PhiS3_weak (c : Dev nD) (n : ℕ) (h : n ≤ cfg3.N) : PhiS3 V c n h ⊢ Pipeline.ΦA spec3 c := by
  cases n with
  | zero => rw [PhiS3_zero V c 0 h rfl]; try exact Entails.refl _
  | succ n =>
    rw [PhiS3_succ, PhiA3_eq]
    iintro ⟨⟨HS, Hrest⟩, Hg⟩
    isplitl [HS Hrest]
    · isplitl [HS]
      · iexists _; iexact HS
      iexact Hrest
    iexact Hg

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = (outsAt3 V c t.val t.isLt).1 := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d

def bodyPre3 (c : Dev nD) (t : Fin cfg3.N) : sProp 𝕄 :=
  iprop((dat3 V c).Φ t.castSucc ∗ (dat3 V c).owesAt () t.castSucc
    ∗ (∃ d, owns (c : Thread nD τ) (stg3_0 t) fullShare ((dat3 V c).before 0 t d))
    ∗ (∃ d, owns (c : Thread nD τ) (stg3_1 t) fullShare ((dat3 V c).before 1 t d))
    ∗ (∃ d, owns (c : Thread nD τ) (stg3_2 t) fullShare ((dat3 V c).before 2 t d))
    ∗ (∃ d, owns (c : Thread nD τ) (stg3_3 t) fullShare ((dat3 V c).before 3 t d))
    ∗ (∃ d, owns (c : Thread nD τ) (stg3_4 t) fullShare ((dat3 V c).before 4 t d))
    ∗ (∃ d, owns (c : Thread nD τ) (stg3_5 t) fullShare ((dat3 V c).before 5 t d))
    ∗ (∃ d, owns (c : Thread nD τ) (stg3_6 t) fullShare ((dat3 V c).before 6 t d))
    ∗ (∃ d, owns (c : Thread nD τ) (stg3_7 t) fullShare ((dat3 V c).before 7 t d))
    ∗ (∃ d, owns (c : Thread nD τ) (stg3_8 t) fullShare ((dat3 V c).before 8 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t
    ∗ (dat3 V c).leavesExact 8 t)

-- The body keeps the invariant at every point: the accumulator is reset at a run's first point, added to at each, combined and written out at the last.
set_option maxHeartbeats 9600000 in

theorem sound_body3 (c : Dev nD) (t : Fin cfg3.N) :
    bodyPre3 V c t ⊢ wp frame (wpE (defs₀ (F := F)) Variants.none c none) Set.univ (body3 t) (fun _ => bodyPost3 V c t) := by
  unfold bodyPre3 bodyPost3 body3
  simp only [before3_0, before3_1, before3_2, before3_3, before3_4, before3_5, before3_6, before3_7]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (stg3_0 t) fullShare ((dat3 V c).after 0 t) from by
    unfold Dat.leavesExact; rw [live3_0 t], after3_0]
  rw [show (dat3 V c).leavesExact 1 t = owns (c : Thread nD τ) (stg3_1 t) fullShare ((dat3 V c).after 1 t) from by
    unfold Dat.leavesExact; rw [live3_1 t], after3_1]
  rw [show (dat3 V c).leavesExact 2 t = owns (c : Thread nD τ) (stg3_2 t) fullShare ((dat3 V c).after 2 t) from by
    unfold Dat.leavesExact; rw [live3_2 t], after3_2]
  rw [show (dat3 V c).leavesExact 3 t = owns (c : Thread nD τ) (stg3_3 t) fullShare ((dat3 V c).after 3 t) from by
    unfold Dat.leavesExact; rw [live3_3 t], after3_3]
  rw [show (dat3 V c).leavesExact 4 t = owns (c : Thread nD τ) (stg3_4 t) fullShare ((dat3 V c).after 4 t) from by
    unfold Dat.leavesExact; rw [live3_4 t], after3_4]
  rw [show (dat3 V c).leavesExact 5 t = owns (c : Thread nD τ) (stg3_5 t) fullShare ((dat3 V c).after 5 t) from by
    unfold Dat.leavesExact; rw [live3_5 t], after3_5]
  rw [show (dat3 V c).leavesExact 6 t = owns (c : Thread nD τ) (stg3_6 t) fullShare ((dat3 V c).after 6 t) from by
    unfold Dat.leavesExact; rw [live3_6 t], after3_6]
  rw [show (dat3 V c).leavesExact 7 t = owns (c : Thread nD τ) (stg3_7 t) fullShare ((dat3 V c).after 7 t) from by
    unfold Dat.leavesExact; rw [live3_7 t], after3_7]
  by_cases h0 : t.val % 3125 = 0
  · have h1 : ¬t.val % 3125 = 3124 := by omega
    rw [Dat.leavesExact_idle (dat3 V c) 8 t (idle3_8 t (fun h => h1 ((hlast3 t).mp h))) (noFlush3_8 t (fun h => h1 ((hlast3 t).mp h)))]
    rw [outsAt3_A V c t h0 h1]
    unfold accA3 sacc3_A; (try dsimp only)
    rw [PhiS3_castSucc V c t]
    refine BIBase.Entails.trans (sep_mono_left (PhiS3_weak V c _ _)) ?_
    rw [PhiA3_eq]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((run3_A c (grid3.coords t) _ (hstg3_0 t) _ (hstg3_1 t) _ (hstg3_2 t) _ (hstg3_3 t) _ (hstg3_4 t) _ (hstg3_5 t) _ (hstg3_6 t) _ (hstg3_7 t) _ (hstg3_8 t) _ (Memref.isWhole_whole _) ((hfirst3 t).mpr h0) (fun h => h1 ((hlast3 t).mp h)) (iblk3 V c 0 t) (iblk3 V c 1 t) (iblk3 V c 2 t) (iblk3 V c 3 t) (iblk3 V c 4 t) (iblk3 V c 5 t) (iblk3 V c 6 t) (iblk3 V c 7 t)).2 _ Set.univ _)
    iframe H0 H1 H2 H3 H4 H5 H6 H7 H8 HS
    iintro ⟨H0, H1, H2, H3, H4, H5, H6, H7, H8, ⟨%es, HS⟩⟩
    iframe Hrest Hg Ho H0 H1 H2 H3 H4 H5 H6 H7
    isplitl [HS]
    · unfold owns; iexists _; isplitr
      swap; · iexact HS
      ipureintro; exact View.read_writes_eq_canon _ _ _ (scover3_A c _ _ _ _ _ _ _ _ _ _ _ _ _ _ _ _ _ _ _ _ _ _ _ _ _ _ _ _ _ _ _)
    iexists _; iexact H8
  · have hz : t.val ≠ 0 := fun h => h0 (by rw [h])
    by_cases h1 : t.val % 3125 = 3124
    · rw [show (dat3 V c).leavesExact 8 t = owns (c : Thread nD τ) (stg3_8 t) fullShare ((dat3 V c).after 8 t) from by
        unfold Dat.leavesExact; rw [live3_8 t ((hlast3 t).mpr h1)], after3_8]
      rw [outsAt3_C V c t h0 h1]
      unfold outC3 accC3 out3_C sacc3_C; (try dsimp only)
      rw [PhiS3_castSucc V c t, PhiS3_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((run3_C c (grid3.coords t) _ (hstg3_0 t) _ (hstg3_1 t) _ (hstg3_2 t) _ (hstg3_3 t) _ (hstg3_4 t) _ (hstg3_5 t) _ (hstg3_6 t) _ (hstg3_7 t) _ (hstg3_8 t) _ (Memref.isWhole_whole _) (fun h => h0 ((hfirst3 t).mp h)) ((hlast3 t).mpr h1) (iblk3 V c 0 t) (iblk3 V c 1 t) (iblk3 V c 2 t) (iblk3 V c 3 t) (iblk3 V c 4 t) (iblk3 V c 5 t) (iblk3 V c 6 t) (iblk3 V c 7 t) _).2.2 Set.univ _)
      iframe H0 H1 H2 H3 H4 H5 H6 H7 HS
      isplitl [H8]; · iexists _; iexact H8
      iintro ⟨H0, H1, H2, H3, H4, H5, H6, H7, ⟨%e8, H8⟩, ⟨%es, HS⟩⟩
      iframe Hrest Hg Ho H0 H1 H2 H3 H4 H5 H6 H7
      isplitl [HS]
      · unfold owns; iexists _; isplitr
        swap; · iexact HS
        ipureintro; exact View.read_writes_eq_canon _ _ _ (scover3_C c _ _ _ _ _ _ _ _ _ _ _ _ _ _ _ _ _ _ _ _ _ _ _ _ _ _ _ _ _ _ _ _)
      unfold owns; iexists _; isplitr
      swap; · iexact H8
      ipureintro; exact View.read_writes_eq_canon _ _ _ (cover3_C c _ _ _ _ _ _ _ _ _ _ _ _ _ _ _ _ _ _ _ _ _ _ _ _ _ _ _ _ _ _ _ _)
    · rw [Dat.leavesExact_idle (dat3 V c) 8 t (idle3_8 t (fun h => h1 ((hlast3 t).mp h))) (noFlush3_8 t (fun h => h1 ((hlast3 t).mp h)))]
      rw [outsAt3_B V c t h0 h1]
      unfold accB3 sacc3_B; (try dsimp only)
      rw [PhiS3_castSucc V c t, PhiS3_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((run3_B c (grid3.coords t) _ (hstg3_0 t) _ (hstg3_1 t) _ (hstg3_2 t) _ (hstg3_3 t) _ (hstg3_4 t) _ (hstg3_5 t) _ (hstg3_6 t) _ (hstg3_7 t) _ (hstg3_8 t) _ (Memref.isWhole_whole _) (fun h => h0 ((hfirst3 t).mp h)) (fun h => h1 ((hlast3 t).mp h)) (iblk3 V c 0 t) (iblk3 V c 1 t) (iblk3 V c 2 t) (iblk3 V c 3 t) (iblk3 V c 4 t) (iblk3 V c 5 t) (iblk3 V c 6 t) (iblk3 V c 7 t) _).2 _ Set.univ _)
      iframe H0 H1 H2 H3 H4 H5 H6 H7 H8 HS
      iintro ⟨H0, H1, H2, H3, H4, H5, H6, H7, H8, ⟨%es, HS⟩⟩
      iframe Hrest Hg Ho H0 H1 H2 H3 H4 H5 H6 H7
      isplitl [HS]
      · unfold owns; iexists _; isplitr
        swap; · iexact HS
        ipureintro; exact View.read_writes_eq_canon _ _ _ (scover3_B c _ _ _ _ _ _ _ _ _ _ _ _ _ _ _ _ _ _ _ _ _ _ _ _ _ _ _ _ _ _ _ _)
      iexists _; iexact H8

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem Phi_out3 (c : Dev nD) (t : Fin (cfg3.N + 1)) (ht : t.val ≠ 0) : (dat3 V c).Φ t ⊢ Pipeline.ΦA spec3 c :=
  PhiS3_weak V c _ _

theorem hout3 (c : Dev nD) : (dat3 V c).Φ (Fin.last cfg3.N) ⊢ Pipeline.ΦA spec3 c :=
  Phi_out3 V c _ (by rw [Fin.val_last]; have : cfg3.N = 31250 := N_3; omega)

end Region

end Cert.Kernel.Hand

end
-- ==== Proof.K.Cond4.lean ====
import proofs.«415291_j87935160418912_3_alg».proof.Proof.Gen.Kernel.Launch
import proofs.«415291_j87935160418912_3_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic

variable {F : FTy → Type} [FloatOps F]

abbrev first4 (i : grid4.Coords) : Prop := (Scalar.cmpi .ne (Scalar.extui (Scalar.cmpi .eq (BitVec.ofNat 32 (i 1).val) 0#32)) 0#32) = 1#1

abbrev last4 (i : grid4.Coords) : Prop := k4_cond2 i = 1#1

abbrev acc4 : Memref sig .tc .vmem S256x128 .f32 := Memref.whole cc4_scratch0

abbrev accV4 : View sig .tc .vmem S256x128 .f32 := acc4.view

abbrev outV4 : View sig .tc .vmem S256x128 .bf16 := (Memref.whole cc4_stg2_0 : Memref sig .tc .vmem S256x128 .bf16).view

end Cert.Kernel.Hand

end
-- ==== Proof.K.Flush4.lean ====
import proofs.«415291_j87935160418912_3_alg».proof.Proof.K.Cond4

noncomputable section

namespace Cert.Kernel.Hand

open Cert.Kernel Cert.Kernel.Gen
open Idealize.ShloMosaic Idealize.ShloMosaic.TcCoe Idealize.ShloMosaic.Tactic

variable {F : FTy → Type} [FloatOps F]

theorem blk4_out (t : Fin cfg4.N) : win4_2.index t = ![t.val / 5 % 3125, 0] := by
  have h0 : ((grid4.coords t) 0).val = t.val / 5 % 3125 := by
    show t.val / grid4.stride 0 % 3125 = _
    rw [show grid4.stride 0 = 5 from by decide]
  show cc4_transform_2 (grid4.coords t) = _
  unfold cc4_transform_2
  dsimp only
  rw [h0, BitVec.toNat_ofNat, Nat.mod_eq_of_lt (by omega : t.val / 5 % 3125 < 2 ^ 32)]
  rfl

theorem flushOut4 : ∀ t : Fin cfg4.N, (cfg4.win 2).flush t = true ↔ t.val % 5 = 4 := fun t => by
  have hN : grid4.N = 15625 := N_4
  have hlt : t.val < grid4.N := t.isLt
  show win4_2.flush t = true ↔ _
  unfold Pipeline.Window.flush
  rw [show win4_2.isOut = true from rfl, Bool.true_and, Bool.or_eq_true, decide_eq_true_eq, decide_eq_true_eq]
  constructor
  · rintro (h | ⟨h, hne⟩)
    · omega
    · rw [blk4_out, blk4_out] at hne
      by_contra hc
      apply hne
      have e : (t.val + 1) / 5 % 3125 = t.val / 5 % 3125 := by omega
      show ![(t.val + 1) / 5 % 3125, 0] = ![t.val / 5 % 3125, 0]
      rw [e]
  · intro h
    by_cases hl : t.val + 1 = grid4.N
    · exact Or.inl hl
    · refine Or.inr ⟨by omega, fun he => ?_⟩
      rw [blk4_out, blk4_out] at he
      have h0 := congrFun he 0
      simp only [Matrix.cons_val_zero] at h0
      omega

end Cert.Kernel.Hand

end
-- ==== Proof.K.Sched4.lean ====
import proofs.«415291_j87935160418912_3_alg».proof.Proof.K.Flush4

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev stg4_0 (t : Fin cfg4.N) : Memref sig .tc .vmem S256 .i32 := win4_0.stage (cfg4.slots t 0)
abbrev hstg4_0 (t : Fin cfg4.N) : (stg4_0 t).IsWhole := hstage4_0 ((cfg4.slots t 0).cast nbuf4_0)
abbrev stg4_1 (t : Fin cfg4.N) : Memref sig .tc .vmem S10000x128 .bf16 := win4_1.stage (cfg4.slots t 1)
abbrev hstg4_1 (t : Fin cfg4.N) : (stg4_1 t).IsWhole := hstage4_1 ((cfg4.slots t 1).cast nbuf4_1)
abbrev stg4_2 (t : Fin cfg4.N) : Memref sig .tc .vmem S256x128 .bf16 := win4_2.stage (cfg4.slots t 2)
abbrev hstg4_2 (t : Fin cfg4.N) : (stg4_2 t).IsWhole := hstage4_2 ((cfg4.slots t 2).cast nbuf4_2)

abbrev body4 (t : Fin cfg4.N) : Prog (TpuEff nD τ sig (Elt F) Λ₀ .tc) PUnit :=
  cc4__gather_kernel (grid4.coords t) (stg4_0 t) (hstg4_0 t) (stg4_1 t) (hstg4_1 t) (stg4_2 t) (hstg4_2 t) (Memref.whole cc4_scratch0) (Memref.isWhole_whole _)

theorem coord4_1 (t : Fin cfg4.N) : ((grid4.coords t) 1).val = t.val % 5 := by
  show t.val / grid4.stride 1 % 5 = t.val % 5
  rw [show grid4.stride 1 = 1 from by decide, Nat.div_one]

theorem kcond4_eq (i : grid4.Coords) :
    k4_cond2 i = Scalar.cmpi .ne (Scalar.extui (Scalar.cmpi .eq (BitVec.ofNat 32 (i 1).val) 4#32)) 0#32 := rfl

theorem hfirst4 : ∀ t : Fin cfg4.N, first4 (grid4.coords t) ↔ t.val % 5 = 0 := fun t => by
  have key : ∀ n : Fin 5, ((Scalar.cmpi .ne (Scalar.extui (Scalar.cmpi .eq (BitVec.ofNat 32 n.val) 0#32)) 0#32) = 1#1) ↔ n.val = 0 := by
    decide +kernel
  rw [← coord4_1 t]
  exact key ((grid4.coords t) 1)

theorem hlast4 : ∀ t : Fin cfg4.N, last4 (grid4.coords t) ↔ t.val % 5 = 4 := fun t => by
  have key : ∀ n : Fin 5, ((Scalar.cmpi .ne (Scalar.extui (Scalar.cmpi .eq (BitVec.ofNat 32 n.val) 4#32)) 0#32) = 1#1) ↔ n.val = 4 := by
    decide +kernel
  rw [← coord4_1 t]
  show k4_cond2 (grid4.coords t) = 1#1 ↔ _
  rw [kcond4_eq]
  exact key ((grid4.coords t) 1)

theorem live4_0 (t : Fin cfg4.N) : cfg4.idle 0 (grid4.coords t) = false := rfl
theorem live4_1 (t : Fin cfg4.N) : cfg4.idle 1 (grid4.coords t) = false := rfl

theorem idle4_2 (t : Fin cfg4.N) (h : ¬last4 (grid4.coords t)) : cfg4.idle 2 (grid4.coords t) = true := by
  show (!(k4_cond2 (grid4.coords t) == 1#1)) = true
  simp only [Bool.not_eq_true', beq_eq_false_iff_ne, ne_eq]; exact h

theorem live4_2 (t : Fin cfg4.N) (h : last4 (grid4.coords t)) : cfg4.idle 2 (grid4.coords t) = false := by
  show (!(k4_cond2 (grid4.coords t) == 1#1)) = false
  simp only [Bool.not_eq_false', beq_iff_eq]; exact h

theorem noFlush4_2 (t : Fin cfg4.N) (h : ¬last4 (grid4.coords t)) : (cfg4.win 2).flush t = false := by
  cases hf : (cfg4.win 2).flush t with
  | false => rfl
  | true => exact absurd ((hlast4 t).mpr ((flushOut4 t).mp hf)) h

theorem PhiA4_eq (c : Dev nD) :
    (Pipeline.ΦA spec4 c : sProp 𝕄)
      = iprop(iprop((∃ d, owns (c : Thread nD τ) acc4 fullShare d)
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [acc4, owns_whole]; try rfl

end Cert.Kernel.Hand

end
-- ==== Proof.K.Dat4.lean ====
import proofs.«415291_j87935160418912_3_alg».proof.Proof.K.Sched4
import proofs.«415291_j87935160418912_3_alg».proof.Proof.K.Case0

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

end Region

def idleOut4 : Vec F S256x128 .bf16 := outV4.read (Elt F) outV4.junk

section Region
variable (V : (c : Dev nD) → (b : Ref sig .tc) → Buf (Elt F) ((c : Thread nD τ).loc b))

def accA4 (c : Dev nD) (t : Fin cfg4.N) (h0 : t.val % 5 = 0) (h1 : ¬t.val % 5 = 4) : Vec F S256x128 .f32 :=
  sacc0_A c (grid4.coords t) (stg4_0 t) (hstg4_0 t) (stg4_1 t) (hstg4_1 t) (stg4_2 t) (hstg4_2 t) acc4 (Memref.isWhole_whole _) ((hfirst4 t).mpr h0) (fun h => h1 ((hlast4 t).mp h)) (iblk4 V c 0 t) (iblk4 V c 1 t)
def accB4 (c : Dev nD) (t : Fin cfg4.N) (h0 : ¬t.val % 5 = 0) (h1 : ¬t.val % 5 = 4) (xs : Vec F S256x128 .f32) : Vec F S256x128 .f32 :=
  sacc0_B c (grid4.coords t) (stg4_0 t) (hstg4_0 t) (stg4_1 t) (hstg4_1 t) (stg4_2 t) (hstg4_2 t) acc4 (Memref.isWhole_whole _) (fun h => h0 ((hfirst4 t).mp h)) (fun h => h1 ((hlast4 t).mp h)) (iblk4 V c 0 t) (iblk4 V c 1 t) xs
def accC4 (c : Dev nD) (t : Fin cfg4.N) (h0 : ¬t.val % 5 = 0) (h1 : t.val % 5 = 4) (xs : Vec F S256x128 .f32) : Vec F S256x128 .f32 :=
  sacc0_C c (grid4.coords t) (stg4_0 t) (hstg4_0 t) (stg4_1 t) (hstg4_1 t) (stg4_2 t) (hstg4_2 t) acc4 (Memref.isWhole_whole _) (fun h => h0 ((hfirst4 t).mp h)) ((hlast4 t).mpr h1) (iblk4 V c 0 t) (iblk4 V c 1 t) xs
def outC4 (c : Dev nD) (t : Fin cfg4.N) (h0 : ¬t.val % 5 = 0) (h1 : t.val % 5 = 4) (xs : Vec F S256x128 .f32) : Vec F S256x128 .bf16 :=
  out0_C c (grid4.coords t) (stg4_0 t) (hstg4_0 t) (stg4_1 t) (hstg4_1 t) (stg4_2 t) (hstg4_2 t) acc4 (Memref.isWhole_whole _) (fun h => h0 ((hfirst4 t).mp h)) ((hlast4 t).mpr h1) (iblk4 V c 0 t) (iblk4 V c 1 t) xs

-- The output block and the accumulator after point n: the point's case applied to its two input blocks and to what point n - 1 left.
def outsAt4 (c : Dev nD) : (n : ℕ) → n < cfg4.N → Vec F S256x128 .bf16 × Vec F S256x128 .f32
  | 0, hn => (idleOut4, accA4 V c ⟨0, hn⟩ (Nat.zero_mod _) (show ¬(0 % 5 = 4) by decide))
  | n + 1, hn =>
    if h0 : (n + 1) % 5 = 0 then
      if h1 : (n + 1) % 5 = 4 then False.elim (by omega)
      else (idleOut4, accA4 V c ⟨n + 1, hn⟩ h0 h1)
    else
      if h1 : (n + 1) % 5 = 4 then
        (outC4 V c ⟨n + 1, hn⟩ h0 h1 (outsAt4 c n (Nat.lt_of_succ_lt hn)).2, accC4 V c ⟨n + 1, hn⟩ h0 h1 (outsAt4 c n (Nat.lt_of_succ_lt hn)).2)
      else (idleOut4, accB4 V c ⟨n + 1, hn⟩ h0 h1 (outsAt4 c n (Nat.lt_of_succ_lt hn)).2)

theorem outsAt4_A (c : Dev nD) (t : Fin cfg4.N) (h0 : t.val % 5 = 0) (h1 : ¬t.val % 5 = 4) :
    outsAt4 V c t.val t.isLt = (idleOut4, accA4 V c t h0 h1) := by
  obtain ⟨n, hn⟩ := t
  cases n with
  | zero => exact rfl
  | succ n => exact (dif_pos h0).trans ((dif_neg h1).trans rfl)

theorem outsAt4_B (c : Dev nD) (t : Fin cfg4.N) (h0 : ¬t.val % 5 = 0) (h1 : ¬t.val % 5 = 4) :
    outsAt4 V c t.val t.isLt = (idleOut4, accB4 V c t h0 h1 (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt4_C (c : Dev nD) (t : Fin cfg4.N) (h0 : ¬t.val % 5 = 0) (h1 : t.val % 5 = 4) :
    outsAt4 V c t.val t.isLt = (outC4 V c t h0 h1 (outsAt4 V c (t.val - 1) (Nat.lt_of_le_of_lt (Nat.sub_le _ _) t.isLt)).2,
      accC4 V c t h0 h1 (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS4 (c : Dev nD) : (n : ℕ) → n ≤ cfg4.N → sProp 𝕄
  | 0, _ => Pipeline.ΦA spec4 c
  | n + 1, hn => iprop(iprop(owns (c : Thread nD τ) acc4 fullShare ((outsAt4 V c n hn).2) ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(iprop(owns (c : Thread nD τ) acc4 fullShare ((outsAt4 V c n hn).2) ∗ Pipeline.scopedRestBut (Ix := Unit) (Name := ℕ) (U := UR sig nD τ) (Lvl := ℕ) (Val := Elt F) spec4 c [cc4_scratch0]) ∗ (∃ r, prngReg c r)) := rfl
theorem PhiS4_pos (c : Dev nD) (n : ℕ) (h : n ≤ cfg4.N) (hz : n ≠ 0) :
    PhiS4 V c n h = iprop(iprop(owns (c : Thread nD τ) acc4 fullShare ((outsAt4 V c (n - 1) (by omega)).2) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

-- The invariant after any point implies the one before the first: what the accumulator holds is forgotten.
theorem PhiS4_weak (c : Dev nD) (n : ℕ) (h : n ≤ cfg4.N) : PhiS4 V c n h ⊢ Pipeline.ΦA spec4 c := by
  cases n with
  | zero => rw [PhiS4_zero V c 0 h rfl]; try exact Entails.refl _
  | succ n =>
    rw [PhiS4_succ, PhiA4_eq]
    iintro ⟨⟨HS, Hrest⟩, Hg⟩
    isplitl [HS Hrest]
    · isplitl [HS]
      · iexists _; iexact HS
      iexact Hrest
    iexact Hg

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

def bodyPre4 (c : Dev nD) (t : Fin cfg4.N) : sProp 𝕄 :=
  iprop((dat4 V c).Φ t.castSucc ∗ (dat4 V c).owesAt () t.castSucc
    ∗ (∃ d, owns (c : Thread nD τ) (stg4_0 t) fullShare ((dat4 V c).before 0 t d))
    ∗ (∃ d, owns (c : Thread nD τ) (stg4_1 t) fullShare ((dat4 V c).before 1 t d))
    ∗ (∃ d, owns (c : Thread nD τ) (stg4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

-- The body keeps the invariant at every point: the accumulator is reset at a run's first point, added to at each, written out at the last.
set_option maxHeartbeats 4800000 in

theorem sound_body4 (c : Dev nD) (t : Fin cfg4.N) :
    bodyPre4 V c t ⊢ wp frame (wpE (defs₀ (F := F)) Variants.none c none) Set.univ (body4 t) (fun _ => bodyPost4 V c t) := by
  unfold bodyPre4 bodyPost4 body4
  simp only [before4_0, before4_1]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (stg4_0 t) fullShare ((dat4 V c).after 0 t) from by
    unfold Dat.leavesExact; rw [live4_0 t], after4_0]
  rw [show (dat4 V c).leavesExact 1 t = owns (c : Thread nD τ) (stg4_1 t) fullShare ((dat4 V c).after 1 t) from by
    unfold Dat.leavesExact; rw [live4_1 t], after4_1]
  by_cases h0 : t.val % 5 = 0
  · have h1 : ¬t.val % 5 = 4 := by omega
    rw [Dat.leavesExact_idle (dat4 V c) 2 t (idle4_2 t (fun h => h1 ((hlast4 t).mp h))) (noFlush4_2 t (fun h => h1 ((hlast4 t).mp h)))]
    rw [outsAt4_A V c t h0 h1]
    unfold accA4 sacc0_A; (try dsimp only)
    rw [PhiS4_castSucc V c t]
    refine BIBase.Entails.trans (sep_mono_left (PhiS4_weak V c _ _)) ?_
    rw [PhiA4_eq]
    iintro ⟨⟨⟨HS, Hrest⟩, Hg⟩, Ho, ⟨%d0, H0⟩, ⟨%d1, H1⟩, ⟨%d2, H2⟩⟩
    iapply ((run0_A c (grid4.coords t) _ (hstg4_0 t) _ (hstg4_1 t) _ (hstg4_2 t) _ (Memref.isWhole_whole _) ((hfirst4 t).mpr h0) (fun h => h1 ((hlast4 t).mp h)) (iblk4 V c 0 t) (iblk4 V c 1 t)).2 _ Set.univ _)
    iframe H0 H1 H2 HS
    iintro ⟨H0, H1, H2, ⟨%es, HS⟩⟩
    iframe Hrest Hg Ho H0 H1
    isplitl [HS]
    · unfold owns; iexists _; isplitr
      swap; · iexact HS
      ipureintro; exact View.read_writes_eq_canon _ _ _ (scover0_A c _ _ _ _ _ _ _ _ _ _ _ _ _)
    iexists _; iexact H2
  · have hz : t.val ≠ 0 := fun h => h0 (by rw [h])
    by_cases h1 : t.val % 5 = 4
    · rw [show (dat4 V c).leavesExact 2 t = owns (c : Thread nD τ) (stg4_2 t) fullShare ((dat4 V c).after 2 t) from by
        unfold Dat.leavesExact; rw [live4_2 t ((hlast4 t).mpr h1)], after4_2]
      rw [outsAt4_C V c t h0 h1]
      unfold outC4 accC4 out0_C sacc0_C; (try dsimp only)
      rw [PhiS4_castSucc V c t, PhiS4_pos V c _ _ hz]
      iintro ⟨⟨⟨HS, Hrest⟩, Hg⟩, Ho, ⟨%d0, H0⟩, ⟨%d1, H1⟩, ⟨%d2, H2⟩⟩
      iapply ((run0_C c (grid4.coords t) _ (hstg4_0 t) _ (hstg4_1 t) _ (hstg4_2 t) _ (Memref.isWhole_whole _) (fun h => h0 ((hfirst4 t).mp h)) ((hlast4 t).mpr h1) (iblk4 V c 0 t) (iblk4 V c 1 t) _).2.2 Set.univ _)
      iframe H0 H1 HS
      isplitl [H2]; · iexists _; iexact H2
      iintro ⟨H0, H1, ⟨%e2, H2⟩, ⟨%es, HS⟩⟩
      iframe Hrest Hg Ho H0 H1
      isplitl [HS]
      · unfold owns; iexists _; isplitr
        swap; · iexact HS
        ipureintro; exact View.read_writes_eq_canon _ _ _ (scover0_C c _ _ _ _ _ _ _ _ _ _ _ _ _ _)
      unfold owns; iexists _; isplitr
      swap; · iexact H2
      ipureintro; exact View.read_writes_eq_canon _ _ _ (cover0_C c _ _ _ _ _ _ _ _ _ _ _ _ _ _)
    · rw [Dat.leavesExact_idle (dat4 V c) 2 t (idle4_2 t (fun h => h1 ((hlast4 t).mp h))) (noFlush4_2 t (fun h => h1 ((hlast4 t).mp h)))]
      rw [outsAt4_B V c t h0 h1]
      unfold accB4 sacc0_B; (try dsimp only)
      rw [PhiS4_castSucc V c t, PhiS4_pos V c _ _ hz]
      iintro ⟨⟨⟨HS, Hrest⟩, Hg⟩, Ho, ⟨%d0, H0⟩, ⟨%d1, H1⟩, ⟨%d2, H2⟩⟩
      iapply ((run0_B c (grid4.coords t) _ (hstg4_0 t) _ (hstg4_1 t) _ (hstg4_2 t) _ (Memref.isWhole_whole _) (fun h => h0 ((hfirst4 t).mp h)) (fun h => h1 ((hlast4 t).mp h)) (iblk4 V c 0 t) (iblk4 V c 1 t) _).2 _ Set.univ _)
      iframe H0 H1 H2 HS
      iintro ⟨H0, H1, H2, ⟨%es, HS⟩⟩
      iframe Hrest Hg Ho H0 H1
      isplitl [HS]
      · unfold owns; iexists _; isplitr
        swap; · iexact HS
        ipureintro; exact View.read_writes_eq_canon _ _ _ (scover0_B c _ _ _ _ _ _ _ _ _ _ _ _ _ _)
      iexists _; iexact H2

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem Phi_out4 (c : Dev nD) (t : Fin (cfg4.N + 1)) (ht : t.val ≠ 0) : (dat4 V c).Φ t ⊢ Pipeline.ΦA spec4 c :=
  PhiS4_weak V c _ _

theorem hout4 (c : Dev nD) : (dat4 V c).Φ (Fin.last cfg4.N) ⊢ Pipeline.ΦA spec4 c :=
  Phi_out4 V c _ (by rw [Fin.val_last]; have : cfg4.N = 15625 := N_4; omega)

end Region

end Cert.Kernel.Hand

end
-- ==== Proof.K.Cond5.lean ====
import proofs.«415291_j87935160418912_3_alg».proof.Proof.Gen.Kernel.Launch
import proofs.«415291_j87935160418912_3_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic

variable {F : FTy → Type} [FloatOps F]

abbrev first5 (i : grid5.Coords) : Prop := (Scalar.cmpi .ne (Scalar.extui (Scalar.cmpi .eq (BitVec.ofNat 32 (i 1).val) 0#32)) 0#32) = 1#1

abbrev last5 (i : grid5.Coords) : Prop := k5_cond2 i = 1#1

abbrev acc5 : Memref sig .tc .vmem S5000x128 .f32 := Memref.whole cc5_scratch0

abbrev accV5 : View sig .tc .vmem S5000x128 .f32 := acc5.view

abbrev outV5 : View sig .tc .vmem S5000x128 .f32 := (Memref.whole cc5_stg8_0 : Memref sig .tc .vmem S5000x128 .f32).view

end Cert.Kernel.Hand

end
-- ==== Proof.K.Flush5.lean ====
import proofs.«415291_j87935160418912_3_alg».proof.Proof.K.Cond5

noncomputable section

namespace Cert.Kernel.Hand

open Cert.Kernel Cert.Kernel.Gen
open Idealize.ShloMosaic Idealize.ShloMosaic.TcCoe Idealize.ShloMosaic.Tactic

variable {F : FTy → Type} [FloatOps F]

theorem blk5_out (t : Fin cfg5.N) : win5_8.index t = ![t.val / 3125 % 10, 0] := by
  have h0 : ((grid5.coords t) 0).val = t.val / 3125 % 10 := by
    show t.val / grid5.stride 0 % 10 = _
    rw [show grid5.stride 0 = 3125 from by decide]
  show cc5_transform_8 (grid5.coords t) = _
  unfold cc5_transform_8
  dsimp only
  rw [h0, BitVec.toNat_ofNat, Nat.mod_eq_of_lt (by omega : t.val / 3125 % 10 < 2 ^ 32)]
  rfl

theorem flushOut5 : ∀ t : Fin cfg5.N, (cfg5.win 8).flush t = true ↔ t.val % 3125 = 3124 := fun t => by
  have hN : grid5.N = 31250 := N_5
  have hlt : t.val < grid5.N := t.isLt
  show win5_8.flush t = true ↔ _
  unfold Pipeline.Window.flush
  rw [show win5_8.isOut = true from rfl, Bool.true_and, Bool.or_eq_true, decide_eq_true_eq, decide_eq_true_eq]
  constructor
  · rintro (h | ⟨h, hne⟩)
    · omega
    · rw [blk5_out, blk5_out] at hne
      by_contra hc
      apply hne
      have e : (t.val + 1) / 3125 % 10 = t.val / 3125 % 10 := by omega
      show ![(t.val + 1) / 3125 % 10, 0] = ![t.val / 3125 % 10, 0]
      rw [e]
  · intro h
    by_cases hl : t.val + 1 = grid5.N
    · exact Or.inl hl
    · refine Or.inr ⟨by omega, fun he => ?_⟩
      rw [blk5_out, blk5_out] at he
      have h0 := congrFun he 0
      simp only [Matrix.cons_val_zero] at h0
      omega

end Cert.Kernel.Hand

end
-- ==== Proof.K.Sched5.lean ====
import proofs.«415291_j87935160418912_3_alg».proof.Proof.K.Flush5

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev stg5_0 (t : Fin cfg5.N) : Memref sig .tc .vmem S256x128 .bf16 := win5_0.stage (cfg5.slots t 0)
abbrev hstg5_0 (t : Fin cfg5.N) : (stg5_0 t).IsWhole := hstage5_0 ((cfg5.slots t 0).cast nbuf5_0)
abbrev stg5_1 (t : Fin cfg5.N) : Memref sig .tc .vmem S256 .i32 := win5_1.stage (cfg5.slots t 1)
abbrev hstg5_1 (t : Fin cfg5.N) : (stg5_1 t).IsWhole := hstage5_1 ((cfg5.slots t 1).cast nbuf5_1)
abbrev stg5_2 (t : Fin cfg5.N) : Memref sig .tc .vmem S5000x128 .f32 := win5_2.stage (cfg5.slots t 2)
abbrev hstg5_2 (t : Fin cfg5.N) : (stg5_2 t).IsWhole := hstage5_2 ((cfg5.slots t 2).cast nbuf5_2)
abbrev stg5_3 (t : Fin cfg5.N) : Memref sig .tc .vmem S128x128 .f32 := win5_3.stage (cfg5.slots t 3)
abbrev hstg5_3 (t : Fin cfg5.N) : (stg5_3 t).IsWhole := hstage5_3 ((cfg5.slots t 3).cast nbuf5_3)
abbrev stg5_4 (t : Fin cfg5.N) : Memref sig .tc .vmem S128 .f32 := win5_4.stage (cfg5.slots t 4)
abbrev hstg5_4 (t : Fin cfg5.N) : (stg5_4 t).IsWhole := hstage5_4 ((cfg5.slots t 4).cast nbuf5_4)
abbrev stg5_5 (t : Fin cfg5.N) : Memref sig .tc .vmem S128x128 .f32 := win5_5.stage (cfg5.slots t 5)
abbrev hstg5_5 (t : Fin cfg5.N) : (stg5_5 t).IsWhole := hstage5_5 ((cfg5.slots t 5).cast nbuf5_5)
abbrev stg5_6 (t : Fin cfg5.N) : Memref sig .tc .vmem S128 .f32 := win5_6.stage (cfg5.slots t 6)
abbrev hstg5_6 (t : Fin cfg5.N) : (stg5_6 t).IsWhole := hstage5_6 ((cfg5.slots t 6).cast nbuf5_6)
abbrev stg5_7 (t : Fin cfg5.N) : Memref sig .tc .vmem S1x128 .f32 := win5_7.stage (cfg5.slots t 7)
abbrev hstg5_7 (t : Fin cfg5.N) : (stg5_7 t).IsWhole := hstage5_7 ((cfg5.slots t 7).cast nbuf5_7)
abbrev stg5_8 (t : Fin cfg5.N) : Memref sig .tc .vmem S5000x128 .f32 := win5_8.stage (cfg5.slots t 8)
abbrev hstg5_8 (t : Fin cfg5.N) : (stg5_8 t).IsWhole := hstage5_8 ((cfg5.slots t 8).cast nbuf5_8)

abbrev body5 (t : Fin cfg5.N) : Prog (TpuEff nD τ sig (Elt F) Λ₀ .tc) PUnit :=
  cc5__scatter_combine_kernel (grid5.coords t) (stg5_0 t) (hstg5_0 t) (stg5_1 t) (hstg5_1 t) (stg5_2 t) (hstg5_2 t) (stg5_3 t) (hstg5_3 t) (stg5_4 t) (hstg5_4 t) (stg5_5 t) (hstg5_5 t) (stg5_6 t) (hstg5_6 t) (stg5_7 t) (hstg5_7 t) (stg5_8 t) (hstg5_8 t) (Memref.whole cc5_scratch0) (Memref.isWhole_whole _)

theorem coord5_1 (t : Fin cfg5.N) : ((grid5.coords t) 1).val = t.val % 3125 := by
  show t.val / grid5.stride 1 % 3125 = t.val % 3125
  rw [show grid5.stride 1 = 1 from by decide, Nat.div_one]

theorem kcond5_eq (i : grid5.Coords) :
    k5_cond2 i = Scalar.cmpi .ne (Scalar.extui (Scalar.cmpi .eq (BitVec.ofNat 32 (i 1).val) 3124#32)) 0#32 := rfl

theorem hfirst5 : ∀ t : Fin cfg5.N, first5 (grid5.coords t) ↔ t.val % 3125 = 0 := fun t => by
  have key : ∀ n : Fin 3125, ((Scalar.cmpi .ne (Scalar.extui (Scalar.cmpi .eq (BitVec.ofNat 32 n.val) 0#32)) 0#32) = 1#1) ↔ n.val = 0 := by
    decide +kernel
  rw [← coord5_1 t]
  exact key ((grid5.coords t) 1)

theorem hlast5 : ∀ t : Fin cfg5.N, last5 (grid5.coords t) ↔ t.val % 3125 = 3124 := fun t => by
  have key : ∀ n : Fin 3125, ((Scalar.cmpi .ne (Scalar.extui (Scalar.cmpi .eq (BitVec.ofNat 32 n.val) 3124#32)) 0#32) = 1#1) ↔ n.val = 3124 := by
    decide +kernel
  rw [← coord5_1 t]
  show k5_cond2 (grid5.coords t) = 1#1 ↔ _
  rw [kcond5_eq]
  exact key ((grid5.coords t) 1)

theorem live5_0 (t : Fin cfg5.N) : cfg5.idle 0 (grid5.coords t) = false := rfl
theorem live5_1 (t : Fin cfg5.N) : cfg5.idle 1 (grid5.coords t) = false := rfl
theorem live5_2 (t : Fin cfg5.N) : cfg5.idle 2 (grid5.coords t) = false := rfl
theorem live5_3 (t : Fin cfg5.N) : cfg5.idle 3 (grid5.coords t) = false := rfl
theorem live5_4 (t : Fin cfg5.N) : cfg5.idle 4 (grid5.coords t) = false := rfl
theorem live5_5 (t : Fin cfg5.N) : cfg5.idle 5 (grid5.coords t) = false := rfl
theorem live5_6 (t : Fin cfg5.N) : cfg5.idle 6 (grid5.coords t) = false := rfl
theorem live5_7 (t : Fin cfg5.N) : cfg5.idle 7 (grid5.coords t) = false := rfl

theorem idle5_8 (t : Fin cfg5.N) (h : ¬last5 (grid5.coords t)) : cfg5.idle 8 (grid5.coords t) = true := by
  show (!(k5_cond2 (grid5.coords t) == 1#1)) = true
  simp only [Bool.not_eq_true', beq_eq_false_iff_ne, ne_eq]; exact h

theorem live5_8 (t : Fin cfg5.N) (h : last5 (grid5.coords t)) : cfg5.idle 8 (grid5.coords t) = false := by
  show (!(k5_cond2 (grid5.coords t) == 1#1)) = false
  simp only [Bool.not_eq_false', beq_iff_eq]; exact h

theorem noFlush5_8 (t : Fin cfg5.N) (h : ¬last5 (grid5.coords t)) : (cfg5.win 8).flush t = false := by
  cases hf : (cfg5.win 8).flush t with
  | false => rfl
  | true => exact absurd ((hlast5 t).mpr ((flushOut5 t).mp hf)) h

theorem PhiA5_eq (c : Dev nD) :
    (Pipeline.ΦA spec5 c : sProp 𝕄)
      = iprop(iprop((∃ d, owns (c : Thread nD τ) acc5 fullShare d)
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [acc5, owns_whole]; try rfl

end Cert.Kernel.Hand

end
-- ==== Proof.K.Dat5.lean ====
import proofs.«415291_j87935160418912_3_alg».proof.Proof.K.Sched5
import proofs.«415291_j87935160418912_3_alg».proof.Proof.K.Case3

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)

end Region

def idleOut5 : Vec F S5000x128 .f32 := outV5.read (Elt F) outV5.junk

section Region
variable (V : (c : Dev nD) → (b : Ref sig .tc) → Buf (Elt F) ((c : Thread nD τ).loc b))

def accA5 (c : Dev nD) (t : Fin cfg5.N) (h0 : t.val % 3125 = 0) (h1 : ¬t.val % 3125 = 3124) : Vec F S5000x128 .f32 :=
  sacc3_A c (grid5.coords t) (stg5_0 t) (hstg5_0 t) (stg5_1 t) (hstg5_1 t) (stg5_2 t) (hstg5_2 t) (stg5_3 t) (hstg5_3 t) (stg5_4 t) (hstg5_4 t) (stg5_5 t) (hstg5_5 t) (stg5_6 t) (hstg5_6 t) (stg5_7 t) (hstg5_7 t) (stg5_8 t) (hstg5_8 t) acc5 (Memref.isWhole_whole _) ((hfirst5 t).mpr h0) (fun h => h1 ((hlast5 t).mp h)) (iblk5 V c 0 t) (iblk5 V c 1 t) (iblk5 V c 2 t) (iblk5 V c 3 t) (iblk5 V c 4 t) (iblk5 V c 5 t) (iblk5 V c 6 t) (iblk5 V c 7 t)
def accB5 (c : Dev nD) (t : Fin cfg5.N) (h0 : ¬t.val % 3125 = 0) (h1 : ¬t.val % 3125 = 3124) (xs : Vec F S5000x128 .f32) : Vec F S5000x128 .f32 :=
  sacc3_B c (grid5.coords t) (stg5_0 t) (hstg5_0 t) (stg5_1 t) (hstg5_1 t) (stg5_2 t) (hstg5_2 t) (stg5_3 t) (hstg5_3 t) (stg5_4 t) (hstg5_4 t) (stg5_5 t) (hstg5_5 t) (stg5_6 t) (hstg5_6 t) (stg5_7 t) (hstg5_7 t) (stg5_8 t) (hstg5_8 t) acc5 (Memref.isWhole_whole _) (fun h => h0 ((hfirst5 t).mp h)) (fun h => h1 ((hlast5 t).mp h)) (iblk5 V c 0 t) (iblk5 V c 1 t) (iblk5 V c 2 t) (iblk5 V c 3 t) (iblk5 V c 4 t) (iblk5 V c 5 t) (iblk5 V c 6 t) (iblk5 V c 7 t) xs
def accC5 (c : Dev nD) (t : Fin cfg5.N) (h0 : ¬t.val % 3125 = 0) (h1 : t.val % 3125 = 3124) (xs : Vec F S5000x128 .f32) : Vec F S5000x128 .f32 :=
  sacc3_C c (grid5.coords t) (stg5_0 t) (hstg5_0 t) (stg5_1 t) (hstg5_1 t) (stg5_2 t) (hstg5_2 t) (stg5_3 t) (hstg5_3 t) (stg5_4 t) (hstg5_4 t) (stg5_5 t) (hstg5_5 t) (stg5_6 t) (hstg5_6 t) (stg5_7 t) (hstg5_7 t) (stg5_8 t) (hstg5_8 t) acc5 (Memref.isWhole_whole _) (fun h => h0 ((hfirst5 t).mp h)) ((hlast5 t).mpr h1) (iblk5 V c 0 t) (iblk5 V c 1 t) (iblk5 V c 2 t) (iblk5 V c 3 t) (iblk5 V c 4 t) (iblk5 V c 5 t) (iblk5 V c 6 t) (iblk5 V c 7 t) xs
def outC5 (c : Dev nD) (t : Fin cfg5.N) (h0 : ¬t.val % 3125 = 0) (h1 : t.val % 3125 = 3124) (xs : Vec F S5000x128 .f32) : Vec F S5000x128 .f32 :=
  out3_C c (grid5.coords t) (stg5_0 t) (hstg5_0 t) (stg5_1 t) (hstg5_1 t) (stg5_2 t) (hstg5_2 t) (stg5_3 t) (hstg5_3 t) (stg5_4 t) (hstg5_4 t) (stg5_5 t) (hstg5_5 t) (stg5_6 t) (hstg5_6 t) (stg5_7 t) (hstg5_7 t) (stg5_8 t) (hstg5_8 t) acc5 (Memref.isWhole_whole _) (fun h => h0 ((hfirst5 t).mp h)) ((hlast5 t).mpr h1) (iblk5 V c 0 t) (iblk5 V c 1 t) (iblk5 V c 2 t) (iblk5 V c 3 t) (iblk5 V c 4 t) (iblk5 V c 5 t) (iblk5 V c 6 t) (iblk5 V c 7 t) xs

-- The output block and the accumulator after point n: the point's case applied to its input blocks and to what point n - 1 left.
def outsAt5 (c : Dev nD) : (n : ℕ) → n < cfg5.N → Vec F S5000x128 .f32 × Vec F S5000x128 .f32
  | 0, hn => (idleOut5, accA5 V c ⟨0, hn⟩ (Nat.zero_mod _) (show ¬(0 % 3125 = 3124) by decide))
  | n + 1, hn =>
    if h0 : (n + 1) % 3125 = 0 then
      if h1 : (n + 1) % 3125 = 3124 then False.elim (by omega)
      else (idleOut5, accA5 V c ⟨n + 1, hn⟩ h0 h1)
    else
      if h1 : (n + 1) % 3125 = 3124 then
        (outC5 V c ⟨n + 1, hn⟩ h0 h1 (outsAt5 c n (Nat.lt_of_succ_lt hn)).2, accC5 V c ⟨n + 1, hn⟩ h0 h1 (outsAt5 c n (Nat.lt_of_succ_lt hn)).2)
      else (idleOut5, accB5 V c ⟨n + 1, hn⟩ h0 h1 (outsAt5 c n (Nat.lt_of_succ_lt hn)).2)

theorem outsAt5_A (c : Dev nD) (t : Fin cfg5.N) (h0 : t.val % 3125 = 0) (h1 : ¬t.val % 3125 = 3124) :
    outsAt5 V c t.val t.isLt = (idleOut5, accA5 V c t h0 h1) := by
  obtain ⟨n, hn⟩ := t
  cases n with
  | zero => exact rfl
  | succ n => exact (dif_pos h0).trans ((dif_neg h1).trans rfl)

theorem outsAt5_B (c : Dev nD) (t : Fin cfg5.N) (h0 : ¬t.val % 3125 = 0) (h1 : ¬t.val % 3125 = 3124) :
    outsAt5 V c t.val t.isLt = (idleOut5, accB5 V c t h0 h1 (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt5_C (c : Dev nD) (t : Fin cfg5.N) (h0 : ¬t.val % 3125 = 0) (h1 : t.val % 3125 = 3124) :
    outsAt5 V c t.val t.isLt = (outC5 V c t h0 h1 (outsAt5 V c (t.val - 1) (Nat.lt_of_le_of_lt (Nat.sub_le _ _) t.isLt)).2,
      accC5 V c t h0 h1 (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS5 (c : Dev nD) : (n : ℕ) → n ≤ cfg5.N → sProp 𝕄
  | 0, _ => Pipeline.ΦA spec5 c
  | n + 1, hn => iprop(iprop(owns (c : Thread nD τ) acc5 fullShare ((outsAt5 V c n hn).2) ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl
theorem PhiS5_succ (c : Dev nD) (n : ℕ) (hn : n < cfg5.N) :
    PhiS5 V c (n + 1) hn = iprop(iprop(owns (c : Thread nD τ) acc5 fullShare ((outsAt5 V c n hn).2) ∗ Pipeline.scopedRestBut (Ix := Unit) (Name := ℕ) (U := UR sig nD τ) (Lvl := ℕ) (Val := Elt F) spec5 c [cc5_scratch0]) ∗ (∃ r, prngReg c r)) := rfl
theorem PhiS5_pos (c : Dev nD) (n : ℕ) (h : n ≤ cfg5.N) (hz : n ≠ 0) :
    PhiS5 V c n h = iprop(iprop(owns (c : Thread nD τ) acc5 fullShare ((outsAt5 V c (n - 1) (by omega)).2) ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

-- The invariant after any point implies the one before the first: what the accumulator holds is forgotten.
theorem PhiS5_weak (c : Dev nD) (n : ℕ) (h : n ≤ cfg5.N) : PhiS5 V c n h ⊢ Pipeline.ΦA spec5 c := by
  cases n with
  | zero => rw [PhiS5_zero V c 0 h rfl]; try exact Entails.refl _
  | succ n =>
    rw [PhiS5_succ, PhiA5_eq]
    iintro ⟨⟨HS, Hrest⟩, Hg⟩
    isplitl [HS Hrest]
    · isplitl [HS]
      · iexists _; iexact HS
      iexact Hrest
    iexact Hg

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]
theorem PhiS5_castSucc (c : Dev nD) (t : Fin cfg5.N) :
    (dat5 V c).Φ t.castSucc = PhiS5 V c t.val (Nat.le_of_lt t.isLt) := by
  dsimp only [dat5]; simp only [Fin.coe_castSucc]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = (outsAt5 V c t.val t.isLt).1 := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d

def bodyPre5 (c : Dev nD) (t : Fin cfg5.N) : sProp 𝕄 :=
  iprop((dat5 V c).Φ t.castSucc ∗ (dat5 V c).owesAt () t.castSucc
    ∗ (∃ d, owns (c : Thread nD τ) (stg5_0 t) fullShare ((dat5 V c).before 0 t d))
    ∗ (∃ d, owns (c : Thread nD τ) (stg5_1 t) fullShare ((dat5 V c).before 1 t d))
    ∗ (∃ d, owns (c : Thread nD τ) (stg5_2 t) fullShare ((dat5 V c).before 2 t d))
    ∗ (∃ d, owns (c : Thread nD τ) (stg5_3 t) fullShare ((dat5 V c).before 3 t d))
    ∗ (∃ d, owns (c : Thread nD τ) (stg5_4 t) fullShare ((dat5 V c).before 4 t d))
    ∗ (∃ d, owns (c : Thread nD τ) (stg5_5 t) fullShare ((dat5 V c).before 5 t d))
    ∗ (∃ d, owns (c : Thread nD τ) (stg5_6 t) fullShare ((dat5 V c).before 6 t d))
    ∗ (∃ d, owns (c : Thread nD τ) (stg5_7 t) fullShare ((dat5 V c).before 7 t d))
    ∗ (∃ d, owns (c : Thread nD τ) (stg5_8 t) fullShare ((dat5 V c).before 8 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t
    ∗ (dat5 V c).leavesExact 6 t
    ∗ (dat5 V c).leavesExact 7 t
    ∗ (dat5 V c).leavesExact 8 t)

-- The body keeps the invariant at every point: the accumulator is reset at a run's first point, added to at each, combined and written out at the last.
set_option maxHeartbeats 9600000 in

theorem sound_body5 (c : Dev nD) (t : Fin cfg5.N) :
    bodyPre5 V c t ⊢ wp frame (wpE (defs₀ (F := F)) Variants.none c none) Set.univ (body5 t) (fun _ => bodyPost5 V c t) := by
  unfold bodyPre5 bodyPost5 body5
  simp only [before5_0, before5_1, before5_2, before5_3, before5_4, before5_5, before5_6, before5_7]
  rw [show (dat5 V c).owesAt () t.succ = (dat5 V c).owesAt () t.castSucc from rfl]
  rw [show (dat5 V c).Φ t.succ = PhiS5 V c (t.val + 1) t.isLt from rfl, PhiS5_succ]
  rw [show (dat5 V c).leavesExact 0 t = owns (c : Thread nD τ) (stg5_0 t) fullShare ((dat5 V c).after 0 t) from by
    unfold Dat.leavesExact; rw [live5_0 t], after5_0]
  rw [show (dat5 V c).leavesExact 1 t = owns (c : Thread nD τ) (stg5_1 t) fullShare ((dat5 V c).after 1 t) from by
    unfold Dat.leavesExact; rw [live5_1 t], after5_1]
  rw [show (dat5 V c).leavesExact 2 t = owns (c : Thread nD τ) (stg5_2 t) fullShare ((dat5 V c).after 2 t) from by
    unfold Dat.leavesExact; rw [live5_2 t], after5_2]
  rw [show (dat5 V c).leavesExact 3 t = owns (c : Thread nD τ) (stg5_3 t) fullShare ((dat5 V c).after 3 t) from by
    unfold Dat.leavesExact; rw [live5_3 t], after5_3]
  rw [show (dat5 V c).leavesExact 4 t = owns (c : Thread nD τ) (stg5_4 t) fullShare ((dat5 V c).after 4 t) from by
    unfold Dat.leavesExact; rw [live5_4 t], after5_4]
  rw [show (dat5 V c).leavesExact 5 t = owns (c : Thread nD τ) (stg5_5 t) fullShare ((dat5 V c).after 5 t) from by
    unfold Dat.leavesExact; rw [live5_5 t], after5_5]
  rw [show (dat5 V c).leavesExact 6 t = owns (c : Thread nD τ) (stg5_6 t) fullShare ((dat5 V c).after 6 t) from by
    unfold Dat.leavesExact; rw [live5_6 t], after5_6]
  rw [show (dat5 V c).leavesExact 7 t = owns (c : Thread nD τ) (stg5_7 t) fullShare ((dat5 V c).after 7 t) from by
    unfold Dat.leavesExact; rw [live5_7 t], after5_7]
  by_cases h0 : t.val % 3125 = 0
  · have h1 : ¬t.val % 3125 = 3124 := by omega
    rw [Dat.leavesExact_idle (dat5 V c) 8 t (idle5_8 t (fun h => h1 ((hlast5 t).mp h))) (noFlush5_8 t (fun h => h1 ((hlast5 t).mp h)))]
    rw [outsAt5_A V c t h0 h1]
    unfold accA5 sacc3_A; (try dsimp only)
    rw [PhiS5_castSucc V c t]
    refine BIBase.Entails.trans (sep_mono_left (PhiS5_weak V c _ _)) ?_
    rw [PhiA5_eq]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((run3_A c (grid5.coords t) _ (hstg5_0 t) _ (hstg5_1 t) _ (hstg5_2 t) _ (hstg5_3 t) _ (hstg5_4 t) _ (hstg5_5 t) _ (hstg5_6 t) _ (hstg5_7 t) _ (hstg5_8 t) _ (Memref.isWhole_whole _) ((hfirst5 t).mpr h0) (fun h => h1 ((hlast5 t).mp h)) (iblk5 V c 0 t) (iblk5 V c 1 t) (iblk5 V c 2 t) (iblk5 V c 3 t) (iblk5 V c 4 t) (iblk5 V c 5 t) (iblk5 V c 6 t) (iblk5 V c 7 t)).2 _ Set.univ _)
    iframe H0 H1 H2 H3 H4 H5 H6 H7 H8 HS
    iintro ⟨H0, H1, H2, H3, H4, H5, H6, H7, H8, ⟨%es, HS⟩⟩
    iframe Hrest Hg Ho H0 H1 H2 H3 H4 H5 H6 H7
    isplitl [HS]
    · unfold owns; iexists _; isplitr
      swap; · iexact HS
      ipureintro; exact View.read_writes_eq_canon _ _ _ (scover3_A c _ _ _ _ _ _ _ _ _ _ _ _ _ _ _ _ _ _ _ _ _ _ _ _ _ _ _ _ _ _ _)
    iexists _; iexact H8
  · have hz : t.val ≠ 0 := fun h => h0 (by rw [h])
    by_cases h1 : t.val % 3125 = 3124
    · rw [show (dat5 V c).leavesExact 8 t = owns (c : Thread nD τ) (stg5_8 t) fullShare ((dat5 V c).after 8 t) from by
        unfold Dat.leavesExact; rw [live5_8 t ((hlast5 t).mpr h1)], after5_8]
      rw [outsAt5_C V c t h0 h1]
      unfold outC5 accC5 out3_C sacc3_C; (try dsimp only)
      rw [PhiS5_castSucc V c t, PhiS5_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((run3_C c (grid5.coords t) _ (hstg5_0 t) _ (hstg5_1 t) _ (hstg5_2 t) _ (hstg5_3 t) _ (hstg5_4 t) _ (hstg5_5 t) _ (hstg5_6 t) _ (hstg5_7 t) _ (hstg5_8 t) _ (Memref.isWhole_whole _) (fun h => h0 ((hfirst5 t).mp h)) ((hlast5 t).mpr h1) (iblk5 V c 0 t) (iblk5 V c 1 t) (iblk5 V c 2 t) (iblk5 V c 3 t) (iblk5 V c 4 t) (iblk5 V c 5 t) (iblk5 V c 6 t) (iblk5 V c 7 t) _).2.2 Set.univ _)
      iframe H0 H1 H2 H3 H4 H5 H6 H7 HS
      isplitl [H8]; · iexists _; iexact H8
      iintro ⟨H0, H1, H2, H3, H4, H5, H6, H7, ⟨%e8, H8⟩, ⟨%es, HS⟩⟩
      iframe Hrest Hg Ho H0 H1 H2 H3 H4 H5 H6 H7
      isplitl [HS]
      · unfold owns; iexists _; isplitr
        swap; · iexact HS
        ipureintro; exact View.read_writes_eq_canon _ _ _ (scover3_C c _ _ _ _ _ _ _ _ _ _ _ _ _ _ _ _ _ _ _ _ _ _ _ _ _ _ _ _ _ _ _ _)
      unfold owns; iexists _; isplitr
      swap; · iexact H8
      ipureintro; exact View.read_writes_eq_canon _ _ _ (cover3_C c _ _ _ _ _ _ _ _ _ _ _ _ _ _ _ _ _ _ _ _ _ _ _ _ _ _ _ _ _ _ _ _)
    · rw [Dat.leavesExact_idle (dat5 V c) 8 t (idle5_8 t (fun h => h1 ((hlast5 t).mp h))) (noFlush5_8 t (fun h => h1 ((hlast5 t).mp h)))]
      rw [outsAt5_B V c t h0 h1]
      unfold accB5 sacc3_B; (try dsimp only)
      rw [PhiS5_castSucc V c t, PhiS5_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((run3_B c (grid5.coords t) _ (hstg5_0 t) _ (hstg5_1 t) _ (hstg5_2 t) _ (hstg5_3 t) _ (hstg5_4 t) _ (hstg5_5 t) _ (hstg5_6 t) _ (hstg5_7 t) _ (hstg5_8 t) _ (Memref.isWhole_whole _) (fun h => h0 ((hfirst5 t).mp h)) (fun h => h1 ((hlast5 t).mp h)) (iblk5 V c 0 t) (iblk5 V c 1 t) (iblk5 V c 2 t) (iblk5 V c 3 t) (iblk5 V c 4 t) (iblk5 V c 5 t) (iblk5 V c 6 t) (iblk5 V c 7 t) _).2 _ Set.univ _)
      iframe H0 H1 H2 H3 H4 H5 H6 H7 H8 HS
      iintro ⟨H0, H1, H2, H3, H4, H5, H6, H7, H8, ⟨%es, HS⟩⟩
      iframe Hrest Hg Ho H0 H1 H2 H3 H4 H5 H6 H7
      isplitl [HS]
      · unfold owns; iexists _; isplitr
        swap; · iexact HS
        ipureintro; exact View.read_writes_eq_canon _ _ _ (scover3_B c _ _ _ _ _ _ _ _ _ _ _ _ _ _ _ _ _ _ _ _ _ _ _ _ _ _ _ _ _ _ _ _)
      iexists _; iexact H8

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

theorem Phi_out5 (c : Dev nD) (t : Fin (cfg5.N + 1)) (ht : t.val ≠ 0) : (dat5 V c).Φ t ⊢ Pipeline.ΦA spec5 c :=
  PhiS5_weak V c _ _

theorem hout5 (c : Dev nD) : (dat5 V c).Φ (Fin.last cfg5.N) ⊢ Pipeline.ΦA spec5 c :=
  Phi_out5 V c _ (by rw [Fin.val_last]; have : cfg5.N = 31250 := N_5; omega)

end Region

end Cert.Kernel.Hand

end
-- ==== Proof.K.Main.lean ====
import proofs.«415291_j87935160418912_3_alg».proof.Proof.K.Dat0
import proofs.«415291_j87935160418912_3_alg».proof.Proof.K.Dat1
import proofs.«415291_j87935160418912_3_alg».proof.Proof.K.Dat2
import proofs.«415291_j87935160418912_3_alg».proof.Proof.K.Dat3
import proofs.«415291_j87935160418912_3_alg».proof.Proof.K.Dat4
import proofs.«415291_j87935160418912_3_alg».proof.Proof.K.Dat5
import proofs.«415291_j87935160418912_3_alg».proof.Proof.Gen.Kernel.Regions
import Idealize.ShloMosaic.Lib.Pipeline.RegionsLoop

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)

abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)

abbrev V5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

abbrev W7 : Dev nD → Valuation τ sig (Elt F) := fun c => StableHlo.after hostOps3 (W6 m ρ c)

abbrev V7 : (c : Dev nD) → (b : Ref sig .tc) → Buf (Elt F) ((c : Thread nD τ).loc b) := fun c b => W7 m ρ c b

def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

abbrev W9 : Dev nD → Valuation τ sig (Elt F) := fun c => StableHlo.after hostOps4 (W8 m ρ c)

abbrev V9 : (c : Dev nD) → (b : Ref sig .tc) → Buf (Elt F) ((c : Thread nD τ).loc b) := fun c b => W9 m ρ c b

def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

abbrev W11 : Dev nD → Valuation τ sig (Elt F) := fun c => StableHlo.after hostOps5 (W10 m ρ c)

abbrev V11 : (c : Dev nD) → (b : Ref sig .tc) → Buf (Elt F) ((c : Thread nD τ).loc b) := fun c b => W11 m ρ c b

def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

abbrev W13 : Dev nD → Valuation τ sig (Elt F) := fun c => StableHlo.after hostOps6 (W12 m ρ c)

abbrev admH : (p : Fin 6) → (pcfgs (F := F) p).Adm := fun p => (cfgs p).toPCfg_adm

def pdats : (p : Fin 6) → (c : Dev nD) → Dat τ (Elt F) Unit ℕ (UR sig nD τ) ℕ (Pipeline.pin (pcfgs (F := F)) admH p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W13 m ρ c) ∗ ∃ r, prngReg c r)

-- A region's segment from its launch facts and its proof data: the six regions differ in nothing else.
set_option backward.isDefEq.respectTransparency.types false in
def mkReg (p : Fin 6) (launch : Pipeline.LaunchFacts (nD := nD) (τ := τ) cfgs p) (Wi Wo : Dev nD → Valuation τ sig (Elt F))
    (hbody : ∀ c, BodyObligation (pdats m ρ p c) (defs₀ (F := F)) 𝒱₀ () Set.univ)
    (howed : ∀ c t, (pdats m ρ p c).owed t = 0) (hrec : ∀ c, (pdats m ρ p c).recorded 0 = Set.univ)
    (hshare : ∀ c w, (pdats m ρ p c).share w = fullShare)
    (hA : ∀ c w, (pdats m ρ p c).A w = Wi c (Pipeline.arrRef (Pipeline.pin (pcfgs (F := F)) admH p).spec w))
    (hΦ0 : ∀ c, (pdats m ρ p c).Φ 0 = Pipeline.ΦA (Pipeline.pin (pcfgs (F := F)) admH p).spec c)
    (hΦN : ∀ c, (pdats m ρ p c).Φ (Fin.last (Pipeline.pin (pcfgs (F := F)) admH p).N) ⊢ Pipeline.ΦA (Pipeline.pin (pcfgs (F := F)) admH p).spec c)
    (hF : ∀ c w, (pdats m ρ p c).arrAt w (Pipeline.pin (pcfgs (F := F)) admH p).N = Wo c (Pipeline.arrRef (Pipeline.pin (pcfgs (F := F)) admH p).spec w))
    (hrest : ∀ c b, b ∉ Finset.univ.image (Pipeline.arrRef (Pipeline.pin (pcfgs (F := F)) admH p).spec) → Wo c b = Wi c b) :
    Pipeline.RegionSeg (pcfgs (F := F)) admH (pdats m ρ) () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) admH p).spec c (fun b => Wi c b)
  hentry c := by
    rw [Pipeline.ownSems0_none]
    have hsplit := Pipeline.arrays_of_unscopedBufs (p := p) (pcfgs (F := F)) admH (pdats m ρ) launch.win launch.arr_whole c
      (hshare c) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (hrec c ▸ Set.mem_univ _)
      iexact HO
    isplitl [Hp]; · iexact Hp
    iexact Hrest
  hin c := by
    rw [hΦ0 c]; unfold Pipeline.ΦA
    iintro ⟨Hp, -, Hr⟩
    isplitl [Hr]; · iexact Hr
    iexact Hp
  hout c := by
    rw [Pipeline.ownSems0_none]
    refine (hΦN c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) admH (Ix := Unit) (Name := ℕ) (U := UR sig nD τ) (Lvl := ℕ)
      launch.win launch.arr_whole c (pdats m ρ) (hshare c)
      (fun b => Wi c b) (fun b => Wo c b) ((pdats m ρ p c).arrAt · (Pipeline.pin (pcfgs (F := F)) admH p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

set_option backward.isDefEq.respectTransparency.types false in
def reg0 : Pipeline.RegionSeg (pcfgs (F := F)) admH (pdats m ρ) () defs₀ 𝒱₀ L lv 0 :=
  mkReg m ρ 0 launch0 (W1 m ρ) (W2 m ρ) (body_obligation0 (V1 m ρ)) (fun _ _ => rfl) (fun _ => rfl) (fun c => (pdats m ρ 0 c).share_full fun _ => rfl)
    (fun _ _ => rfl) (fun _ => rfl) (hout0 (V1 m ρ)) (hF0 m ρ) (hrest0 m ρ)

set_option backward.isDefEq.respectTransparency.types false in
def reg1 : Pipeline.RegionSeg (pcfgs (F := F)) admH (pdats m ρ) () defs₀ 𝒱₀ L lv 1 :=
  mkReg m ρ 1 launch1 (W3 m ρ) (W4 m ρ) (body_obligation1 (V3 m ρ)) (fun _ _ => rfl) (fun _ => rfl) (fun c => (pdats m ρ 1 c).share_full fun _ => rfl)
    (fun _ _ => rfl) (fun _ => rfl) (hout1 (V3 m ρ)) (hF1 m ρ) (hrest1 m ρ)

set_option backward.isDefEq.respectTransparency.types false in
def reg2 : Pipeline.RegionSeg (pcfgs (F := F)) admH (pdats m ρ) () defs₀ 𝒱₀ L lv 2 :=
  mkReg m ρ 2 launch2 (W5 m ρ) (W6 m ρ) (body_obligation2 (V5 m ρ)) (fun _ _ => rfl) (fun _ => rfl) (fun c => (pdats m ρ 2 c).share_full fun _ => rfl)
    (fun _ _ => rfl) (fun _ => rfl) (hout2 (V5 m ρ)) (hF2 m ρ) (hrest2 m ρ)

set_option backward.isDefEq.respectTransparency.types false in
def reg3 : Pipeline.RegionSeg (pcfgs (F := F)) admH (pdats m ρ) () defs₀ 𝒱₀ L lv 3 :=
  mkReg m ρ 3 launch3 (W7 m ρ) (W8 m ρ) (body_obligation3 (V7 m ρ)) (fun _ _ => rfl) (fun _ => rfl) (fun c => (pdats m ρ 3 c).share_full fun _ => rfl)
    (fun _ _ => rfl) (fun _ => rfl) (hout3 (V7 m ρ)) (hF3 m ρ) (hrest3 m ρ)

set_option backward.isDefEq.respectTransparency.types false in
def reg4 : Pipeline.RegionSeg (pcfgs (F := F)) admH (pdats m ρ) () defs₀ 𝒱₀ L lv 4 :=
  mkReg m ρ 4 launch4 (W9 m ρ) (W10 m ρ) (body_obligation4 (V9 m ρ)) (fun _ _ => rfl) (fun _ => rfl) (fun c => (pdats m ρ 4 c).share_full fun _ => rfl)
    (fun _ _ => rfl) (fun _ => rfl) (hout4 (V9 m ρ)) (hF4 m ρ) (hrest4 m ρ)

set_option backward.isDefEq.respectTransparency.types false in
def reg5 : Pipeline.RegionSeg (pcfgs (F := F)) admH (pdats m ρ) () defs₀ 𝒱₀ L lv 5 :=
  mkReg m ρ 5 launch5 (W11 m ρ) (W12 m ρ) (body_obligation5 (V11 m ρ)) (fun _ _ => rfl) (fun _ => rfl) (fun c => (pdats m ρ 5 c).share_full fun _ => rfl)
    (fun _ _ => rfl) (fun _ => rfl) (hout5 (V11 m ρ)) (hF5 m ρ) (hrest5 m ρ)

abbrev segs : List (Pipeline.Seg (pcfgs (F := F)) admH (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)) ]

theorem main_run (c : Dev nD) : main (F := F) c = Pipeline.Seg.run (segs m ρ) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) admH (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W13 m ρ c) ∗ R c)
        ⊢ iprop(Tₙ m ρ c ∗ ∃ W, owes (c : Thread nD τ) (0 : CellTallies nD τ sig Unit) W)
      iintro ⟨Hh, Hp, HO⟩
      isplitr [HO]
      · isplitl [Hh]; · iexact Hh
        iexact Hp
      · iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h => h)

end Cert.Kernel.Hand

end
-- ==== Proof.K.Frame.lean ====
import proofs.«415291_j87935160418912_3_alg».proof.Proof.K.Main

noncomputable section

namespace Cert.Kernel.Hand

open Cert.Kernel Cert.Kernel.Gen
open Idealize.ShloMosaic Idealize.ShloMosaic.TcCoe Idealize.ShloMosaic.Tactic

variable {F : FTy → Type} [FloatOps F]

variable (m : (ℓ : Loc nD τ sig) → Buf (Elt F) ℓ) (ρ : Dev nD → PrngReg)

theorem W2_keep (c : Dev nD) (b : Ref sig .tc) (hb : b ≠ Pipeline.arrRef spec0 2) :
    W2 m ρ c (Proc.devRef .tc b) = W1 m ρ c (Proc.devRef .tc b) := by
  by_cases h : ∀ w, Pipeline.arrRef spec0 w ≠ b
  · exact W2_of_ne m ρ c b h
  · push Not at h
    obtain ⟨w, rfl⟩ := h
    rw [W2_arr]
    match w, hb with
    | ⟨0, _⟩, _ => exact ((dat0 (V1 m ρ) c).arrAt_in 0 rfl _).trans (A_eq0 (V1 m ρ) c 0)
    | ⟨1, _⟩, _ => exact ((dat0 (V1 m ρ) c).arrAt_in 1 rfl _).trans (A_eq0 (V1 m ρ) c 1)
    | ⟨2, _⟩, hb => exact absurd rfl hb

theorem W4_keep (c : Dev nD) (b : Ref sig .tc) (hb : b ≠ Pipeline.arrRef spec1 8) :
    W4 m ρ c (Proc.devRef .tc b) = W3 m ρ c (Proc.devRef .tc b) := by
  by_cases h : ∀ w, Pipeline.arrRef spec1 w ≠ b
  · exact W4_of_ne m ρ c b h
  · push Not at h
    obtain ⟨w, rfl⟩ := h
    rw [W4_arr]
    match w, hb with
    | ⟨0, _⟩, _ => exact ((dat1 (V3 m ρ) c).arrAt_in 0 rfl _).trans (A_eq1 (V3 m ρ) c 0)
    | ⟨1, _⟩, _ => exact ((dat1 (V3 m ρ) c).arrAt_in 1 rfl _).trans (A_eq1 (V3 m ρ) c 1)
    | ⟨2, _⟩, _ => exact ((dat1 (V3 m ρ) c).arrAt_in 2 rfl _).trans (A_eq1 (V3 m ρ) c 2)
    | ⟨3, _⟩, _ => exact ((dat1 (V3 m ρ) c).arrAt_in 3 rfl _).trans (A_eq1 (V3 m ρ) c 3)
    | ⟨4, _⟩, _ => exact ((dat1 (V3 m ρ) c).arrAt_in 4 rfl _).trans (A_eq1 (V3 m ρ) c 4)
    | ⟨5, _⟩, _ => exact ((dat1 (V3 m ρ) c).arrAt_in 5 rfl _).trans (A_eq1 (V3 m ρ) c 5)
    | ⟨6, _⟩, _ => exact ((dat1 (V3 m ρ) c).arrAt_in 6 rfl _).trans (A_eq1 (V3 m ρ) c 6)
    | ⟨7, _⟩, _ => exact ((dat1 (V3 m ρ) c).arrAt_in 7 rfl _).trans (A_eq1 (V3 m ρ) c 7)
    | ⟨8, _⟩, hb => exact absurd rfl hb

theorem W6_keep (c : Dev nD) (b : Ref sig .tc) (hb : b ≠ Pipeline.arrRef spec2 2) :
    W6 m ρ c (Proc.devRef .tc b) = W5 m ρ c (Proc.devRef .tc b) := by
  by_cases h : ∀ w, Pipeline.arrRef spec2 w ≠ b
  · exact W6_of_ne m ρ c b h
  · push Not at h
    obtain ⟨w, rfl⟩ := h
    rw [W6_arr]
    match w, hb with
    | ⟨0, _⟩, _ => exact ((dat2 (V5 m ρ) c).arrAt_in 0 rfl _).trans (A_eq2 (V5 m ρ) c 0)
    | ⟨1, _⟩, _ => exact ((dat2 (V5 m ρ) c).arrAt_in 1 rfl _).trans (A_eq2 (V5 m ρ) c 1)
    | ⟨2, _⟩, hb => exact absurd rfl hb

theorem W8_keep (c : Dev nD) (b : Ref sig .tc) (hb : b ≠ Pipeline.arrRef spec3 8) :
    W8 m ρ c (Proc.devRef .tc b) = W7 m ρ c (Proc.devRef .tc b) := by
  by_cases h : ∀ w, Pipeline.arrRef spec3 w ≠ b
  · exact W8_of_ne m ρ c b h
  · push Not at h
    obtain ⟨w, rfl⟩ := h
    rw [W8_arr]
    match w, hb with
    | ⟨0, _⟩, _ => exact ((dat3 (V7 m ρ) c).arrAt_in 0 rfl _).trans (A_eq3 (V7 m ρ) c 0)
    | ⟨1, _⟩, _ => exact ((dat3 (V7 m ρ) c).arrAt_in 1 rfl _).trans (A_eq3 (V7 m ρ) c 1)
    | ⟨2, _⟩, _ => exact ((dat3 (V7 m ρ) c).arrAt_in 2 rfl _).trans (A_eq3 (V7 m ρ) c 2)
    | ⟨3, _⟩, _ => exact ((dat3 (V7 m ρ) c).arrAt_in 3 rfl _).trans (A_eq3 (V7 m ρ) c 3)
    | ⟨4, _⟩, _ => exact ((dat3 (V7 m ρ) c).arrAt_in 4 rfl _).trans (A_eq3 (V7 m ρ) c 4)
    | ⟨5, _⟩, _ => exact ((dat3 (V7 m ρ) c).arrAt_in 5 rfl _).trans (A_eq3 (V7 m ρ) c 5)
    | ⟨6, _⟩, _ => exact ((dat3 (V7 m ρ) c).arrAt_in 6 rfl _).trans (A_eq3 (V7 m ρ) c 6)
    | ⟨7, _⟩, _ => exact ((dat3 (V7 m ρ) c).arrAt_in 7 rfl _).trans (A_eq3 (V7 m ρ) c 7)
    | ⟨8, _⟩, hb => exact absurd rfl hb

theorem W10_keep (c : Dev nD) (b : Ref sig .tc) (hb : b ≠ Pipeline.arrRef spec4 2) :
    W10 m ρ c (Proc.devRef .tc b) = W9 m ρ c (Proc.devRef .tc b) := by
  by_cases h : ∀ w, Pipeline.arrRef spec4 w ≠ b
  · exact W10_of_ne m ρ c b h
  · push Not at h
    obtain ⟨w, rfl⟩ := h
    rw [W10_arr]
    match w, hb with
    | ⟨0, _⟩, _ => exact ((dat4 (V9 m ρ) c).arrAt_in 0 rfl _).trans (A_eq4 (V9 m ρ) c 0)
    | ⟨1, _⟩, _ => exact ((dat4 (V9 m ρ) c).arrAt_in 1 rfl _).trans (A_eq4 (V9 m ρ) c 1)
    | ⟨2, _⟩, hb => exact absurd rfl hb

theorem W12_keep (c : Dev nD) (b : Ref sig .tc) (hb : b ≠ Pipeline.arrRef spec5 8) :
    W12 m ρ c (Proc.devRef .tc b) = W11 m ρ c (Proc.devRef .tc b) := by
  by_cases h : ∀ w, Pipeline.arrRef spec5 w ≠ b
  · exact W12_of_ne m ρ c b h
  · push Not at h
    obtain ⟨w, rfl⟩ := h
    rw [W12_arr]
    match w, hb with
    | ⟨0, _⟩, _ => exact ((dat5 (V11 m ρ) c).arrAt_in 0 rfl _).trans (A_eq5 (V11 m ρ) c 0)
    | ⟨1, _⟩, _ => exact ((dat5 (V11 m ρ) c).arrAt_in 1 rfl _).trans (A_eq5 (V11 m ρ) c 1)
    | ⟨2, _⟩, _ => exact ((dat5 (V11 m ρ) c).arrAt_in 2 rfl _).trans (A_eq5 (V11 m ρ) c 2)
    | ⟨3, _⟩, _ => exact ((dat5 (V11 m ρ) c).arrAt_in 3 rfl _).trans (A_eq5 (V11 m ρ) c 3)
    | ⟨4, _⟩, _ => exact ((dat5 (V11 m ρ) c).arrAt_in 4 rfl _).trans (A_eq5 (V11 m ρ) c 4)
    | ⟨5, _⟩, _ => exact ((dat5 (V11 m ρ) c).arrAt_in 5 rfl _).trans (A_eq5 (V11 m ρ) c 5)
    | ⟨6, _⟩, _ => exact ((dat5 (V11 m ρ) c).arrAt_in 6 rfl _).trans (A_eq5 (V11 m ρ) c 6)
    | ⟨7, _⟩, _ => exact ((dat5 (V11 m ρ) c).arrAt_in 7 rfl _).trans (A_eq5 (V11 m ρ) c 7)
    | ⟨8, _⟩, hb => exact absurd rfl hb

theorem W13_main_arg0 (c : Dev nD) : W13 m ρ c (Proc.devRef .tc main_arg0) = m ((c : Thread nD τ).loc main_arg0) :=
  (StableHlo.after_of_writes_sub hostOps6 _ hostOps6_writes (by decide)).trans <| (W12_keep m ρ c main_arg0 (by decide)).trans <| (StableHlo.after_of_writes_sub hostOps5 _ hostOps5_writes (by decide)).trans <| (W10_keep m ρ c main_arg0 (by decide)).trans <| (StableHlo.after_of_writes_sub hostOps4 _ hostOps4_writes (by decide)).trans <| (W8_keep m ρ c main_arg0 (by decide)).trans <| (StableHlo.after_of_writes_sub hostOps3 _ hostOps3_writes (by decide)).trans <| (W6_keep m ρ c main_arg0 (by decide)).trans <| (StableHlo.after_of_writes_sub hostOps2 _ hostOps2_writes (by decide)).trans <| (W4_keep m ρ c main_arg0 (by decide)).trans <| (StableHlo.after_of_writes_sub hostOps1 _ hostOps1_writes (by decide)).trans <| (W2_keep m ρ c main_arg0 (by decide)).trans <| (StableHlo.after_of_writes_sub hostOps0 _ hostOps0_writes (by decide)).trans rfl
theorem W13_main_arg1 (c : Dev nD) : W13 m ρ c (Proc.devRef .tc main_arg1) = m ((c : Thread nD τ).loc main_arg1) :=
  (StableHlo.after_of_writes_sub hostOps6 _ hostOps6_writes (by decide)).trans <| (W12_keep m ρ c main_arg1 (by decide)).trans <| (StableHlo.after_of_writes_sub hostOps5 _ hostOps5_writes (by decide)).trans <| (W10_keep m ρ c main_arg1 (by decide)).trans <| (StableHlo.after_of_writes_sub hostOps4 _ hostOps4_writes (by decide)).trans <| (W8_keep m ρ c main_arg1 (by decide)).trans <| (StableHlo.after_of_writes_sub hostOps3 _ hostOps3_writes (by decide)).trans <| (W6_keep m ρ c main_arg1 (by decide)).trans <| (StableHlo.after_of_writes_sub hostOps2 _ hostOps2_writes (by decide)).trans <| (W4_keep m ρ c main_arg1 (by decide)).trans <| (StableHlo.after_of_writes_sub hostOps1 _ hostOps1_writes (by decide)).trans <| (W2_keep m ρ c main_arg1 (by decide)).trans <| (StableHlo.after_of_writes_sub hostOps0 _ hostOps0_writes (by decide)).trans rfl
theorem W13_main_arg2 (c : Dev nD) : W13 m ρ c (Proc.devRef .tc main_arg2) = m ((c : Thread nD τ).loc main_arg2) :=
  (StableHlo.after_of_writes_sub hostOps6 _ hostOps6_writes (by decide)).trans <| (W12_keep m ρ c main_arg2 (by decide)).trans <| (StableHlo.after_of_writes_sub hostOps5 _ hostOps5_writes (by decide)).trans <| (W10_keep m ρ c main_arg2 (by decide)).trans <| (StableHlo.after_of_writes_sub hostOps4 _ hostOps4_writes (by decide)).trans <| (W8_keep m ρ c main_arg2 (by decide)).trans <| (StableHlo.after_of_writes_sub hostOps3 _ hostOps3_writes (by decide)).trans <| (W6_keep m ρ c main_arg2 (by decide)).trans <| (StableHlo.after_of_writes_sub hostOps2 _ hostOps2_writes (by decide)).trans <| (W4_keep m ρ c main_arg2 (by decide)).trans <| (StableHlo.after_of_writes_sub hostOps1 _ hostOps1_writes (by decide)).trans <| (W2_keep m ρ c main_arg2 (by decide)).trans <| (StableHlo.after_of_writes_sub hostOps0 _ hostOps0_writes (by decide)).trans rfl
theorem W13_main_arg3 (c : Dev nD) : W13 m ρ c (Proc.devRef .tc main_arg3) = m ((c : Thread nD τ).loc main_arg3) :=
  (StableHlo.after_of_writes_sub hostOps6 _ hostOps6_writes (by decide)).trans <| (W12_keep m ρ c main_arg3 (by decide)).trans <| (StableHlo.after_of_writes_sub hostOps5 _ hostOps5_writes (by decide)).trans <| (W10_keep m ρ c main_arg3 (by decide)).trans <| (StableHlo.after_of_writes_sub hostOps4 _ hostOps4_writes (by decide)).trans <| (W8_keep m ρ c main_arg3 (by decide)).trans <| (StableHlo.after_of_writes_sub hostOps3 _ hostOps3_writes (by decide)).trans <| (W6_keep m ρ c main_arg3 (by decide)).trans <| (StableHlo.after_of_writes_sub hostOps2 _ hostOps2_writes (by decide)).trans <| (W4_keep m ρ c main_arg3 (by decide)).trans <| (StableHlo.after_of_writes_sub hostOps1 _ hostOps1_writes (by decide)).trans <| (W2_keep m ρ c main_arg3 (by decide)).trans <| (StableHlo.after_of_writes_sub hostOps0 _ hostOps0_writes (by decide)).trans rfl
theorem W13_main_arg4 (c : Dev nD) : W13 m ρ c (Proc.devRef .tc main_arg4) = m ((c : Thread nD τ).loc main_arg4) :=
  (StableHlo.after_of_writes_sub hostOps6 _ hostOps6_writes (by decide)).trans <| (W12_keep m ρ c main_arg4 (by decide)).trans <| (StableHlo.after_of_writes_sub hostOps5 _ hostOps5_writes (by decide)).trans <| (W10_keep m ρ c main_arg4 (by decide)).trans <| (StableHlo.after_of_writes_sub hostOps4 _ hostOps4_writes (by decide)).trans <| (W8_keep m ρ c main_arg4 (by decide)).trans <| (StableHlo.after_of_writes_sub hostOps3 _ hostOps3_writes (by decide)).trans <| (W6_keep m ρ c main_arg4 (by decide)).trans <| (StableHlo.after_of_writes_sub hostOps2 _ hostOps2_writes (by decide)).trans <| (W4_keep m ρ c main_arg4 (by decide)).trans <| (StableHlo.after_of_writes_sub hostOps1 _ hostOps1_writes (by decide)).trans <| (W2_keep m ρ c main_arg4 (by decide)).trans <| (StableHlo.after_of_writes_sub hostOps0 _ hostOps0_writes (by decide)).trans rfl
theorem W13_main_arg5 (c : Dev nD) : W13 m ρ c (Proc.devRef .tc main_arg5) = m ((c : Thread nD τ).loc main_arg5) :=
  (StableHlo.after_of_writes_sub hostOps6 _ hostOps6_writes (by decide)).trans <| (W12_keep m ρ c main_arg5 (by decide)).trans <| (StableHlo.after_of_writes_sub hostOps5 _ hostOps5_writes (by decide)).trans <| (W10_keep m ρ c main_arg5 (by decide)).trans <| (StableHlo.after_of_writes_sub hostOps4 _ hostOps4_writes (by decide)).trans <| (W8_keep m ρ c main_arg5 (by decide)).trans <| (StableHlo.after_of_writes_sub hostOps3 _ hostOps3_writes (by decide)).trans <| (W6_keep m ρ c main_arg5 (by decide)).trans <| (StableHlo.after_of_writes_sub hostOps2 _ hostOps2_writes (by decide)).trans <| (W4_keep m ρ c main_arg5 (by decide)).trans <| (StableHlo.after_of_writes_sub hostOps1 _ hostOps1_writes (by decide)).trans <| (W2_keep m ρ c main_arg5 (by decide)).trans <| (StableHlo.after_of_writes_sub hostOps0 _ hostOps0_writes (by decide)).trans rfl
theorem W13_main_arg6 (c : Dev nD) : W13 m ρ c (Proc.devRef .tc main_arg6) = m ((c : Thread nD τ).loc main_arg6) :=
  (StableHlo.after_of_writes_sub hostOps6 _ hostOps6_writes (by decide)).trans <| (W12_keep m ρ c main_arg6 (by decide)).trans <| (StableHlo.after_of_writes_sub hostOps5 _ hostOps5_writes (by decide)).trans <| (W10_keep m ρ c main_arg6 (by decide)).trans <| (StableHlo.after_of_writes_sub hostOps4 _ hostOps4_writes (by decide)).trans <| (W8_keep m ρ c main_arg6 (by decide)).trans <| (StableHlo.after_of_writes_sub hostOps3 _ hostOps3_writes (by decide)).trans <| (W6_keep m ρ c main_arg6 (by decide)).trans <| (StableHlo.after_of_writes_sub hostOps2 _ hostOps2_writes (by decide)).trans <| (W4_keep m ρ c main_arg6 (by decide)).trans <| (StableHlo.after_of_writes_sub hostOps1 _ hostOps1_writes (by decide)).trans <| (W2_keep m ρ c main_arg6 (by decide)).trans <| (StableHlo.after_of_writes_sub hostOps0 _ hostOps0_writes (by decide)).trans rfl
theorem W13_main_arg7 (c : Dev nD) : W13 m ρ c (Proc.devRef .tc main_arg7) = m ((c : Thread nD τ).loc main_arg7) :=
  (StableHlo.after_of_writes_sub hostOps6 _ hostOps6_writes (by decide)).trans <| (W12_keep m ρ c main_arg7 (by decide)).trans <| (StableHlo.after_of_writes_sub hostOps5 _ hostOps5_writes (by decide)).trans <| (W10_keep m ρ c main_arg7 (by decide)).trans <| (StableHlo.after_of_writes_sub hostOps4 _ hostOps4_writes (by decide)).trans <| (W8_keep m ρ c main_arg7 (by decide)).trans <| (StableHlo.after_of_writes_sub hostOps3 _ hostOps3_writes (by decide)).trans <| (W6_keep m ρ c main_arg7 (by decide)).trans <| (StableHlo.after_of_writes_sub hostOps2 _ hostOps2_writes (by decide)).trans <| (W4_keep m ρ c main_arg7 (by decide)).trans <| (StableHlo.after_of_writes_sub hostOps1 _ hostOps1_writes (by decide)).trans <| (W2_keep m ρ c main_arg7 (by decide)).trans <| (StableHlo.after_of_writes_sub hostOps0 _ hostOps0_writes (by decide)).trans rfl
theorem W13_main_arg8 (c : Dev nD) : W13 m ρ c (Proc.devRef .tc main_arg8) = m ((c : Thread nD τ).loc main_arg8) :=
  (StableHlo.after_of_writes_sub hostOps6 _ hostOps6_writes (by decide)).trans <| (W12_keep m ρ c main_arg8 (by decide)).trans <| (StableHlo.after_of_writes_sub hostOps5 _ hostOps5_writes (by decide)).trans <| (W10_keep m ρ c main_arg8 (by decide)).trans <| (StableHlo.after_of_writes_sub hostOps4 _ hostOps4_writes (by decide)).trans <| (W8_keep m ρ c main_arg8 (by decide)).trans <| (StableHlo.after_of_writes_sub hostOps3 _ hostOps3_writes (by decide)).trans <| (W6_keep m ρ c main_arg8 (by decide)).trans <| (StableHlo.after_of_writes_sub hostOps2 _ hostOps2_writes (by decide)).trans <| (W4_keep m ρ c main_arg8 (by decide)).trans <| (StableHlo.after_of_writes_sub hostOps1 _ hostOps1_writes (by decide)).trans <| (W2_keep m ρ c main_arg8 (by decide)).trans <| (StableHlo.after_of_writes_sub hostOps0 _ hostOps0_writes (by decide)).trans rfl
theorem W13_main_arg9 (c : Dev nD) : W13 m ρ c (Proc.devRef .tc main_arg9) = m ((c : Thread nD τ).loc main_arg9) :=
  (StableHlo.after_of_writes_sub hostOps6 _ hostOps6_writes (by decide)).trans <| (W12_keep m ρ c main_arg9 (by decide)).trans <| (StableHlo.after_of_writes_sub hostOps5 _ hostOps5_writes (by decide)).trans <| (W10_keep m ρ c main_arg9 (by decide)).trans <| (StableHlo.after_of_writes_sub hostOps4 _ hostOps4_writes (by decide)).trans <| (W8_keep m ρ c main_arg9 (by decide)).trans <| (StableHlo.after_of_writes_sub hostOps3 _ hostOps3_writes (by decide)).trans <| (W6_keep m ρ c main_arg9 (by decide)).trans <| (StableHlo.after_of_writes_sub hostOps2 _ hostOps2_writes (by decide)).trans <| (W4_keep m ρ c main_arg9 (by decide)).trans <| (StableHlo.after_of_writes_sub hostOps1 _ hostOps1_writes (by decide)).trans <| (W2_keep m ρ c main_arg9 (by decide)).trans <| (StableHlo.after_of_writes_sub hostOps0 _ hostOps0_writes (by decide)).trans rfl
theorem W13_main_arg10 (c : Dev nD) : W13 m ρ c (Proc.devRef .tc main_arg10) = m ((c : Thread nD τ).loc main_arg10) :=
  (StableHlo.after_of_writes_sub hostOps6 _ hostOps6_writes (by decide)).trans <| (W12_keep m ρ c main_arg10 (by decide)).trans <| (StableHlo.after_of_writes_sub hostOps5 _ hostOps5_writes (by decide)).trans <| (W10_keep m ρ c main_arg10 (by decide)).trans <| (StableHlo.after_of_writes_sub hostOps4 _ hostOps4_writes (by decide)).trans <| (W8_keep m ρ c main_arg10 (by decide)).trans <| (StableHlo.after_of_writes_sub hostOps3 _ hostOps3_writes (by decide)).trans <| (W6_keep m ρ c main_arg10 (by decide)).trans <| (StableHlo.after_of_writes_sub hostOps2 _ hostOps2_writes (by decide)).trans <| (W4_keep m ρ c main_arg10 (by decide)).trans <| (StableHlo.after_of_writes_sub hostOps1 _ hostOps1_writes (by decide)).trans <| (W2_keep m ρ c main_arg10 (by decide)).trans <| (StableHlo.after_of_writes_sub hostOps0 _ hostOps0_writes (by decide)).trans rfl

theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c _ (mem_uc main_arg0 (by decide))).trans (W13_main_arg0 m ρ c),
    (h c _ (mem_uc main_arg1 (by decide))).trans (W13_main_arg1 m ρ c),
    (h c _ (mem_uc main_arg2 (by decide))).trans (W13_main_arg2 m ρ c),
    (h c _ (mem_uc main_arg3 (by decide))).trans (W13_main_arg3 m ρ c),
    (h c _ (mem_uc main_arg4 (by decide))).trans (W13_main_arg4 m ρ c),
    (h c _ (mem_uc main_arg5 (by decide))).trans (W13_main_arg5 m ρ c),
    (h c _ (mem_uc main_arg6 (by decide))).trans (W13_main_arg6 m ρ c),
    (h c _ (mem_uc main_arg7 (by decide))).trans (W13_main_arg7 m ρ c),
    (h c _ (mem_uc main_arg8 (by decide))).trans (W13_main_arg8 m ρ c),
    (h c _ (mem_uc main_arg9 (by decide))).trans (W13_main_arg9 m ρ c),
    (h c _ (mem_uc main_arg10 (by decide))).trans (W13_main_arg10 m ρ c)⟩) (run_all m ρ)

end Cert.Kernel.Hand

end
-- ==== Proof.KI.Cond0.lean ====
import proofs.«415291_j87935160418912_3_alg».proof.Proof.Gen.KernelIdeal.Launch
import proofs.«415291_j87935160418912_3_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic

variable {F : FTy → Type} [FloatOps F]

abbrev first0 (i : grid0.Coords) : Prop := (Scalar.cmpi .ne (Scalar.extui (Scalar.cmpi .eq (BitVec.ofNat 32 (i 1).val) 0#32)) 0#32) = 1#1

abbrev last0 (i : grid0.Coords) : Prop := k0_cond2 i = 1#1

abbrev acc0 : Memref sig .tc .vmem S256x128 .f32 := Memref.whole cc0_scratch0

abbrev accV0 : View sig .tc .vmem S256x128 .f32 := acc0.view

abbrev outV0 : View sig .tc .vmem S256x128 .bf16 := (Memref.whole cc0_stg2_0 : Memref sig .tc .vmem S256x128 .bf16).view

end Cert.KernelIdeal.Hand

end
-- ==== Proof.KI.Flush0.lean ====
import proofs.«415291_j87935160418912_3_alg».proof.Proof.KI.Cond0

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

theorem blk0_out (t : Fin cfg0.N) : win0_2.index t = ![t.val / 5 % 3125, 0] := by
  have h0 : ((grid0.coords t) 0).val = t.val / 5 % 3125 := by
    show t.val / grid0.stride 0 % 3125 = _
    rw [show grid0.stride 0 = 5 from by decide]
  show cc0_transform_2 (grid0.coords t) = _
  unfold cc0_transform_2
  dsimp only
  rw [h0, BitVec.toNat_ofNat, Nat.mod_eq_of_lt (by omega : t.val / 5 % 3125 < 2 ^ 32)]
  rfl

theorem flushOut0 : ∀ t : Fin cfg0.N, (cfg0.win 2).flush t = true ↔ t.val % 5 = 4 := fun t => by
  have hN : grid0.N = 15625 := N_0
  have hlt : t.val < grid0.N := t.isLt
  show win0_2.flush t = true ↔ _
  unfold Pipeline.Window.flush
  rw [show win0_2.isOut = true from rfl, Bool.true_and, Bool.or_eq_true, decide_eq_true_eq, decide_eq_true_eq]
  constructor
  · rintro (h | ⟨h, hne⟩)
    · omega
    · rw [blk0_out, blk0_out] at hne
      by_contra hc
      apply hne
      have e : (t.val + 1) / 5 % 3125 = t.val / 5 % 3125 := by omega
      show ![(t.val + 1) / 5 % 3125, 0] = ![t.val / 5 % 3125, 0]
      rw [e]
  · intro h
    by_cases hl : t.val + 1 = grid0.N
    · exact Or.inl hl
    · refine Or.inr ⟨by omega, fun he => ?_⟩
      rw [blk0_out, blk0_out] at he
      have h0 := congrFun he 0
      simp only [Matrix.cons_val_zero] at h0
      omega

end Cert.KernelIdeal.Hand

end
-- ==== Proof.KI.Sched0.lean ====
import proofs.«415291_j87935160418912_3_alg».proof.Proof.KI.Flush0

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev stg0_0 (t : Fin cfg0.N) : Memref sig .tc .vmem S256 .i32 := win0_0.stage (cfg0.slots t 0)
abbrev hstg0_0 (t : Fin cfg0.N) : (stg0_0 t).IsWhole := hstage0_0 ((cfg0.slots t 0).cast nbuf0_0)
abbrev stg0_1 (t : Fin cfg0.N) : Memref sig .tc .vmem S10000x128 .bf16 := win0_1.stage (cfg0.slots t 1)
abbrev hstg0_1 (t : Fin cfg0.N) : (stg0_1 t).IsWhole := hstage0_1 ((cfg0.slots t 1).cast nbuf0_1)
abbrev stg0_2 (t : Fin cfg0.N) : Memref sig .tc .vmem S256x128 .bf16 := win0_2.stage (cfg0.slots t 2)
abbrev hstg0_2 (t : Fin cfg0.N) : (stg0_2 t).IsWhole := hstage0_2 ((cfg0.slots t 2).cast nbuf0_2)

abbrev body0 (t : Fin cfg0.N) : Prog (TpuEff nD τ sig (Elt F) Λ₀ .tc) PUnit :=
  cc0__gather_kernel (grid0.coords t) (stg0_0 t) (hstg0_0 t) (stg0_1 t) (hstg0_1 t) (stg0_2 t) (hstg0_2 t) (Memref.whole cc0_scratch0) (Memref.isWhole_whole _)

theorem coord0_1 (t : Fin cfg0.N) : ((grid0.coords t) 1).val = t.val % 5 := by
  show t.val / grid0.stride 1 % 5 = t.val % 5
  rw [show grid0.stride 1 = 1 from by decide, Nat.div_one]

theorem kcond0_eq (i : grid0.Coords) :
    k0_cond2 i = Scalar.cmpi .ne (Scalar.extui (Scalar.cmpi .eq (BitVec.ofNat 32 (i 1).val) 4#32)) 0#32 := rfl

theorem hfirst0 : ∀ t : Fin cfg0.N, first0 (grid0.coords t) ↔ t.val % 5 = 0 := fun t => by
  have key : ∀ n : Fin 5, ((Scalar.cmpi .ne (Scalar.extui (Scalar.cmpi .eq (BitVec.ofNat 32 n.val) 0#32)) 0#32) = 1#1) ↔ n.val = 0 := by
    decide +kernel
  rw [← coord0_1 t]
  exact key ((grid0.coords t) 1)

theorem hlast0 : ∀ t : Fin cfg0.N, last0 (grid0.coords t) ↔ t.val % 5 = 4 := fun t => by
  have key : ∀ n : Fin 5, ((Scalar.cmpi .ne (Scalar.extui (Scalar.cmpi .eq (BitVec.ofNat 32 n.val) 4#32)) 0#32) = 1#1) ↔ n.val = 4 := by
    decide +kernel
  rw [← coord0_1 t]
  show k0_cond2 (grid0.coords t) = 1#1 ↔ _
  rw [kcond0_eq]
  exact key ((grid0.coords t) 1)

theorem live0_0 (t : Fin cfg0.N) : cfg0.idle 0 (grid0.coords t) = false := rfl
theorem live0_1 (t : Fin cfg0.N) : cfg0.idle 1 (grid0.coords t) = false := rfl

theorem idle0_2 (t : Fin cfg0.N) (h : ¬last0 (grid0.coords t)) : cfg0.idle 2 (grid0.coords t) = true := by
  show (!(k0_cond2 (grid0.coords t) == 1#1)) = true
  simp only [Bool.not_eq_true', beq_eq_false_iff_ne, ne_eq]; exact h

theorem live0_2 (t : Fin cfg0.N) (h : last0 (grid0.coords t)) : cfg0.idle 2 (grid0.coords t) = false := by
  show (!(k0_cond2 (grid0.coords t) == 1#1)) = false
  simp only [Bool.not_eq_false', beq_iff_eq]; exact h

theorem noFlush0_2 (t : Fin cfg0.N) (h : ¬last0 (grid0.coords t)) : (cfg0.win 2).flush t = false := by
  cases hf : (cfg0.win 2).flush t with
  | false => rfl
  | true => exact absurd ((hlast0 t).mpr ((flushOut0 t).mp hf)) h

theorem PhiA0_eq (c : Dev nD) :
    (Pipeline.ΦA spec0 c : sProp 𝕄)
      = iprop(iprop((∃ d, owns (c : Thread nD τ) acc0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [acc0, owns_whole]; try rfl

end Cert.KernelIdeal.Hand

end
-- ==== Proof.KI.Run0A.lean ====
import proofs.«415291_j87935160418912_3_alg».proof.Proof.KI.Cond0

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in

noncomputable def run0_A (c : Dev nD) (i : grid0.Coords) (arg2 : Memref sig .tc .vmem S256 .i32) (harg2 : arg2.IsWhole) (arg3 : Memref sig .tc .vmem S10000x128 .bf16) (harg3 : arg3.IsWhole) (arg4 : Memref sig .tc .vmem S256x128 .bf16) (harg4 : arg4.IsWhole) (arg5 : Memref sig .tc .vmem S256x128 .f32) (harg5 : arg5.IsWhole) (hc0 : first0 i) (hc1 : ¬last0 i)
    (x0 : Vec F S256 .i32) (x1 : Vec F S10000x128 .bf16) :
    { LS : List (View.Piece (Elt F) S256x128 .f32) //
      ∀ (xi : Vec F S256x128 .bf16) (E : Set ℕ) (K : PUnit → sProp 𝕄),
        iprop(owns (c : Thread nD τ) arg2 fullShare x0 ∗ owns (c : Thread nD τ) arg3 fullShare x1 ∗ owns (c : Thread nD τ) arg4 fullShare xi ∗ (∃ d, owns (c : Thread nD τ) arg5 fullShare d)
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__gather_kernel i arg2 harg2 arg3 harg3 arg4 harg4 arg5 harg5) K } := by
  refine ⟨?_, fun xi E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Hand

end
-- ==== Proof.KI.Run0B.lean ====
import proofs.«415291_j87935160418912_3_alg».proof.Proof.KI.Cond0

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in

noncomputable def run0_B (c : Dev nD) (i : grid0.Coords) (arg2 : Memref sig .tc .vmem S256 .i32) (harg2 : arg2.IsWhole) (arg3 : Memref sig .tc .vmem S10000x128 .bf16) (harg3 : arg3.IsWhole) (arg4 : Memref sig .tc .vmem S256x128 .bf16) (harg4 : arg4.IsWhole) (arg5 : Memref sig .tc .vmem S256x128 .f32) (harg5 : arg5.IsWhole) (hc0 : ¬first0 i) (hc1 : ¬last0 i)
    (x0 : Vec F S256 .i32) (x1 : Vec F S10000x128 .bf16) (xs : Vec F S256x128 .f32) :
    { LS : List (View.Piece (Elt F) S256x128 .f32) //
      ∀ (xi : Vec F S256x128 .bf16) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xs
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__gather_kernel i arg2 harg2 arg3 harg3 arg4 harg4 arg5 harg5) K } := by
  refine ⟨?_, fun xi E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Hand

end
-- ==== Proof.KI.Run0C.lean ====
import proofs.«415291_j87935160418912_3_alg».proof.Proof.KI.Cond0

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in

noncomputable def run0_C (c : Dev nD) (i : grid0.Coords) (arg2 : Memref sig .tc .vmem S256 .i32) (harg2 : arg2.IsWhole) (arg3 : Memref sig .tc .vmem S10000x128 .bf16) (harg3 : arg3.IsWhole) (arg4 : Memref sig .tc .vmem S256x128 .bf16) (harg4 : arg4.IsWhole) (arg5 : Memref sig .tc .vmem S256x128 .f32) (harg5 : arg5.IsWhole) (hc0 : ¬first0 i) (hc1 : last0 i)
    (x0 : Vec F S256 .i32) (x1 : Vec F S10000x128 .bf16) (xs : Vec F S256x128 .f32) :
    Σ' (LO : List (View.Piece (Elt F) S256x128 .bf16)), { LS : List (View.Piece (Elt F) S256x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc0__gather_kernel i arg2 harg2 arg3 harg3 arg4 harg4 arg5 harg5) K } := by
  refine ⟨?_, ?_, fun E K => ?run⟩
  case run =>
    simp only [cc0__gather_kernel_eq_skeleton]; unfold cc0__gather_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Hand

end
-- ==== Proof.KI.Case0.lean ====
import proofs.«415291_j87935160418912_3_alg».proof.Proof.KI.Run0A
import proofs.«415291_j87935160418912_3_alg».proof.Proof.KI.Run0B
import proofs.«415291_j87935160418912_3_alg».proof.Proof.KI.Run0C

noncomputable section

namespace Cert.KernelIdeal.Hand

open Idealize.ShloMosaic Idealize.ShloMosaic.TcCoe Idealize.ShloMosaic.Tactic

variable {F : FTy → Type} [FloatOps F]

section Cases
variable (c : Dev nD) (i : grid0.Coords) (arg2 : Memref sig .tc .vmem S256 .i32) (harg2 : arg2.IsWhole) (arg3 : Memref sig .tc .vmem S10000x128 .bf16) (harg3 : arg3.IsWhole) (arg4 : Memref sig .tc .vmem S256x128 .bf16) (harg4 : arg4.IsWhole) (arg5 : Memref sig .tc .vmem S256x128 .f32) (harg5 : arg5.IsWhole)

theorem scover0_A (hc0 : first0 i) (hc1 : ¬last0 i) (x0 : Vec F S256 .i32) (x1 : Vec F S10000x128 .bf16) (y : S256x128.Idx) :
    ∃ pc ∈ (run0_A c i arg2 harg2 arg3 harg3 arg4 harg4 arg5 harg5 hc0 hc1 x0 x1).1, y ∈ pc.1.set :=
  View.cover_of_tiledL (run0_A c i arg2 harg2 arg3 harg3 arg4 harg4 arg5 harg5 hc0 hc1 x0 x1).1 S256x128.size (by sl_kernel_rfl) y

-- What the first node block leaves in the accumulator: the pieces the body wrote, read as one array.
def sacc0_A (hc0 : first0 i) (hc1 : ¬last0 i) (x0 : Vec F S256 .i32) (x1 : Vec F S10000x128 .bf16) : Vec F S256x128 .f32 :=
  View.canon (run0_A c i arg2 harg2 arg3 harg3 arg4 harg4 arg5 harg5 hc0 hc1 x0 x1).1

theorem scover0_B (hc0 : ¬first0 i) (hc1 : ¬last0 i) (x0 : Vec F S256 .i32) (x1 : Vec F S10000x128 .bf16) (xs : Vec F S256x128 .f32) (y : S256x128.Idx) :
    ∃ pc ∈ (run0_B c i arg2 harg2 arg3 harg3 arg4 harg4 arg5 harg5 hc0 hc1 x0 x1 xs).1, y ∈ pc.1.set :=
  View.cover_of_tiledL (run0_B c i arg2 harg2 arg3 harg3 arg4 harg4 arg5 harg5 hc0 hc1 x0 x1 xs).1 S256x128.size (by sl_kernel_rfl) y

def sacc0_B (hc0 : ¬first0 i) (hc1 : ¬last0 i) (x0 : Vec F S256 .i32) (x1 : Vec F S10000x128 .bf16) (xs : Vec F S256x128 .f32) : Vec F S256x128 .f32 :=
  View.canon (run0_B c i arg2 harg2 arg3 harg3 arg4 harg4 arg5 harg5 hc0 hc1 x0 x1 xs).1

theorem cover0_C (hc0 : ¬first0 i) (hc1 : last0 i) (x0 : Vec F S256 .i32) (x1 : Vec F S10000x128 .bf16) (xs : Vec F S256x128 .f32) (y : S256x128.Idx) :
    ∃ pc ∈ (run0_C c i arg2 harg2 arg3 harg3 arg4 harg4 arg5 harg5 hc0 hc1 x0 x1 xs).1, y ∈ pc.1.set :=
  View.cover_of_tiledL (run0_C c i arg2 harg2 arg3 harg3 arg4 harg4 arg5 harg5 hc0 hc1 x0 x1 xs).1 S256x128.size (by sl_kernel_rfl) y

theorem scover0_C (hc0 : ¬first0 i) (hc1 : last0 i) (x0 : Vec F S256 .i32) (x1 : Vec F S10000x128 .bf16) (xs : Vec F S256x128 .f32) (y : S256x128.Idx) :
    ∃ pc ∈ (run0_C c i arg2 harg2 arg3 harg3 arg4 harg4 arg5 harg5 hc0 hc1 x0 x1 xs).2.1, y ∈ pc.1.set :=
  View.cover_of_tiledL (run0_C c i arg2 harg2 arg3 harg3 arg4 harg4 arg5 harg5 hc0 hc1 x0 x1 xs).2.1 S256x128.size (by sl_kernel_rfl) y

def out0_C (hc0 : ¬first0 i) (hc1 : last0 i) (x0 : Vec F S256 .i32) (x1 : Vec F S10000x128 .bf16) (xs : Vec F S256x128 .f32) : Vec F S256x128 .bf16 :=
  View.canon (run0_C c i arg2 harg2 arg3 harg3 arg4 harg4 arg5 harg5 hc0 hc1 x0 x1 xs).1

def sacc0_C (hc0 : ¬first0 i) (hc1 : last0 i) (x0 : Vec F S256 .i32) (x1 : Vec F S10000x128 .bf16) (xs : Vec F S256x128 .f32) : Vec F S256x128 .f32 :=
  View.canon (run0_C c i arg2 harg2 arg3 harg3 arg4 harg4 arg5 harg5 hc0 hc1 x0 x1 xs).2.1

end Cases

end Cert.KernelIdeal.Hand

end
-- ==== Proof.KI.Dat0.lean ====
import proofs.«415291_j87935160418912_3_alg».proof.Proof.KI.Sched0
import proofs.«415291_j87935160418912_3_alg».proof.Proof.KI.Case0

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Region

def idleOut0 : Vec F S256x128 .bf16 := outV0.read (Elt F) outV0.junk

section Region
variable (V : (c : Dev nD) → (b : Ref sig .tc) → Buf (Elt F) ((c : Thread nD τ).loc b))

def accA0 (c : Dev nD) (t : Fin cfg0.N) (h0 : t.val % 5 = 0) (h1 : ¬t.val % 5 = 4) : Vec F S256x128 .f32 :=
  sacc0_A c (grid0.coords t) (stg0_0 t) (hstg0_0 t) (stg0_1 t) (hstg0_1 t) (stg0_2 t) (hstg0_2 t) acc0 (Memref.isWhole_whole _) ((hfirst0 t).mpr h0) (fun h => h1 ((hlast0 t).mp h)) (iblk0 V c 0 t) (iblk0 V c 1 t)
def accB0 (c : Dev nD) (t : Fin cfg0.N) (h0 : ¬t.val % 5 = 0) (h1 : ¬t.val % 5 = 4) (xs : Vec F S256x128 .f32) : Vec F S256x128 .f32 :=
  sacc0_B c (grid0.coords t) (stg0_0 t) (hstg0_0 t) (stg0_1 t) (hstg0_1 t) (stg0_2 t) (hstg0_2 t) acc0 (Memref.isWhole_whole _) (fun h => h0 ((hfirst0 t).mp h)) (fun h => h1 ((hlast0 t).mp h)) (iblk0 V c 0 t) (iblk0 V c 1 t) xs
def accC0 (c : Dev nD) (t : Fin cfg0.N) (h0 : ¬t.val % 5 = 0) (h1 : t.val % 5 = 4) (xs : Vec F S256x128 .f32) : Vec F S256x128 .f32 :=
  sacc0_C c (grid0.coords t) (stg0_0 t) (hstg0_0 t) (stg0_1 t) (hstg0_1 t) (stg0_2 t) (hstg0_2 t) acc0 (Memref.isWhole_whole _) (fun h => h0 ((hfirst0 t).mp h)) ((hlast0 t).mpr h1) (iblk0 V c 0 t) (iblk0 V c 1 t) xs
def outC0 (c : Dev nD) (t : Fin cfg0.N) (h0 : ¬t.val % 5 = 0) (h1 : t.val % 5 = 4) (xs : Vec F S256x128 .f32) : Vec F S256x128 .bf16 :=
  out0_C c (grid0.coords t) (stg0_0 t) (hstg0_0 t) (stg0_1 t) (hstg0_1 t) (stg0_2 t) (hstg0_2 t) acc0 (Memref.isWhole_whole _) (fun h => h0 ((hfirst0 t).mp h)) ((hlast0 t).mpr h1) (iblk0 V c 0 t) (iblk0 V c 1 t) xs

-- The output block and the accumulator after point n: the point's case applied to its two input blocks and to what point n - 1 left.
def outsAt0 (c : Dev nD) : (n : ℕ) → n < cfg0.N → Vec F S256x128 .bf16 × Vec F S256x128 .f32
  | 0, hn => (idleOut0, accA0 V c ⟨0, hn⟩ (Nat.zero_mod _) (show ¬(0 % 5 = 4) by decide))
  | n + 1, hn =>
    if h0 : (n + 1) % 5 = 0 then
      if h1 : (n + 1) % 5 = 4 then False.elim (by omega)
      else (idleOut0, accA0 V c ⟨n + 1, hn⟩ h0 h1)
    else
      if h1 : (n + 1) % 5 = 4 then
        (outC0 V c ⟨n + 1, hn⟩ h0 h1 (outsAt0 c n (Nat.lt_of_succ_lt hn)).2, accC0 V c ⟨n + 1, hn⟩ h0 h1 (outsAt0 c n (Nat.lt_of_succ_lt hn)).2)
      else (idleOut0, accB0 V c ⟨n + 1, hn⟩ h0 h1 (outsAt0 c n (Nat.lt_of_succ_lt hn)).2)

theorem outsAt0_A (c : Dev nD) (t : Fin cfg0.N) (h0 : t.val % 5 = 0) (h1 : ¬t.val % 5 = 4) :
    outsAt0 V c t.val t.isLt = (idleOut0, accA0 V c t h0 h1) := by
  obtain ⟨n, hn⟩ := t
  cases n with
  | zero => exact rfl
  | succ n => exact (dif_pos h0).trans ((dif_neg h1).trans rfl)

theorem outsAt0_B (c : Dev nD) (t : Fin cfg0.N) (h0 : ¬t.val % 5 = 0) (h1 : ¬t.val % 5 = 4) :
    outsAt0 V c t.val t.isLt = (idleOut0, accB0 V c t h0 h1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 5 = 0) (h1 : t.val % 5 = 4) :
    outsAt0 V c t.val t.isLt = (outC0 V c t h0 h1 (outsAt0 V c (t.val - 1) (Nat.lt_of_le_of_lt (Nat.sub_le _ _) t.isLt)).2,
      accC0 V c t h0 h1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS0 (c : Dev nD) : (n : ℕ) → n ≤ cfg0.N → sProp 𝕄
  | 0, _ => Pipeline.ΦA spec0 c
  | n + 1, hn => iprop(iprop(owns (c : Thread nD τ) acc0 fullShare ((outsAt0 V c n hn).2) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) acc0 fullShare ((outsAt0 V c n hn).2) ∗ Pipeline.scopedRestBut (Ix := Unit) (Name := ℕ) (U := UR sig nD τ) (Lvl := ℕ) (Val := Elt F) spec0 c [cc0_scratch0]) ∗ (∃ r, prngReg c r)) := rfl
theorem PhiS0_pos (c : Dev nD) (n : ℕ) (h : n ≤ cfg0.N) (hz : n ≠ 0) :
    PhiS0 V c n h = iprop(iprop(owns (c : Thread nD τ) acc0 fullShare ((outsAt0 V c (n - 1) (by omega)).2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

-- The invariant after any point implies the one before the first: what the accumulator holds is forgotten.
theorem PhiS0_weak (c : Dev nD) (n : ℕ) (h : n ≤ cfg0.N) : PhiS0 V c n h ⊢ Pipeline.ΦA spec0 c := by
  cases n with
  | zero => rw [PhiS0_zero V c 0 h rfl]; try exact Entails.refl _
  | succ n =>
    rw [PhiS0_succ, PhiA0_eq]
    iintro ⟨⟨HS, Hrest⟩, Hg⟩
    isplitl [HS Hrest]
    · isplitl [HS]
      · iexists _; iexact HS
      iexact Hrest
    iexact Hg

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (stg0_0 t) fullShare ((dat0 V c).before 0 t d))
    ∗ (∃ d, owns (c : Thread nD τ) (stg0_1 t) fullShare ((dat0 V c).before 1 t d))
    ∗ (∃ d, owns (c : Thread nD τ) (stg0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

-- The body keeps the invariant at every point: the accumulator is reset at a run's first point, added to at each, written out at the last.
set_option maxHeartbeats 4800000 in

theorem sound_body0 (c : Dev nD) (t : Fin cfg0.N) :
    bodyPre0 V c t ⊢ wp frame (wpE (defs₀ (F := F)) Variants.none c none) Set.univ (body0 t) (fun _ => bodyPost0 V c t) := by
  unfold bodyPre0 bodyPost0 body0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (stg0_0 t) fullShare ((dat0 V c).after 0 t) from by
    unfold Dat.leavesExact; rw [live0_0 t], after0_0]
  rw [show (dat0 V c).leavesExact 1 t = owns (c : Thread nD τ) (stg0_1 t) fullShare ((dat0 V c).after 1 t) from by
    unfold Dat.leavesExact; rw [live0_1 t], after0_1]
  by_cases h0 : t.val % 5 = 0
  · have h1 : ¬t.val % 5 = 4 := by omega
    rw [Dat.leavesExact_idle (dat0 V c) 2 t (idle0_2 t (fun h => h1 ((hlast0 t).mp h))) (noFlush0_2 t (fun h => h1 ((hlast0 t).mp h)))]
    rw [outsAt0_A V c t h0 h1]
    unfold accA0 sacc0_A; (try dsimp only)
    rw [PhiS0_castSucc V c t]
    refine BIBase.Entails.trans (sep_mono_left (PhiS0_weak V c _ _)) ?_
    rw [PhiA0_eq]
    iintro ⟨⟨⟨HS, Hrest⟩, Hg⟩, Ho, ⟨%d0, H0⟩, ⟨%d1, H1⟩, ⟨%d2, H2⟩⟩
    iapply ((run0_A c (grid0.coords t) _ (hstg0_0 t) _ (hstg0_1 t) _ (hstg0_2 t) _ (Memref.isWhole_whole _) ((hfirst0 t).mpr h0) (fun h => h1 ((hlast0 t).mp h)) (iblk0 V c 0 t) (iblk0 V c 1 t)).2 _ Set.univ _)
    iframe H0 H1 H2 HS
    iintro ⟨H0, H1, H2, ⟨%es, HS⟩⟩
    iframe Hrest Hg Ho H0 H1
    isplitl [HS]
    · unfold owns; iexists _; isplitr
      swap; · iexact HS
      ipureintro; exact View.read_writes_eq_canon _ _ _ (scover0_A c _ _ _ _ _ _ _ _ _ _ _ _ _)
    iexists _; iexact H2
  · have hz : t.val ≠ 0 := fun h => h0 (by rw [h])
    by_cases h1 : t.val % 5 = 4
    · rw [show (dat0 V c).leavesExact 2 t = owns (c : Thread nD τ) (stg0_2 t) fullShare ((dat0 V c).after 2 t) from by
        unfold Dat.leavesExact; rw [live0_2 t ((hlast0 t).mpr h1)], after0_2]
      rw [outsAt0_C V c t h0 h1]
      unfold outC0 accC0 out0_C sacc0_C; (try dsimp only)
      rw [PhiS0_castSucc V c t, PhiS0_pos V c _ _ hz]
      iintro ⟨⟨⟨HS, Hrest⟩, Hg⟩, Ho, ⟨%d0, H0⟩, ⟨%d1, H1⟩, ⟨%d2, H2⟩⟩
      iapply ((run0_C c (grid0.coords t) _ (hstg0_0 t) _ (hstg0_1 t) _ (hstg0_2 t) _ (Memref.isWhole_whole _) (fun h => h0 ((hfirst0 t).mp h)) ((hlast0 t).mpr h1) (iblk0 V c 0 t) (iblk0 V c 1 t) _).2.2 Set.univ _)
      iframe H0 H1 HS
      isplitl [H2]; · iexists _; iexact H2
      iintro ⟨H0, H1, ⟨%e2, H2⟩, ⟨%es, HS⟩⟩
      iframe Hrest Hg Ho H0 H1
      isplitl [HS]
      · unfold owns; iexists _; isplitr
        swap; · iexact HS
        ipureintro; exact View.read_writes_eq_canon _ _ _ (scover0_C c _ _ _ _ _ _ _ _ _ _ _ _ _ _)
      unfold owns; iexists _; isplitr
      swap; · iexact H2
      ipureintro; exact View.read_writes_eq_canon _ _ _ (cover0_C c _ _ _ _ _ _ _ _ _ _ _ _ _ _)
    · rw [Dat.leavesExact_idle (dat0 V c) 2 t (idle0_2 t (fun h => h1 ((hlast0 t).mp h))) (noFlush0_2 t (fun h => h1 ((hlast0 t).mp h)))]
      rw [outsAt0_B V c t h0 h1]
      unfold accB0 sacc0_B; (try dsimp only)
      rw [PhiS0_castSucc V c t, PhiS0_pos V c _ _ hz]
      iintro ⟨⟨⟨HS, Hrest⟩, Hg⟩, Ho, ⟨%d0, H0⟩, ⟨%d1, H1⟩, ⟨%d2, H2⟩⟩
      iapply ((run0_B c (grid0.coords t) _ (hstg0_0 t) _ (hstg0_1 t) _ (hstg0_2 t) _ (Memref.isWhole_whole _) (fun h => h0 ((hfirst0 t).mp h)) (fun h => h1 ((hlast0 t).mp h)) (iblk0 V c 0 t) (iblk0 V c 1 t) _).2 _ Set.univ _)
      iframe H0 H1 H2 HS
      iintro ⟨H0, H1, H2, ⟨%es, HS⟩⟩
      iframe Hrest Hg Ho H0 H1
      isplitl [HS]
      · unfold owns; iexists _; isplitr
        swap; · iexact HS
        ipureintro; exact View.read_writes_eq_canon _ _ _ (scover0_B c _ _ _ _ _ _ _ _ _ _ _ _ _ _)
      iexists _; iexact H2

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ Pipeline.ΦA spec0 c :=
  PhiS0_weak V c _ _

theorem hout0 (c : Dev nD) : (dat0 V c).Φ (Fin.last cfg0.N) ⊢ Pipeline.ΦA spec0 c :=
  Phi_out0 V c _ (by rw [Fin.val_last]; have : cfg0.N = 15625 := N_0; omega)

end Region

end Cert.KernelIdeal.Hand

end
-- ==== Proof.KI.Cond1.lean ====
import proofs.«415291_j87935160418912_3_alg».proof.Proof.Gen.KernelIdeal.Launch
import proofs.«415291_j87935160418912_3_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic

variable {F : FTy → Type} [FloatOps F]

abbrev first1 (i : grid1.Coords) : Prop := (Scalar.cmpi .ne (Scalar.extui (Scalar.cmpi .eq (BitVec.ofNat 32 (i 1).val) 0#32)) 0#32) = 1#1

abbrev last1 (i : grid1.Coords) : Prop := k1_cond2 i = 1#1

abbrev acc1 : Memref sig .tc .vmem S5000x128 .f32 := Memref.whole cc1_scratch0

abbrev accV1 : View sig .tc .vmem S5000x128 .f32 := acc1.view

abbrev outV1 : View sig .tc .vmem S5000x128 .f32 := (Memref.whole cc1_stg8_0 : Memref sig .tc .vmem S5000x128 .f32).view

end Cert.KernelIdeal.Hand

end
-- ==== Proof.KI.Flush1.lean ====
import proofs.«415291_j87935160418912_3_alg».proof.Proof.KI.Cond1

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

theorem blk1_out (t : Fin cfg1.N) : win1_8.index t = ![t.val / 3125 % 10, 0] := by
  have h0 : ((grid1.coords t) 0).val = t.val / 3125 % 10 := by
    show t.val / grid1.stride 0 % 10 = _
    rw [show grid1.stride 0 = 3125 from by decide]
  show cc1_transform_8 (grid1.coords t) = _
  unfold cc1_transform_8
  dsimp only
  rw [h0, BitVec.toNat_ofNat, Nat.mod_eq_of_lt (by omega : t.val / 3125 % 10 < 2 ^ 32)]
  rfl

theorem flushOut1 : ∀ t : Fin cfg1.N, (cfg1.win 8).flush t = true ↔ t.val % 3125 = 3124 := fun t => by
  have hN : grid1.N = 31250 := N_1
  have hlt : t.val < grid1.N := t.isLt
  show win1_8.flush t = true ↔ _
  unfold Pipeline.Window.flush
  rw [show win1_8.isOut = true from rfl, Bool.true_and, Bool.or_eq_true, decide_eq_true_eq, decide_eq_true_eq]
  constructor
  · rintro (h | ⟨h, hne⟩)
    · omega
    · rw [blk1_out, blk1_out] at hne
      by_contra hc
      apply hne
      have e : (t.val + 1) / 3125 % 10 = t.val / 3125 % 10 := by omega
      show ![(t.val + 1) / 3125 % 10, 0] = ![t.val / 3125 % 10, 0]
      rw [e]
  · intro h
    by_cases hl : t.val + 1 = grid1.N
    · exact Or.inl hl
    · refine Or.inr ⟨by omega, fun he => ?_⟩
      rw [blk1_out, blk1_out] at he
      have h0 := congrFun he 0
      simp only [Matrix.cons_val_zero] at h0
      omega

end Cert.KernelIdeal.Hand

end
-- ==== Proof.KI.Sched1.lean ====
import proofs.«415291_j87935160418912_3_alg».proof.Proof.KI.Flush1

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev stg1_0 (t : Fin cfg1.N) : Memref sig .tc .vmem S256x128 .bf16 := win1_0.stage (cfg1.slots t 0)
abbrev hstg1_0 (t : Fin cfg1.N) : (stg1_0 t).IsWhole := hstage1_0 ((cfg1.slots t 0).cast nbuf1_0)
abbrev stg1_1 (t : Fin cfg1.N) : Memref sig .tc .vmem S256 .i32 := win1_1.stage (cfg1.slots t 1)
abbrev hstg1_1 (t : Fin cfg1.N) : (stg1_1 t).IsWhole := hstage1_1 ((cfg1.slots t 1).cast nbuf1_1)
abbrev stg1_2 (t : Fin cfg1.N) : Memref sig .tc .vmem S5000x128 .f32 := win1_2.stage (cfg1.slots t 2)
abbrev hstg1_2 (t : Fin cfg1.N) : (stg1_2 t).IsWhole := hstage1_2 ((cfg1.slots t 2).cast nbuf1_2)
abbrev stg1_3 (t : Fin cfg1.N) : Memref sig .tc .vmem S128x128 .f32 := win1_3.stage (cfg1.slots t 3)
abbrev hstg1_3 (t : Fin cfg1.N) : (stg1_3 t).IsWhole := hstage1_3 ((cfg1.slots t 3).cast nbuf1_3)
abbrev stg1_4 (t : Fin cfg1.N) : Memref sig .tc .vmem S128 .f32 := win1_4.stage (cfg1.slots t 4)
abbrev hstg1_4 (t : Fin cfg1.N) : (stg1_4 t).IsWhole := hstage1_4 ((cfg1.slots t 4).cast nbuf1_4)
abbrev stg1_5 (t : Fin cfg1.N) : Memref sig .tc .vmem S128x128 .f32 := win1_5.stage (cfg1.slots t 5)
abbrev hstg1_5 (t : Fin cfg1.N) : (stg1_5 t).IsWhole := hstage1_5 ((cfg1.slots t 5).cast nbuf1_5)
abbrev stg1_6 (t : Fin cfg1.N) : Memref sig .tc .vmem S128 .f32 := win1_6.stage (cfg1.slots t 6)
abbrev hstg1_6 (t : Fin cfg1.N) : (stg1_6 t).IsWhole := hstage1_6 ((cfg1.slots t 6).cast nbuf1_6)
abbrev stg1_7 (t : Fin cfg1.N) : Memref sig .tc .vmem S1x128 .f32 := win1_7.stage (cfg1.slots t 7)
abbrev hstg1_7 (t : Fin cfg1.N) : (stg1_7 t).IsWhole := hstage1_7 ((cfg1.slots t 7).cast nbuf1_7)
abbrev stg1_8 (t : Fin cfg1.N) : Memref sig .tc .vmem S5000x128 .f32 := win1_8.stage (cfg1.slots t 8)
abbrev hstg1_8 (t : Fin cfg1.N) : (stg1_8 t).IsWhole := hstage1_8 ((cfg1.slots t 8).cast nbuf1_8)

abbrev body1 (t : Fin cfg1.N) : Prog (TpuEff nD τ sig (Elt F) Λ₀ .tc) PUnit :=
  cc1__scatter_combine_kernel (grid1.coords t) (stg1_0 t) (hstg1_0 t) (stg1_1 t) (hstg1_1 t) (stg1_2 t) (hstg1_2 t) (stg1_3 t) (hstg1_3 t) (stg1_4 t) (hstg1_4 t) (stg1_5 t) (hstg1_5 t) (stg1_6 t) (hstg1_6 t) (stg1_7 t) (hstg1_7 t) (stg1_8 t) (hstg1_8 t) (Memref.whole cc1_scratch0) (Memref.isWhole_whole _)

theorem coord1_1 (t : Fin cfg1.N) : ((grid1.coords t) 1).val = t.val % 3125 := by
  show t.val / grid1.stride 1 % 3125 = t.val % 3125
  rw [show grid1.stride 1 = 1 from by decide, Nat.div_one]

theorem kcond1_eq (i : grid1.Coords) :
    k1_cond2 i = Scalar.cmpi .ne (Scalar.extui (Scalar.cmpi .eq (BitVec.ofNat 32 (i 1).val) 3124#32)) 0#32 := rfl

theorem hfirst1 : ∀ t : Fin cfg1.N, first1 (grid1.coords t) ↔ t.val % 3125 = 0 := fun t => by
  have key : ∀ n : Fin 3125, ((Scalar.cmpi .ne (Scalar.extui (Scalar.cmpi .eq (BitVec.ofNat 32 n.val) 0#32)) 0#32) = 1#1) ↔ n.val = 0 := by
    decide +kernel
  rw [← coord1_1 t]
  exact key ((grid1.coords t) 1)

theorem hlast1 : ∀ t : Fin cfg1.N, last1 (grid1.coords t) ↔ t.val % 3125 = 3124 := fun t => by
  have key : ∀ n : Fin 3125, ((Scalar.cmpi .ne (Scalar.extui (Scalar.cmpi .eq (BitVec.ofNat 32 n.val) 3124#32)) 0#32) = 1#1) ↔ n.val = 3124 := by
    decide +kernel
  rw [← coord1_1 t]
  show k1_cond2 (grid1.coords t) = 1#1 ↔ _
  rw [kcond1_eq]
  exact key ((grid1.coords t) 1)

theorem live1_0 (t : Fin cfg1.N) : cfg1.idle 0 (grid1.coords t) = false := rfl
theorem live1_1 (t : Fin cfg1.N) : cfg1.idle 1 (grid1.coords t) = false := rfl
theorem live1_2 (t : Fin cfg1.N) : cfg1.idle 2 (grid1.coords t) = false := rfl
theorem live1_3 (t : Fin cfg1.N) : cfg1.idle 3 (grid1.coords t) = false := rfl
theorem live1_4 (t : Fin cfg1.N) : cfg1.idle 4 (grid1.coords t) = false := rfl
theorem live1_5 (t : Fin cfg1.N) : cfg1.idle 5 (grid1.coords t) = false := rfl
theorem live1_6 (t : Fin cfg1.N) : cfg1.idle 6 (grid1.coords t) = false := rfl
theorem live1_7 (t : Fin cfg1.N) : cfg1.idle 7 (grid1.coords t) = false := rfl

theorem idle1_8 (t : Fin cfg1.N) (h : ¬last1 (grid1.coords t)) : cfg1.idle 8 (grid1.coords t) = true := by
  show (!(k1_cond2 (grid1.coords t) == 1#1)) = true
  simp only [Bool.not_eq_true', beq_eq_false_iff_ne, ne_eq]; exact h

theorem live1_8 (t : Fin cfg1.N) (h : last1 (grid1.coords t)) : cfg1.idle 8 (grid1.coords t) = false := by
  show (!(k1_cond2 (grid1.coords t) == 1#1)) = false
  simp only [Bool.not_eq_false', beq_iff_eq]; exact h

theorem noFlush1_8 (t : Fin cfg1.N) (h : ¬last1 (grid1.coords t)) : (cfg1.win 8).flush t = false := by
  cases hf : (cfg1.win 8).flush t with
  | false => rfl
  | true => exact absurd ((hlast1 t).mpr ((flushOut1 t).mp hf)) h

theorem PhiA1_eq (c : Dev nD) :
    (Pipeline.ΦA spec1 c : sProp 𝕄)
      = iprop(iprop((∃ d, owns (c : Thread nD τ) acc1 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [acc1, owns_whole]; try rfl

end Cert.KernelIdeal.Hand

end
-- ==== Proof.KI.Run1A.lean ====
import proofs.«415291_j87935160418912_3_alg».proof.Proof.KI.Cond1

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 8000000 in

noncomputable def run1_A (c : Dev nD) (i : grid1.Coords) (arg2 : Memref sig .tc .vmem S256x128 .bf16) (harg2 : arg2.IsWhole) (arg3 : Memref sig .tc .vmem S256 .i32) (harg3 : arg3.IsWhole) (arg4 : Memref sig .tc .vmem S5000x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S1x128 .f32) (harg9 : arg9.IsWhole) (arg10 : Memref sig .tc .vmem S5000x128 .f32) (harg10 : arg10.IsWhole) (arg11 : Memref sig .tc .vmem S5000x128 .f32) (harg11 : arg11.IsWhole) (hc0 : first1 i) (hc1 : ¬last1 i)
    (x0 : Vec F S256x128 .bf16) (x1 : Vec F S256 .i32) (x2 : Vec F S5000x128 .f32) (x3 : Vec F S128x128 .f32) (x4 : Vec F S128 .f32) (x5 : Vec F S128x128 .f32) (x6 : Vec F S128 .f32) (x7 : Vec F S1x128 .f32) :
    { LS : List (View.Piece (Elt F) S5000x128 .f32) //
      ∀ (xi : Vec F S5000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi ∗ (∃ f, arg11.view.loc (c : Thread nD τ) ↦[arg11.view.set]{fullShare} arg11.view.writes (Elt F) f LS)) -∗ K ⟨⟩))
          ⊢ wp frame (wpE (defs₀ (F := F)) Variants.none c none) E (cc1__scatter_combine_kernel i arg2 harg2 arg3 harg3 arg4 harg4 arg5 harg5 arg6 harg6 arg7 harg7 arg8 harg8 arg9 harg9 arg10 harg10 arg11 harg11) K } := by
  refine ⟨?_, fun xi E K => ?run⟩
  case run =>
    simp only [cc1__scatter_combine_kernel_eq_skeleton]; unfold cc1__scatter_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fO, %hfO, HO⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfO
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HO]
    · iexists _; isplitr; · ipureintro; exact harg10.read_unread _
      iexact HO
    iexists _; iexact HS

end Cert.KernelIdeal.Hand

end
-- ==== Proof.KI.Run1B.lean ====
import proofs.«415291_j87935160418912_3_alg».proof.Proof.KI.Cond1

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 8000000 in

noncomputable def run1_B (c : Dev nD) (i : grid1.Coords) (arg2 : Memref sig .tc .vmem S256x128 .bf16) (harg2 : arg2.IsWhole) (arg3 : Memref sig .tc .vmem S256 .i32) (harg3 : arg3.IsWhole) (arg4 : Memref sig .tc .vmem S5000x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S1x128 .f32) (harg9 : arg9.IsWhole) (arg10 : Memref sig .tc .vmem S5000x128 .f32) (harg10 : arg10.IsWhole) (arg11 : Memref sig .tc .vmem S5000x128 .f32) (harg11 : arg11.IsWhole) (hc0 : ¬first1 i) (hc1 : ¬last1 i)
    (x0 : Vec F S256x128 .bf16) (x1 : Vec F S256 .i32) (x2 : Vec F S5000x128 .f32) (x3 : Vec F S128x128 .f32) (x4 : Vec F S128 .f32) (x5 : Vec F S128x128 .f32) (x6 : Vec F S128 .f32) (x7 : Vec F S1x128 .f32) (xs : Vec F S5000x128 .f32) :
    { LS : List (View.Piece (Elt F) S5000x128 .f32) //
      ∀ (xi : Vec F S5000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi ∗ (∃ f, arg11.view.loc (c : Thread nD τ) ↦[arg11.view.set]{fullShare} arg11.view.writes (Elt F) f LS)) -∗ K ⟨⟩))
          ⊢ wp frame (wpE (defs₀ (F := F)) Variants.none c none) E (cc1__scatter_combine_kernel i arg2 harg2 arg3 harg3 arg4 harg4 arg5 harg5 arg6 harg6 arg7 harg7 arg8 harg8 arg9 harg9 arg10 harg10 arg11 harg11) K } := by
  refine ⟨?_, fun xi E K => ?run⟩
  case run =>
    simp only [cc1__scatter_combine_kernel_eq_skeleton]; unfold cc1__scatter_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fO, %hfO, HO⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfO; obtain rfl := harg11.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HO]
    · iexists _; isplitr; · ipureintro; exact harg10.read_unread _
      iexact HO
    iexists _; iexact HS

end Cert.KernelIdeal.Hand

end
-- ==== Proof.KI.Run1C.lean ====
import proofs.«415291_j87935160418912_3_alg».proof.Proof.KI.Cond1

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 8000000 in

noncomputable def run1_C (c : Dev nD) (i : grid1.Coords) (arg2 : Memref sig .tc .vmem S256x128 .bf16) (harg2 : arg2.IsWhole) (arg3 : Memref sig .tc .vmem S256 .i32) (harg3 : arg3.IsWhole) (arg4 : Memref sig .tc .vmem S5000x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S1x128 .f32) (harg9 : arg9.IsWhole) (arg10 : Memref sig .tc .vmem S5000x128 .f32) (harg10 : arg10.IsWhole) (arg11 : Memref sig .tc .vmem S5000x128 .f32) (harg11 : arg11.IsWhole) (hc0 : ¬first1 i) (hc1 : last1 i)
    (x0 : Vec F S256x128 .bf16) (x1 : Vec F S256 .i32) (x2 : Vec F S5000x128 .f32) (x3 : Vec F S128x128 .f32) (x4 : Vec F S128 .f32) (x5 : Vec F S128x128 .f32) (x6 : Vec F S128 .f32) (x7 : Vec F S1x128 .f32) (xs : Vec F S5000x128 .f32) :
    Σ' (LO : List (View.Piece (Elt F) S5000x128 .f32)), { LS : List (View.Piece (Elt F) S5000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f LO) ∗ (∃ f, arg11.view.loc (c : Thread nD τ) ↦[arg11.view.set]{fullShare} arg11.view.writes (Elt F) f LS)) -∗ K ⟨⟩))
          ⊢ wp frame (wpE (defs₀ (F := F)) Variants.none c none) E (cc1__scatter_combine_kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc1__scatter_combine_kernel_eq_skeleton]; unfold cc1__scatter_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%dO, %fO, -, HO⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HO]; · iexists _; iexact HO
    iexists _; iexact HS

end Cert.KernelIdeal.Hand

end
-- ==== Proof.KI.Case1.lean ====
import proofs.«415291_j87935160418912_3_alg».proof.Proof.KI.Run1A
import proofs.«415291_j87935160418912_3_alg».proof.Proof.KI.Run1B
import proofs.«415291_j87935160418912_3_alg».proof.Proof.KI.Run1C

noncomputable section

namespace Cert.KernelIdeal.Hand

open Idealize.ShloMosaic Idealize.ShloMosaic.TcCoe Idealize.ShloMosaic.Tactic

variable {F : FTy → Type} [FloatOps F]

section Cases
variable (c : Dev nD) (i : grid1.Coords) (arg2 : Memref sig .tc .vmem S256x128 .bf16) (harg2 : arg2.IsWhole) (arg3 : Memref sig .tc .vmem S256 .i32) (harg3 : arg3.IsWhole) (arg4 : Memref sig .tc .vmem S5000x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S1x128 .f32) (harg9 : arg9.IsWhole) (arg10 : Memref sig .tc .vmem S5000x128 .f32) (harg10 : arg10.IsWhole) (arg11 : Memref sig .tc .vmem S5000x128 .f32) (harg11 : arg11.IsWhole)

theorem scover1_A (hc0 : first1 i) (hc1 : ¬last1 i) (x0 : Vec F S256x128 .bf16) (x1 : Vec F S256 .i32) (x2 : Vec F S5000x128 .f32) (x3 : Vec F S128x128 .f32) (x4 : Vec F S128 .f32) (x5 : Vec F S128x128 .f32) (x6 : Vec F S128 .f32) (x7 : Vec F S1x128 .f32) (y : S5000x128.Idx) :
    ∃ pc ∈ (run1_A c i arg2 harg2 arg3 harg3 arg4 harg4 arg5 harg5 arg6 harg6 arg7 harg7 arg8 harg8 arg9 harg9 arg10 harg10 arg11 harg11 hc0 hc1 x0 x1 x2 x3 x4 x5 x6 x7).1, y ∈ pc.1.set :=
  View.cover_of_tiledL (run1_A c i arg2 harg2 arg3 harg3 arg4 harg4 arg5 harg5 arg6 harg6 arg7 harg7 arg8 harg8 arg9 harg9 arg10 harg10 arg11 harg11 hc0 hc1 x0 x1 x2 x3 x4 x5 x6 x7).1 S5000x128.size (by sl_kernel_rfl) y

-- What the first edge chunk leaves in the accumulator: the pieces the body wrote, read as one array.
def sacc1_A (hc0 : first1 i) (hc1 : ¬last1 i) (x0 : Vec F S256x128 .bf16) (x1 : Vec F S256 .i32) (x2 : Vec F S5000x128 .f32) (x3 : Vec F S128x128 .f32) (x4 : Vec F S128 .f32) (x5 : Vec F S128x128 .f32) (x6 : Vec F S128 .f32) (x7 : Vec F S1x128 .f32) : Vec F S5000x128 .f32 :=
  View.canon (run1_A c i arg2 harg2 arg3 harg3 arg4 harg4 arg5 harg5 arg6 harg6 arg7 harg7 arg8 harg8 arg9 harg9 arg10 harg10 arg11 harg11 hc0 hc1 x0 x1 x2 x3 x4 x5 x6 x7).1

theorem scover1_B (hc0 : ¬first1 i) (hc1 : ¬last1 i) (x0 : Vec F S256x128 .bf16) (x1 : Vec F S256 .i32) (x2 : Vec F S5000x128 .f32) (x3 : Vec F S128x128 .f32) (x4 : Vec F S128 .f32) (x5 : Vec F S128x128 .f32) (x6 : Vec F S128 .f32) (x7 : Vec F S1x128 .f32) (xs : Vec F S5000x128 .f32) (y : S5000x128.Idx) :
    ∃ pc ∈ (run1_B c i arg2 harg2 arg3 harg3 arg4 harg4 arg5 harg5 arg6 harg6 arg7 harg7 arg8 harg8 arg9 harg9 arg10 harg10 arg11 harg11 hc0 hc1 x0 x1 x2 x3 x4 x5 x6 x7 xs).1, y ∈ pc.1.set :=
  View.cover_of_tiledL (run1_B c i arg2 harg2 arg3 harg3 arg4 harg4 arg5 harg5 arg6 harg6 arg7 harg7 arg8 harg8 arg9 harg9 arg10 harg10 arg11 harg11 hc0 hc1 x0 x1 x2 x3 x4 x5 x6 x7 xs).1 S5000x128.size (by sl_kernel_rfl) y

def sacc1_B (hc0 : ¬first1 i) (hc1 : ¬last1 i) (x0 : Vec F S256x128 .bf16) (x1 : Vec F S256 .i32) (x2 : Vec F S5000x128 .f32) (x3 : Vec F S128x128 .f32) (x4 : Vec F S128 .f32) (x5 : Vec F S128x128 .f32) (x6 : Vec F S128 .f32) (x7 : Vec F S1x128 .f32) (xs : Vec F S5000x128 .f32) : Vec F S5000x128 .f32 :=
  View.canon (run1_B c i arg2 harg2 arg3 harg3 arg4 harg4 arg5 harg5 arg6 harg6 arg7 harg7 arg8 harg8 arg9 harg9 arg10 harg10 arg11 harg11 hc0 hc1 x0 x1 x2 x3 x4 x5 x6 x7 xs).1

theorem cover1_C (hc0 : ¬first1 i) (hc1 : last1 i) (x0 : Vec F S256x128 .bf16) (x1 : Vec F S256 .i32) (x2 : Vec F S5000x128 .f32) (x3 : Vec F S128x128 .f32) (x4 : Vec F S128 .f32) (x5 : Vec F S128x128 .f32) (x6 : Vec F S128 .f32) (x7 : Vec F S1x128 .f32) (xs : Vec F S5000x128 .f32) (y : S5000x128.Idx) :
    ∃ pc ∈ (run1_C c i arg2 harg2 arg3 harg3 arg4 harg4 arg5 harg5 arg6 harg6 arg7 harg7 arg8 harg8 arg9 harg9 arg10 harg10 arg11 harg11 hc0 hc1 x0 x1 x2 x3 x4 x5 x6 x7 xs).1, y ∈ pc.1.set :=
  View.cover_of_tiledL (run1_C c i arg2 harg2 arg3 harg3 arg4 harg4 arg5 harg5 arg6 harg6 arg7 harg7 arg8 harg8 arg9 harg9 arg10 harg10 arg11 harg11 hc0 hc1 x0 x1 x2 x3 x4 x5 x6 x7 xs).1 S5000x128.size (by sl_kernel_rfl) y

theorem scover1_C (hc0 : ¬first1 i) (hc1 : last1 i) (x0 : Vec F S256x128 .bf16) (x1 : Vec F S256 .i32) (x2 : Vec F S5000x128 .f32) (x3 : Vec F S128x128 .f32) (x4 : Vec F S128 .f32) (x5 : Vec F S128x128 .f32) (x6 : Vec F S128 .f32) (x7 : Vec F S1x128 .f32) (xs : Vec F S5000x128 .f32) (y : S5000x128.Idx) :
    ∃ pc ∈ (run1_C c i arg2 harg2 arg3 harg3 arg4 harg4 arg5 harg5 arg6 harg6 arg7 harg7 arg8 harg8 arg9 harg9 arg10 harg10 arg11 harg11 hc0 hc1 x0 x1 x2 x3 x4 x5 x6 x7 xs).2.1, y ∈ pc.1.set :=
  View.cover_of_tiledL (run1_C c i arg2 harg2 arg3 harg3 arg4 harg4 arg5 harg5 arg6 harg6 arg7 harg7 arg8 harg8 arg9 harg9 arg10 harg10 arg11 harg11 hc0 hc1 x0 x1 x2 x3 x4 x5 x6 x7 xs).2.1 S5000x128.size (by sl_kernel_rfl) y

def out1_C (hc0 : ¬first1 i) (hc1 : last1 i) (x0 : Vec F S256x128 .bf16) (x1 : Vec F S256 .i32) (x2 : Vec F S5000x128 .f32) (x3 : Vec F S128x128 .f32) (x4 : Vec F S128 .f32) (x5 : Vec F S128x128 .f32) (x6 : Vec F S128 .f32) (x7 : Vec F S1x128 .f32) (xs : Vec F S5000x128 .f32) : Vec F S5000x128 .f32 :=
  View.canon (run1_C c i arg2 harg2 arg3 harg3 arg4 harg4 arg5 harg5 arg6 harg6 arg7 harg7 arg8 harg8 arg9 harg9 arg10 harg10 arg11 harg11 hc0 hc1 x0 x1 x2 x3 x4 x5 x6 x7 xs).1

def sacc1_C (hc0 : ¬first1 i) (hc1 : last1 i) (x0 : Vec F S256x128 .bf16) (x1 : Vec F S256 .i32) (x2 : Vec F S5000x128 .f32) (x3 : Vec F S128x128 .f32) (x4 : Vec F S128 .f32) (x5 : Vec F S128x128 .f32) (x6 : Vec F S128 .f32) (x7 : Vec F S1x128 .f32) (xs : Vec F S5000x128 .f32) : Vec F S5000x128 .f32 :=
  View.canon (run1_C c i arg2 harg2 arg3 harg3 arg4 harg4 arg5 harg5 arg6 harg6 arg7 harg7 arg8 harg8 arg9 harg9 arg10 harg10 arg11 harg11 hc0 hc1 x0 x1 x2 x3 x4 x5 x6 x7 xs).2.1

end Cases

end Cert.KernelIdeal.Hand

end
-- ==== Proof.KI.Dat1.lean ====
import proofs.«415291_j87935160418912_3_alg».proof.Proof.KI.Sched1
import proofs.«415291_j87935160418912_3_alg».proof.Proof.KI.Case1

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

end Region

def idleOut1 : Vec F S5000x128 .f32 := outV1.read (Elt F) outV1.junk

section Region
variable (V : (c : Dev nD) → (b : Ref sig .tc) → Buf (Elt F) ((c : Thread nD τ).loc b))

def accA1 (c : Dev nD) (t : Fin cfg1.N) (h0 : t.val % 3125 = 0) (h1 : ¬t.val % 3125 = 3124) : Vec F S5000x128 .f32 :=
  sacc1_A c (grid1.coords t) (stg1_0 t) (hstg1_0 t) (stg1_1 t) (hstg1_1 t) (stg1_2 t) (hstg1_2 t) (stg1_3 t) (hstg1_3 t) (stg1_4 t) (hstg1_4 t) (stg1_5 t) (hstg1_5 t) (stg1_6 t) (hstg1_6 t) (stg1_7 t) (hstg1_7 t) (stg1_8 t) (hstg1_8 t) acc1 (Memref.isWhole_whole _) ((hfirst1 t).mpr h0) (fun h => h1 ((hlast1 t).mp h)) (iblk1 V c 0 t) (iblk1 V c 1 t) (iblk1 V c 2 t) (iblk1 V c 3 t) (iblk1 V c 4 t) (iblk1 V c 5 t) (iblk1 V c 6 t) (iblk1 V c 7 t)
def accB1 (c : Dev nD) (t : Fin cfg1.N) (h0 : ¬t.val % 3125 = 0) (h1 : ¬t.val % 3125 = 3124) (xs : Vec F S5000x128 .f32) : Vec F S5000x128 .f32 :=
  sacc1_B c (grid1.coords t) (stg1_0 t) (hstg1_0 t) (stg1_1 t) (hstg1_1 t) (stg1_2 t) (hstg1_2 t) (stg1_3 t) (hstg1_3 t) (stg1_4 t) (hstg1_4 t) (stg1_5 t) (hstg1_5 t) (stg1_6 t) (hstg1_6 t) (stg1_7 t) (hstg1_7 t) (stg1_8 t) (hstg1_8 t) acc1 (Memref.isWhole_whole _) (fun h => h0 ((hfirst1 t).mp h)) (fun h => h1 ((hlast1 t).mp h)) (iblk1 V c 0 t) (iblk1 V c 1 t) (iblk1 V c 2 t) (iblk1 V c 3 t) (iblk1 V c 4 t) (iblk1 V c 5 t) (iblk1 V c 6 t) (iblk1 V c 7 t) xs
def accC1 (c : Dev nD) (t : Fin cfg1.N) (h0 : ¬t.val % 3125 = 0) (h1 : t.val % 3125 = 3124) (xs : Vec F S5000x128 .f32) : Vec F S5000x128 .f32 :=
  sacc1_C c (grid1.coords t) (stg1_0 t) (hstg1_0 t) (stg1_1 t) (hstg1_1 t) (stg1_2 t) (hstg1_2 t) (stg1_3 t) (hstg1_3 t) (stg1_4 t) (hstg1_4 t) (stg1_5 t) (hstg1_5 t) (stg1_6 t) (hstg1_6 t) (stg1_7 t) (hstg1_7 t) (stg1_8 t) (hstg1_8 t) acc1 (Memref.isWhole_whole _) (fun h => h0 ((hfirst1 t).mp h)) ((hlast1 t).mpr h1) (iblk1 V c 0 t) (iblk1 V c 1 t) (iblk1 V c 2 t) (iblk1 V c 3 t) (iblk1 V c 4 t) (iblk1 V c 5 t) (iblk1 V c 6 t) (iblk1 V c 7 t) xs
def outC1 (c : Dev nD) (t : Fin cfg1.N) (h0 : ¬t.val % 3125 = 0) (h1 : t.val % 3125 = 3124) (xs : Vec F S5000x128 .f32) : Vec F S5000x128 .f32 :=
  out1_C c (grid1.coords t) (stg1_0 t) (hstg1_0 t) (stg1_1 t) (hstg1_1 t) (stg1_2 t) (hstg1_2 t) (stg1_3 t) (hstg1_3 t) (stg1_4 t) (hstg1_4 t) (stg1_5 t) (hstg1_5 t) (stg1_6 t) (hstg1_6 t) (stg1_7 t) (hstg1_7 t) (stg1_8 t) (hstg1_8 t) acc1 (Memref.isWhole_whole _) (fun h => h0 ((hfirst1 t).mp h)) ((hlast1 t).mpr h1) (iblk1 V c 0 t) (iblk1 V c 1 t) (iblk1 V c 2 t) (iblk1 V c 3 t) (iblk1 V c 4 t) (iblk1 V c 5 t) (iblk1 V c 6 t) (iblk1 V c 7 t) xs

-- The output block and the accumulator after point n: the point's case applied to its input blocks and to what point n - 1 left.
def outsAt1 (c : Dev nD) : (n : ℕ) → n < cfg1.N → Vec F S5000x128 .f32 × Vec F S5000x128 .f32
  | 0, hn => (idleOut1, accA1 V c ⟨0, hn⟩ (Nat.zero_mod _) (show ¬(0 % 3125 = 3124) by decide))
  | n + 1, hn =>
    if h0 : (n + 1) % 3125 = 0 then
      if h1 : (n + 1) % 3125 = 3124 then False.elim (by omega)
      else (idleOut1, accA1 V c ⟨n + 1, hn⟩ h0 h1)
    else
      if h1 : (n + 1) % 3125 = 3124 then
        (outC1 V c ⟨n + 1, hn⟩ h0 h1 (outsAt1 c n (Nat.lt_of_succ_lt hn)).2, accC1 V c ⟨n + 1, hn⟩ h0 h1 (outsAt1 c n (Nat.lt_of_succ_lt hn)).2)
      else (idleOut1, accB1 V c ⟨n + 1, hn⟩ h0 h1 (outsAt1 c n (Nat.lt_of_succ_lt hn)).2)

theorem outsAt1_A (c : Dev nD) (t : Fin cfg1.N) (h0 : t.val % 3125 = 0) (h1 : ¬t.val % 3125 = 3124) :
    outsAt1 V c t.val t.isLt = (idleOut1, accA1 V c t h0 h1) := by
  obtain ⟨n, hn⟩ := t
  cases n with
  | zero => exact rfl
  | succ n => exact (dif_pos h0).trans ((dif_neg h1).trans rfl)

theorem outsAt1_B (c : Dev nD) (t : Fin cfg1.N) (h0 : ¬t.val % 3125 = 0) (h1 : ¬t.val % 3125 = 3124) :
    outsAt1 V c t.val t.isLt = (idleOut1, accB1 V c t h0 h1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 3125 = 0) (h1 : t.val % 3125 = 3124) :
    outsAt1 V c t.val t.isLt = (outC1 V c t h0 h1 (outsAt1 V c (t.val - 1) (Nat.lt_of_le_of_lt (Nat.sub_le _ _) t.isLt)).2,
      accC1 V c t h0 h1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS1 (c : Dev nD) : (n : ℕ) → n ≤ cfg1.N → sProp 𝕄
  | 0, _ => Pipeline.ΦA spec1 c
  | n + 1, hn => iprop(iprop(owns (c : Thread nD τ) acc1 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) acc1 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) acc1 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

-- The invariant after any point implies the one before the first: what the accumulator holds is forgotten.
theorem PhiS1_weak (c : Dev nD) (n : ℕ) (h : n ≤ cfg1.N) : PhiS1 V c n h ⊢ Pipeline.ΦA spec1 c := by
  cases n with
  | zero => rw [PhiS1_zero V c 0 h rfl]; try exact Entails.refl _
  | succ n =>
    rw [PhiS1_succ, PhiA1_eq]
    iintro ⟨⟨HS, Hrest⟩, Hg⟩
    isplitl [HS Hrest]
    · isplitl [HS]
      · iexists _; iexact HS
      iexact Hrest
    iexact Hg

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

def bodyPre1 (c : Dev nD) (t : Fin cfg1.N) : sProp 𝕄 :=
  iprop((dat1 V c).Φ t.castSucc ∗ (dat1 V c).owesAt () t.castSucc
    ∗ (∃ d, owns (c : Thread nD τ) (stg1_0 t) fullShare ((dat1 V c).before 0 t d))
    ∗ (∃ d, owns (c : Thread nD τ) (stg1_1 t) fullShare ((dat1 V c).before 1 t d))
    ∗ (∃ d, owns (c : Thread nD τ) (stg1_2 t) fullShare ((dat1 V c).before 2 t d))
    ∗ (∃ d, owns (c : Thread nD τ) (stg1_3 t) fullShare ((dat1 V c).before 3 t d))
    ∗ (∃ d, owns (c : Thread nD τ) (stg1_4 t) fullShare ((dat1 V c).before 4 t d))
    ∗ (∃ d, owns (c : Thread nD τ) (stg1_5 t) fullShare ((dat1 V c).before 5 t d))
    ∗ (∃ d, owns (c : Thread nD τ) (stg1_6 t) fullShare ((dat1 V c).before 6 t d))
    ∗ (∃ d, owns (c : Thread nD τ) (stg1_7 t) fullShare ((dat1 V c).before 7 t d))
    ∗ (∃ d, owns (c : Thread nD τ) (stg1_8 t) fullShare ((dat1 V c).before 8 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

-- The body keeps the invariant at every point: the accumulator is reset at a run's first point, added to at each, combined and written out at the last.
set_option maxHeartbeats 9600000 in

theorem sound_body1 (c : Dev nD) (t : Fin cfg1.N) :
    bodyPre1 V c t ⊢ wp frame (wpE (defs₀ (F := F)) Variants.none c none) Set.univ (body1 t) (fun _ => bodyPost1 V c t) := by
  unfold bodyPre1 bodyPost1 body1
  simp only [before1_0, before1_1, before1_2, before1_3, before1_4, before1_5, before1_6, before1_7]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (stg1_0 t) fullShare ((dat1 V c).after 0 t) from by
    unfold Dat.leavesExact; rw [live1_0 t], after1_0]
  rw [show (dat1 V c).leavesExact 1 t = owns (c : Thread nD τ) (stg1_1 t) fullShare ((dat1 V c).after 1 t) from by
    unfold Dat.leavesExact; rw [live1_1 t], after1_1]
  rw [show (dat1 V c).leavesExact 2 t = owns (c : Thread nD τ) (stg1_2 t) fullShare ((dat1 V c).after 2 t) from by
    unfold Dat.leavesExact; rw [live1_2 t], after1_2]
  rw [show (dat1 V c).leavesExact 3 t = owns (c : Thread nD τ) (stg1_3 t) fullShare ((dat1 V c).after 3 t) from by
    unfold Dat.leavesExact; rw [live1_3 t], after1_3]
  rw [show (dat1 V c).leavesExact 4 t = owns (c : Thread nD τ) (stg1_4 t) fullShare ((dat1 V c).after 4 t) from by
    unfold Dat.leavesExact; rw [live1_4 t], after1_4]
  rw [show (dat1 V c).leavesExact 5 t = owns (c : Thread nD τ) (stg1_5 t) fullShare ((dat1 V c).after 5 t) from by
    unfold Dat.leavesExact; rw [live1_5 t], after1_5]
  rw [show (dat1 V c).leavesExact 6 t = owns (c : Thread nD τ) (stg1_6 t) fullShare ((dat1 V c).after 6 t) from by
    unfold Dat.leavesExact; rw [live1_6 t], after1_6]
  rw [show (dat1 V c).leavesExact 7 t = owns (c : Thread nD τ) (stg1_7 t) fullShare ((dat1 V c).after 7 t) from by
    unfold Dat.leavesExact; rw [live1_7 t], after1_7]
  by_cases h0 : t.val % 3125 = 0
  · have h1 : ¬t.val % 3125 = 3124 := by omega
    rw [Dat.leavesExact_idle (dat1 V c) 8 t (idle1_8 t (fun h => h1 ((hlast1 t).mp h))) (noFlush1_8 t (fun h => h1 ((hlast1 t).mp h)))]
    rw [outsAt1_A V c t h0 h1]
    unfold accA1 sacc1_A; (try dsimp only)
    rw [PhiS1_castSucc V c t]
    refine BIBase.Entails.trans (sep_mono_left (PhiS1_weak V c _ _)) ?_
    rw [PhiA1_eq]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((run1_A c (grid1.coords t) _ (hstg1_0 t) _ (hstg1_1 t) _ (hstg1_2 t) _ (hstg1_3 t) _ (hstg1_4 t) _ (hstg1_5 t) _ (hstg1_6 t) _ (hstg1_7 t) _ (hstg1_8 t) _ (Memref.isWhole_whole _) ((hfirst1 t).mpr h0) (fun h => h1 ((hlast1 t).mp h)) (iblk1 V c 0 t) (iblk1 V c 1 t) (iblk1 V c 2 t) (iblk1 V c 3 t) (iblk1 V c 4 t) (iblk1 V c 5 t) (iblk1 V c 6 t) (iblk1 V c 7 t)).2 _ Set.univ _)
    iframe H0 H1 H2 H3 H4 H5 H6 H7 H8 HS
    iintro ⟨H0, H1, H2, H3, H4, H5, H6, H7, H8, ⟨%es, HS⟩⟩
    iframe Hrest Hg Ho H0 H1 H2 H3 H4 H5 H6 H7
    isplitl [HS]
    · unfold owns; iexists _; isplitr
      swap; · iexact HS
      ipureintro; exact View.read_writes_eq_canon _ _ _ (scover1_A c _ _ _ _ _ _ _ _ _ _ _ _ _ _ _ _ _ _ _ _ _ _ _ _ _ _ _ _ _ _ _)
    iexists _; iexact H8
  · have hz : t.val ≠ 0 := fun h => h0 (by rw [h])
    by_cases h1 : t.val % 3125 = 3124
    · rw [show (dat1 V c).leavesExact 8 t = owns (c : Thread nD τ) (stg1_8 t) fullShare ((dat1 V c).after 8 t) from by
        unfold Dat.leavesExact; rw [live1_8 t ((hlast1 t).mpr h1)], after1_8]
      rw [outsAt1_C V c t h0 h1]
      unfold outC1 accC1 out1_C sacc1_C; (try dsimp only)
      rw [PhiS1_castSucc V c t, PhiS1_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((run1_C c (grid1.coords t) _ (hstg1_0 t) _ (hstg1_1 t) _ (hstg1_2 t) _ (hstg1_3 t) _ (hstg1_4 t) _ (hstg1_5 t) _ (hstg1_6 t) _ (hstg1_7 t) _ (hstg1_8 t) _ (Memref.isWhole_whole _) (fun h => h0 ((hfirst1 t).mp h)) ((hlast1 t).mpr h1) (iblk1 V c 0 t) (iblk1 V c 1 t) (iblk1 V c 2 t) (iblk1 V c 3 t) (iblk1 V c 4 t) (iblk1 V c 5 t) (iblk1 V c 6 t) (iblk1 V c 7 t) _).2.2 Set.univ _)
      iframe H0 H1 H2 H3 H4 H5 H6 H7 HS
      isplitl [H8]; · iexists _; iexact H8
      iintro ⟨H0, H1, H2, H3, H4, H5, H6, H7, ⟨%e8, H8⟩, ⟨%es, HS⟩⟩
      iframe Hrest Hg Ho H0 H1 H2 H3 H4 H5 H6 H7
      isplitl [HS]
      · unfold owns; iexists _; isplitr
        swap; · iexact HS
        ipureintro; exact View.read_writes_eq_canon _ _ _ (scover1_C c _ _ _ _ _ _ _ _ _ _ _ _ _ _ _ _ _ _ _ _ _ _ _ _ _ _ _ _ _ _ _ _)
      unfold owns; iexists _; isplitr
      swap; · iexact H8
      ipureintro; exact View.read_writes_eq_canon _ _ _ (cover1_C c _ _ _ _ _ _ _ _ _ _ _ _ _ _ _ _ _ _ _ _ _ _ _ _ _ _ _ _ _ _ _ _)
    · rw [Dat.leavesExact_idle (dat1 V c) 8 t (idle1_8 t (fun h => h1 ((hlast1 t).mp h))) (noFlush1_8 t (fun h => h1 ((hlast1 t).mp h)))]
      rw [outsAt1_B V c t h0 h1]
      unfold accB1 sacc1_B; (try dsimp only)
      rw [PhiS1_castSucc V c t, PhiS1_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((run1_B c (grid1.coords t) _ (hstg1_0 t) _ (hstg1_1 t) _ (hstg1_2 t) _ (hstg1_3 t) _ (hstg1_4 t) _ (hstg1_5 t) _ (hstg1_6 t) _ (hstg1_7 t) _ (hstg1_8 t) _ (Memref.isWhole_whole _) (fun h => h0 ((hfirst1 t).mp h)) (fun h => h1 ((hlast1 t).mp h)) (iblk1 V c 0 t) (iblk1 V c 1 t) (iblk1 V c 2 t) (iblk1 V c 3 t) (iblk1 V c 4 t) (iblk1 V c 5 t) (iblk1 V c 6 t) (iblk1 V c 7 t) _).2 _ Set.univ _)
      iframe H0 H1 H2 H3 H4 H5 H6 H7 H8 HS
      iintro ⟨H0, H1, H2, H3, H4, H5, H6, H7, H8, ⟨%es, HS⟩⟩
      iframe Hrest Hg Ho H0 H1 H2 H3 H4 H5 H6 H7
      isplitl [HS]
      · unfold owns; iexists _; isplitr
        swap; · iexact HS
        ipureintro; exact View.read_writes_eq_canon _ _ _ (scover1_B c _ _ _ _ _ _ _ _ _ _ _ _ _ _ _ _ _ _ _ _ _ _ _ _ _ _ _ _ _ _ _ _)
      iexists _; iexact H8

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c :=
  PhiS1_weak V c _ _

theorem hout1 (c : Dev nD) : (dat1 V c).Φ (Fin.last cfg1.N) ⊢ Pipeline.ΦA spec1 c :=
  Phi_out1 V c _ (by rw [Fin.val_last]; have : cfg1.N = 31250 := N_1; omega)

end Region

end Cert.KernelIdeal.Hand

end
-- ==== Proof.KI.Cond2.lean ====
import proofs.«415291_j87935160418912_3_alg».proof.Proof.Gen.KernelIdeal.Launch
import proofs.«415291_j87935160418912_3_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic

variable {F : FTy → Type} [FloatOps F]

abbrev first2 (i : grid2.Coords) : Prop := (Scalar.cmpi .ne (Scalar.extui (Scalar.cmpi .eq (BitVec.ofNat 32 (i 1).val) 0#32)) 0#32) = 1#1

abbrev last2 (i : grid2.Coords) : Prop := k2_cond2 i = 1#1

abbrev acc2 : Memref sig .tc .vmem S256x128 .f32 := Memref.whole cc2_scratch0

abbrev accV2 : View sig .tc .vmem S256x128 .f32 := acc2.view

abbrev outV2 : View sig .tc .vmem S256x128 .bf16 := (Memref.whole cc2_stg2_0 : Memref sig .tc .vmem S256x128 .bf16).view

end Cert.KernelIdeal.Hand

end
-- ==== Proof.KI.Flush2.lean ====
import proofs.«415291_j87935160418912_3_alg».proof.Proof.KI.Cond2

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

theorem blk2_out (t : Fin cfg2.N) : win2_2.index t = ![t.val / 5 % 3125, 0] := by
  have h0 : ((grid2.coords t) 0).val = t.val / 5 % 3125 := by
    show t.val / grid2.stride 0 % 3125 = _
    rw [show grid2.stride 0 = 5 from by decide]
  show cc2_transform_2 (grid2.coords t) = _
  unfold cc2_transform_2
  dsimp only
  rw [h0, BitVec.toNat_ofNat, Nat.mod_eq_of_lt (by omega : t.val / 5 % 3125 < 2 ^ 32)]
  rfl

theorem flushOut2 : ∀ t : Fin cfg2.N, (cfg2.win 2).flush t = true ↔ t.val % 5 = 4 := fun t => by
  have hN : grid2.N = 15625 := N_2
  have hlt : t.val < grid2.N := t.isLt
  show win2_2.flush t = true ↔ _
  unfold Pipeline.Window.flush
  rw [show win2_2.isOut = true from rfl, Bool.true_and, Bool.or_eq_true, decide_eq_true_eq, decide_eq_true_eq]
  constructor
  · rintro (h | ⟨h, hne⟩)
    · omega
    · rw [blk2_out, blk2_out] at hne
      by_contra hc
      apply hne
      have e : (t.val + 1) / 5 % 3125 = t.val / 5 % 3125 := by omega
      show ![(t.val + 1) / 5 % 3125, 0] = ![t.val / 5 % 3125, 0]
      rw [e]
  · intro h
    by_cases hl : t.val + 1 = grid2.N
    · exact Or.inl hl
    · refine Or.inr ⟨by omega, fun he => ?_⟩
      rw [blk2_out, blk2_out] at he
      have h0 := congrFun he 0
      simp only [Matrix.cons_val_zero] at h0
      omega

end Cert.KernelIdeal.Hand

end
-- ==== Proof.KI.Sched2.lean ====
import proofs.«415291_j87935160418912_3_alg».proof.Proof.KI.Flush2

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev stg2_0 (t : Fin cfg2.N) : Memref sig .tc .vmem S256 .i32 := win2_0.stage (cfg2.slots t 0)
abbrev hstg2_0 (t : Fin cfg2.N) : (stg2_0 t).IsWhole := hstage2_0 ((cfg2.slots t 0).cast nbuf2_0)
abbrev stg2_1 (t : Fin cfg2.N) : Memref sig .tc .vmem S10000x128 .bf16 := win2_1.stage (cfg2.slots t 1)
abbrev hstg2_1 (t : Fin cfg2.N) : (stg2_1 t).IsWhole := hstage2_1 ((cfg2.slots t 1).cast nbuf2_1)
abbrev stg2_2 (t : Fin cfg2.N) : Memref sig .tc .vmem S256x128 .bf16 := win2_2.stage (cfg2.slots t 2)
abbrev hstg2_2 (t : Fin cfg2.N) : (stg2_2 t).IsWhole := hstage2_2 ((cfg2.slots t 2).cast nbuf2_2)

abbrev body2 (t : Fin cfg2.N) : Prog (TpuEff nD τ sig (Elt F) Λ₀ .tc) PUnit :=
  cc2__gather_kernel (grid2.coords t) (stg2_0 t) (hstg2_0 t) (stg2_1 t) (hstg2_1 t) (stg2_2 t) (hstg2_2 t) (Memref.whole cc2_scratch0) (Memref.isWhole_whole _)

theorem coord2_1 (t : Fin cfg2.N) : ((grid2.coords t) 1).val = t.val % 5 := by
  show t.val / grid2.stride 1 % 5 = t.val % 5
  rw [show grid2.stride 1 = 1 from by decide, Nat.div_one]

theorem kcond2_eq (i : grid2.Coords) :
    k2_cond2 i = Scalar.cmpi .ne (Scalar.extui (Scalar.cmpi .eq (BitVec.ofNat 32 (i 1).val) 4#32)) 0#32 := rfl

theorem hfirst2 : ∀ t : Fin cfg2.N, first2 (grid2.coords t) ↔ t.val % 5 = 0 := fun t => by
  have key : ∀ n : Fin 5, ((Scalar.cmpi .ne (Scalar.extui (Scalar.cmpi .eq (BitVec.ofNat 32 n.val) 0#32)) 0#32) = 1#1) ↔ n.val = 0 := by
    decide +kernel
  rw [← coord2_1 t]
  exact key ((grid2.coords t) 1)

theorem hlast2 : ∀ t : Fin cfg2.N, last2 (grid2.coords t) ↔ t.val % 5 = 4 := fun t => by
  have key : ∀ n : Fin 5, ((Scalar.cmpi .ne (Scalar.extui (Scalar.cmpi .eq (BitVec.ofNat 32 n.val) 4#32)) 0#32) = 1#1) ↔ n.val = 4 := by
    decide +kernel
  rw [← coord2_1 t]
  show k2_cond2 (grid2.coords t) = 1#1 ↔ _
  rw [kcond2_eq]
  exact key ((grid2.coords t) 1)

theorem live2_0 (t : Fin cfg2.N) : cfg2.idle 0 (grid2.coords t) = false := rfl
theorem live2_1 (t : Fin cfg2.N) : cfg2.idle 1 (grid2.coords t) = false := rfl

theorem idle2_2 (t : Fin cfg2.N) (h : ¬last2 (grid2.coords t)) : cfg2.idle 2 (grid2.coords t) = true := by
  show (!(k2_cond2 (grid2.coords t) == 1#1)) = true
  simp only [Bool.not_eq_true', beq_eq_false_iff_ne, ne_eq]; exact h

theorem live2_2 (t : Fin cfg2.N) (h : last2 (grid2.coords t)) : cfg2.idle 2 (grid2.coords t) = false := by
  show (!(k2_cond2 (grid2.coords t) == 1#1)) = false
  simp only [Bool.not_eq_false', beq_iff_eq]; exact h

theorem noFlush2_2 (t : Fin cfg2.N) (h : ¬last2 (grid2.coords t)) : (cfg2.win 2).flush t = false := by
  cases hf : (cfg2.win 2).flush t with
  | false => rfl
  | true => exact absurd ((hlast2 t).mpr ((flushOut2 t).mp hf)) h

theorem PhiA2_eq (c : Dev nD) :
    (Pipeline.ΦA spec2 c : sProp 𝕄)
      = iprop(iprop((∃ d, owns (c : Thread nD τ) acc2 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [acc2, owns_whole]; try rfl

end Cert.KernelIdeal.Hand

end
-- ==== Proof.KI.Dat2.lean ====
import proofs.«415291_j87935160418912_3_alg».proof.Proof.KI.Sched2
import proofs.«415291_j87935160418912_3_alg».proof.Proof.KI.Case0

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

end Region

def idleOut2 : Vec F S256x128 .bf16 := outV2.read (Elt F) outV2.junk

section Region
variable (V : (c : Dev nD) → (b : Ref sig .tc) → Buf (Elt F) ((c : Thread nD τ).loc b))

def accA2 (c : Dev nD) (t : Fin cfg2.N) (h0 : t.val % 5 = 0) (h1 : ¬t.val % 5 = 4) : Vec F S256x128 .f32 :=
  sacc0_A c (grid2.coords t) (stg2_0 t) (hstg2_0 t) (stg2_1 t) (hstg2_1 t) (stg2_2 t) (hstg2_2 t) acc2 (Memref.isWhole_whole _) ((hfirst2 t).mpr h0) (fun h => h1 ((hlast2 t).mp h)) (iblk2 V c 0 t) (iblk2 V c 1 t)
def accB2 (c : Dev nD) (t : Fin cfg2.N) (h0 : ¬t.val % 5 = 0) (h1 : ¬t.val % 5 = 4) (xs : Vec F S256x128 .f32) : Vec F S256x128 .f32 :=
  sacc0_B c (grid2.coords t) (stg2_0 t) (hstg2_0 t) (stg2_1 t) (hstg2_1 t) (stg2_2 t) (hstg2_2 t) acc2 (Memref.isWhole_whole _) (fun h => h0 ((hfirst2 t).mp h)) (fun h => h1 ((hlast2 t).mp h)) (iblk2 V c 0 t) (iblk2 V c 1 t) xs
def accC2 (c : Dev nD) (t : Fin cfg2.N) (h0 : ¬t.val % 5 = 0) (h1 : t.val % 5 = 4) (xs : Vec F S256x128 .f32) : Vec F S256x128 .f32 :=
  sacc0_C c (grid2.coords t) (stg2_0 t) (hstg2_0 t) (stg2_1 t) (hstg2_1 t) (stg2_2 t) (hstg2_2 t) acc2 (Memref.isWhole_whole _) (fun h => h0 ((hfirst2 t).mp h)) ((hlast2 t).mpr h1) (iblk2 V c 0 t) (iblk2 V c 1 t) xs
def outC2 (c : Dev nD) (t : Fin cfg2.N) (h0 : ¬t.val % 5 = 0) (h1 : t.val % 5 = 4) (xs : Vec F S256x128 .f32) : Vec F S256x128 .bf16 :=
  out0_C c (grid2.coords t) (stg2_0 t) (hstg2_0 t) (stg2_1 t) (hstg2_1 t) (stg2_2 t) (hstg2_2 t) acc2 (Memref.isWhole_whole _) (fun h => h0 ((hfirst2 t).mp h)) ((hlast2 t).mpr h1) (iblk2 V c 0 t) (iblk2 V c 1 t) xs

-- The output block and the accumulator after point n: the point's case applied to its two input blocks and to what point n - 1 left.
def outsAt2 (c : Dev nD) : (n : ℕ) → n < cfg2.N → Vec F S256x128 .bf16 × Vec F S256x128 .f32
  | 0, hn => (idleOut2, accA2 V c ⟨0, hn⟩ (Nat.zero_mod _) (show ¬(0 % 5 = 4) by decide))
  | n + 1, hn =>
    if h0 : (n + 1) % 5 = 0 then
      if h1 : (n + 1) % 5 = 4 then False.elim (by omega)
      else (idleOut2, accA2 V c ⟨n + 1, hn⟩ h0 h1)
    else
      if h1 : (n + 1) % 5 = 4 then
        (outC2 V c ⟨n + 1, hn⟩ h0 h1 (outsAt2 c n (Nat.lt_of_succ_lt hn)).2, accC2 V c ⟨n + 1, hn⟩ h0 h1 (outsAt2 c n (Nat.lt_of_succ_lt hn)).2)
      else (idleOut2, accB2 V c ⟨n + 1, hn⟩ h0 h1 (outsAt2 c n (Nat.lt_of_succ_lt hn)).2)

theorem outsAt2_A (c : Dev nD) (t : Fin cfg2.N) (h0 : t.val % 5 = 0) (h1 : ¬t.val % 5 = 4) :
    outsAt2 V c t.val t.isLt = (idleOut2, accA2 V c t h0 h1) := by
  obtain ⟨n, hn⟩ := t
  cases n with
  | zero => exact rfl
  | succ n => exact (dif_pos h0).trans ((dif_neg h1).trans rfl)

theorem outsAt2_B (c : Dev nD) (t : Fin cfg2.N) (h0 : ¬t.val % 5 = 0) (h1 : ¬t.val % 5 = 4) :
    outsAt2 V c t.val t.isLt = (idleOut2, accB2 V c t h0 h1 (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 5 = 0) (h1 : t.val % 5 = 4) :
    outsAt2 V c t.val t.isLt = (outC2 V c t h0 h1 (outsAt2 V c (t.val - 1) (Nat.lt_of_le_of_lt (Nat.sub_le _ _) t.isLt)).2,
      accC2 V c t h0 h1 (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS2 (c : Dev nD) : (n : ℕ) → n ≤ cfg2.N → sProp 𝕄
  | 0, _ => Pipeline.ΦA spec2 c
  | n + 1, hn => iprop(iprop(owns (c : Thread nD τ) acc2 fullShare ((outsAt2 V c n hn).2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) acc2 fullShare ((outsAt2 V c n hn).2) ∗ Pipeline.scopedRestBut (Ix := Unit) (Name := ℕ) (U := UR sig nD τ) (Lvl := ℕ) (Val := Elt F) spec2 c [cc2_scratch0]) ∗ (∃ r, prngReg c r)) := rfl
theorem PhiS2_pos (c : Dev nD) (n : ℕ) (h : n ≤ cfg2.N) (hz : n ≠ 0) :
    PhiS2 V c n h = iprop(iprop(owns (c : Thread nD τ) acc2 fullShare ((outsAt2 V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

-- The invariant after any point implies the one before the first: what the accumulator holds is forgotten.
theorem PhiS2_weak (c : Dev nD) (n : ℕ) (h : n ≤ cfg2.N) : PhiS2 V c n h ⊢ Pipeline.ΦA spec2 c := by
  cases n with
  | zero => rw [PhiS2_zero V c 0 h rfl]; try exact Entails.refl _
  | succ n =>
    rw [PhiS2_succ, PhiA2_eq]
    iintro ⟨⟨HS, Hrest⟩, Hg⟩
    isplitl [HS Hrest]
    · isplitl [HS]
      · iexists _; iexact HS
      iexact Hrest
    iexact Hg

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (stg2_0 t) fullShare ((dat2 V c).before 0 t d))
    ∗ (∃ d, owns (c : Thread nD τ) (stg2_1 t) fullShare ((dat2 V c).before 1 t d))
    ∗ (∃ d, owns (c : Thread nD τ) (stg2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

-- The body keeps the invariant at every point: the accumulator is reset at a run's first point, added to at each, written out at the last.
set_option maxHeartbeats 4800000 in

theorem sound_body2 (c : Dev nD) (t : Fin cfg2.N) :
    bodyPre2 V c t ⊢ wp frame (wpE (defs₀ (F := F)) Variants.none c none) Set.univ (body2 t) (fun _ => bodyPost2 V c t) := by
  unfold bodyPre2 bodyPost2 body2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (stg2_0 t) fullShare ((dat2 V c).after 0 t) from by
    unfold Dat.leavesExact; rw [live2_0 t], after2_0]
  rw [show (dat2 V c).leavesExact 1 t = owns (c : Thread nD τ) (stg2_1 t) fullShare ((dat2 V c).after 1 t) from by
    unfold Dat.leavesExact; rw [live2_1 t], after2_1]
  by_cases h0 : t.val % 5 = 0
  · have h1 : ¬t.val % 5 = 4 := by omega
    rw [Dat.leavesExact_idle (dat2 V c) 2 t (idle2_2 t (fun h => h1 ((hlast2 t).mp h))) (noFlush2_2 t (fun h => h1 ((hlast2 t).mp h)))]
    rw [outsAt2_A V c t h0 h1]
    unfold accA2 sacc0_A; (try dsimp only)
    rw [PhiS2_castSucc V c t]
    refine BIBase.Entails.trans (sep_mono_left (PhiS2_weak V c _ _)) ?_
    rw [PhiA2_eq]
    iintro ⟨⟨⟨HS, Hrest⟩, Hg⟩, Ho, ⟨%d0, H0⟩, ⟨%d1, H1⟩, ⟨%d2, H2⟩⟩
    iapply ((run0_A c (grid2.coords t) _ (hstg2_0 t) _ (hstg2_1 t) _ (hstg2_2 t) _ (Memref.isWhole_whole _) ((hfirst2 t).mpr h0) (fun h => h1 ((hlast2 t).mp h)) (iblk2 V c 0 t) (iblk2 V c 1 t)).2 _ Set.univ _)
    iframe H0 H1 H2 HS
    iintro ⟨H0, H1, H2, ⟨%es, HS⟩⟩
    iframe Hrest Hg Ho H0 H1
    isplitl [HS]
    · unfold owns; iexists _; isplitr
      swap; · iexact HS
      ipureintro; exact View.read_writes_eq_canon _ _ _ (scover0_A c _ _ _ _ _ _ _ _ _ _ _ _ _)
    iexists _; iexact H2
  · have hz : t.val ≠ 0 := fun h => h0 (by rw [h])
    by_cases h1 : t.val % 5 = 4
    · rw [show (dat2 V c).leavesExact 2 t = owns (c : Thread nD τ) (stg2_2 t) fullShare ((dat2 V c).after 2 t) from by
        unfold Dat.leavesExact; rw [live2_2 t ((hlast2 t).mpr h1)], after2_2]
      rw [outsAt2_C V c t h0 h1]
      unfold outC2 accC2 out0_C sacc0_C; (try dsimp only)
      rw [PhiS2_castSucc V c t, PhiS2_pos V c _ _ hz]
      iintro ⟨⟨⟨HS, Hrest⟩, Hg⟩, Ho, ⟨%d0, H0⟩, ⟨%d1, H1⟩, ⟨%d2, H2⟩⟩
      iapply ((run0_C c (grid2.coords t) _ (hstg2_0 t) _ (hstg2_1 t) _ (hstg2_2 t) _ (Memref.isWhole_whole _) (fun h => h0 ((hfirst2 t).mp h)) ((hlast2 t).mpr h1) (iblk2 V c 0 t) (iblk2 V c 1 t) _).2.2 Set.univ _)
      iframe H0 H1 HS
      isplitl [H2]; · iexists _; iexact H2
      iintro ⟨H0, H1, ⟨%e2, H2⟩, ⟨%es, HS⟩⟩
      iframe Hrest Hg Ho H0 H1
      isplitl [HS]
      · unfold owns; iexists _; isplitr
        swap; · iexact HS
        ipureintro; exact View.read_writes_eq_canon _ _ _ (scover0_C c _ _ _ _ _ _ _ _ _ _ _ _ _ _)
      unfold owns; iexists _; isplitr
      swap; · iexact H2
      ipureintro; exact View.read_writes_eq_canon _ _ _ (cover0_C c _ _ _ _ _ _ _ _ _ _ _ _ _ _)
    · rw [Dat.leavesExact_idle (dat2 V c) 2 t (idle2_2 t (fun h => h1 ((hlast2 t).mp h))) (noFlush2_2 t (fun h => h1 ((hlast2 t).mp h)))]
      rw [outsAt2_B V c t h0 h1]
      unfold accB2 sacc0_B; (try dsimp only)
      rw [PhiS2_castSucc V c t, PhiS2_pos V c _ _ hz]
      iintro ⟨⟨⟨HS, Hrest⟩, Hg⟩, Ho, ⟨%d0, H0⟩, ⟨%d1, H1⟩, ⟨%d2, H2⟩⟩
      iapply ((run0_B c (grid2.coords t) _ (hstg2_0 t) _ (hstg2_1 t) _ (hstg2_2 t) _ (Memref.isWhole_whole _) (fun h => h0 ((hfirst2 t).mp h)) (fun h => h1 ((hlast2 t).mp h)) (iblk2 V c 0 t) (iblk2 V c 1 t) _).2 _ Set.univ _)
      iframe H0 H1 H2 HS
      iintro ⟨H0, H1, H2, ⟨%es, HS⟩⟩
      iframe Hrest Hg Ho H0 H1
      isplitl [HS]
      · unfold owns; iexists _; isplitr
        swap; · iexact HS
        ipureintro; exact View.read_writes_eq_canon _ _ _ (scover0_B c _ _ _ _ _ _ _ _ _ _ _ _ _ _)
      iexists _; iexact H2

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 V c).Φ t ⊢ Pipeline.ΦA spec2 c :=
  PhiS2_weak V c _ _

theorem hout2 (c : Dev nD) : (dat2 V c).Φ (Fin.last cfg2.N) ⊢ Pipeline.ΦA spec2 c :=
  Phi_out2 V c _ (by rw [Fin.val_last]; have : cfg2.N = 15625 := N_2; omega)

end Region

end Cert.KernelIdeal.Hand

end
-- ==== Proof.KI.Cond3.lean ====
import proofs.«415291_j87935160418912_3_alg».proof.Proof.Gen.KernelIdeal.Launch
import proofs.«415291_j87935160418912_3_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic

variable {F : FTy → Type} [FloatOps F]

abbrev first3 (i : grid3.Coords) : Prop := (Scalar.cmpi .ne (Scalar.extui (Scalar.cmpi .eq (BitVec.ofNat 32 (i 1).val) 0#32)) 0#32) = 1#1

abbrev last3 (i : grid3.Coords) : Prop := k3_cond2 i = 1#1

abbrev acc3 : Memref sig .tc .vmem S5000x128 .f32 := Memref.whole cc3_scratch0

abbrev accV3 : View sig .tc .vmem S5000x128 .f32 := acc3.view

abbrev outV3 : View sig .tc .vmem S5000x128 .f32 := (Memref.whole cc3_stg8_0 : Memref sig .tc .vmem S5000x128 .f32).view

end Cert.KernelIdeal.Hand

end
-- ==== Proof.KI.Flush3.lean ====
import proofs.«415291_j87935160418912_3_alg».proof.Proof.KI.Cond3

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

theorem blk3_out (t : Fin cfg3.N) : win3_8.index t = ![t.val / 3125 % 10, 0] := by
  have h0 : ((grid3.coords t) 0).val = t.val / 3125 % 10 := by
    show t.val / grid3.stride 0 % 10 = _
    rw [show grid3.stride 0 = 3125 from by decide]
  show cc3_transform_8 (grid3.coords t) = _
  unfold cc3_transform_8
  dsimp only
  rw [h0, BitVec.toNat_ofNat, Nat.mod_eq_of_lt (by omega : t.val / 3125 % 10 < 2 ^ 32)]
  rfl

theorem flushOut3 : ∀ t : Fin cfg3.N, (cfg3.win 8).flush t = true ↔ t.val % 3125 = 3124 := fun t => by
  have hN : grid3.N = 31250 := N_3
  have hlt : t.val < grid3.N := t.isLt
  show win3_8.flush t = true ↔ _
  unfold Pipeline.Window.flush
  rw [show win3_8.isOut = true from rfl, Bool.true_and, Bool.or_eq_true, decide_eq_true_eq, decide_eq_true_eq]
  constructor
  · rintro (h | ⟨h, hne⟩)
    · omega
    · rw [blk3_out, blk3_out] at hne
      by_contra hc
      apply hne
      have e : (t.val + 1) / 3125 % 10 = t.val / 3125 % 10 := by omega
      show ![(t.val + 1) / 3125 % 10, 0] = ![t.val / 3125 % 10, 0]
      rw [e]
  · intro h
    by_cases hl : t.val + 1 = grid3.N
    · exact Or.inl hl
    · refine Or.inr ⟨by omega, fun he => ?_⟩
      rw [blk3_out, blk3_out] at he
      have h0 := congrFun he 0
      simp only [Matrix.cons_val_zero] at h0
      omega

end Cert.KernelIdeal.Hand

end
-- ==== Proof.KI.Sched3.lean ====
import proofs.«415291_j87935160418912_3_alg».proof.Proof.KI.Flush3

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev stg3_0 (t : Fin cfg3.N) : Memref sig .tc .vmem S256x128 .bf16 := win3_0.stage (cfg3.slots t 0)
abbrev hstg3_0 (t : Fin cfg3.N) : (stg3_0 t).IsWhole := hstage3_0 ((cfg3.slots t 0).cast nbuf3_0)
abbrev stg3_1 (t : Fin cfg3.N) : Memref sig .tc .vmem S256 .i32 := win3_1.stage (cfg3.slots t 1)
abbrev hstg3_1 (t : Fin cfg3.N) : (stg3_1 t).IsWhole := hstage3_1 ((cfg3.slots t 1).cast nbuf3_1)
abbrev stg3_2 (t : Fin cfg3.N) : Memref sig .tc .vmem S5000x128 .f32 := win3_2.stage (cfg3.slots t 2)
abbrev hstg3_2 (t : Fin cfg3.N) : (stg3_2 t).IsWhole := hstage3_2 ((cfg3.slots t 2).cast nbuf3_2)
abbrev stg3_3 (t : Fin cfg3.N) : Memref sig .tc .vmem S128x128 .f32 := win3_3.stage (cfg3.slots t 3)
abbrev hstg3_3 (t : Fin cfg3.N) : (stg3_3 t).IsWhole := hstage3_3 ((cfg3.slots t 3).cast nbuf3_3)
abbrev stg3_4 (t : Fin cfg3.N) : Memref sig .tc .vmem S128 .f32 := win3_4.stage (cfg3.slots t 4)
abbrev hstg3_4 (t : Fin cfg3.N) : (stg3_4 t).IsWhole := hstage3_4 ((cfg3.slots t 4).cast nbuf3_4)
abbrev stg3_5 (t : Fin cfg3.N) : Memref sig .tc .vmem S128x128 .f32 := win3_5.stage (cfg3.slots t 5)
abbrev hstg3_5 (t : Fin cfg3.N) : (stg3_5 t).IsWhole := hstage3_5 ((cfg3.slots t 5).cast nbuf3_5)
abbrev stg3_6 (t : Fin cfg3.N) : Memref sig .tc .vmem S128 .f32 := win3_6.stage (cfg3.slots t 6)
abbrev hstg3_6 (t : Fin cfg3.N) : (stg3_6 t).IsWhole := hstage3_6 ((cfg3.slots t 6).cast nbuf3_6)
abbrev stg3_7 (t : Fin cfg3.N) : Memref sig .tc .vmem S1x128 .f32 := win3_7.stage (cfg3.slots t 7)
abbrev hstg3_7 (t : Fin cfg3.N) : (stg3_7 t).IsWhole := hstage3_7 ((cfg3.slots t 7).cast nbuf3_7)
abbrev stg3_8 (t : Fin cfg3.N) : Memref sig .tc .vmem S5000x128 .f32 := win3_8.stage (cfg3.slots t 8)
abbrev hstg3_8 (t : Fin cfg3.N) : (stg3_8 t).IsWhole := hstage3_8 ((cfg3.slots t 8).cast nbuf3_8)

abbrev body3 (t : Fin cfg3.N) : Prog (TpuEff nD τ sig (Elt F) Λ₀ .tc) PUnit :=
  cc3__scatter_combine_kernel (grid3.coords t) (stg3_0 t) (hstg3_0 t) (stg3_1 t) (hstg3_1 t) (stg3_2 t) (hstg3_2 t) (stg3_3 t) (hstg3_3 t) (stg3_4 t) (hstg3_4 t) (stg3_5 t) (hstg3_5 t) (stg3_6 t) (hstg3_6 t) (stg3_7 t) (hstg3_7 t) (stg3_8 t) (hstg3_8 t) (Memref.whole cc3_scratch0) (Memref.isWhole_whole _)

theorem coord3_1 (t : Fin cfg3.N) : ((grid3.coords t) 1).val = t.val % 3125 := by
  show t.val / grid3.stride 1 % 3125 = t.val % 3125
  rw [show grid3.stride 1 = 1 from by decide, Nat.div_one]

theorem kcond3_eq (i : grid3.Coords) :
    k3_cond2 i = Scalar.cmpi .ne (Scalar.extui (Scalar.cmpi .eq (BitVec.ofNat 32 (i 1).val) 3124#32)) 0#32 := rfl

theorem hfirst3 : ∀ t : Fin cfg3.N, first3 (grid3.coords t) ↔ t.val % 3125 = 0 := fun t => by
  have key : ∀ n : Fin 3125, ((Scalar.cmpi .ne (Scalar.extui (Scalar.cmpi .eq (BitVec.ofNat 32 n.val) 0#32)) 0#32) = 1#1) ↔ n.val = 0 := by
    decide +kernel
  rw [← coord3_1 t]
  exact key ((grid3.coords t) 1)

theorem hlast3 : ∀ t : Fin cfg3.N, last3 (grid3.coords t) ↔ t.val % 3125 = 3124 := fun t => by
  have key : ∀ n : Fin 3125, ((Scalar.cmpi .ne (Scalar.extui (Scalar.cmpi .eq (BitVec.ofNat 32 n.val) 3124#32)) 0#32) = 1#1) ↔ n.val = 3124 := by
    decide +kernel
  rw [← coord3_1 t]
  show k3_cond2 (grid3.coords t) = 1#1 ↔ _
  rw [kcond3_eq]
  exact key ((grid3.coords t) 1)

theorem live3_0 (t : Fin cfg3.N) : cfg3.idle 0 (grid3.coords t) = false := rfl
theorem live3_1 (t : Fin cfg3.N) : cfg3.idle 1 (grid3.coords t) = false := rfl
theorem live3_2 (t : Fin cfg3.N) : cfg3.idle 2 (grid3.coords t) = false := rfl
theorem live3_3 (t : Fin cfg3.N) : cfg3.idle 3 (grid3.coords t) = false := rfl
theorem live3_4 (t : Fin cfg3.N) : cfg3.idle 4 (grid3.coords t) = false := rfl
theorem live3_5 (t : Fin cfg3.N) : cfg3.idle 5 (grid3.coords t) = false := rfl
theorem live3_6 (t : Fin cfg3.N) : cfg3.idle 6 (grid3.coords t) = false := rfl
theorem live3_7 (t : Fin cfg3.N) : cfg3.idle 7 (grid3.coords t) = false := rfl

theorem idle3_8 (t : Fin cfg3.N) (h : ¬last3 (grid3.coords t)) : cfg3.idle 8 (grid3.coords t) = true := by
  show (!(k3_cond2 (grid3.coords t) == 1#1)) = true
  simp only [Bool.not_eq_true', beq_eq_false_iff_ne, ne_eq]; exact h

theorem live3_8 (t : Fin cfg3.N) (h : last3 (grid3.coords t)) : cfg3.idle 8 (grid3.coords t) = false := by
  show (!(k3_cond2 (grid3.coords t) == 1#1)) = false
  simp only [Bool.not_eq_false', beq_iff_eq]; exact h

theorem noFlush3_8 (t : Fin cfg3.N) (h : ¬last3 (grid3.coords t)) : (cfg3.win 8).flush t = false := by
  cases hf : (cfg3.win 8).flush t with
  | false => rfl
  | true => exact absurd ((hlast3 t).mpr ((flushOut3 t).mp hf)) h

theorem PhiA3_eq (c : Dev nD) :
    (Pipeline.ΦA spec3 c : sProp 𝕄)
      = iprop(iprop((∃ d, owns (c : Thread nD τ) acc3 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [acc3, owns_whole]; try rfl

end Cert.KernelIdeal.Hand

end
-- ==== Proof.KI.Run3A.lean ====
import proofs.«415291_j87935160418912_3_alg».proof.Proof.KI.Cond3

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 8000000 in

noncomputable def run3_A (c : Dev nD) (i : grid3.Coords) (arg2 : Memref sig .tc .vmem S256x128 .bf16) (harg2 : arg2.IsWhole) (arg3 : Memref sig .tc .vmem S256 .i32) (harg3 : arg3.IsWhole) (arg4 : Memref sig .tc .vmem S5000x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S1x128 .f32) (harg9 : arg9.IsWhole) (arg10 : Memref sig .tc .vmem S5000x128 .f32) (harg10 : arg10.IsWhole) (arg11 : Memref sig .tc .vmem S5000x128 .f32) (harg11 : arg11.IsWhole) (hc0 : first3 i) (hc1 : ¬last3 i)
    (x0 : Vec F S256x128 .bf16) (x1 : Vec F S256 .i32) (x2 : Vec F S5000x128 .f32) (x3 : Vec F S128x128 .f32) (x4 : Vec F S128 .f32) (x5 : Vec F S128x128 .f32) (x6 : Vec F S128 .f32) (x7 : Vec F S1x128 .f32) :
    { LS : List (View.Piece (Elt F) S5000x128 .f32) //
      ∀ (xi : Vec F S5000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi ∗ (∃ f, arg11.view.loc (c : Thread nD τ) ↦[arg11.view.set]{fullShare} arg11.view.writes (Elt F) f LS)) -∗ K ⟨⟩))
          ⊢ wp frame (wpE (defs₀ (F := F)) Variants.none c none) E (cc3__scatter_combine_kernel i arg2 harg2 arg3 harg3 arg4 harg4 arg5 harg5 arg6 harg6 arg7 harg7 arg8 harg8 arg9 harg9 arg10 harg10 arg11 harg11) K } := by
  refine ⟨?_, fun xi E K => ?run⟩
  case run =>
    simp only [cc3__scatter_combine_kernel_eq_skeleton]; unfold cc3__scatter_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fO, %hfO, HO⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfO
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HO]
    · iexists _; isplitr; · ipureintro; exact harg10.read_unread _
      iexact HO
    iexists _; iexact HS

end Cert.KernelIdeal.Hand

end
-- ==== Proof.KI.Run3B.lean ====
import proofs.«415291_j87935160418912_3_alg».proof.Proof.KI.Cond3

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 8000000 in

noncomputable def run3_B (c : Dev nD) (i : grid3.Coords) (arg2 : Memref sig .tc .vmem S256x128 .bf16) (harg2 : arg2.IsWhole) (arg3 : Memref sig .tc .vmem S256 .i32) (harg3 : arg3.IsWhole) (arg4 : Memref sig .tc .vmem S5000x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S1x128 .f32) (harg9 : arg9.IsWhole) (arg10 : Memref sig .tc .vmem S5000x128 .f32) (harg10 : arg10.IsWhole) (arg11 : Memref sig .tc .vmem S5000x128 .f32) (harg11 : arg11.IsWhole) (hc0 : ¬first3 i) (hc1 : ¬last3 i)
    (x0 : Vec F S256x128 .bf16) (x1 : Vec F S256 .i32) (x2 : Vec F S5000x128 .f32) (x3 : Vec F S128x128 .f32) (x4 : Vec F S128 .f32) (x5 : Vec F S128x128 .f32) (x6 : Vec F S128 .f32) (x7 : Vec F S1x128 .f32) (xs : Vec F S5000x128 .f32) :
    { LS : List (View.Piece (Elt F) S5000x128 .f32) //
      ∀ (xi : Vec F S5000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi ∗ (∃ f, arg11.view.loc (c : Thread nD τ) ↦[arg11.view.set]{fullShare} arg11.view.writes (Elt F) f LS)) -∗ K ⟨⟩))
          ⊢ wp frame (wpE (defs₀ (F := F)) Variants.none c none) E (cc3__scatter_combine_kernel i arg2 harg2 arg3 harg3 arg4 harg4 arg5 harg5 arg6 harg6 arg7 harg7 arg8 harg8 arg9 harg9 arg10 harg10 arg11 harg11) K } := by
  refine ⟨?_, fun xi E K => ?run⟩
  case run =>
    simp only [cc3__scatter_combine_kernel_eq_skeleton]; unfold cc3__scatter_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fO, %hfO, HO⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfO; obtain rfl := harg11.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HO]
    · iexists _; isplitr; · ipureintro; exact harg10.read_unread _
      iexact HO
    iexists _; iexact HS

end Cert.KernelIdeal.Hand

end
-- ==== Proof.KI.Run3C.lean ====
import proofs.«415291_j87935160418912_3_alg».proof.Proof.KI.Cond3

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 8000000 in

noncomputable def run3_C (c : Dev nD) (i : grid3.Coords) (arg2 : Memref sig .tc .vmem S256x128 .bf16) (harg2 : arg2.IsWhole) (arg3 : Memref sig .tc .vmem S256 .i32) (harg3 : arg3.IsWhole) (arg4 : Memref sig .tc .vmem S5000x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S1x128 .f32) (harg9 : arg9.IsWhole) (arg10 : Memref sig .tc .vmem S5000x128 .f32) (harg10 : arg10.IsWhole) (arg11 : Memref sig .tc .vmem S5000x128 .f32) (harg11 : arg11.IsWhole) (hc0 : ¬first3 i) (hc1 : last3 i)
    (x0 : Vec F S256x128 .bf16) (x1 : Vec F S256 .i32) (x2 : Vec F S5000x128 .f32) (x3 : Vec F S128x128 .f32) (x4 : Vec F S128 .f32) (x5 : Vec F S128x128 .f32) (x6 : Vec F S128 .f32) (x7 : Vec F S1x128 .f32) (xs : Vec F S5000x128 .f32) :
    Σ' (LO : List (View.Piece (Elt F) S5000x128 .f32)), { LS : List (View.Piece (Elt F) S5000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f LO) ∗ (∃ f, arg11.view.loc (c : Thread nD τ) ↦[arg11.view.set]{fullShare} arg11.view.writes (Elt F) f LS)) -∗ K ⟨⟩))
          ⊢ wp frame (wpE (defs₀ (F := F)) Variants.none c none) E (cc3__scatter_combine_kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc3__scatter_combine_kernel_eq_skeleton]; unfold cc3__scatter_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%dO, %fO, -, HO⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HO]; · iexists _; iexact HO
    iexists _; iexact HS

end Cert.KernelIdeal.Hand

end
-- ==== Proof.KI.Case3.lean ====
import proofs.«415291_j87935160418912_3_alg».proof.Proof.KI.Run3A
import proofs.«415291_j87935160418912_3_alg».proof.Proof.KI.Run3B
import proofs.«415291_j87935160418912_3_alg».proof.Proof.KI.Run3C

noncomputable section

namespace Cert.KernelIdeal.Hand

open Idealize.ShloMosaic Idealize.ShloMosaic.TcCoe Idealize.ShloMosaic.Tactic

variable {F : FTy → Type} [FloatOps F]

section Cases
variable (c : Dev nD) (i : grid3.Coords) (arg2 : Memref sig .tc .vmem S256x128 .bf16) (harg2 : arg2.IsWhole) (arg3 : Memref sig .tc .vmem S256 .i32) (harg3 : arg3.IsWhole) (arg4 : Memref sig .tc .vmem S5000x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S1x128 .f32) (harg9 : arg9.IsWhole) (arg10 : Memref sig .tc .vmem S5000x128 .f32) (harg10 : arg10.IsWhole) (arg11 : Memref sig .tc .vmem S5000x128 .f32) (harg11 : arg11.IsWhole)

theorem scover3_A (hc0 : first3 i) (hc1 : ¬last3 i) (x0 : Vec F S256x128 .bf16) (x1 : Vec F S256 .i32) (x2 : Vec F S5000x128 .f32) (x3 : Vec F S128x128 .f32) (x4 : Vec F S128 .f32) (x5 : Vec F S128x128 .f32) (x6 : Vec F S128 .f32) (x7 : Vec F S1x128 .f32) (y : S5000x128.Idx) :
    ∃ pc ∈ (run3_A c i arg2 harg2 arg3 harg3 arg4 harg4 arg5 harg5 arg6 harg6 arg7 harg7 arg8 harg8 arg9 harg9 arg10 harg10 arg11 harg11 hc0 hc1 x0 x1 x2 x3 x4 x5 x6 x7).1, y ∈ pc.1.set :=
  View.cover_of_tiledL (run3_A c i arg2 harg2 arg3 harg3 arg4 harg4 arg5 harg5 arg6 harg6 arg7 harg7 arg8 harg8 arg9 harg9 arg10 harg10 arg11 harg11 hc0 hc1 x0 x1 x2 x3 x4 x5 x6 x7).1 S5000x128.size (by sl_kernel_rfl) y

-- What the first edge chunk leaves in the accumulator: the pieces the body wrote, read as one array.
def sacc3_A (hc0 : first3 i) (hc1 : ¬last3 i) (x0 : Vec F S256x128 .bf16) (x1 : Vec F S256 .i32) (x2 : Vec F S5000x128 .f32) (x3 : Vec F S128x128 .f32) (x4 : Vec F S128 .f32) (x5 : Vec F S128x128 .f32) (x6 : Vec F S128 .f32) (x7 : Vec F S1x128 .f32) : Vec F S5000x128 .f32 :=
  View.canon (run3_A c i arg2 harg2 arg3 harg3 arg4 harg4 arg5 harg5 arg6 harg6 arg7 harg7 arg8 harg8 arg9 harg9 arg10 harg10 arg11 harg11 hc0 hc1 x0 x1 x2 x3 x4 x5 x6 x7).1

theorem scover3_B (hc0 : ¬first3 i) (hc1 : ¬last3 i) (x0 : Vec F S256x128 .bf16) (x1 : Vec F S256 .i32) (x2 : Vec F S5000x128 .f32) (x3 : Vec F S128x128 .f32) (x4 : Vec F S128 .f32) (x5 : Vec F S128x128 .f32) (x6 : Vec F S128 .f32) (x7 : Vec F S1x128 .f32) (xs : Vec F S5000x128 .f32) (y : S5000x128.Idx) :
    ∃ pc ∈ (run3_B c i arg2 harg2 arg3 harg3 arg4 harg4 arg5 harg5 arg6 harg6 arg7 harg7 arg8 harg8 arg9 harg9 arg10 harg10 arg11 harg11 hc0 hc1 x0 x1 x2 x3 x4 x5 x6 x7 xs).1, y ∈ pc.1.set :=
  View.cover_of_tiledL (run3_B c i arg2 harg2 arg3 harg3 arg4 harg4 arg5 harg5 arg6 harg6 arg7 harg7 arg8 harg8 arg9 harg9 arg10 harg10 arg11 harg11 hc0 hc1 x0 x1 x2 x3 x4 x5 x6 x7 xs).1 S5000x128.size (by sl_kernel_rfl) y

def sacc3_B (hc0 : ¬first3 i) (hc1 : ¬last3 i) (x0 : Vec F S256x128 .bf16) (x1 : Vec F S256 .i32) (x2 : Vec F S5000x128 .f32) (x3 : Vec F S128x128 .f32) (x4 : Vec F S128 .f32) (x5 : Vec F S128x128 .f32) (x6 : Vec F S128 .f32) (x7 : Vec F S1x128 .f32) (xs : Vec F S5000x128 .f32) : Vec F S5000x128 .f32 :=
  View.canon (run3_B c i arg2 harg2 arg3 harg3 arg4 harg4 arg5 harg5 arg6 harg6 arg7 harg7 arg8 harg8 arg9 harg9 arg10 harg10 arg11 harg11 hc0 hc1 x0 x1 x2 x3 x4 x5 x6 x7 xs).1

theorem cover3_C (hc0 : ¬first3 i) (hc1 : last3 i) (x0 : Vec F S256x128 .bf16) (x1 : Vec F S256 .i32) (x2 : Vec F S5000x128 .f32) (x3 : Vec F S128x128 .f32) (x4 : Vec F S128 .f32) (x5 : Vec F S128x128 .f32) (x6 : Vec F S128 .f32) (x7 : Vec F S1x128 .f32) (xs : Vec F S5000x128 .f32) (y : S5000x128.Idx) :
    ∃ pc ∈ (run3_C c i arg2 harg2 arg3 harg3 arg4 harg4 arg5 harg5 arg6 harg6 arg7 harg7 arg8 harg8 arg9 harg9 arg10 harg10 arg11 harg11 hc0 hc1 x0 x1 x2 x3 x4 x5 x6 x7 xs).1, y ∈ pc.1.set :=
  View.cover_of_tiledL (run3_C c i arg2 harg2 arg3 harg3 arg4 harg4 arg5 harg5 arg6 harg6 arg7 harg7 arg8 harg8 arg9 harg9 arg10 harg10 arg11 harg11 hc0 hc1 x0 x1 x2 x3 x4 x5 x6 x7 xs).1 S5000x128.size (by sl_kernel_rfl) y

theorem scover3_C (hc0 : ¬first3 i) (hc1 : last3 i) (x0 : Vec F S256x128 .bf16) (x1 : Vec F S256 .i32) (x2 : Vec F S5000x128 .f32) (x3 : Vec F S128x128 .f32) (x4 : Vec F S128 .f32) (x5 : Vec F S128x128 .f32) (x6 : Vec F S128 .f32) (x7 : Vec F S1x128 .f32) (xs : Vec F S5000x128 .f32) (y : S5000x128.Idx) :
    ∃ pc ∈ (run3_C c i arg2 harg2 arg3 harg3 arg4 harg4 arg5 harg5 arg6 harg6 arg7 harg7 arg8 harg8 arg9 harg9 arg10 harg10 arg11 harg11 hc0 hc1 x0 x1 x2 x3 x4 x5 x6 x7 xs).2.1, y ∈ pc.1.set :=
  View.cover_of_tiledL (run3_C c i arg2 harg2 arg3 harg3 arg4 harg4 arg5 harg5 arg6 harg6 arg7 harg7 arg8 harg8 arg9 harg9 arg10 harg10 arg11 harg11 hc0 hc1 x0 x1 x2 x3 x4 x5 x6 x7 xs).2.1 S5000x128.size (by sl_kernel_rfl) y

def out3_C (hc0 : ¬first3 i) (hc1 : last3 i) (x0 : Vec F S256x128 .bf16) (x1 : Vec F S256 .i32) (x2 : Vec F S5000x128 .f32) (x3 : Vec F S128x128 .f32) (x4 : Vec F S128 .f32) (x5 : Vec F S128x128 .f32) (x6 : Vec F S128 .f32) (x7 : Vec F S1x128 .f32) (xs : Vec F S5000x128 .f32) : Vec F S5000x128 .f32 :=
  View.canon (run3_C c i arg2 harg2 arg3 harg3 arg4 harg4 arg5 harg5 arg6 harg6 arg7 harg7 arg8 harg8 arg9 harg9 arg10 harg10 arg11 harg11 hc0 hc1 x0 x1 x2 x3 x4 x5 x6 x7 xs).1

def sacc3_C (hc0 : ¬first3 i) (hc1 : last3 i) (x0 : Vec F S256x128 .bf16) (x1 : Vec F S256 .i32) (x2 : Vec F S5000x128 .f32) (x3 : Vec F S128x128 .f32) (x4 : Vec F S128 .f32) (x5 : Vec F S128x128 .f32) (x6 : Vec F S128 .f32) (x7 : Vec F S1x128 .f32) (xs : Vec F S5000x128 .f32) : Vec F S5000x128 .f32 :=
  View.canon (run3_C c i arg2 harg2 arg3 harg3 arg4 harg4 arg5 harg5 arg6 harg6 arg7 harg7 arg8 harg8 arg9 harg9 arg10 harg10 arg11 harg11 hc0 hc1 x0 x1 x2 x3 x4 x5 x6 x7 xs).2.1

end Cases

end Cert.KernelIdeal.Hand

end
-- ==== Proof.KI.Dat3.lean ====
import proofs.«415291_j87935160418912_3_alg».proof.Proof.KI.Sched3
import proofs.«415291_j87935160418912_3_alg».proof.Proof.KI.Case3

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

end Region

def idleOut3 : Vec F S5000x128 .f32 := outV3.read (Elt F) outV3.junk

section Region
variable (V : (c : Dev nD) → (b : Ref sig .tc) → Buf (Elt F) ((c : Thread nD τ).loc b))

def accA3 (c : Dev nD) (t : Fin cfg3.N) (h0 : t.val % 3125 = 0) (h1 : ¬t.val % 3125 = 3124) : Vec F S5000x128 .f32 :=
  sacc3_A c (grid3.coords t) (stg3_0 t) (hstg3_0 t) (stg3_1 t) (hstg3_1 t) (stg3_2 t) (hstg3_2 t) (stg3_3 t) (hstg3_3 t) (stg3_4 t) (hstg3_4 t) (stg3_5 t) (hstg3_5 t) (stg3_6 t) (hstg3_6 t) (stg3_7 t) (hstg3_7 t) (stg3_8 t) (hstg3_8 t) acc3 (Memref.isWhole_whole _) ((hfirst3 t).mpr h0) (fun h => h1 ((hlast3 t).mp h)) (iblk3 V c 0 t) (iblk3 V c 1 t) (iblk3 V c 2 t) (iblk3 V c 3 t) (iblk3 V c 4 t) (iblk3 V c 5 t) (iblk3 V c 6 t) (iblk3 V c 7 t)
def accB3 (c : Dev nD) (t : Fin cfg3.N) (h0 : ¬t.val % 3125 = 0) (h1 : ¬t.val % 3125 = 3124) (xs : Vec F S5000x128 .f32) : Vec F S5000x128 .f32 :=
  sacc3_B c (grid3.coords t) (stg3_0 t) (hstg3_0 t) (stg3_1 t) (hstg3_1 t) (stg3_2 t) (hstg3_2 t) (stg3_3 t) (hstg3_3 t) (stg3_4 t) (hstg3_4 t) (stg3_5 t) (hstg3_5 t) (stg3_6 t) (hstg3_6 t) (stg3_7 t) (hstg3_7 t) (stg3_8 t) (hstg3_8 t) acc3 (Memref.isWhole_whole _) (fun h => h0 ((hfirst3 t).mp h)) (fun h => h1 ((hlast3 t).mp h)) (iblk3 V c 0 t) (iblk3 V c 1 t) (iblk3 V c 2 t) (iblk3 V c 3 t) (iblk3 V c 4 t) (iblk3 V c 5 t) (iblk3 V c 6 t) (iblk3 V c 7 t) xs
def accC3 (c : Dev nD) (t : Fin cfg3.N) (h0 : ¬t.val % 3125 = 0) (h1 : t.val % 3125 = 3124) (xs : Vec F S5000x128 .f32) : Vec F S5000x128 .f32 :=
  sacc3_C c (grid3.coords t) (stg3_0 t) (hstg3_0 t) (stg3_1 t) (hstg3_1 t) (stg3_2 t) (hstg3_2 t) (stg3_3 t) (hstg3_3 t) (stg3_4 t) (hstg3_4 t) (stg3_5 t) (hstg3_5 t) (stg3_6 t) (hstg3_6 t) (stg3_7 t) (hstg3_7 t) (stg3_8 t) (hstg3_8 t) acc3 (Memref.isWhole_whole _) (fun h => h0 ((hfirst3 t).mp h)) ((hlast3 t).mpr h1) (iblk3 V c 0 t) (iblk3 V c 1 t) (iblk3 V c 2 t) (iblk3 V c 3 t) (iblk3 V c 4 t) (iblk3 V c 5 t) (iblk3 V c 6 t) (iblk3 V c 7 t) xs
def outC3 (c : Dev nD) (t : Fin cfg3.N) (h0 : ¬t.val % 3125 = 0) (h1 : t.val % 3125 = 3124) (xs : Vec F S5000x128 .f32) : Vec F S5000x128 .f32 :=
  out3_C c (grid3.coords t) (stg3_0 t) (hstg3_0 t) (stg3_1 t) (hstg3_1 t) (stg3_2 t) (hstg3_2 t) (stg3_3 t) (hstg3_3 t) (stg3_4 t) (hstg3_4 t) (stg3_5 t) (hstg3_5 t) (stg3_6 t) (hstg3_6 t) (stg3_7 t) (hstg3_7 t) (stg3_8 t) (hstg3_8 t) acc3 (Memref.isWhole_whole _) (fun h => h0 ((hfirst3 t).mp h)) ((hlast3 t).mpr h1) (iblk3 V c 0 t) (iblk3 V c 1 t) (iblk3 V c 2 t) (iblk3 V c 3 t) (iblk3 V c 4 t) (iblk3 V c 5 t) (iblk3 V c 6 t) (iblk3 V c 7 t) xs

-- The output block and the accumulator after point n: the point's case applied to its input blocks and to what point n - 1 left.
def outsAt3 (c : Dev nD) : (n : ℕ) → n < cfg3.N → Vec F S5000x128 .f32 × Vec F S5000x128 .f32
  | 0, hn => (idleOut3, accA3 V c ⟨0, hn⟩ (Nat.zero_mod _) (show ¬(0 % 3125 = 3124) by decide))
  | n + 1, hn =>
    if h0 : (n + 1) % 3125 = 0 then
      if h1 : (n + 1) % 3125 = 3124 then False.elim (by omega)
      else (idleOut3, accA3 V c ⟨n + 1, hn⟩ h0 h1)
    else
      if h1 : (n + 1) % 3125 = 3124 then
        (outC3 V c ⟨n + 1, hn⟩ h0 h1 (outsAt3 c n (Nat.lt_of_succ_lt hn)).2, accC3 V c ⟨n + 1, hn⟩ h0 h1 (outsAt3 c n (Nat.lt_of_succ_lt hn)).2)
      else (idleOut3, accB3 V c ⟨n + 1, hn⟩ h0 h1 (outsAt3 c n (Nat.lt_of_succ_lt hn)).2)

theorem outsAt3_A (c : Dev nD) (t : Fin cfg3.N) (h0 : t.val % 3125 = 0) (h1 : ¬t.val % 3125 = 3124) :
    outsAt3 V c t.val t.isLt = (idleOut3, accA3 V c t h0 h1) := by
  obtain ⟨n, hn⟩ := t
  cases n with
  | zero => exact rfl
  | succ n => exact (dif_pos h0).trans ((dif_neg h1).trans rfl)

theorem outsAt3_B (c : Dev nD) (t : Fin cfg3.N) (h0 : ¬t.val % 3125 = 0) (h1 : ¬t.val % 3125 = 3124) :
    outsAt3 V c t.val t.isLt = (idleOut3, accB3 V c t h0 h1 (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 3125 = 0) (h1 : t.val % 3125 = 3124) :
    outsAt3 V c t.val t.isLt = (outC3 V c t h0 h1 (outsAt3 V c (t.val - 1) (Nat.lt_of_le_of_lt (Nat.sub_le _ _) t.isLt)).2,
      accC3 V c t h0 h1 (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS3 (c : Dev nD) : (n : ℕ) → n ≤ cfg3.N → sProp 𝕄
  | 0, _ => Pipeline.ΦA spec3 c
  | n + 1, hn => iprop(iprop(owns (c : Thread nD τ) acc3 fullShare ((outsAt3 V c n hn).2) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(owns (c : Thread nD τ) acc3 fullShare ((outsAt3 V c n hn).2) ∗ Pipeline.scopedRestBut (Ix := Unit) (Name := ℕ) (U := UR sig nD τ) (Lvl := ℕ) (Val := Elt F) spec3 c [cc3_scratch0]) ∗ (∃ r, prngReg c r)) := rfl
theorem PhiS3_pos (c : Dev nD) (n : ℕ) (h : n ≤ cfg3.N) (hz : n ≠ 0) :
    PhiS3 V c n h = iprop(iprop(owns (c : Thread nD τ) acc3 fullShare ((outsAt3 V c (n - 1) (by omega)).2) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

-- The invariant after any point implies the one before the first: what the accumulator holds is forgotten.
theorem PhiS3_weak (c : Dev nD) (n : ℕ) (h : n ≤ cfg3.N) : PhiS3 V c n h ⊢ Pipeline.ΦA spec3 c := by
  cases n with
  | zero => rw [PhiS3_zero V c 0 h rfl]; try exact Entails.refl _
  | succ n =>
    rw [PhiS3_succ, PhiA3_eq]
    iintro ⟨⟨HS, Hrest⟩, Hg⟩
    isplitl [HS Hrest]
    · isplitl [HS]
      · iexists _; iexact HS
      iexact Hrest
    iexact Hg

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = (outsAt3 V c t.val t.isLt).1 := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d

def bodyPre3 (c : Dev nD) (t : Fin cfg3.N) : sProp 𝕄 :=
  iprop((dat3 V c).Φ t.castSucc ∗ (dat3 V c).owesAt () t.castSucc
    ∗ (∃ d, owns (c : Thread nD τ) (stg3_0 t) fullShare ((dat3 V c).before 0 t d))
    ∗ (∃ d, owns (c : Thread nD τ) (stg3_1 t) fullShare ((dat3 V c).before 1 t d))
    ∗ (∃ d, owns (c : Thread nD τ) (stg3_2 t) fullShare ((dat3 V c).before 2 t d))
    ∗ (∃ d, owns (c : Thread nD τ) (stg3_3 t) fullShare ((dat3 V c).before 3 t d))
    ∗ (∃ d, owns (c : Thread nD τ) (stg3_4 t) fullShare ((dat3 V c).before 4 t d))
    ∗ (∃ d, owns (c : Thread nD τ) (stg3_5 t) fullShare ((dat3 V c).before 5 t d))
    ∗ (∃ d, owns (c : Thread nD τ) (stg3_6 t) fullShare ((dat3 V c).before 6 t d))
    ∗ (∃ d, owns (c : Thread nD τ) (stg3_7 t) fullShare ((dat3 V c).before 7 t d))
    ∗ (∃ d, owns (c : Thread nD τ) (stg3_8 t) fullShare ((dat3 V c).before 8 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t
    ∗ (dat3 V c).leavesExact 8 t)

-- The body keeps the invariant at every point: the accumulator is reset at a run's first point, added to at each, combined and written out at the last.
set_option maxHeartbeats 9600000 in

theorem sound_body3 (c : Dev nD) (t : Fin cfg3.N) :
    bodyPre3 V c t ⊢ wp frame (wpE (defs₀ (F := F)) Variants.none c none) Set.univ (body3 t) (fun _ => bodyPost3 V c t) := by
  unfold bodyPre3 bodyPost3 body3
  simp only [before3_0, before3_1, before3_2, before3_3, before3_4, before3_5, before3_6, before3_7]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (stg3_0 t) fullShare ((dat3 V c).after 0 t) from by
    unfold Dat.leavesExact; rw [live3_0 t], after3_0]
  rw [show (dat3 V c).leavesExact 1 t = owns (c : Thread nD τ) (stg3_1 t) fullShare ((dat3 V c).after 1 t) from by
    unfold Dat.leavesExact; rw [live3_1 t], after3_1]
  rw [show (dat3 V c).leavesExact 2 t = owns (c : Thread nD τ) (stg3_2 t) fullShare ((dat3 V c).after 2 t) from by
    unfold Dat.leavesExact; rw [live3_2 t], after3_2]
  rw [show (dat3 V c).leavesExact 3 t = owns (c : Thread nD τ) (stg3_3 t) fullShare ((dat3 V c).after 3 t) from by
    unfold Dat.leavesExact; rw [live3_3 t], after3_3]
  rw [show (dat3 V c).leavesExact 4 t = owns (c : Thread nD τ) (stg3_4 t) fullShare ((dat3 V c).after 4 t) from by
    unfold Dat.leavesExact; rw [live3_4 t], after3_4]
  rw [show (dat3 V c).leavesExact 5 t = owns (c : Thread nD τ) (stg3_5 t) fullShare ((dat3 V c).after 5 t) from by
    unfold Dat.leavesExact; rw [live3_5 t], after3_5]
  rw [show (dat3 V c).leavesExact 6 t = owns (c : Thread nD τ) (stg3_6 t) fullShare ((dat3 V c).after 6 t) from by
    unfold Dat.leavesExact; rw [live3_6 t], after3_6]
  rw [show (dat3 V c).leavesExact 7 t = owns (c : Thread nD τ) (stg3_7 t) fullShare ((dat3 V c).after 7 t) from by
    unfold Dat.leavesExact; rw [live3_7 t], after3_7]
  by_cases h0 : t.val % 3125 = 0
  · have h1 : ¬t.val % 3125 = 3124 := by omega
    rw [Dat.leavesExact_idle (dat3 V c) 8 t (idle3_8 t (fun h => h1 ((hlast3 t).mp h))) (noFlush3_8 t (fun h => h1 ((hlast3 t).mp h)))]
    rw [outsAt3_A V c t h0 h1]
    unfold accA3 sacc3_A; (try dsimp only)
    rw [PhiS3_castSucc V c t]
    refine BIBase.Entails.trans (sep_mono_left (PhiS3_weak V c _ _)) ?_
    rw [PhiA3_eq]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((run3_A c (grid3.coords t) _ (hstg3_0 t) _ (hstg3_1 t) _ (hstg3_2 t) _ (hstg3_3 t) _ (hstg3_4 t) _ (hstg3_5 t) _ (hstg3_6 t) _ (hstg3_7 t) _ (hstg3_8 t) _ (Memref.isWhole_whole _) ((hfirst3 t).mpr h0) (fun h => h1 ((hlast3 t).mp h)) (iblk3 V c 0 t) (iblk3 V c 1 t) (iblk3 V c 2 t) (iblk3 V c 3 t) (iblk3 V c 4 t) (iblk3 V c 5 t) (iblk3 V c 6 t) (iblk3 V c 7 t)).2 _ Set.univ _)
    iframe H0 H1 H2 H3 H4 H5 H6 H7 H8 HS
    iintro ⟨H0, H1, H2, H3, H4, H5, H6, H7, H8, ⟨%es, HS⟩⟩
    iframe Hrest Hg Ho H0 H1 H2 H3 H4 H5 H6 H7
    isplitl [HS]
    · unfold owns; iexists _; isplitr
      swap; · iexact HS
      ipureintro; exact View.read_writes_eq_canon _ _ _ (scover3_A c _ _ _ _ _ _ _ _ _ _ _ _ _ _ _ _ _ _ _ _ _ _ _ _ _ _ _ _ _ _ _)
    iexists _; iexact H8
  · have hz : t.val ≠ 0 := fun h => h0 (by rw [h])
    by_cases h1 : t.val % 3125 = 3124
    · rw [show (dat3 V c).leavesExact 8 t = owns (c : Thread nD τ) (stg3_8 t) fullShare ((dat3 V c).after 8 t) from by
        unfold Dat.leavesExact; rw [live3_8 t ((hlast3 t).mpr h1)], after3_8]
      rw [outsAt3_C V c t h0 h1]
      unfold outC3 accC3 out3_C sacc3_C; (try dsimp only)
      rw [PhiS3_castSucc V c t, PhiS3_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((run3_C c (grid3.coords t) _ (hstg3_0 t) _ (hstg3_1 t) _ (hstg3_2 t) _ (hstg3_3 t) _ (hstg3_4 t) _ (hstg3_5 t) _ (hstg3_6 t) _ (hstg3_7 t) _ (hstg3_8 t) _ (Memref.isWhole_whole _) (fun h => h0 ((hfirst3 t).mp h)) ((hlast3 t).mpr h1) (iblk3 V c 0 t) (iblk3 V c 1 t) (iblk3 V c 2 t) (iblk3 V c 3 t) (iblk3 V c 4 t) (iblk3 V c 5 t) (iblk3 V c 6 t) (iblk3 V c 7 t) _).2.2 Set.univ _)
      iframe H0 H1 H2 H3 H4 H5 H6 H7 HS
      isplitl [H8]; · iexists _; iexact H8
      iintro ⟨H0, H1, H2, H3, H4, H5, H6, H7, ⟨%e8, H8⟩, ⟨%es, HS⟩⟩
      iframe Hrest Hg Ho H0 H1 H2 H3 H4 H5 H6 H7
      isplitl [HS]
      · unfold owns; iexists _; isplitr
        swap; · iexact HS
        ipureintro; exact View.read_writes_eq_canon _ _ _ (scover3_C c _ _ _ _ _ _ _ _ _ _ _ _ _ _ _ _ _ _ _ _ _ _ _ _ _ _ _ _ _ _ _ _)
      unfold owns; iexists _; isplitr
      swap; · iexact H8
      ipureintro; exact View.read_writes_eq_canon _ _ _ (cover3_C c _ _ _ _ _ _ _ _ _ _ _ _ _ _ _ _ _ _ _ _ _ _ _ _ _ _ _ _ _ _ _ _)
    · rw [Dat.leavesExact_idle (dat3 V c) 8 t (idle3_8 t (fun h => h1 ((hlast3 t).mp h))) (noFlush3_8 t (fun h => h1 ((hlast3 t).mp h)))]
      rw [outsAt3_B V c t h0 h1]
      unfold accB3 sacc3_B; (try dsimp only)
      rw [PhiS3_castSucc V c t, PhiS3_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((run3_B c (grid3.coords t) _ (hstg3_0 t) _ (hstg3_1 t) _ (hstg3_2 t) _ (hstg3_3 t) _ (hstg3_4 t) _ (hstg3_5 t) _ (hstg3_6 t) _ (hstg3_7 t) _ (hstg3_8 t) _ (Memref.isWhole_whole _) (fun h => h0 ((hfirst3 t).mp h)) (fun h => h1 ((hlast3 t).mp h)) (iblk3 V c 0 t) (iblk3 V c 1 t) (iblk3 V c 2 t) (iblk3 V c 3 t) (iblk3 V c 4 t) (iblk3 V c 5 t) (iblk3 V c 6 t) (iblk3 V c 7 t) _).2 _ Set.univ _)
      iframe H0 H1 H2 H3 H4 H5 H6 H7 H8 HS
      iintro ⟨H0, H1, H2, H3, H4, H5, H6, H7, H8, ⟨%es, HS⟩⟩
      iframe Hrest Hg Ho H0 H1 H2 H3 H4 H5 H6 H7
      isplitl [HS]
      · unfold owns; iexists _; isplitr
        swap; · iexact HS
        ipureintro; exact View.read_writes_eq_canon _ _ _ (scover3_B c _ _ _ _ _ _ _ _ _ _ _ _ _ _ _ _ _ _ _ _ _ _ _ _ _ _ _ _ _ _ _ _)
      iexists _; iexact H8

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem Phi_out3 (c : Dev nD) (t : Fin (cfg3.N + 1)) (ht : t.val ≠ 0) : (dat3 V c).Φ t ⊢ Pipeline.ΦA spec3 c :=
  PhiS3_weak V c _ _

theorem hout3 (c : Dev nD) : (dat3 V c).Φ (Fin.last cfg3.N) ⊢ Pipeline.ΦA spec3 c :=
  Phi_out3 V c _ (by rw [Fin.val_last]; have : cfg3.N = 31250 := N_3; omega)

end Region

end Cert.KernelIdeal.Hand

end
-- ==== Proof.KI.Cond4.lean ====
import proofs.«415291_j87935160418912_3_alg».proof.Proof.Gen.KernelIdeal.Launch
import proofs.«415291_j87935160418912_3_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic

variable {F : FTy → Type} [FloatOps F]

abbrev first4 (i : grid4.Coords) : Prop := (Scalar.cmpi .ne (Scalar.extui (Scalar.cmpi .eq (BitVec.ofNat 32 (i 1).val) 0#32)) 0#32) = 1#1

abbrev last4 (i : grid4.Coords) : Prop := k4_cond2 i = 1#1

abbrev acc4 : Memref sig .tc .vmem S256x128 .f32 := Memref.whole cc4_scratch0

abbrev accV4 : View sig .tc .vmem S256x128 .f32 := acc4.view

abbrev outV4 : View sig .tc .vmem S256x128 .bf16 := (Memref.whole cc4_stg2_0 : Memref sig .tc .vmem S256x128 .bf16).view

end Cert.KernelIdeal.Hand

end
-- ==== Proof.KI.Flush4.lean ====
import proofs.«415291_j87935160418912_3_alg».proof.Proof.KI.Cond4

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

theorem blk4_out (t : Fin cfg4.N) : win4_2.index t = ![t.val / 5 % 3125, 0] := by
  have h0 : ((grid4.coords t) 0).val = t.val / 5 % 3125 := by
    show t.val / grid4.stride 0 % 3125 = _
    rw [show grid4.stride 0 = 5 from by decide]
  show cc4_transform_2 (grid4.coords t) = _
  unfold cc4_transform_2
  dsimp only
  rw [h0, BitVec.toNat_ofNat, Nat.mod_eq_of_lt (by omega : t.val / 5 % 3125 < 2 ^ 32)]
  rfl

theorem flushOut4 : ∀ t : Fin cfg4.N, (cfg4.win 2).flush t = true ↔ t.val % 5 = 4 := fun t => by
  have hN : grid4.N = 15625 := N_4
  have hlt : t.val < grid4.N := t.isLt
  show win4_2.flush t = true ↔ _
  unfold Pipeline.Window.flush
  rw [show win4_2.isOut = true from rfl, Bool.true_and, Bool.or_eq_true, decide_eq_true_eq, decide_eq_true_eq]
  constructor
  · rintro (h | ⟨h, hne⟩)
    · omega
    · rw [blk4_out, blk4_out] at hne
      by_contra hc
      apply hne
      have e : (t.val + 1) / 5 % 3125 = t.val / 5 % 3125 := by omega
      show ![(t.val + 1) / 5 % 3125, 0] = ![t.val / 5 % 3125, 0]
      rw [e]
  · intro h
    by_cases hl : t.val + 1 = grid4.N
    · exact Or.inl hl
    · refine Or.inr ⟨by omega, fun he => ?_⟩
      rw [blk4_out, blk4_out] at he
      have h0 := congrFun he 0
      simp only [Matrix.cons_val_zero] at h0
      omega

end Cert.KernelIdeal.Hand

end
-- ==== Proof.KI.Sched4.lean ====
import proofs.«415291_j87935160418912_3_alg».proof.Proof.KI.Flush4

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev stg4_0 (t : Fin cfg4.N) : Memref sig .tc .vmem S256 .i32 := win4_0.stage (cfg4.slots t 0)
abbrev hstg4_0 (t : Fin cfg4.N) : (stg4_0 t).IsWhole := hstage4_0 ((cfg4.slots t 0).cast nbuf4_0)
abbrev stg4_1 (t : Fin cfg4.N) : Memref sig .tc .vmem S10000x128 .bf16 := win4_1.stage (cfg4.slots t 1)
abbrev hstg4_1 (t : Fin cfg4.N) : (stg4_1 t).IsWhole := hstage4_1 ((cfg4.slots t 1).cast nbuf4_1)
abbrev stg4_2 (t : Fin cfg4.N) : Memref sig .tc .vmem S256x128 .bf16 := win4_2.stage (cfg4.slots t 2)
abbrev hstg4_2 (t : Fin cfg4.N) : (stg4_2 t).IsWhole := hstage4_2 ((cfg4.slots t 2).cast nbuf4_2)

abbrev body4 (t : Fin cfg4.N) : Prog (TpuEff nD τ sig (Elt F) Λ₀ .tc) PUnit :=
  cc4__gather_kernel (grid4.coords t) (stg4_0 t) (hstg4_0 t) (stg4_1 t) (hstg4_1 t) (stg4_2 t) (hstg4_2 t) (Memref.whole cc4_scratch0) (Memref.isWhole_whole _)

theorem coord4_1 (t : Fin cfg4.N) : ((grid4.coords t) 1).val = t.val % 5 := by
  show t.val / grid4.stride 1 % 5 = t.val % 5
  rw [show grid4.stride 1 = 1 from by decide, Nat.div_one]

theorem kcond4_eq (i : grid4.Coords) :
    k4_cond2 i = Scalar.cmpi .ne (Scalar.extui (Scalar.cmpi .eq (BitVec.ofNat 32 (i 1).val) 4#32)) 0#32 := rfl

theorem hfirst4 : ∀ t : Fin cfg4.N, first4 (grid4.coords t) ↔ t.val % 5 = 0 := fun t => by
  have key : ∀ n : Fin 5, ((Scalar.cmpi .ne (Scalar.extui (Scalar.cmpi .eq (BitVec.ofNat 32 n.val) 0#32)) 0#32) = 1#1) ↔ n.val = 0 := by
    decide +kernel
  rw [← coord4_1 t]
  exact key ((grid4.coords t) 1)

theorem hlast4 : ∀ t : Fin cfg4.N, last4 (grid4.coords t) ↔ t.val % 5 = 4 := fun t => by
  have key : ∀ n : Fin 5, ((Scalar.cmpi .ne (Scalar.extui (Scalar.cmpi .eq (BitVec.ofNat 32 n.val) 4#32)) 0#32) = 1#1) ↔ n.val = 4 := by
    decide +kernel
  rw [← coord4_1 t]
  show k4_cond2 (grid4.coords t) = 1#1 ↔ _
  rw [kcond4_eq]
  exact key ((grid4.coords t) 1)

theorem live4_0 (t : Fin cfg4.N) : cfg4.idle 0 (grid4.coords t) = false := rfl
theorem live4_1 (t : Fin cfg4.N) : cfg4.idle 1 (grid4.coords t) = false := rfl

theorem idle4_2 (t : Fin cfg4.N) (h : ¬last4 (grid4.coords t)) : cfg4.idle 2 (grid4.coords t) = true := by
  show (!(k4_cond2 (grid4.coords t) == 1#1)) = true
  simp only [Bool.not_eq_true', beq_eq_false_iff_ne, ne_eq]; exact h

theorem live4_2 (t : Fin cfg4.N) (h : last4 (grid4.coords t)) : cfg4.idle 2 (grid4.coords t) = false := by
  show (!(k4_cond2 (grid4.coords t) == 1#1)) = false
  simp only [Bool.not_eq_false', beq_iff_eq]; exact h

theorem noFlush4_2 (t : Fin cfg4.N) (h : ¬last4 (grid4.coords t)) : (cfg4.win 2).flush t = false := by
  cases hf : (cfg4.win 2).flush t with
  | false => rfl
  | true => exact absurd ((hlast4 t).mpr ((flushOut4 t).mp hf)) h

theorem PhiA4_eq (c : Dev nD) :
    (Pipeline.ΦA spec4 c : sProp 𝕄)
      = iprop(iprop((∃ d, owns (c : Thread nD τ) acc4 fullShare d)
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [acc4, owns_whole]; try rfl

end Cert.KernelIdeal.Hand

end
-- ==== Proof.KI.Dat4.lean ====
import proofs.«415291_j87935160418912_3_alg».proof.Proof.KI.Sched4
import proofs.«415291_j87935160418912_3_alg».proof.Proof.KI.Case0

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

end Region

def idleOut4 : Vec F S256x128 .bf16 := outV4.read (Elt F) outV4.junk

section Region
variable (V : (c : Dev nD) → (b : Ref sig .tc) → Buf (Elt F) ((c : Thread nD τ).loc b))

def accA4 (c : Dev nD) (t : Fin cfg4.N) (h0 : t.val % 5 = 0) (h1 : ¬t.val % 5 = 4) : Vec F S256x128 .f32 :=
  sacc0_A c (grid4.coords t) (stg4_0 t) (hstg4_0 t) (stg4_1 t) (hstg4_1 t) (stg4_2 t) (hstg4_2 t) acc4 (Memref.isWhole_whole _) ((hfirst4 t).mpr h0) (fun h => h1 ((hlast4 t).mp h)) (iblk4 V c 0 t) (iblk4 V c 1 t)
def accB4 (c : Dev nD) (t : Fin cfg4.N) (h0 : ¬t.val % 5 = 0) (h1 : ¬t.val % 5 = 4) (xs : Vec F S256x128 .f32) : Vec F S256x128 .f32 :=
  sacc0_B c (grid4.coords t) (stg4_0 t) (hstg4_0 t) (stg4_1 t) (hstg4_1 t) (stg4_2 t) (hstg4_2 t) acc4 (Memref.isWhole_whole _) (fun h => h0 ((hfirst4 t).mp h)) (fun h => h1 ((hlast4 t).mp h)) (iblk4 V c 0 t) (iblk4 V c 1 t) xs
def accC4 (c : Dev nD) (t : Fin cfg4.N) (h0 : ¬t.val % 5 = 0) (h1 : t.val % 5 = 4) (xs : Vec F S256x128 .f32) : Vec F S256x128 .f32 :=
  sacc0_C c (grid4.coords t) (stg4_0 t) (hstg4_0 t) (stg4_1 t) (hstg4_1 t) (stg4_2 t) (hstg4_2 t) acc4 (Memref.isWhole_whole _) (fun h => h0 ((hfirst4 t).mp h)) ((hlast4 t).mpr h1) (iblk4 V c 0 t) (iblk4 V c 1 t) xs
def outC4 (c : Dev nD) (t : Fin cfg4.N) (h0 : ¬t.val % 5 = 0) (h1 : t.val % 5 = 4) (xs : Vec F S256x128 .f32) : Vec F S256x128 .bf16 :=
  out0_C c (grid4.coords t) (stg4_0 t) (hstg4_0 t) (stg4_1 t) (hstg4_1 t) (stg4_2 t) (hstg4_2 t) acc4 (Memref.isWhole_whole _) (fun h => h0 ((hfirst4 t).mp h)) ((hlast4 t).mpr h1) (iblk4 V c 0 t) (iblk4 V c 1 t) xs

-- The output block and the accumulator after point n: the point's case applied to its two input blocks and to what point n - 1 left.
def outsAt4 (c : Dev nD) : (n : ℕ) → n < cfg4.N → Vec F S256x128 .bf16 × Vec F S256x128 .f32
  | 0, hn => (idleOut4, accA4 V c ⟨0, hn⟩ (Nat.zero_mod _) (show ¬(0 % 5 = 4) by decide))
  | n + 1, hn =>
    if h0 : (n + 1) % 5 = 0 then
      if h1 : (n + 1) % 5 = 4 then False.elim (by omega)
      else (idleOut4, accA4 V c ⟨n + 1, hn⟩ h0 h1)
    else
      if h1 : (n + 1) % 5 = 4 then
        (outC4 V c ⟨n + 1, hn⟩ h0 h1 (outsAt4 c n (Nat.lt_of_succ_lt hn)).2, accC4 V c ⟨n + 1, hn⟩ h0 h1 (outsAt4 c n (Nat.lt_of_succ_lt hn)).2)
      else (idleOut4, accB4 V c ⟨n + 1, hn⟩ h0 h1 (outsAt4 c n (Nat.lt_of_succ_lt hn)).2)

theorem outsAt4_A (c : Dev nD) (t : Fin cfg4.N) (h0 : t.val % 5 = 0) (h1 : ¬t.val % 5 = 4) :
    outsAt4 V c t.val t.isLt = (idleOut4, accA4 V c t h0 h1) := by
  obtain ⟨n, hn⟩ := t
  cases n with
  | zero => exact rfl
  | succ n => exact (dif_pos h0).trans ((dif_neg h1).trans rfl)

theorem outsAt4_B (c : Dev nD) (t : Fin cfg4.N) (h0 : ¬t.val % 5 = 0) (h1 : ¬t.val % 5 = 4) :
    outsAt4 V c t.val t.isLt = (idleOut4, accB4 V c t h0 h1 (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt4_C (c : Dev nD) (t : Fin cfg4.N) (h0 : ¬t.val % 5 = 0) (h1 : t.val % 5 = 4) :
    outsAt4 V c t.val t.isLt = (outC4 V c t h0 h1 (outsAt4 V c (t.val - 1) (Nat.lt_of_le_of_lt (Nat.sub_le _ _) t.isLt)).2,
      accC4 V c t h0 h1 (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS4 (c : Dev nD) : (n : ℕ) → n ≤ cfg4.N → sProp 𝕄
  | 0, _ => Pipeline.ΦA spec4 c
  | n + 1, hn => iprop(iprop(owns (c : Thread nD τ) acc4 fullShare ((outsAt4 V c n hn).2) ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(iprop(owns (c : Thread nD τ) acc4 fullShare ((outsAt4 V c n hn).2) ∗ Pipeline.scopedRestBut (Ix := Unit) (Name := ℕ) (U := UR sig nD τ) (Lvl := ℕ) (Val := Elt F) spec4 c [cc4_scratch0]) ∗ (∃ r, prngReg c r)) := rfl
theorem PhiS4_pos (c : Dev nD) (n : ℕ) (h : n ≤ cfg4.N) (hz : n ≠ 0) :
    PhiS4 V c n h = iprop(iprop(owns (c : Thread nD τ) acc4 fullShare ((outsAt4 V c (n - 1) (by omega)).2) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

-- The invariant after any point implies the one before the first: what the accumulator holds is forgotten.
theorem PhiS4_weak (c : Dev nD) (n : ℕ) (h : n ≤ cfg4.N) : PhiS4 V c n h ⊢ Pipeline.ΦA spec4 c := by
  cases n with
  | zero => rw [PhiS4_zero V c 0 h rfl]; try exact Entails.refl _
  | succ n =>
    rw [PhiS4_succ, PhiA4_eq]
    iintro ⟨⟨HS, Hrest⟩, Hg⟩
    isplitl [HS Hrest]
    · isplitl [HS]
      · iexists _; iexact HS
      iexact Hrest
    iexact Hg

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

def bodyPre4 (c : Dev nD) (t : Fin cfg4.N) : sProp 𝕄 :=
  iprop((dat4 V c).Φ t.castSucc ∗ (dat4 V c).owesAt () t.castSucc
    ∗ (∃ d, owns (c : Thread nD τ) (stg4_0 t) fullShare ((dat4 V c).before 0 t d))
    ∗ (∃ d, owns (c : Thread nD τ) (stg4_1 t) fullShare ((dat4 V c).before 1 t d))
    ∗ (∃ d, owns (c : Thread nD τ) (stg4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

-- The body keeps the invariant at every point: the accumulator is reset at a run's first point, added to at each, written out at the last.
set_option maxHeartbeats 4800000 in

theorem sound_body4 (c : Dev nD) (t : Fin cfg4.N) :
    bodyPre4 V c t ⊢ wp frame (wpE (defs₀ (F := F)) Variants.none c none) Set.univ (body4 t) (fun _ => bodyPost4 V c t) := by
  unfold bodyPre4 bodyPost4 body4
  simp only [before4_0, before4_1]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (stg4_0 t) fullShare ((dat4 V c).after 0 t) from by
    unfold Dat.leavesExact; rw [live4_0 t], after4_0]
  rw [show (dat4 V c).leavesExact 1 t = owns (c : Thread nD τ) (stg4_1 t) fullShare ((dat4 V c).after 1 t) from by
    unfold Dat.leavesExact; rw [live4_1 t], after4_1]
  by_cases h0 : t.val % 5 = 0
  · have h1 : ¬t.val % 5 = 4 := by omega
    rw [Dat.leavesExact_idle (dat4 V c) 2 t (idle4_2 t (fun h => h1 ((hlast4 t).mp h))) (noFlush4_2 t (fun h => h1 ((hlast4 t).mp h)))]
    rw [outsAt4_A V c t h0 h1]
    unfold accA4 sacc0_A; (try dsimp only)
    rw [PhiS4_castSucc V c t]
    refine BIBase.Entails.trans (sep_mono_left (PhiS4_weak V c _ _)) ?_
    rw [PhiA4_eq]
    iintro ⟨⟨⟨HS, Hrest⟩, Hg⟩, Ho, ⟨%d0, H0⟩, ⟨%d1, H1⟩, ⟨%d2, H2⟩⟩
    iapply ((run0_A c (grid4.coords t) _ (hstg4_0 t) _ (hstg4_1 t) _ (hstg4_2 t) _ (Memref.isWhole_whole _) ((hfirst4 t).mpr h0) (fun h => h1 ((hlast4 t).mp h)) (iblk4 V c 0 t) (iblk4 V c 1 t)).2 _ Set.univ _)
    iframe H0 H1 H2 HS
    iintro ⟨H0, H1, H2, ⟨%es, HS⟩⟩
    iframe Hrest Hg Ho H0 H1
    isplitl [HS]
    · unfold owns; iexists _; isplitr
      swap; · iexact HS
      ipureintro; exact View.read_writes_eq_canon _ _ _ (scover0_A c _ _ _ _ _ _ _ _ _ _ _ _ _)
    iexists _; iexact H2
  · have hz : t.val ≠ 0 := fun h => h0 (by rw [h])
    by_cases h1 : t.val % 5 = 4
    · rw [show (dat4 V c).leavesExact 2 t = owns (c : Thread nD τ) (stg4_2 t) fullShare ((dat4 V c).after 2 t) from by
        unfold Dat.leavesExact; rw [live4_2 t ((hlast4 t).mpr h1)], after4_2]
      rw [outsAt4_C V c t h0 h1]
      unfold outC4 accC4 out0_C sacc0_C; (try dsimp only)
      rw [PhiS4_castSucc V c t, PhiS4_pos V c _ _ hz]
      iintro ⟨⟨⟨HS, Hrest⟩, Hg⟩, Ho, ⟨%d0, H0⟩, ⟨%d1, H1⟩, ⟨%d2, H2⟩⟩
      iapply ((run0_C c (grid4.coords t) _ (hstg4_0 t) _ (hstg4_1 t) _ (hstg4_2 t) _ (Memref.isWhole_whole _) (fun h => h0 ((hfirst4 t).mp h)) ((hlast4 t).mpr h1) (iblk4 V c 0 t) (iblk4 V c 1 t) _).2.2 Set.univ _)
      iframe H0 H1 HS
      isplitl [H2]; · iexists _; iexact H2
      iintro ⟨H0, H1, ⟨%e2, H2⟩, ⟨%es, HS⟩⟩
      iframe Hrest Hg Ho H0 H1
      isplitl [HS]
      · unfold owns; iexists _; isplitr
        swap; · iexact HS
        ipureintro; exact View.read_writes_eq_canon _ _ _ (scover0_C c _ _ _ _ _ _ _ _ _ _ _ _ _ _)
      unfold owns; iexists _; isplitr
      swap; · iexact H2
      ipureintro; exact View.read_writes_eq_canon _ _ _ (cover0_C c _ _ _ _ _ _ _ _ _ _ _ _ _ _)
    · rw [Dat.leavesExact_idle (dat4 V c) 2 t (idle4_2 t (fun h => h1 ((hlast4 t).mp h))) (noFlush4_2 t (fun h => h1 ((hlast4 t).mp h)))]
      rw [outsAt4_B V c t h0 h1]
      unfold accB4 sacc0_B; (try dsimp only)
      rw [PhiS4_castSucc V c t, PhiS4_pos V c _ _ hz]
      iintro ⟨⟨⟨HS, Hrest⟩, Hg⟩, Ho, ⟨%d0, H0⟩, ⟨%d1, H1⟩, ⟨%d2, H2⟩⟩
      iapply ((run0_B c (grid4.coords t) _ (hstg4_0 t) _ (hstg4_1 t) _ (hstg4_2 t) _ (Memref.isWhole_whole _) (fun h => h0 ((hfirst4 t).mp h)) (fun h => h1 ((hlast4 t).mp h)) (iblk4 V c 0 t) (iblk4 V c 1 t) _).2 _ Set.univ _)
      iframe H0 H1 H2 HS
      iintro ⟨H0, H1, H2, ⟨%es, HS⟩⟩
      iframe Hrest Hg Ho H0 H1
      isplitl [HS]
      · unfold owns; iexists _; isplitr
        swap; · iexact HS
        ipureintro; exact View.read_writes_eq_canon _ _ _ (scover0_B c _ _ _ _ _ _ _ _ _ _ _ _ _ _)
      iexists _; iexact H2

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem Phi_out4 (c : Dev nD) (t : Fin (cfg4.N + 1)) (ht : t.val ≠ 0) : (dat4 V c).Φ t ⊢ Pipeline.ΦA spec4 c :=
  PhiS4_weak V c _ _

theorem hout4 (c : Dev nD) : (dat4 V c).Φ (Fin.last cfg4.N) ⊢ Pipeline.ΦA spec4 c :=
  Phi_out4 V c _ (by rw [Fin.val_last]; have : cfg4.N = 15625 := N_4; omega)

end Region

end Cert.KernelIdeal.Hand

end
-- ==== Proof.KI.Cond5.lean ====
import proofs.«415291_j87935160418912_3_alg».proof.Proof.Gen.KernelIdeal.Launch
import proofs.«415291_j87935160418912_3_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic

variable {F : FTy → Type} [FloatOps F]

abbrev first5 (i : grid5.Coords) : Prop := (Scalar.cmpi .ne (Scalar.extui (Scalar.cmpi .eq (BitVec.ofNat 32 (i 1).val) 0#32)) 0#32) = 1#1

abbrev last5 (i : grid5.Coords) : Prop := k5_cond2 i = 1#1

abbrev acc5 : Memref sig .tc .vmem S5000x128 .f32 := Memref.whole cc5_scratch0

abbrev accV5 : View sig .tc .vmem S5000x128 .f32 := acc5.view

abbrev outV5 : View sig .tc .vmem S5000x128 .f32 := (Memref.whole cc5_stg8_0 : Memref sig .tc .vmem S5000x128 .f32).view

end Cert.KernelIdeal.Hand

end
-- ==== Proof.KI.Flush5.lean ====
import proofs.«415291_j87935160418912_3_alg».proof.Proof.KI.Cond5

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

theorem blk5_out (t : Fin cfg5.N) : win5_8.index t = ![t.val / 3125 % 10, 0] := by
  have h0 : ((grid5.coords t) 0).val = t.val / 3125 % 10 := by
    show t.val / grid5.stride 0 % 10 = _
    rw [show grid5.stride 0 = 3125 from by decide]
  show cc5_transform_8 (grid5.coords t) = _
  unfold cc5_transform_8
  dsimp only
  rw [h0, BitVec.toNat_ofNat, Nat.mod_eq_of_lt (by omega : t.val / 3125 % 10 < 2 ^ 32)]
  rfl

theorem flushOut5 : ∀ t : Fin cfg5.N, (cfg5.win 8).flush t = true ↔ t.val % 3125 = 3124 := fun t => by
  have hN : grid5.N = 31250 := N_5
  have hlt : t.val < grid5.N := t.isLt
  show win5_8.flush t = true ↔ _
  unfold Pipeline.Window.flush
  rw [show win5_8.isOut = true from rfl, Bool.true_and, Bool.or_eq_true, decide_eq_true_eq, decide_eq_true_eq]
  constructor
  · rintro (h | ⟨h, hne⟩)
    · omega
    · rw [blk5_out, blk5_out] at hne
      by_contra hc
      apply hne
      have e : (t.val + 1) / 3125 % 10 = t.val / 3125 % 10 := by omega
      show ![(t.val + 1) / 3125 % 10, 0] = ![t.val / 3125 % 10, 0]
      rw [e]
  · intro h
    by_cases hl : t.val + 1 = grid5.N
    · exact Or.inl hl
    · refine Or.inr ⟨by omega, fun he => ?_⟩
      rw [blk5_out, blk5_out] at he
      have h0 := congrFun he 0
      simp only [Matrix.cons_val_zero] at h0
      omega

end Cert.KernelIdeal.Hand

end
-- ==== Proof.KI.Sched5.lean ====
import proofs.«415291_j87935160418912_3_alg».proof.Proof.KI.Flush5

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev stg5_0 (t : Fin cfg5.N) : Memref sig .tc .vmem S256x128 .bf16 := win5_0.stage (cfg5.slots t 0)
abbrev hstg5_0 (t : Fin cfg5.N) : (stg5_0 t).IsWhole := hstage5_0 ((cfg5.slots t 0).cast nbuf5_0)
abbrev stg5_1 (t : Fin cfg5.N) : Memref sig .tc .vmem S256 .i32 := win5_1.stage (cfg5.slots t 1)
abbrev hstg5_1 (t : Fin cfg5.N) : (stg5_1 t).IsWhole := hstage5_1 ((cfg5.slots t 1).cast nbuf5_1)
abbrev stg5_2 (t : Fin cfg5.N) : Memref sig .tc .vmem S5000x128 .f32 := win5_2.stage (cfg5.slots t 2)
abbrev hstg5_2 (t : Fin cfg5.N) : (stg5_2 t).IsWhole := hstage5_2 ((cfg5.slots t 2).cast nbuf5_2)
abbrev stg5_3 (t : Fin cfg5.N) : Memref sig .tc .vmem S128x128 .f32 := win5_3.stage (cfg5.slots t 3)
abbrev hstg5_3 (t : Fin cfg5.N) : (stg5_3 t).IsWhole := hstage5_3 ((cfg5.slots t 3).cast nbuf5_3)
abbrev stg5_4 (t : Fin cfg5.N) : Memref sig .tc .vmem S128 .f32 := win5_4.stage (cfg5.slots t 4)
abbrev hstg5_4 (t : Fin cfg5.N) : (stg5_4 t).IsWhole := hstage5_4 ((cfg5.slots t 4).cast nbuf5_4)
abbrev stg5_5 (t : Fin cfg5.N) : Memref sig .tc .vmem S128x128 .f32 := win5_5.stage (cfg5.slots t 5)
abbrev hstg5_5 (t : Fin cfg5.N) : (stg5_5 t).IsWhole := hstage5_5 ((cfg5.slots t 5).cast nbuf5_5)
abbrev stg5_6 (t : Fin cfg5.N) : Memref sig .tc .vmem S128 .f32 := win5_6.stage (cfg5.slots t 6)
abbrev hstg5_6 (t : Fin cfg5.N) : (stg5_6 t).IsWhole := hstage5_6 ((cfg5.slots t 6).cast nbuf5_6)
abbrev stg5_7 (t : Fin cfg5.N) : Memref sig .tc .vmem S1x128 .f32 := win5_7.stage (cfg5.slots t 7)
abbrev hstg5_7 (t : Fin cfg5.N) : (stg5_7 t).IsWhole := hstage5_7 ((cfg5.slots t 7).cast nbuf5_7)
abbrev stg5_8 (t : Fin cfg5.N) : Memref sig .tc .vmem S5000x128 .f32 := win5_8.stage (cfg5.slots t 8)
abbrev hstg5_8 (t : Fin cfg5.N) : (stg5_8 t).IsWhole := hstage5_8 ((cfg5.slots t 8).cast nbuf5_8)

abbrev body5 (t : Fin cfg5.N) : Prog (TpuEff nD τ sig (Elt F) Λ₀ .tc) PUnit :=
  cc5__scatter_combine_kernel (grid5.coords t) (stg5_0 t) (hstg5_0 t) (stg5_1 t) (hstg5_1 t) (stg5_2 t) (hstg5_2 t) (stg5_3 t) (hstg5_3 t) (stg5_4 t) (hstg5_4 t) (stg5_5 t) (hstg5_5 t) (stg5_6 t) (hstg5_6 t) (stg5_7 t) (hstg5_7 t) (stg5_8 t) (hstg5_8 t) (Memref.whole cc5_scratch0) (Memref.isWhole_whole _)

theorem coord5_1 (t : Fin cfg5.N) : ((grid5.coords t) 1).val = t.val % 3125 := by
  show t.val / grid5.stride 1 % 3125 = t.val % 3125
  rw [show grid5.stride 1 = 1 from by decide, Nat.div_one]

theorem kcond5_eq (i : grid5.Coords) :
    k5_cond2 i = Scalar.cmpi .ne (Scalar.extui (Scalar.cmpi .eq (BitVec.ofNat 32 (i 1).val) 3124#32)) 0#32 := rfl

theorem hfirst5 : ∀ t : Fin cfg5.N, first5 (grid5.coords t) ↔ t.val % 3125 = 0 := fun t => by
  have key : ∀ n : Fin 3125, ((Scalar.cmpi .ne (Scalar.extui (Scalar.cmpi .eq (BitVec.ofNat 32 n.val) 0#32)) 0#32) = 1#1) ↔ n.val = 0 := by
    decide +kernel
  rw [← coord5_1 t]
  exact key ((grid5.coords t) 1)

theorem hlast5 : ∀ t : Fin cfg5.N, last5 (grid5.coords t) ↔ t.val % 3125 = 3124 := fun t => by
  have key : ∀ n : Fin 3125, ((Scalar.cmpi .ne (Scalar.extui (Scalar.cmpi .eq (BitVec.ofNat 32 n.val) 3124#32)) 0#32) = 1#1) ↔ n.val = 3124 := by
    decide +kernel
  rw [← coord5_1 t]
  show k5_cond2 (grid5.coords t) = 1#1 ↔ _
  rw [kcond5_eq]
  exact key ((grid5.coords t) 1)

theorem live5_0 (t : Fin cfg5.N) : cfg5.idle 0 (grid5.coords t) = false := rfl
theorem live5_1 (t : Fin cfg5.N) : cfg5.idle 1 (grid5.coords t) = false := rfl
theorem live5_2 (t : Fin cfg5.N) : cfg5.idle 2 (grid5.coords t) = false := rfl
theorem live5_3 (t : Fin cfg5.N) : cfg5.idle 3 (grid5.coords t) = false := rfl
theorem live5_4 (t : Fin cfg5.N) : cfg5.idle 4 (grid5.coords t) = false := rfl
theorem live5_5 (t : Fin cfg5.N) : cfg5.idle 5 (grid5.coords t) = false := rfl
theorem live5_6 (t : Fin cfg5.N) : cfg5.idle 6 (grid5.coords t) = false := rfl
theorem live5_7 (t : Fin cfg5.N) : cfg5.idle 7 (grid5.coords t) = false := rfl

theorem idle5_8 (t : Fin cfg5.N) (h : ¬last5 (grid5.coords t)) : cfg5.idle 8 (grid5.coords t) = true := by
  show (!(k5_cond2 (grid5.coords t) == 1#1)) = true
  simp only [Bool.not_eq_true', beq_eq_false_iff_ne, ne_eq]; exact h

theorem live5_8 (t : Fin cfg5.N) (h : last5 (grid5.coords t)) : cfg5.idle 8 (grid5.coords t) = false := by
  show (!(k5_cond2 (grid5.coords t) == 1#1)) = false
  simp only [Bool.not_eq_false', beq_iff_eq]; exact h

theorem noFlush5_8 (t : Fin cfg5.N) (h : ¬last5 (grid5.coords t)) : (cfg5.win 8).flush t = false := by
  cases hf : (cfg5.win 8).flush t with
  | false => rfl
  | true => exact absurd ((hlast5 t).mpr ((flushOut5 t).mp hf)) h

theorem PhiA5_eq (c : Dev nD) :
    (Pipeline.ΦA spec5 c : sProp 𝕄)
      = iprop(iprop((∃ d, owns (c : Thread nD τ) acc5 fullShare d)
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [acc5, owns_whole]; try rfl

end Cert.KernelIdeal.Hand

end
-- ==== Proof.KI.Dat5.lean ====
import proofs.«415291_j87935160418912_3_alg».proof.Proof.KI.Sched5
import proofs.«415291_j87935160418912_3_alg».proof.Proof.KI.Case3

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)

end Region

def idleOut5 : Vec F S5000x128 .f32 := outV5.read (Elt F) outV5.junk

section Region
variable (V : (c : Dev nD) → (b : Ref sig .tc) → Buf (Elt F) ((c : Thread nD τ).loc b))

def accA5 (c : Dev nD) (t : Fin cfg5.N) (h0 : t.val % 3125 = 0) (h1 : ¬t.val % 3125 = 3124) : Vec F S5000x128 .f32 :=
  sacc3_A c (grid5.coords t) (stg5_0 t) (hstg5_0 t) (stg5_1 t) (hstg5_1 t) (stg5_2 t) (hstg5_2 t) (stg5_3 t) (hstg5_3 t) (stg5_4 t) (hstg5_4 t) (stg5_5 t) (hstg5_5 t) (stg5_6 t) (hstg5_6 t) (stg5_7 t) (hstg5_7 t) (stg5_8 t) (hstg5_8 t) acc5 (Memref.isWhole_whole _) ((hfirst5 t).mpr h0) (fun h => h1 ((hlast5 t).mp h)) (iblk5 V c 0 t) (iblk5 V c 1 t) (iblk5 V c 2 t) (iblk5 V c 3 t) (iblk5 V c 4 t) (iblk5 V c 5 t) (iblk5 V c 6 t) (iblk5 V c 7 t)
def accB5 (c : Dev nD) (t : Fin cfg5.N) (h0 : ¬t.val % 3125 = 0) (h1 : ¬t.val % 3125 = 3124) (xs : Vec F S5000x128 .f32) : Vec F S5000x128 .f32 :=
  sacc3_B c (grid5.coords t) (stg5_0 t) (hstg5_0 t) (stg5_1 t) (hstg5_1 t) (stg5_2 t) (hstg5_2 t) (stg5_3 t) (hstg5_3 t) (stg5_4 t) (hstg5_4 t) (stg5_5 t) (hstg5_5 t) (stg5_6 t) (hstg5_6 t) (stg5_7 t) (hstg5_7 t) (stg5_8 t) (hstg5_8 t) acc5 (Memref.isWhole_whole _) (fun h => h0 ((hfirst5 t).mp h)) (fun h => h1 ((hlast5 t).mp h)) (iblk5 V c 0 t) (iblk5 V c 1 t) (iblk5 V c 2 t) (iblk5 V c 3 t) (iblk5 V c 4 t) (iblk5 V c 5 t) (iblk5 V c 6 t) (iblk5 V c 7 t) xs
def accC5 (c : Dev nD) (t : Fin cfg5.N) (h0 : ¬t.val % 3125 = 0) (h1 : t.val % 3125 = 3124) (xs : Vec F S5000x128 .f32) : Vec F S5000x128 .f32 :=
  sacc3_C c (grid5.coords t) (stg5_0 t) (hstg5_0 t) (stg5_1 t) (hstg5_1 t) (stg5_2 t) (hstg5_2 t) (stg5_3 t) (hstg5_3 t) (stg5_4 t) (hstg5_4 t) (stg5_5 t) (hstg5_5 t) (stg5_6 t) (hstg5_6 t) (stg5_7 t) (hstg5_7 t) (stg5_8 t) (hstg5_8 t) acc5 (Memref.isWhole_whole _) (fun h => h0 ((hfirst5 t).mp h)) ((hlast5 t).mpr h1) (iblk5 V c 0 t) (iblk5 V c 1 t) (iblk5 V c 2 t) (iblk5 V c 3 t) (iblk5 V c 4 t) (iblk5 V c 5 t) (iblk5 V c 6 t) (iblk5 V c 7 t) xs
def outC5 (c : Dev nD) (t : Fin cfg5.N) (h0 : ¬t.val % 3125 = 0) (h1 : t.val % 3125 = 3124) (xs : Vec F S5000x128 .f32) : Vec F S5000x128 .f32 :=
  out3_C c (grid5.coords t) (stg5_0 t) (hstg5_0 t) (stg5_1 t) (hstg5_1 t) (stg5_2 t) (hstg5_2 t) (stg5_3 t) (hstg5_3 t) (stg5_4 t) (hstg5_4 t) (stg5_5 t) (hstg5_5 t) (stg5_6 t) (hstg5_6 t) (stg5_7 t) (hstg5_7 t) (stg5_8 t) (hstg5_8 t) acc5 (Memref.isWhole_whole _) (fun h => h0 ((hfirst5 t).mp h)) ((hlast5 t).mpr h1) (iblk5 V c 0 t) (iblk5 V c 1 t) (iblk5 V c 2 t) (iblk5 V c 3 t) (iblk5 V c 4 t) (iblk5 V c 5 t) (iblk5 V c 6 t) (iblk5 V c 7 t) xs

-- The output block and the accumulator after point n: the point's case applied to its input blocks and to what point n - 1 left.
def outsAt5 (c : Dev nD) : (n : ℕ) → n < cfg5.N → Vec F S5000x128 .f32 × Vec F S5000x128 .f32
  | 0, hn => (idleOut5, accA5 V c ⟨0, hn⟩ (Nat.zero_mod _) (show ¬(0 % 3125 = 3124) by decide))
  | n + 1, hn =>
    if h0 : (n + 1) % 3125 = 0 then
      if h1 : (n + 1) % 3125 = 3124 then False.elim (by omega)
      else (idleOut5, accA5 V c ⟨n + 1, hn⟩ h0 h1)
    else
      if h1 : (n + 1) % 3125 = 3124 then
        (outC5 V c ⟨n + 1, hn⟩ h0 h1 (outsAt5 c n (Nat.lt_of_succ_lt hn)).2, accC5 V c ⟨n + 1, hn⟩ h0 h1 (outsAt5 c n (Nat.lt_of_succ_lt hn)).2)
      else (idleOut5, accB5 V c ⟨n + 1, hn⟩ h0 h1 (outsAt5 c n (Nat.lt_of_succ_lt hn)).2)

theorem outsAt5_A (c : Dev nD) (t : Fin cfg5.N) (h0 : t.val % 3125 = 0) (h1 : ¬t.val % 3125 = 3124) :
    outsAt5 V c t.val t.isLt = (idleOut5, accA5 V c t h0 h1) := by
  obtain ⟨n, hn⟩ := t
  cases n with
  | zero => exact rfl
  | succ n => exact (dif_pos h0).trans ((dif_neg h1).trans rfl)

theorem outsAt5_B (c : Dev nD) (t : Fin cfg5.N) (h0 : ¬t.val % 3125 = 0) (h1 : ¬t.val % 3125 = 3124) :
    outsAt5 V c t.val t.isLt = (idleOut5, accB5 V c t h0 h1 (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt5_C (c : Dev nD) (t : Fin cfg5.N) (h0 : ¬t.val % 3125 = 0) (h1 : t.val % 3125 = 3124) :
    outsAt5 V c t.val t.isLt = (outC5 V c t h0 h1 (outsAt5 V c (t.val - 1) (Nat.lt_of_le_of_lt (Nat.sub_le _ _) t.isLt)).2,
      accC5 V c t h0 h1 (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS5 (c : Dev nD) : (n : ℕ) → n ≤ cfg5.N → sProp 𝕄
  | 0, _ => Pipeline.ΦA spec5 c
  | n + 1, hn => iprop(iprop(owns (c : Thread nD τ) acc5 fullShare ((outsAt5 V c n hn).2) ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl
theorem PhiS5_succ (c : Dev nD) (n : ℕ) (hn : n < cfg5.N) :
    PhiS5 V c (n + 1) hn = iprop(iprop(owns (c : Thread nD τ) acc5 fullShare ((outsAt5 V c n hn).2) ∗ Pipeline.scopedRestBut (Ix := Unit) (Name := ℕ) (U := UR sig nD τ) (Lvl := ℕ) (Val := Elt F) spec5 c [cc5_scratch0]) ∗ (∃ r, prngReg c r)) := rfl
theorem PhiS5_pos (c : Dev nD) (n : ℕ) (h : n ≤ cfg5.N) (hz : n ≠ 0) :
    PhiS5 V c n h = iprop(iprop(owns (c : Thread nD τ) acc5 fullShare ((outsAt5 V c (n - 1) (by omega)).2) ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

-- The invariant after any point implies the one before the first: what the accumulator holds is forgotten.
theorem PhiS5_weak (c : Dev nD) (n : ℕ) (h : n ≤ cfg5.N) : PhiS5 V c n h ⊢ Pipeline.ΦA spec5 c := by
  cases n with
  | zero => rw [PhiS5_zero V c 0 h rfl]; try exact Entails.refl _
  | succ n =>
    rw [PhiS5_succ, PhiA5_eq]
    iintro ⟨⟨HS, Hrest⟩, Hg⟩
    isplitl [HS Hrest]
    · isplitl [HS]
      · iexists _; iexact HS
      iexact Hrest
    iexact Hg

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]
theorem PhiS5_castSucc (c : Dev nD) (t : Fin cfg5.N) :
    (dat5 V c).Φ t.castSucc = PhiS5 V c t.val (Nat.le_of_lt t.isLt) := by
  dsimp only [dat5]; simp only [Fin.coe_castSucc]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = (outsAt5 V c t.val t.isLt).1 := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d

def bodyPre5 (c : Dev nD) (t : Fin cfg5.N) : sProp 𝕄 :=
  iprop((dat5 V c).Φ t.castSucc ∗ (dat5 V c).owesAt () t.castSucc
    ∗ (∃ d, owns (c : Thread nD τ) (stg5_0 t) fullShare ((dat5 V c).before 0 t d))
    ∗ (∃ d, owns (c : Thread nD τ) (stg5_1 t) fullShare ((dat5 V c).before 1 t d))
    ∗ (∃ d, owns (c : Thread nD τ) (stg5_2 t) fullShare ((dat5 V c).before 2 t d))
    ∗ (∃ d, owns (c : Thread nD τ) (stg5_3 t) fullShare ((dat5 V c).before 3 t d))
    ∗ (∃ d, owns (c : Thread nD τ) (stg5_4 t) fullShare ((dat5 V c).before 4 t d))
    ∗ (∃ d, owns (c : Thread nD τ) (stg5_5 t) fullShare ((dat5 V c).before 5 t d))
    ∗ (∃ d, owns (c : Thread nD τ) (stg5_6 t) fullShare ((dat5 V c).before 6 t d))
    ∗ (∃ d, owns (c : Thread nD τ) (stg5_7 t) fullShare ((dat5 V c).before 7 t d))
    ∗ (∃ d, owns (c : Thread nD τ) (stg5_8 t) fullShare ((dat5 V c).before 8 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t
    ∗ (dat5 V c).leavesExact 6 t
    ∗ (dat5 V c).leavesExact 7 t
    ∗ (dat5 V c).leavesExact 8 t)

-- The body keeps the invariant at every point: the accumulator is reset at a run's first point, added to at each, combined and written out at the last.
set_option maxHeartbeats 9600000 in

theorem sound_body5 (c : Dev nD) (t : Fin cfg5.N) :
    bodyPre5 V c t ⊢ wp frame (wpE (defs₀ (F := F)) Variants.none c none) Set.univ (body5 t) (fun _ => bodyPost5 V c t) := by
  unfold bodyPre5 bodyPost5 body5
  simp only [before5_0, before5_1, before5_2, before5_3, before5_4, before5_5, before5_6, before5_7]
  rw [show (dat5 V c).owesAt () t.succ = (dat5 V c).owesAt () t.castSucc from rfl]
  rw [show (dat5 V c).Φ t.succ = PhiS5 V c (t.val + 1) t.isLt from rfl, PhiS5_succ]
  rw [show (dat5 V c).leavesExact 0 t = owns (c : Thread nD τ) (stg5_0 t) fullShare ((dat5 V c).after 0 t) from by
    unfold Dat.leavesExact; rw [live5_0 t], after5_0]
  rw [show (dat5 V c).leavesExact 1 t = owns (c : Thread nD τ) (stg5_1 t) fullShare ((dat5 V c).after 1 t) from by
    unfold Dat.leavesExact; rw [live5_1 t], after5_1]
  rw [show (dat5 V c).leavesExact 2 t = owns (c : Thread nD τ) (stg5_2 t) fullShare ((dat5 V c).after 2 t) from by
    unfold Dat.leavesExact; rw [live5_2 t], after5_2]
  rw [show (dat5 V c).leavesExact 3 t = owns (c : Thread nD τ) (stg5_3 t) fullShare ((dat5 V c).after 3 t) from by
    unfold Dat.leavesExact; rw [live5_3 t], after5_3]
  rw [show (dat5 V c).leavesExact 4 t = owns (c : Thread nD τ) (stg5_4 t) fullShare ((dat5 V c).after 4 t) from by
    unfold Dat.leavesExact; rw [live5_4 t], after5_4]
  rw [show (dat5 V c).leavesExact 5 t = owns (c : Thread nD τ) (stg5_5 t) fullShare ((dat5 V c).after 5 t) from by
    unfold Dat.leavesExact; rw [live5_5 t], after5_5]
  rw [show (dat5 V c).leavesExact 6 t = owns (c : Thread nD τ) (stg5_6 t) fullShare ((dat5 V c).after 6 t) from by
    unfold Dat.leavesExact; rw [live5_6 t], after5_6]
  rw [show (dat5 V c).leavesExact 7 t = owns (c : Thread nD τ) (stg5_7 t) fullShare ((dat5 V c).after 7 t) from by
    unfold Dat.leavesExact; rw [live5_7 t], after5_7]
  by_cases h0 : t.val % 3125 = 0
  · have h1 : ¬t.val % 3125 = 3124 := by omega
    rw [Dat.leavesExact_idle (dat5 V c) 8 t (idle5_8 t (fun h => h1 ((hlast5 t).mp h))) (noFlush5_8 t (fun h => h1 ((hlast5 t).mp h)))]
    rw [outsAt5_A V c t h0 h1]
    unfold accA5 sacc3_A; (try dsimp only)
    rw [PhiS5_castSucc V c t]
    refine BIBase.Entails.trans (sep_mono_left (PhiS5_weak V c _ _)) ?_
    rw [PhiA5_eq]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((run3_A c (grid5.coords t) _ (hstg5_0 t) _ (hstg5_1 t) _ (hstg5_2 t) _ (hstg5_3 t) _ (hstg5_4 t) _ (hstg5_5 t) _ (hstg5_6 t) _ (hstg5_7 t) _ (hstg5_8 t) _ (Memref.isWhole_whole _) ((hfirst5 t).mpr h0) (fun h => h1 ((hlast5 t).mp h)) (iblk5 V c 0 t) (iblk5 V c 1 t) (iblk5 V c 2 t) (iblk5 V c 3 t) (iblk5 V c 4 t) (iblk5 V c 5 t) (iblk5 V c 6 t) (iblk5 V c 7 t)).2 _ Set.univ _)
    iframe H0 H1 H2 H3 H4 H5 H6 H7 H8 HS
    iintro ⟨H0, H1, H2, H3, H4, H5, H6, H7, H8, ⟨%es, HS⟩⟩
    iframe Hrest Hg Ho H0 H1 H2 H3 H4 H5 H6 H7
    isplitl [HS]
    · unfold owns; iexists _; isplitr
      swap; · iexact HS
      ipureintro; exact View.read_writes_eq_canon _ _ _ (scover3_A c _ _ _ _ _ _ _ _ _ _ _ _ _ _ _ _ _ _ _ _ _ _ _ _ _ _ _ _ _ _ _)
    iexists _; iexact H8
  · have hz : t.val ≠ 0 := fun h => h0 (by rw [h])
    by_cases h1 : t.val % 3125 = 3124
    · rw [show (dat5 V c).leavesExact 8 t = owns (c : Thread nD τ) (stg5_8 t) fullShare ((dat5 V c).after 8 t) from by
        unfold Dat.leavesExact; rw [live5_8 t ((hlast5 t).mpr h1)], after5_8]
      rw [outsAt5_C V c t h0 h1]
      unfold outC5 accC5 out3_C sacc3_C; (try dsimp only)
      rw [PhiS5_castSucc V c t, PhiS5_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((run3_C c (grid5.coords t) _ (hstg5_0 t) _ (hstg5_1 t) _ (hstg5_2 t) _ (hstg5_3 t) _ (hstg5_4 t) _ (hstg5_5 t) _ (hstg5_6 t) _ (hstg5_7 t) _ (hstg5_8 t) _ (Memref.isWhole_whole _) (fun h => h0 ((hfirst5 t).mp h)) ((hlast5 t).mpr h1) (iblk5 V c 0 t) (iblk5 V c 1 t) (iblk5 V c 2 t) (iblk5 V c 3 t) (iblk5 V c 4 t) (iblk5 V c 5 t) (iblk5 V c 6 t) (iblk5 V c 7 t) _).2.2 Set.univ _)
      iframe H0 H1 H2 H3 H4 H5 H6 H7 HS
      isplitl [H8]; · iexists _; iexact H8
      iintro ⟨H0, H1, H2, H3, H4, H5, H6, H7, ⟨%e8, H8⟩, ⟨%es, HS⟩⟩
      iframe Hrest Hg Ho H0 H1 H2 H3 H4 H5 H6 H7
      isplitl [HS]
      · unfold owns; iexists _; isplitr
        swap; · iexact HS
        ipureintro; exact View.read_writes_eq_canon _ _ _ (scover3_C c _ _ _ _ _ _ _ _ _ _ _ _ _ _ _ _ _ _ _ _ _ _ _ _ _ _ _ _ _ _ _ _)
      unfold owns; iexists _; isplitr
      swap; · iexact H8
      ipureintro; exact View.read_writes_eq_canon _ _ _ (cover3_C c _ _ _ _ _ _ _ _ _ _ _ _ _ _ _ _ _ _ _ _ _ _ _ _ _ _ _ _ _ _ _ _)
    · rw [Dat.leavesExact_idle (dat5 V c) 8 t (idle5_8 t (fun h => h1 ((hlast5 t).mp h))) (noFlush5_8 t (fun h => h1 ((hlast5 t).mp h)))]
      rw [outsAt5_B V c t h0 h1]
      unfold accB5 sacc3_B; (try dsimp only)
      rw [PhiS5_castSucc V c t, PhiS5_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((run3_B c (grid5.coords t) _ (hstg5_0 t) _ (hstg5_1 t) _ (hstg5_2 t) _ (hstg5_3 t) _ (hstg5_4 t) _ (hstg5_5 t) _ (hstg5_6 t) _ (hstg5_7 t) _ (hstg5_8 t) _ (Memref.isWhole_whole _) (fun h => h0 ((hfirst5 t).mp h)) (fun h => h1 ((hlast5 t).mp h)) (iblk5 V c 0 t) (iblk5 V c 1 t) (iblk5 V c 2 t) (iblk5 V c 3 t) (iblk5 V c 4 t) (iblk5 V c 5 t) (iblk5 V c 6 t) (iblk5 V c 7 t) _).2 _ Set.univ _)
      iframe H0 H1 H2 H3 H4 H5 H6 H7 H8 HS
      iintro ⟨H0, H1, H2, H3, H4, H5, H6, H7, H8, ⟨%es, HS⟩⟩
      iframe Hrest Hg Ho H0 H1 H2 H3 H4 H5 H6 H7
      isplitl [HS]
      · unfold owns; iexists _; isplitr
        swap; · iexact HS
        ipureintro; exact View.read_writes_eq_canon _ _ _ (scover3_B c _ _ _ _ _ _ _ _ _ _ _ _ _ _ _ _ _ _ _ _ _ _ _ _ _ _ _ _ _ _ _ _)
      iexists _; iexact H8

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

theorem Phi_out5 (c : Dev nD) (t : Fin (cfg5.N + 1)) (ht : t.val ≠ 0) : (dat5 V c).Φ t ⊢ Pipeline.ΦA spec5 c :=
  PhiS5_weak V c _ _

theorem hout5 (c : Dev nD) : (dat5 V c).Φ (Fin.last cfg5.N) ⊢ Pipeline.ΦA spec5 c :=
  Phi_out5 V c _ (by rw [Fin.val_last]; have : cfg5.N = 31250 := N_5; omega)

end Region

end Cert.KernelIdeal.Hand

end
-- ==== Proof.KI.Main.lean ====
import proofs.«415291_j87935160418912_3_alg».proof.Proof.KI.Dat0
import proofs.«415291_j87935160418912_3_alg».proof.Proof.KI.Dat1
import proofs.«415291_j87935160418912_3_alg».proof.Proof.KI.Dat2
import proofs.«415291_j87935160418912_3_alg».proof.Proof.KI.Dat3
import proofs.«415291_j87935160418912_3_alg».proof.Proof.KI.Dat4
import proofs.«415291_j87935160418912_3_alg».proof.Proof.KI.Dat5
import proofs.«415291_j87935160418912_3_alg».proof.Proof.Gen.KernelIdeal.Regions
import Idealize.ShloMosaic.Lib.Pipeline.RegionsLoop

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)

abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)

abbrev V5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

abbrev W7 : Dev nD → Valuation τ sig (Elt F) := fun c => StableHlo.after hostOps3 (W6 m ρ c)

abbrev V7 : (c : Dev nD) → (b : Ref sig .tc) → Buf (Elt F) ((c : Thread nD τ).loc b) := fun c b => W7 m ρ c b

def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

abbrev W9 : Dev nD → Valuation τ sig (Elt F) := fun c => StableHlo.after hostOps4 (W8 m ρ c)

abbrev V9 : (c : Dev nD) → (b : Ref sig .tc) → Buf (Elt F) ((c : Thread nD τ).loc b) := fun c b => W9 m ρ c b

def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

abbrev W11 : Dev nD → Valuation τ sig (Elt F) := fun c => StableHlo.after hostOps5 (W10 m ρ c)

abbrev V11 : (c : Dev nD) → (b : Ref sig .tc) → Buf (Elt F) ((c : Thread nD τ).loc b) := fun c b => W11 m ρ c b

def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

abbrev W13 : Dev nD → Valuation τ sig (Elt F) := fun c => StableHlo.after hostOps6 (W12 m ρ c)

abbrev admH : (p : Fin 6) → (pcfgs (F := F) p).Adm := fun p => (cfgs p).toPCfg_adm

def pdats : (p : Fin 6) → (c : Dev nD) → Dat τ (Elt F) Unit ℕ (UR sig nD τ) ℕ (Pipeline.pin (pcfgs (F := F)) admH p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W13 m ρ c) ∗ ∃ r, prngReg c r)

-- A region's segment from its launch facts and its proof data: the six regions differ in nothing else.
set_option backward.isDefEq.respectTransparency.types false in
def mkReg (p : Fin 6) (launch : Pipeline.LaunchFacts (nD := nD) (τ := τ) cfgs p) (Wi Wo : Dev nD → Valuation τ sig (Elt F))
    (hbody : ∀ c, BodyObligation (pdats m ρ p c) (defs₀ (F := F)) 𝒱₀ () Set.univ)
    (howed : ∀ c t, (pdats m ρ p c).owed t = 0) (hrec : ∀ c, (pdats m ρ p c).recorded 0 = Set.univ)
    (hshare : ∀ c w, (pdats m ρ p c).share w = fullShare)
    (hA : ∀ c w, (pdats m ρ p c).A w = Wi c (Pipeline.arrRef (Pipeline.pin (pcfgs (F := F)) admH p).spec w))
    (hΦ0 : ∀ c, (pdats m ρ p c).Φ 0 = Pipeline.ΦA (Pipeline.pin (pcfgs (F := F)) admH p).spec c)
    (hΦN : ∀ c, (pdats m ρ p c).Φ (Fin.last (Pipeline.pin (pcfgs (F := F)) admH p).N) ⊢ Pipeline.ΦA (Pipeline.pin (pcfgs (F := F)) admH p).spec c)
    (hF : ∀ c w, (pdats m ρ p c).arrAt w (Pipeline.pin (pcfgs (F := F)) admH p).N = Wo c (Pipeline.arrRef (Pipeline.pin (pcfgs (F := F)) admH p).spec w))
    (hrest : ∀ c b, b ∉ Finset.univ.image (Pipeline.arrRef (Pipeline.pin (pcfgs (F := F)) admH p).spec) → Wo c b = Wi c b) :
    Pipeline.RegionSeg (pcfgs (F := F)) admH (pdats m ρ) () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) admH p).spec c (fun b => Wi c b)
  hentry c := by
    rw [Pipeline.ownSems0_none]
    have hsplit := Pipeline.arrays_of_unscopedBufs (p := p) (pcfgs (F := F)) admH (pdats m ρ) launch.win launch.arr_whole c
      (hshare c) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (hrec c ▸ Set.mem_univ _)
      iexact HO
    isplitl [Hp]; · iexact Hp
    iexact Hrest
  hin c := by
    rw [hΦ0 c]; unfold Pipeline.ΦA
    iintro ⟨Hp, -, Hr⟩
    isplitl [Hr]; · iexact Hr
    iexact Hp
  hout c := by
    rw [Pipeline.ownSems0_none]
    refine (hΦN c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) admH (Ix := Unit) (Name := ℕ) (U := UR sig nD τ) (Lvl := ℕ)
      launch.win launch.arr_whole c (pdats m ρ) (hshare c)
      (fun b => Wi c b) (fun b => Wo c b) ((pdats m ρ p c).arrAt · (Pipeline.pin (pcfgs (F := F)) admH p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

set_option backward.isDefEq.respectTransparency.types false in
def reg0 : Pipeline.RegionSeg (pcfgs (F := F)) admH (pdats m ρ) () defs₀ 𝒱₀ L lv 0 :=
  mkReg m ρ 0 launch0 (W1 m ρ) (W2 m ρ) (body_obligation0 (V1 m ρ)) (fun _ _ => rfl) (fun _ => rfl) (fun c => (pdats m ρ 0 c).share_full fun _ => rfl)
    (fun _ _ => rfl) (fun _ => rfl) (hout0 (V1 m ρ)) (hF0 m ρ) (hrest0 m ρ)

set_option backward.isDefEq.respectTransparency.types false in
def reg1 : Pipeline.RegionSeg (pcfgs (F := F)) admH (pdats m ρ) () defs₀ 𝒱₀ L lv 1 :=
  mkReg m ρ 1 launch1 (W3 m ρ) (W4 m ρ) (body_obligation1 (V3 m ρ)) (fun _ _ => rfl) (fun _ => rfl) (fun c => (pdats m ρ 1 c).share_full fun _ => rfl)
    (fun _ _ => rfl) (fun _ => rfl) (hout1 (V3 m ρ)) (hF1 m ρ) (hrest1 m ρ)

set_option backward.isDefEq.respectTransparency.types false in
def reg2 : Pipeline.RegionSeg (pcfgs (F := F)) admH (pdats m ρ) () defs₀ 𝒱₀ L lv 2 :=
  mkReg m ρ 2 launch2 (W5 m ρ) (W6 m ρ) (body_obligation2 (V5 m ρ)) (fun _ _ => rfl) (fun _ => rfl) (fun c => (pdats m ρ 2 c).share_full fun _ => rfl)
    (fun _ _ => rfl) (fun _ => rfl) (hout2 (V5 m ρ)) (hF2 m ρ) (hrest2 m ρ)

set_option backward.isDefEq.respectTransparency.types false in
def reg3 : Pipeline.RegionSeg (pcfgs (F := F)) admH (pdats m ρ) () defs₀ 𝒱₀ L lv 3 :=
  mkReg m ρ 3 launch3 (W7 m ρ) (W8 m ρ) (body_obligation3 (V7 m ρ)) (fun _ _ => rfl) (fun _ => rfl) (fun c => (pdats m ρ 3 c).share_full fun _ => rfl)
    (fun _ _ => rfl) (fun _ => rfl) (hout3 (V7 m ρ)) (hF3 m ρ) (hrest3 m ρ)

set_option backward.isDefEq.respectTransparency.types false in
def reg4 : Pipeline.RegionSeg (pcfgs (F := F)) admH (pdats m ρ) () defs₀ 𝒱₀ L lv 4 :=
  mkReg m ρ 4 launch4 (W9 m ρ) (W10 m ρ) (body_obligation4 (V9 m ρ)) (fun _ _ => rfl) (fun _ => rfl) (fun c => (pdats m ρ 4 c).share_full fun _ => rfl)
    (fun _ _ => rfl) (fun _ => rfl) (hout4 (V9 m ρ)) (hF4 m ρ) (hrest4 m ρ)

set_option backward.isDefEq.respectTransparency.types false in
def reg5 : Pipeline.RegionSeg (pcfgs (F := F)) admH (pdats m ρ) () defs₀ 𝒱₀ L lv 5 :=
  mkReg m ρ 5 launch5 (W11 m ρ) (W12 m ρ) (body_obligation5 (V11 m ρ)) (fun _ _ => rfl) (fun _ => rfl) (fun c => (pdats m ρ 5 c).share_full fun _ => rfl)
    (fun _ _ => rfl) (fun _ => rfl) (hout5 (V11 m ρ)) (hF5 m ρ) (hrest5 m ρ)

abbrev segs : List (Pipeline.Seg (pcfgs (F := F)) admH (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)) ]

theorem main_run (c : Dev nD) : main (F := F) c = Pipeline.Seg.run (segs m ρ) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) admH (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W13 m ρ c) ∗ R c)
        ⊢ iprop(Tₙ m ρ c ∗ ∃ W, owes (c : Thread nD τ) (0 : CellTallies nD τ sig Unit) W)
      iintro ⟨Hh, Hp, HO⟩
      isplitr [HO]
      · isplitl [Hh]; · iexact Hh
        iexact Hp
      · iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h => h)

end Cert.KernelIdeal.Hand

end
-- ==== Proof.KI.Frame.lean ====
import proofs.«415291_j87935160418912_3_alg».proof.Proof.KI.Main

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

variable (m : (ℓ : Loc nD τ sig) → Buf (Elt F) ℓ) (ρ : Dev nD → PrngReg)

theorem W2_keep (c : Dev nD) (b : Ref sig .tc) (hb : b ≠ Pipeline.arrRef spec0 2) :
    W2 m ρ c (Proc.devRef .tc b) = W1 m ρ c (Proc.devRef .tc b) := by
  by_cases h : ∀ w, Pipeline.arrRef spec0 w ≠ b
  · exact W2_of_ne m ρ c b h
  · push Not at h
    obtain ⟨w, rfl⟩ := h
    rw [W2_arr]
    match w, hb with
    | ⟨0, _⟩, _ => exact ((dat0 (V1 m ρ) c).arrAt_in 0 rfl _).trans (A_eq0 (V1 m ρ) c 0)
    | ⟨1, _⟩, _ => exact ((dat0 (V1 m ρ) c).arrAt_in 1 rfl _).trans (A_eq0 (V1 m ρ) c 1)
    | ⟨2, _⟩, hb => exact absurd rfl hb

theorem W4_keep (c : Dev nD) (b : Ref sig .tc) (hb : b ≠ Pipeline.arrRef spec1 8) :
    W4 m ρ c (Proc.devRef .tc b) = W3 m ρ c (Proc.devRef .tc b) := by
  by_cases h : ∀ w, Pipeline.arrRef spec1 w ≠ b
  · exact W4_of_ne m ρ c b h
  · push Not at h
    obtain ⟨w, rfl⟩ := h
    rw [W4_arr]
    match w, hb with
    | ⟨0, _⟩, _ => exact ((dat1 (V3 m ρ) c).arrAt_in 0 rfl _).trans (A_eq1 (V3 m ρ) c 0)
    | ⟨1, _⟩, _ => exact ((dat1 (V3 m ρ) c).arrAt_in 1 rfl _).trans (A_eq1 (V3 m ρ) c 1)
    | ⟨2, _⟩, _ => exact ((dat1 (V3 m ρ) c).arrAt_in 2 rfl _).trans (A_eq1 (V3 m ρ) c 2)
    | ⟨3, _⟩, _ => exact ((dat1 (V3 m ρ) c).arrAt_in 3 rfl _).trans (A_eq1 (V3 m ρ) c 3)
    | ⟨4, _⟩, _ => exact ((dat1 (V3 m ρ) c).arrAt_in 4 rfl _).trans (A_eq1 (V3 m ρ) c 4)
    | ⟨5, _⟩, _ => exact ((dat1 (V3 m ρ) c).arrAt_in 5 rfl _).trans (A_eq1 (V3 m ρ) c 5)
    | ⟨6, _⟩, _ => exact ((dat1 (V3 m ρ) c).arrAt_in 6 rfl _).trans (A_eq1 (V3 m ρ) c 6)
    | ⟨7, _⟩, _ => exact ((dat1 (V3 m ρ) c).arrAt_in 7 rfl _).trans (A_eq1 (V3 m ρ) c 7)
    | ⟨8, _⟩, hb => exact absurd rfl hb

theorem W6_keep (c : Dev nD) (b : Ref sig .tc) (hb : b ≠ Pipeline.arrRef spec2 2) :
    W6 m ρ c (Proc.devRef .tc b) = W5 m ρ c (Proc.devRef .tc b) := by
  by_cases h : ∀ w, Pipeline.arrRef spec2 w ≠ b
  · exact W6_of_ne m ρ c b h
  · push Not at h
    obtain ⟨w, rfl⟩ := h
    rw [W6_arr]
    match w, hb with
    | ⟨0, _⟩, _ => exact ((dat2 (V5 m ρ) c).arrAt_in 0 rfl _).trans (A_eq2 (V5 m ρ) c 0)
    | ⟨1, _⟩, _ => exact ((dat2 (V5 m ρ) c).arrAt_in 1 rfl _).trans (A_eq2 (V5 m ρ) c 1)
    | ⟨2, _⟩, hb => exact absurd rfl hb

theorem W8_keep (c : Dev nD) (b : Ref sig .tc) (hb : b ≠ Pipeline.arrRef spec3 8) :
    W8 m ρ c (Proc.devRef .tc b) = W7 m ρ c (Proc.devRef .tc b) := by
  by_cases h : ∀ w, Pipeline.arrRef spec3 w ≠ b
  · exact W8_of_ne m ρ c b h
  · push Not at h
    obtain ⟨w, rfl⟩ := h
    rw [W8_arr]
    match w, hb with
    | ⟨0, _⟩, _ => exact ((dat3 (V7 m ρ) c).arrAt_in 0 rfl _).trans (A_eq3 (V7 m ρ) c 0)
    | ⟨1, _⟩, _ => exact ((dat3 (V7 m ρ) c).arrAt_in 1 rfl _).trans (A_eq3 (V7 m ρ) c 1)
    | ⟨2, _⟩, _ => exact ((dat3 (V7 m ρ) c).arrAt_in 2 rfl _).trans (A_eq3 (V7 m ρ) c 2)
    | ⟨3, _⟩, _ => exact ((dat3 (V7 m ρ) c).arrAt_in 3 rfl _).trans (A_eq3 (V7 m ρ) c 3)
    | ⟨4, _⟩, _ => exact ((dat3 (V7 m ρ) c).arrAt_in 4 rfl _).trans (A_eq3 (V7 m ρ) c 4)
    | ⟨5, _⟩, _ => exact ((dat3 (V7 m ρ) c).arrAt_in 5 rfl _).trans (A_eq3 (V7 m ρ) c 5)
    | ⟨6, _⟩, _ => exact ((dat3 (V7 m ρ) c).arrAt_in 6 rfl _).trans (A_eq3 (V7 m ρ) c 6)
    | ⟨7, _⟩, _ => exact ((dat3 (V7 m ρ) c).arrAt_in 7 rfl _).trans (A_eq3 (V7 m ρ) c 7)
    | ⟨8, _⟩, hb => exact absurd rfl hb

theorem W10_keep (c : Dev nD) (b : Ref sig .tc) (hb : b ≠ Pipeline.arrRef spec4 2) :
    W10 m ρ c (Proc.devRef .tc b) = W9 m ρ c (Proc.devRef .tc b) := by
  by_cases h : ∀ w, Pipeline.arrRef spec4 w ≠ b
  · exact W10_of_ne m ρ c b h
  · push Not at h
    obtain ⟨w, rfl⟩ := h
    rw [W10_arr]
    match w, hb with
    | ⟨0, _⟩, _ => exact ((dat4 (V9 m ρ) c).arrAt_in 0 rfl _).trans (A_eq4 (V9 m ρ) c 0)
    | ⟨1, _⟩, _ => exact ((dat4 (V9 m ρ) c).arrAt_in 1 rfl _).trans (A_eq4 (V9 m ρ) c 1)
    | ⟨2, _⟩, hb => exact absurd rfl hb

theorem W12_keep (c : Dev nD) (b : Ref sig .tc) (hb : b ≠ Pipeline.arrRef spec5 8) :
    W12 m ρ c (Proc.devRef .tc b) = W11 m ρ c (Proc.devRef .tc b) := by
  by_cases h : ∀ w, Pipeline.arrRef spec5 w ≠ b
  · exact W12_of_ne m ρ c b h
  · push Not at h
    obtain ⟨w, rfl⟩ := h
    rw [W12_arr]
    match w, hb with
    | ⟨0, _⟩, _ => exact ((dat5 (V11 m ρ) c).arrAt_in 0 rfl _).trans (A_eq5 (V11 m ρ) c 0)
    | ⟨1, _⟩, _ => exact ((dat5 (V11 m ρ) c).arrAt_in 1 rfl _).trans (A_eq5 (V11 m ρ) c 1)
    | ⟨2, _⟩, _ => exact ((dat5 (V11 m ρ) c).arrAt_in 2 rfl _).trans (A_eq5 (V11 m ρ) c 2)
    | ⟨3, _⟩, _ => exact ((dat5 (V11 m ρ) c).arrAt_in 3 rfl _).trans (A_eq5 (V11 m ρ) c 3)
    | ⟨4, _⟩, _ => exact ((dat5 (V11 m ρ) c).arrAt_in 4 rfl _).trans (A_eq5 (V11 m ρ) c 4)
    | ⟨5, _⟩, _ => exact ((dat5 (V11 m ρ) c).arrAt_in 5 rfl _).trans (A_eq5 (V11 m ρ) c 5)
    | ⟨6, _⟩, _ => exact ((dat5 (V11 m ρ) c).arrAt_in 6 rfl _).trans (A_eq5 (V11 m ρ) c 6)
    | ⟨7, _⟩, _ => exact ((dat5 (V11 m ρ) c).arrAt_in 7 rfl _).trans (A_eq5 (V11 m ρ) c 7)
    | ⟨8, _⟩, hb => exact absurd rfl hb

theorem W13_main_arg0 (c : Dev nD) : W13 m ρ c (Proc.devRef .tc main_arg0) = m ((c : Thread nD τ).loc main_arg0) :=
  (StableHlo.after_of_writes_sub hostOps6 _ hostOps6_writes (by decide)).trans <| (W12_keep m ρ c main_arg0 (by decide)).trans <| (StableHlo.after_of_writes_sub hostOps5 _ hostOps5_writes (by decide)).trans <| (W10_keep m ρ c main_arg0 (by decide)).trans <| (StableHlo.after_of_writes_sub hostOps4 _ hostOps4_writes (by decide)).trans <| (W8_keep m ρ c main_arg0 (by decide)).trans <| (StableHlo.after_of_writes_sub hostOps3 _ hostOps3_writes (by decide)).trans <| (W6_keep m ρ c main_arg0 (by decide)).trans <| (StableHlo.after_of_writes_sub hostOps2 _ hostOps2_writes (by decide)).trans <| (W4_keep m ρ c main_arg0 (by decide)).trans <| (StableHlo.after_of_writes_sub hostOps1 _ hostOps1_writes (by decide)).trans <| (W2_keep m ρ c main_arg0 (by decide)).trans <| (StableHlo.after_of_writes_sub hostOps0 _ hostOps0_writes (by decide)).trans rfl
theorem W13_main_arg1 (c : Dev nD) : W13 m ρ c (Proc.devRef .tc main_arg1) = m ((c : Thread nD τ).loc main_arg1) :=
  (StableHlo.after_of_writes_sub hostOps6 _ hostOps6_writes (by decide)).trans <| (W12_keep m ρ c main_arg1 (by decide)).trans <| (StableHlo.after_of_writes_sub hostOps5 _ hostOps5_writes (by decide)).trans <| (W10_keep m ρ c main_arg1 (by decide)).trans <| (StableHlo.after_of_writes_sub hostOps4 _ hostOps4_writes (by decide)).trans <| (W8_keep m ρ c main_arg1 (by decide)).trans <| (StableHlo.after_of_writes_sub hostOps3 _ hostOps3_writes (by decide)).trans <| (W6_keep m ρ c main_arg1 (by decide)).trans <| (StableHlo.after_of_writes_sub hostOps2 _ hostOps2_writes (by decide)).trans <| (W4_keep m ρ c main_arg1 (by decide)).trans <| (StableHlo.after_of_writes_sub hostOps1 _ hostOps1_writes (by decide)).trans <| (W2_keep m ρ c main_arg1 (by decide)).trans <| (StableHlo.after_of_writes_sub hostOps0 _ hostOps0_writes (by decide)).trans rfl
theorem W13_main_arg2 (c : Dev nD) : W13 m ρ c (Proc.devRef .tc main_arg2) = m ((c : Thread nD τ).loc main_arg2) :=
  (StableHlo.after_of_writes_sub hostOps6 _ hostOps6_writes (by decide)).trans <| (W12_keep m ρ c main_arg2 (by decide)).trans <| (StableHlo.after_of_writes_sub hostOps5 _ hostOps5_writes (by decide)).trans <| (W10_keep m ρ c main_arg2 (by decide)).trans <| (StableHlo.after_of_writes_sub hostOps4 _ hostOps4_writes (by decide)).trans <| (W8_keep m ρ c main_arg2 (by decide)).trans <| (StableHlo.after_of_writes_sub hostOps3 _ hostOps3_writes (by decide)).trans <| (W6_keep m ρ c main_arg2 (by decide)).trans <| (StableHlo.after_of_writes_sub hostOps2 _ hostOps2_writes (by decide)).trans <| (W4_keep m ρ c main_arg2 (by decide)).trans <| (StableHlo.after_of_writes_sub hostOps1 _ hostOps1_writes (by decide)).trans <| (W2_keep m ρ c main_arg2 (by decide)).trans <| (StableHlo.after_of_writes_sub hostOps0 _ hostOps0_writes (by decide)).trans rfl
theorem W13_main_arg3 (c : Dev nD) : W13 m ρ c (Proc.devRef .tc main_arg3) = m ((c : Thread nD τ).loc main_arg3) :=
  (StableHlo.after_of_writes_sub hostOps6 _ hostOps6_writes (by decide)).trans <| (W12_keep m ρ c main_arg3 (by decide)).trans <| (StableHlo.after_of_writes_sub hostOps5 _ hostOps5_writes (by decide)).trans <| (W10_keep m ρ c main_arg3 (by decide)).trans <| (StableHlo.after_of_writes_sub hostOps4 _ hostOps4_writes (by decide)).trans <| (W8_keep m ρ c main_arg3 (by decide)).trans <| (StableHlo.after_of_writes_sub hostOps3 _ hostOps3_writes (by decide)).trans <| (W6_keep m ρ c main_arg3 (by decide)).trans <| (StableHlo.after_of_writes_sub hostOps2 _ hostOps2_writes (by decide)).trans <| (W4_keep m ρ c main_arg3 (by decide)).trans <| (StableHlo.after_of_writes_sub hostOps1 _ hostOps1_writes (by decide)).trans <| (W2_keep m ρ c main_arg3 (by decide)).trans <| (StableHlo.after_of_writes_sub hostOps0 _ hostOps0_writes (by decide)).trans rfl
theorem W13_main_arg4 (c : Dev nD) : W13 m ρ c (Proc.devRef .tc main_arg4) = m ((c : Thread nD τ).loc main_arg4) :=
  (StableHlo.after_of_writes_sub hostOps6 _ hostOps6_writes (by decide)).trans <| (W12_keep m ρ c main_arg4 (by decide)).trans <| (StableHlo.after_of_writes_sub hostOps5 _ hostOps5_writes (by decide)).trans <| (W10_keep m ρ c main_arg4 (by decide)).trans <| (StableHlo.after_of_writes_sub hostOps4 _ hostOps4_writes (by decide)).trans <| (W8_keep m ρ c main_arg4 (by decide)).trans <| (StableHlo.after_of_writes_sub hostOps3 _ hostOps3_writes (by decide)).trans <| (W6_keep m ρ c main_arg4 (by decide)).trans <| (StableHlo.after_of_writes_sub hostOps2 _ hostOps2_writes (by decide)).trans <| (W4_keep m ρ c main_arg4 (by decide)).trans <| (StableHlo.after_of_writes_sub hostOps1 _ hostOps1_writes (by decide)).trans <| (W2_keep m ρ c main_arg4 (by decide)).trans <| (StableHlo.after_of_writes_sub hostOps0 _ hostOps0_writes (by decide)).trans rfl
theorem W13_main_arg5 (c : Dev nD) : W13 m ρ c (Proc.devRef .tc main_arg5) = m ((c : Thread nD τ).loc main_arg5) :=
  (StableHlo.after_of_writes_sub hostOps6 _ hostOps6_writes (by decide)).trans <| (W12_keep m ρ c main_arg5 (by decide)).trans <| (StableHlo.after_of_writes_sub hostOps5 _ hostOps5_writes (by decide)).trans <| (W10_keep m ρ c main_arg5 (by decide)).trans <| (StableHlo.after_of_writes_sub hostOps4 _ hostOps4_writes (by decide)).trans <| (W8_keep m ρ c main_arg5 (by decide)).trans <| (StableHlo.after_of_writes_sub hostOps3 _ hostOps3_writes (by decide)).trans <| (W6_keep m ρ c main_arg5 (by decide)).trans <| (StableHlo.after_of_writes_sub hostOps2 _ hostOps2_writes (by decide)).trans <| (W4_keep m ρ c main_arg5 (by decide)).trans <| (StableHlo.after_of_writes_sub hostOps1 _ hostOps1_writes (by decide)).trans <| (W2_keep m ρ c main_arg5 (by decide)).trans <| (StableHlo.after_of_writes_sub hostOps0 _ hostOps0_writes (by decide)).trans rfl
theorem W13_main_arg6 (c : Dev nD) : W13 m ρ c (Proc.devRef .tc main_arg6) = m ((c : Thread nD τ).loc main_arg6) :=
  (StableHlo.after_of_writes_sub hostOps6 _ hostOps6_writes (by decide)).trans <| (W12_keep m ρ c main_arg6 (by decide)).trans <| (StableHlo.after_of_writes_sub hostOps5 _ hostOps5_writes (by decide)).trans <| (W10_keep m ρ c main_arg6 (by decide)).trans <| (StableHlo.after_of_writes_sub hostOps4 _ hostOps4_writes (by decide)).trans <| (W8_keep m ρ c main_arg6 (by decide)).trans <| (StableHlo.after_of_writes_sub hostOps3 _ hostOps3_writes (by decide)).trans <| (W6_keep m ρ c main_arg6 (by decide)).trans <| (StableHlo.after_of_writes_sub hostOps2 _ hostOps2_writes (by decide)).trans <| (W4_keep m ρ c main_arg6 (by decide)).trans <| (StableHlo.after_of_writes_sub hostOps1 _ hostOps1_writes (by decide)).trans <| (W2_keep m ρ c main_arg6 (by decide)).trans <| (StableHlo.after_of_writes_sub hostOps0 _ hostOps0_writes (by decide)).trans rfl
theorem W13_main_arg7 (c : Dev nD) : W13 m ρ c (Proc.devRef .tc main_arg7) = m ((c : Thread nD τ).loc main_arg7) :=
  (StableHlo.after_of_writes_sub hostOps6 _ hostOps6_writes (by decide)).trans <| (W12_keep m ρ c main_arg7 (by decide)).trans <| (StableHlo.after_of_writes_sub hostOps5 _ hostOps5_writes (by decide)).trans <| (W10_keep m ρ c main_arg7 (by decide)).trans <| (StableHlo.after_of_writes_sub hostOps4 _ hostOps4_writes (by decide)).trans <| (W8_keep m ρ c main_arg7 (by decide)).trans <| (StableHlo.after_of_writes_sub hostOps3 _ hostOps3_writes (by decide)).trans <| (W6_keep m ρ c main_arg7 (by decide)).trans <| (StableHlo.after_of_writes_sub hostOps2 _ hostOps2_writes (by decide)).trans <| (W4_keep m ρ c main_arg7 (by decide)).trans <| (StableHlo.after_of_writes_sub hostOps1 _ hostOps1_writes (by decide)).trans <| (W2_keep m ρ c main_arg7 (by decide)).trans <| (StableHlo.after_of_writes_sub hostOps0 _ hostOps0_writes (by decide)).trans rfl
theorem W13_main_arg8 (c : Dev nD) : W13 m ρ c (Proc.devRef .tc main_arg8) = m ((c : Thread nD τ).loc main_arg8) :=
  (StableHlo.after_of_writes_sub hostOps6 _ hostOps6_writes (by decide)).trans <| (W12_keep m ρ c main_arg8 (by decide)).trans <| (StableHlo.after_of_writes_sub hostOps5 _ hostOps5_writes (by decide)).trans <| (W10_keep m ρ c main_arg8 (by decide)).trans <| (StableHlo.after_of_writes_sub hostOps4 _ hostOps4_writes (by decide)).trans <| (W8_keep m ρ c main_arg8 (by decide)).trans <| (StableHlo.after_of_writes_sub hostOps3 _ hostOps3_writes (by decide)).trans <| (W6_keep m ρ c main_arg8 (by decide)).trans <| (StableHlo.after_of_writes_sub hostOps2 _ hostOps2_writes (by decide)).trans <| (W4_keep m ρ c main_arg8 (by decide)).trans <| (StableHlo.after_of_writes_sub hostOps1 _ hostOps1_writes (by decide)).trans <| (W2_keep m ρ c main_arg8 (by decide)).trans <| (StableHlo.after_of_writes_sub hostOps0 _ hostOps0_writes (by decide)).trans rfl
theorem W13_main_arg9 (c : Dev nD) : W13 m ρ c (Proc.devRef .tc main_arg9) = m ((c : Thread nD τ).loc main_arg9) :=
  (StableHlo.after_of_writes_sub hostOps6 _ hostOps6_writes (by decide)).trans <| (W12_keep m ρ c main_arg9 (by decide)).trans <| (StableHlo.after_of_writes_sub hostOps5 _ hostOps5_writes (by decide)).trans <| (W10_keep m ρ c main_arg9 (by decide)).trans <| (StableHlo.after_of_writes_sub hostOps4 _ hostOps4_writes (by decide)).trans <| (W8_keep m ρ c main_arg9 (by decide)).trans <| (StableHlo.after_of_writes_sub hostOps3 _ hostOps3_writes (by decide)).trans <| (W6_keep m ρ c main_arg9 (by decide)).trans <| (StableHlo.after_of_writes_sub hostOps2 _ hostOps2_writes (by decide)).trans <| (W4_keep m ρ c main_arg9 (by decide)).trans <| (StableHlo.after_of_writes_sub hostOps1 _ hostOps1_writes (by decide)).trans <| (W2_keep m ρ c main_arg9 (by decide)).trans <| (StableHlo.after_of_writes_sub hostOps0 _ hostOps0_writes (by decide)).trans rfl
theorem W13_main_arg10 (c : Dev nD) : W13 m ρ c (Proc.devRef .tc main_arg10) = m ((c : Thread nD τ).loc main_arg10) :=
  (StableHlo.after_of_writes_sub hostOps6 _ hostOps6_writes (by decide)).trans <| (W12_keep m ρ c main_arg10 (by decide)).trans <| (StableHlo.after_of_writes_sub hostOps5 _ hostOps5_writes (by decide)).trans <| (W10_keep m ρ c main_arg10 (by decide)).trans <| (StableHlo.after_of_writes_sub hostOps4 _ hostOps4_writes (by decide)).trans <| (W8_keep m ρ c main_arg10 (by decide)).trans <| (StableHlo.after_of_writes_sub hostOps3 _ hostOps3_writes (by decide)).trans <| (W6_keep m ρ c main_arg10 (by decide)).trans <| (StableHlo.after_of_writes_sub hostOps2 _ hostOps2_writes (by decide)).trans <| (W4_keep m ρ c main_arg10 (by decide)).trans <| (StableHlo.after_of_writes_sub hostOps1 _ hostOps1_writes (by decide)).trans <| (W2_keep m ρ c main_arg10 (by decide)).trans <| (StableHlo.after_of_writes_sub hostOps0 _ hostOps0_writes (by decide)).trans rfl

theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c _ (mem_uc main_arg0 (by decide))).trans (W13_main_arg0 m ρ c),
    (h c _ (mem_uc main_arg1 (by decide))).trans (W13_main_arg1 m ρ c),
    (h c _ (mem_uc main_arg2 (by decide))).trans (W13_main_arg2 m ρ c),
    (h c _ (mem_uc main_arg3 (by decide))).trans (W13_main_arg3 m ρ c),
    (h c _ (mem_uc main_arg4 (by decide))).trans (W13_main_arg4 m ρ c),
    (h c _ (mem_uc main_arg5 (by decide))).trans (W13_main_arg5 m ρ c),
    (h c _ (mem_uc main_arg6 (by decide))).trans (W13_main_arg6 m ρ c),
    (h c _ (mem_uc main_arg7 (by decide))).trans (W13_main_arg7 m ρ c),
    (h c _ (mem_uc main_arg8 (by decide))).trans (W13_main_arg8 m ρ c),
    (h c _ (mem_uc main_arg9 (by decide))).trans (W13_main_arg9 m ρ c),
    (h c _ (mem_uc main_arg10 (by decide))).trans (W13_main_arg10 m ρ c)⟩) (run_all m ρ)

end Cert.KernelIdeal.Hand

end
-- ==== Proof.Frames.lean ====
import proofs.«415291_j87935160418912_3_alg».proof.Defs
import proofs.«415291_j87935160418912_3_alg».proof.Proof.K.Frame
import proofs.«415291_j87935160418912_3_alg».proof.Proof.KI.Frame
import proofs.«415291_j87935160418912_3_alg».proof.Proof.Gen.ReferenceIdeal.Run
import proofs.«415291_j87935160418912_3_alg».proof.Proof.Gen.Kernel
import proofs.«415291_j87935160418912_3_alg».proof.Proof.Gen.KernelIdeal
import proofs.«415291_j87935160418912_3_alg».proof.Proof.Gen.ReferenceIdeal
import proofs.«415291_j87935160418912_3_alg».proof.Proof.Gen.Pre_finite_inputs

noncomputable section

namespace Cert.Proof

open Idealize.ShloMosaic Idealize.SL.Sem

theorem frame_k : Cert.frame_Kernel := fun m ρ _ => Cert.Kernel.Hand.frame_all (F := Bits) m ρ
theorem frame_ki : Cert.frame_KernelIdeal := fun m ρ _ => Cert.KernelIdeal.Hand.frame_all (F := Ideal) m ρ
theorem frame_ri : Cert.frame_ReferenceIdeal := fun m ρ _ =>
  (θ_run Cert.ReferenceIdeal.defs _ _).mono (fun _ h c => (h c).2) (Cert.ReferenceIdeal.Value.run (F := Ideal) m ρ)
theorem preserves : Cert.preserves_Kernel_KernelIdeal := trivial

end Cert.Proof

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev SE : Shape := ⟨1, ![800000]⟩
abbrev SN : Shape := ⟨2, ![50000, 128]⟩
abbrev SG : Shape := ⟨2, ![800000, 128]⟩
abbrev SW : Shape := ⟨2, ![128, 128]⟩
abbrev SB : Shape := ⟨1, ![128]⟩
abbrev SR : Shape := ⟨2, ![1, 128]⟩

def rowOf (s : BitVec 32) : Fin 50000 := ⟨s.toNat % 50000, Nat.mod_lt _ (by decide)⟩

theorem rowOf_val_of_lt (s : BitVec 32) (h : s.toNat < 50000) : (rowOf s).val = s.toNat := Nat.mod_eq_of_lt h

def gathered (src : SE.Idx → BitVec 32) (h : SN.Idx → EReal) : SG.Idx → EReal :=
  fun j => h (ix2 (rowOf (src (ix1 (j 0)))) (j 1))

def scattered (dst : SE.Idx → BitVec 32) (g : SG.Idx → EReal) : SN.Idx → EReal :=
  fun i => ∑ e : Fin 800000, if dst (ix1 e) = BitVec.ofNat 32 (i 0).val then g (ix2 e (i 1)) else 0

def aggregated (dst : SE.Idx → BitVec 32) (g : SG.Idx → EReal) (h : SN.Idx → EReal) : SN.Idx → EReal :=
  fun i => scattered dst g i + h i

def readout (h : SN.Idx → EReal) : SB.Idx → EReal :=
  fun d => 0 + ∑ n : Fin 50000, h (ix2 n (d 0))

def combine (h agg : SN.Idx → EReal) (vwt : SW.Idx → EReal) (vb : SB.Idx → EReal) (awt : SW.Idx → EReal) (ab : SB.Idx → EReal)
    (r : SR.Idx → EReal) : SN.Idx → EReal :=
  fun i => max ((((∑ k : Fin 128, h (ix2 (i 0) k) * vwt (ix2 k (i 1))) + vb (ix1 (i 1)))
      + ((∑ k : Fin 128, agg (ix2 (i 0) k) * awt (ix2 k (i 1))) + ab (ix1 (i 1))))
      + r (ix2 0 (i 1))) 0

def readoutTerm (ro : SB.Idx → EReal) (rwt : SW.Idx → EReal) (rb : SB.Idx → EReal) : SR.Idx → EReal :=
  fun j => (∑ k : Fin 128, ro (ix1 k) * rwt (ix2 k (j 1))) + rb (ix1 (j 1))

def combineLeft (h agg : SN.Idx → EReal) (vwt : SW.Idx → EReal) (vb : SB.Idx → EReal) (awt : SW.Idx → EReal) (ab : SB.Idx → EReal)
    (ro : SB.Idx → EReal) (rwt : SW.Idx → EReal) (rb : SB.Idx → EReal) : SN.Idx → EReal :=
  fun i => max ((((((∑ k : Fin 128, h (ix2 (i 0) k) * vwt (ix2 k (i 1))) + vb (ix1 (i 1)))
      + (∑ k : Fin 128, agg (ix2 (i 0) k) * awt (ix2 k (i 1)))) + ab (ix1 (i 1)))
      + (∑ k : Fin 128, ro (ix1 k) * rwt (ix2 k (i 1)))) + rb (ix1 (i 1))) 0

theorem combineLeft_eq (h agg : SN.Idx → EReal) (vwt : SW.Idx → EReal) (vb : SB.Idx → EReal) (awt : SW.Idx → EReal) (ab : SB.Idx → EReal)
    (ro : SB.Idx → EReal) (rwt : SW.Idx → EReal) (rb : SB.Idx → EReal) :
    combineLeft h agg vwt vb awt ab ro rwt rb = combine h agg vwt vb awt ab (readoutTerm ro rwt rb) := by
  funext i
  unfold combineLeft combine readoutTerm
  have e : (ix2 (0 : Fin 1) (i 1) : SR.Idx) 1 = i 1 := rfl
  congr 1
  simp only [e, add_assoc]

def layer (src dst : SE.Idx → BitVec 32) (h : SN.Idx → EReal) (vwt : SW.Idx → EReal) (vb : SB.Idx → EReal) (awt : SW.Idx → EReal)
    (ab : SB.Idx → EReal) (rwt : SW.Idx → EReal) (rb : SB.Idx → EReal) : SN.Idx → EReal :=
  combine h (aggregated dst (gathered src h) h) vwt vb awt ab (readoutTerm (readout h) rwt rb)

abbrev SW3 : Shape := ⟨3, ![3, 128, 128]⟩
abbrev SB3 : Shape := ⟨2, ![3, 128]⟩
abbrev SOW : Shape := ⟨2, ![2, 128]⟩
abbrev SOB : Shape := ⟨1, ![2]⟩
abbrev SO : Shape := ⟨2, ![50000, 2]⟩

def matT (W : SW3.Idx → EReal) (l : Fin 3) : SW.Idx → EReal := fun j => W (ix3 l (j 1) (j 0))

def vecAt (B : SB3.Idx → EReal) (l : Fin 3) : SB.Idx → EReal := fun j => B (ix2 l (j 0))

def one : EReal := Ideal.ofBits .f32 0x3F800000#32

def logistic (z : EReal) : EReal := Ideal.div one (one + Ideal.exp (-z))

def head (h : SN.Idx → EReal) (ow : SOW.Idx → EReal) (ob : SOB.Idx → EReal) : SO.Idx → EReal :=
  fun i => logistic ((∑ k : Fin 128, h (ix2 (i 0) k) * ow (ix2 (i 1) k)) + ob (ix1 (i 1)))

def layerAt (src dst : SE.Idx → BitVec 32) (Vw : SW3.Idx → EReal) (Vb : SB3.Idx → EReal) (Aw : SW3.Idx → EReal) (Ab : SB3.Idx → EReal)
    (Rw : SW3.Idx → EReal) (Rb : SB3.Idx → EReal) (l : Fin 3) (h : SN.Idx → EReal) : SN.Idx → EReal :=
  layer src dst h (matT Vw l) (vecAt Vb l) (matT Aw l) (vecAt Ab l) (matT Rw l) (vecAt Rb l)

def net (x : SN.Idx → EReal) (src dst : SE.Idx → BitVec 32) (Vw : SW3.Idx → EReal) (Vb : SB3.Idx → EReal) (Aw : SW3.Idx → EReal)
    (Ab : SB3.Idx → EReal) (Rw : SW3.Idx → EReal) (Rb : SB3.Idx → EReal) (ow : SOW.Idx → EReal) (ob : SOB.Idx → EReal) : SO.Idx → EReal :=
  head (layerAt src dst Vw Vb Aw Ab Rw Rb 2 (layerAt src dst Vw Vb Aw Ab Rw Rb 1 (layerAt src dst Vw Vb Aw Ab Rw Rb 0 x))) ow ob

end Cert.Spec

end
-- ==== Proof.KI.NetVal.lean ====
import proofs.«415291_j87935160418912_3_alg».proof.Proof.KI.Frame
import proofs.«415291_j87935160418912_3_alg».proof.Proof.Spec
import Idealize.ShloMosaic.Lib.ValueIdx

noncomputable section

namespace Cert.KernelIdeal.Hand

open Cert.KernelIdeal Cert.KernelIdeal.Gen
open Idealize.ShloMosaic Idealize.ShloMosaic.TcCoe

theorem slice_of_transposed (A T : Cert.Spec.SW3.Idx → EReal)
    (hT : T = fun j => A (ValueIdx.ix3 (j 0) (j 2) (j 1))) (l : Fin 3) (S : Cert.Spec.SW.Idx → EReal)
    (hS : S = fun j => T (ValueIdx.ix3 l (j 0) (j 1))) : S = Cert.Spec.matT A l := by
  rw [hS, hT]
  funext j
  rfl

theorem layer_of_parts (src dst : Cert.Spec.SE.Idx → BitVec 32) (h : Cert.Spec.SN.Idx → EReal)
    (Vw : Cert.Spec.SW3.Idx → EReal) (Vb : Cert.Spec.SB3.Idx → EReal) (Aw : Cert.Spec.SW3.Idx → EReal)
    (Ab : Cert.Spec.SB3.Idx → EReal) (Rw : Cert.Spec.SW3.Idx → EReal) (Rb : Cert.Spec.SB3.Idx → EReal) (l : Fin 3)
    (g : Cert.Spec.SG.Idx → EReal) (r : Cert.Spec.SR.Idx → EReal) (vw : Cert.Spec.SW.Idx → EReal)
    (vb : Cert.Spec.SB.Idx → EReal) (aw : Cert.Spec.SW.Idx → EReal) (ab : Cert.Spec.SB.Idx → EReal)
    (out : Cert.Spec.SN.Idx → EReal)
    (hg : g = Cert.Spec.gathered src h)
    (hr : r = Cert.Spec.readoutTerm (Cert.Spec.readout h) (Cert.Spec.matT Rw l) (Cert.Spec.vecAt Rb l))
    (hvw : vw = Cert.Spec.matT Vw l) (hvb : vb = Cert.Spec.vecAt Vb l)
    (haw : aw = Cert.Spec.matT Aw l) (hab : ab = Cert.Spec.vecAt Ab l)
    (hout : out = Cert.Spec.combine h (Cert.Spec.aggregated dst g h) vw vb aw ab r) :
    out = Cert.Spec.layerAt src dst Vw Vb Aw Ab Rw Rb l h := by
  rw [hout, hg, hr, hvw, hvb, haw, hab]
  rfl

theorem net_of_layers (x : Cert.Spec.SN.Idx → EReal) (src dst : Cert.Spec.SE.Idx → BitVec 32)
    (Vw : Cert.Spec.SW3.Idx → EReal) (Vb : Cert.Spec.SB3.Idx → EReal) (Aw : Cert.Spec.SW3.Idx → EReal)
    (Ab : Cert.Spec.SB3.Idx → EReal) (Rw : Cert.Spec.SW3.Idx → EReal) (Rb : Cert.Spec.SB3.Idx → EReal)
    (ow : Cert.Spec.SOW.Idx → EReal) (ob : Cert.Spec.SOB.Idx → EReal)
    (y0 y1 y2 : Cert.Spec.SN.Idx → EReal) (o : Cert.Spec.SO.Idx → EReal)
    (h0 : y0 = Cert.Spec.layerAt src dst Vw Vb Aw Ab Rw Rb 0 x)
    (h1 : y1 = Cert.Spec.layerAt src dst Vw Vb Aw Ab Rw Rb 1 y0)
    (h2 : y2 = Cert.Spec.layerAt src dst Vw Vb Aw Ab Rw Rb 2 y1)
    (ho : o = Cert.Spec.head y2 ow ob) :
    o = Cert.Spec.net x src dst Vw Vb Aw Ab Rw Rb ow ob := by
  rw [ho, h2, h1, h0]
  rfl

section carried

variable (m : (ℓ : Loc nD τ sig) → Buf (Elt Ideal) ℓ) (ρ : Dev nD → PrngReg) (c : Dev nD)

theorem keep1 (b : Ref sig .tc) (h : b ∉ hostOps0_W) : W1 m ρ c (Proc.devRef .tc b) = W0 m ρ c (Proc.devRef .tc b) :=
  StableHlo.after_of_writes_sub hostOps0 _ hostOps0_writes h
theorem keep2 (b : Ref sig .tc) (h : b ≠ Pipeline.arrRef spec0 2) : W2 m ρ c (Proc.devRef .tc b) = W1 m ρ c (Proc.devRef .tc b) :=
  W2_keep m ρ c b h
theorem keep3 (b : Ref sig .tc) (h : b ∉ hostOps1_W) : W3 m ρ c (Proc.devRef .tc b) = W2 m ρ c (Proc.devRef .tc b) :=
  StableHlo.after_of_writes_sub hostOps1 _ hostOps1_writes h
theorem keep4 (b : Ref sig .tc) (h : b ≠ Pipeline.arrRef spec1 8) : W4 m ρ c (Proc.devRef .tc b) = W3 m ρ c (Proc.devRef .tc b) :=
  W4_keep m ρ c b h
theorem keep5 (b : Ref sig .tc) (h : b ∉ hostOps2_W) : W5 m ρ c (Proc.devRef .tc b) = W4 m ρ c (Proc.devRef .tc b) :=
  StableHlo.after_of_writes_sub hostOps2 _ hostOps2_writes h
theorem keep6 (b : Ref sig .tc) (h : b ≠ Pipeline.arrRef spec2 2) : W6 m ρ c (Proc.devRef .tc b) = W5 m ρ c (Proc.devRef .tc b) :=
  W6_keep m ρ c b h
theorem keep7 (b : Ref sig .tc) (h : b ∉ hostOps3_W) : W7 m ρ c (Proc.devRef .tc b) = W6 m ρ c (Proc.devRef .tc b) :=
  StableHlo.after_of_writes_sub hostOps3 _ hostOps3_writes h
theorem keep8 (b : Ref sig .tc) (h : b ≠ Pipeline.arrRef spec3 8) : W8 m ρ c (Proc.devRef .tc b) = W7 m ρ c (Proc.devRef .tc b) :=
  W8_keep m ρ c b h
theorem keep9 (b : Ref sig .tc) (h : b ∉ hostOps4_W) : W9 m ρ c (Proc.devRef .tc b) = W8 m ρ c (Proc.devRef .tc b) :=
  StableHlo.after_of_writes_sub hostOps4 _ hostOps4_writes h
theorem keep10 (b : Ref sig .tc) (h : b ≠ Pipeline.arrRef spec4 2) : W10 m ρ c (Proc.devRef .tc b) = W9 m ρ c (Proc.devRef .tc b) :=
  W10_keep m ρ c b h
theorem keep11 (b : Ref sig .tc) (h : b ∉ hostOps5_W) : W11 m ρ c (Proc.devRef .tc b) = W10 m ρ c (Proc.devRef .tc b) :=
  StableHlo.after_of_writes_sub hostOps5 _ hostOps5_writes h
theorem keep12 (b : Ref sig .tc) (h : b ≠ Pipeline.arrRef spec5 8) : W12 m ρ c (Proc.devRef .tc b) = W11 m ρ c (Proc.devRef .tc b) :=
  W12_keep m ρ c b h

abbrev argRefs : List (Ref sig .tc) :=
  [main_arg0, main_arg1, main_arg2, main_arg3, main_arg4, main_arg5, main_arg6, main_arg7, main_arg8, main_arg9, main_arg10]

theorem arg_free1 : ∀ b ∈ argRefs, b ∉ hostOps0_W := by decide
theorem arg_free2 : ∀ b ∈ argRefs, b ≠ Pipeline.arrRef spec0 2 := by decide
theorem arg_free3 : ∀ b ∈ argRefs, b ∉ hostOps1_W := by decide
theorem arg_free4 : ∀ b ∈ argRefs, b ≠ Pipeline.arrRef spec1 8 := by decide
theorem arg_free5 : ∀ b ∈ argRefs, b ∉ hostOps2_W := by decide
theorem arg_free6 : ∀ b ∈ argRefs, b ≠ Pipeline.arrRef spec2 2 := by decide
theorem arg_free7 : ∀ b ∈ argRefs, b ∉ hostOps3_W := by decide
theorem arg_free8 : ∀ b ∈ argRefs, b ≠ Pipeline.arrRef spec3 8 := by decide
theorem arg_free9 : ∀ b ∈ argRefs, b ∉ hostOps4_W := by decide
theorem arg_free10 : ∀ b ∈ argRefs, b ≠ Pipeline.arrRef spec4 2 := by decide
theorem arg_free11 : ∀ b ∈ argRefs, b ∉ hostOps5_W := by decide
theorem arg_free12 : ∀ b ∈ argRefs, b ≠ Pipeline.arrRef spec5 8 := by decide

theorem W1_arg (b : Ref sig .tc) (hb : b ∈ argRefs) : W1 m ρ c (Proc.devRef .tc b) = m ((c.tc : Thread nD τ).loc b) :=
  (keep1 m ρ c b (arg_free1 b hb)).trans rfl
theorem W2_arg (b : Ref sig .tc) (hb : b ∈ argRefs) : W2 m ρ c (Proc.devRef .tc b) = m ((c.tc : Thread nD τ).loc b) :=
  (keep2 m ρ c b (arg_free2 b hb)).trans (W1_arg m ρ c b hb)
theorem W3_arg (b : Ref sig .tc) (hb : b ∈ argRefs) : W3 m ρ c (Proc.devRef .tc b) = m ((c.tc : Thread nD τ).loc b) :=
  (keep3 m ρ c b (arg_free3 b hb)).trans (W2_arg m ρ c b hb)
theorem W4_arg (b : Ref sig .tc) (hb : b ∈ argRefs) : W4 m ρ c (Proc.devRef .tc b) = m ((c.tc : Thread nD τ).loc b) :=
  (keep4 m ρ c b (arg_free4 b hb)).trans (W3_arg m ρ c b hb)
theorem W5_arg (b : Ref sig .tc) (hb : b ∈ argRefs) : W5 m ρ c (Proc.devRef .tc b) = m ((c.tc : Thread nD τ).loc b) :=
  (keep5 m ρ c b (arg_free5 b hb)).trans (W4_arg m ρ c b hb)
theorem W6_arg (b : Ref sig .tc) (hb : b ∈ argRefs) : W6 m ρ c (Proc.devRef .tc b) = m ((c.tc : Thread nD τ).loc b) :=
  (keep6 m ρ c b (arg_free6 b hb)).trans (W5_arg m ρ c b hb)
theorem W7_arg (b : Ref sig .tc) (hb : b ∈ argRefs) : W7 m ρ c (Proc.devRef .tc b) = m ((c.tc : Thread nD τ).loc b) :=
  (keep7 m ρ c b (arg_free7 b hb)).trans (W6_arg m ρ c b hb)
theorem W8_arg (b : Ref sig .tc) (hb : b ∈ argRefs) : W8 m ρ c (Proc.devRef .tc b) = m ((c.tc : Thread nD τ).loc b) :=
  (keep8 m ρ c b (arg_free8 b hb)).trans (W7_arg m ρ c b hb)
theorem W9_arg (b : Ref sig .tc) (hb : b ∈ argRefs) : W9 m ρ c (Proc.devRef .tc b) = m ((c.tc : Thread nD τ).loc b) :=
  (keep9 m ρ c b (arg_free9 b hb)).trans (W8_arg m ρ c b hb)
theorem W10_arg (b : Ref sig .tc) (hb : b ∈ argRefs) : W10 m ρ c (Proc.devRef .tc b) = m ((c.tc : Thread nD τ).loc b) :=
  (keep10 m ρ c b (arg_free10 b hb)).trans (W9_arg m ρ c b hb)
theorem W11_arg (b : Ref sig .tc) (hb : b ∈ argRefs) : W11 m ρ c (Proc.devRef .tc b) = m ((c.tc : Thread nD τ).loc b) :=
  (keep11 m ρ c b (arg_free11 b hb)).trans (W10_arg m ρ c b hb)
theorem W12_arg (b : Ref sig .tc) (hb : b ∈ argRefs) : W12 m ρ c (Proc.devRef .tc b) = m ((c.tc : Thread nD τ).loc b) :=
  (keep12 m ρ c b (arg_free12 b hb)).trans (W11_arg m ρ c b hb)

theorem W1_arg1 : (V1 m ρ c (Pipeline.arrRef spec0 0) : Cert.Spec.SE.Idx → BitVec 32) = m ((c.tc : Thread nD τ).loc main_arg1) :=
  W1_arg m ρ c main_arg1 (by decide)
theorem W5_arg1 : (V5 m ρ c (Pipeline.arrRef spec2 0) : Cert.Spec.SE.Idx → BitVec 32) = m ((c.tc : Thread nD τ).loc main_arg1) :=
  W5_arg m ρ c main_arg1 (by decide)
theorem W9_arg1 : (V9 m ρ c (Pipeline.arrRef spec4 0) : Cert.Spec.SE.Idx → BitVec 32) = m ((c.tc : Thread nD τ).loc main_arg1) :=
  W9_arg m ρ c main_arg1 (by decide)

theorem stack_at2 (b : Ref sig .tc) (h2 : b ≠ Pipeline.arrRef spec0 2) :
    W2 m ρ c (Proc.devRef .tc b) = W1 m ρ c (Proc.devRef .tc b) := keep2 m ρ c b h2
theorem stack_at6 (b : Ref sig .tc) (h2 : b ≠ Pipeline.arrRef spec0 2) (h3 : b ∉ hostOps1_W) (h4 : b ≠ Pipeline.arrRef spec1 8)
    (h5 : b ∉ hostOps2_W) (h6 : b ≠ Pipeline.arrRef spec2 2) :
    W6 m ρ c (Proc.devRef .tc b) = W1 m ρ c (Proc.devRef .tc b) :=
  (keep6 m ρ c b h6).trans <| (keep5 m ρ c b h5).trans <| (keep4 m ρ c b h4).trans <| (keep3 m ρ c b h3).trans (keep2 m ρ c b h2)
theorem stack_at10 (b : Ref sig .tc) (h2 : b ≠ Pipeline.arrRef spec0 2) (h3 : b ∉ hostOps1_W) (h4 : b ≠ Pipeline.arrRef spec1 8)
    (h5 : b ∉ hostOps2_W) (h6 : b ≠ Pipeline.arrRef spec2 2) (h7 : b ∉ hostOps3_W) (h8 : b ≠ Pipeline.arrRef spec3 8)
    (h9 : b ∉ hostOps4_W) (h10 : b ≠ Pipeline.arrRef spec4 2) :
    W10 m ρ c (Proc.devRef .tc b) = W1 m ρ c (Proc.devRef .tc b) :=
  (keep10 m ρ c b h10).trans <| (keep9 m ρ c b h9).trans <| (keep8 m ρ c b h8).trans <| (keep7 m ρ c b h7).trans
    (stack_at6 m ρ c b h2 h3 h4 h5 h6)

end carried

theorem net_of_steps (m : (ℓ : Loc nD τ sig) → Buf (Elt Ideal) ℓ) (ρ : Dev nD → PrngReg) (c : Dev nD)
    (h0v0 : (W1 m ρ c main_v0 : Cert.Spec.SW3.Idx → EReal) = fun j => (W0 m ρ c main_arg3 : Cert.Spec.SW3.Idx → EReal) (ValueIdx.ix3 (j 0) (j 2) (j 1)))
    (h0v1 : (W1 m ρ c main_v1 : Cert.Spec.SW3.Idx → EReal) = fun j => (W0 m ρ c main_arg5 : Cert.Spec.SW3.Idx → EReal) (ValueIdx.ix3 (j 0) (j 2) (j 1)))
    (h0v2 : (W1 m ρ c main_v2 : Cert.Spec.SN.Idx → EReal) = (W0 m ρ c main_arg0 : Cert.Spec.SN.Idx → EReal))
    (hg0 : (W2 m ρ c main_v3 : Cert.Spec.SG.Idx → EReal) = Cert.Spec.gathered (W1 m ρ c main_arg1) (W1 m ρ c main_v2 : Cert.Spec.SN.Idx → EReal))
    (h1r : (W3 m ρ c main_v13 : Cert.Spec.SR.Idx → EReal) = Cert.Spec.readoutTerm (Cert.Spec.readout (W2 m ρ c main_arg0 : Cert.Spec.SN.Idx → EReal)) (Cert.Spec.matT (W2 m ρ c main_arg7 : Cert.Spec.SW3.Idx → EReal) 0) (Cert.Spec.vecAt (W2 m ρ c main_arg8 : Cert.Spec.SB3.Idx → EReal) 0))
    (h1vw : (W3 m ρ c main_v15 : Cert.Spec.SW.Idx → EReal) = fun j => (W2 m ρ c main_v0 : Cert.Spec.SW3.Idx → EReal) (ValueIdx.ix3 0 (j 0) (j 1)))
    (h1vb : (W3 m ρ c main_v17 : Cert.Spec.SB.Idx → EReal) = Cert.Spec.vecAt (W2 m ρ c main_arg4 : Cert.Spec.SB3.Idx → EReal) 0)
    (h1aw : (W3 m ρ c main_v19 : Cert.Spec.SW.Idx → EReal) = fun j => (W2 m ρ c main_v1 : Cert.Spec.SW3.Idx → EReal) (ValueIdx.ix3 0 (j 0) (j 1)))
    (h1ab : (W3 m ρ c main_v21 : Cert.Spec.SB.Idx → EReal) = Cert.Spec.vecAt (W2 m ρ c main_arg6 : Cert.Spec.SB3.Idx → EReal) 0)
    (hs1 : (W4 m ρ c main_v22 : Cert.Spec.SN.Idx → EReal) = Cert.Spec.combine (W3 m ρ c main_arg0 : Cert.Spec.SN.Idx → EReal) (Cert.Spec.aggregated (W3 m ρ c main_arg2) (W3 m ρ c main_v3 : Cert.Spec.SG.Idx → EReal) (W3 m ρ c main_arg0 : Cert.Spec.SN.Idx → EReal)) (W3 m ρ c main_v15 : Cert.Spec.SW.Idx → EReal) (W3 m ρ c main_v17 : Cert.Spec.SB.Idx → EReal) (W3 m ρ c main_v19 : Cert.Spec.SW.Idx → EReal) (W3 m ρ c main_v21 : Cert.Spec.SB.Idx → EReal) (W3 m ρ c main_v13 : Cert.Spec.SR.Idx → EReal))
    (h2c : (W5 m ρ c main_v23 : Cert.Spec.SN.Idx → EReal) = (W4 m ρ c main_v22 : Cert.Spec.SN.Idx → EReal))
    (hg2 : (W6 m ρ c main_v24 : Cert.Spec.SG.Idx → EReal) = Cert.Spec.gathered (W5 m ρ c main_arg1) (W5 m ρ c main_v23 : Cert.Spec.SN.Idx → EReal))
    (h3r : (W7 m ρ c main_v34 : Cert.Spec.SR.Idx → EReal) = Cert.Spec.readoutTerm (Cert.Spec.readout (W6 m ρ c main_v22 : Cert.Spec.SN.Idx → EReal)) (Cert.Spec.matT (W6 m ρ c main_arg7 : Cert.Spec.SW3.Idx → EReal) 1) (Cert.Spec.vecAt (W6 m ρ c main_arg8 : Cert.Spec.SB3.Idx → EReal) 1))
    (h3vw : (W7 m ρ c main_v36 : Cert.Spec.SW.Idx → EReal) = fun j => (W6 m ρ c main_v0 : Cert.Spec.SW3.Idx → EReal) (ValueIdx.ix3 1 (j 0) (j 1)))
    (h3vb : (W7 m ρ c main_v38 : Cert.Spec.SB.Idx → EReal) = Cert.Spec.vecAt (W6 m ρ c main_arg4 : Cert.Spec.SB3.Idx → EReal) 1)
    (h3aw : (W7 m ρ c main_v40 : Cert.Spec.SW.Idx → EReal) = fun j => (W6 m ρ c main_v1 : Cert.Spec.SW3.Idx → EReal) (ValueIdx.ix3 1 (j 0) (j 1)))
    (h3ab : (W7 m ρ c main_v42 : Cert.Spec.SB.Idx → EReal) = Cert.Spec.vecAt (W6 m ρ c main_arg6 : Cert.Spec.SB3.Idx → EReal) 1)
    (hs3 : (W8 m ρ c main_v43 : Cert.Spec.SN.Idx → EReal) = Cert.Spec.combine (W7 m ρ c main_v22 : Cert.Spec.SN.Idx → EReal) (Cert.Spec.aggregated (W7 m ρ c main_arg2) (W7 m ρ c main_v24 : Cert.Spec.SG.Idx → EReal) (W7 m ρ c main_v22 : Cert.Spec.SN.Idx → EReal)) (W7 m ρ c main_v36 : Cert.Spec.SW.Idx → EReal) (W7 m ρ c main_v38 : Cert.Spec.SB.Idx → EReal) (W7 m ρ c main_v40 : Cert.Spec.SW.Idx → EReal) (W7 m ρ c main_v42 : Cert.Spec.SB.Idx → EReal) (W7 m ρ c main_v34 : Cert.Spec.SR.Idx → EReal))
    (h4c : (W9 m ρ c main_v44 : Cert.Spec.SN.Idx → EReal) = (W8 m ρ c main_v43 : Cert.Spec.SN.Idx → EReal))
    (hg4 : (W10 m ρ c main_v45 : Cert.Spec.SG.Idx → EReal) = Cert.Spec.gathered (W9 m ρ c main_arg1) (W9 m ρ c main_v44 : Cert.Spec.SN.Idx → EReal))
    (h5r : (W11 m ρ c main_v55 : Cert.Spec.SR.Idx → EReal) = Cert.Spec.readoutTerm (Cert.Spec.readout (W10 m ρ c main_v43 : Cert.Spec.SN.Idx → EReal)) (Cert.Spec.matT (W10 m ρ c main_arg7 : Cert.Spec.SW3.Idx → EReal) 2) (Cert.Spec.vecAt (W10 m ρ c main_arg8 : Cert.Spec.SB3.Idx → EReal) 2))
    (h5vw : (W11 m ρ c main_v57 : Cert.Spec.SW.Idx → EReal) = fun j => (W10 m ρ c main_v0 : Cert.Spec.SW3.Idx → EReal) (ValueIdx.ix3 2 (j 0) (j 1)))
    (h5vb : (W11 m ρ c main_v59 : Cert.Spec.SB.Idx → EReal) = Cert.Spec.vecAt (W10 m ρ c main_arg4 : Cert.Spec.SB3.Idx → EReal) 2)
    (h5aw : (W11 m ρ c main_v61 : Cert.Spec.SW.Idx → EReal) = fun j => (W10 m ρ c main_v1 : Cert.Spec.SW3.Idx → EReal) (ValueIdx.ix3 2 (j 0) (j 1)))
    (h5ab : (W11 m ρ c main_v63 : Cert.Spec.SB.Idx → EReal) = Cert.Spec.vecAt (W10 m ρ c main_arg6 : Cert.Spec.SB3.Idx → EReal) 2)
    (hs5 : (W12 m ρ c main_v64 : Cert.Spec.SN.Idx → EReal) = Cert.Spec.combine (W11 m ρ c main_v43 : Cert.Spec.SN.Idx → EReal) (Cert.Spec.aggregated (W11 m ρ c main_arg2) (W11 m ρ c main_v45 : Cert.Spec.SG.Idx → EReal) (W11 m ρ c main_v43 : Cert.Spec.SN.Idx → EReal)) (W11 m ρ c main_v57 : Cert.Spec.SW.Idx → EReal) (W11 m ρ c main_v59 : Cert.Spec.SB.Idx → EReal) (W11 m ρ c main_v61 : Cert.Spec.SW.Idx → EReal) (W11 m ρ c main_v63 : Cert.Spec.SB.Idx → EReal) (W11 m ρ c main_v55 : Cert.Spec.SR.Idx → EReal))
    (h6 : (W13 m ρ c main_v75 : Cert.Spec.SO.Idx → EReal) = Cert.Spec.head (W12 m ρ c main_v64 : Cert.Spec.SN.Idx → EReal) (W12 m ρ c main_arg9 : Cert.Spec.SOW.Idx → EReal) (W12 m ρ c main_arg10 : Cert.Spec.SOB.Idx → EReal)) :
    (W13 m ρ c main_v75 : Cert.Spec.SO.Idx → EReal) = Cert.Spec.net (m ((c.tc : Thread nD τ).loc main_arg0) : Cert.Spec.SN.Idx → EReal) (m ((c.tc : Thread nD τ).loc main_arg1) : Cert.Spec.SE.Idx → BitVec 32) (m ((c.tc : Thread nD τ).loc main_arg2) : Cert.Spec.SE.Idx → BitVec 32) (m ((c.tc : Thread nD τ).loc main_arg3) : Cert.Spec.SW3.Idx → EReal) (m ((c.tc : Thread nD τ).loc main_arg4) : Cert.Spec.SB3.Idx → EReal) (m ((c.tc : Thread nD τ).loc main_arg5) : Cert.Spec.SW3.Idx → EReal) (m ((c.tc : Thread nD τ).loc main_arg6) : Cert.Spec.SB3.Idx → EReal) (m ((c.tc : Thread nD τ).loc main_arg7) : Cert.Spec.SW3.Idx → EReal) (m ((c.tc : Thread nD τ).loc main_arg8) : Cert.Spec.SB3.Idx → EReal) (m ((c.tc : Thread nD τ).loc main_arg9) : Cert.Spec.SOW.Idx → EReal) (m ((c.tc : Thread nD τ).loc main_arg10) : Cert.Spec.SOB.Idx → EReal) := by

  rw [W1_arg m ρ c main_arg1 (by decide), h0v2] at hg0
  rw [W2_arg m ρ c main_arg0 (by decide), W2_arg m ρ c main_arg7 (by decide), W2_arg m ρ c main_arg8 (by decide)] at h1r
  rw [W2_arg m ρ c main_arg4 (by decide)] at h1vb
  rw [W2_arg m ρ c main_arg6 (by decide)] at h1ab
  rw [stack_at2 m ρ c main_v0 (by decide)] at h1vw
  rw [stack_at2 m ρ c main_v1 (by decide)] at h1aw
  rw [W3_arg m ρ c main_arg0 (by decide), W3_arg m ρ c main_arg2 (by decide), keep3 m ρ c main_v3 (by decide)] at hs1
  have L0 := layer_of_parts _ _ _ _ _ _ _ _ _ 0 _ _ _ _ _ _ _ hg0 h1r (slice_of_transposed _ _ h0v0 0 _ h1vw) h1vb
    (slice_of_transposed _ _ h0v1 0 _ h1aw) h1ab hs1

  have v22_6 : W6 m ρ c (Proc.devRef .tc main_v22) = W4 m ρ c (Proc.devRef .tc main_v22) :=
    (keep6 m ρ c main_v22 (by decide)).trans (keep5 m ρ c main_v22 (by decide))
  have v22_7 : W7 m ρ c (Proc.devRef .tc main_v22) = W4 m ρ c (Proc.devRef .tc main_v22) :=
    (keep7 m ρ c main_v22 (by decide)).trans v22_6
  rw [W5_arg m ρ c main_arg1 (by decide), h2c] at hg2
  rw [v22_6, W6_arg m ρ c main_arg7 (by decide), W6_arg m ρ c main_arg8 (by decide)] at h3r
  rw [W6_arg m ρ c main_arg4 (by decide)] at h3vb
  rw [W6_arg m ρ c main_arg6 (by decide)] at h3ab
  rw [stack_at6 m ρ c main_v0 (by decide) (by decide) (by decide) (by decide) (by decide)] at h3vw
  rw [stack_at6 m ρ c main_v1 (by decide) (by decide) (by decide) (by decide) (by decide)] at h3aw
  rw [v22_7, W7_arg m ρ c main_arg2 (by decide), keep7 m ρ c main_v24 (by decide)] at hs3
  have L1 := layer_of_parts _ _ _ _ _ _ _ _ _ 1 _ _ _ _ _ _ _ hg2 h3r (slice_of_transposed _ _ h0v0 1 _ h3vw) h3vb
    (slice_of_transposed _ _ h0v1 1 _ h3aw) h3ab hs3

  have v43_10 : W10 m ρ c (Proc.devRef .tc main_v43) = W8 m ρ c (Proc.devRef .tc main_v43) :=
    (keep10 m ρ c main_v43 (by decide)).trans (keep9 m ρ c main_v43 (by decide))
  have v43_11 : W11 m ρ c (Proc.devRef .tc main_v43) = W8 m ρ c (Proc.devRef .tc main_v43) :=
    (keep11 m ρ c main_v43 (by decide)).trans v43_10
  rw [W9_arg m ρ c main_arg1 (by decide), h4c] at hg4
  rw [v43_10, W10_arg m ρ c main_arg7 (by decide), W10_arg m ρ c main_arg8 (by decide)] at h5r
  rw [W10_arg m ρ c main_arg4 (by decide)] at h5vb
  rw [W10_arg m ρ c main_arg6 (by decide)] at h5ab
  rw [stack_at10 m ρ c main_v0 (by decide) (by decide) (by decide) (by decide) (by decide) (by decide) (by decide) (by decide) (by decide)] at h5vw
  rw [stack_at10 m ρ c main_v1 (by decide) (by decide) (by decide) (by decide) (by decide) (by decide) (by decide) (by decide) (by decide)] at h5aw
  rw [v43_11, W11_arg m ρ c main_arg2 (by decide), keep11 m ρ c main_v45 (by decide)] at hs5
  have L2 := layer_of_parts _ _ _ _ _ _ _ _ _ 2 _ _ _ _ _ _ _ hg4 h5r (slice_of_transposed _ _ h0v0 2 _ h5vw) h5vb
    (slice_of_transposed _ _ h0v1 2 _ h5aw) h5ab hs5

  rw [W12_arg m ρ c main_arg9 (by decide), W12_arg m ρ c main_arg10 (by decide)] at h6
  exact net_of_layers _ _ _ _ _ _ _ _ _ _ _ _ _ _ _ L0 L1 L2 h6

end Cert.KernelIdeal.Hand

end
-- ==== Proof.KI.Host.lean ====
import proofs.«415291_j87935160418912_3_alg».proof.Proof.Gen.KernelIdeal.Launch
import proofs.«415291_j87935160418912_3_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.Hand

open Cert.KernelIdeal Cert.KernelIdeal.Gen Idealize.ShloMosaic Idealize.ShloMosaic.TcCoe
open Idealize.ShloMosaic.ValueIdx

theorem tr021_eq (X : FVec Ideal S3x128x128 .f32) :
    transpose S3x128x128 [0, 2, 1] X transposes_S3x128x128_S3x128x128_0_2_1 = fun j => X (ix3 (j 0) (j 2) (j 1)) := by
  funext j
  obtain ⟨a, b, c, rfl⟩ : ∃ (a : Fin 3) (b : Fin 128) (c : Fin 128), j = ix3 a b c := ⟨j 0, j 1, j 2, eq_ix3 j⟩
  exact transpose_ix3_021_apply _ _ a b c

theorem matSlice_apply (o : Nat) (l : Fin 3) (hl : l.val = o) (X : FVec Ideal S3x128x128 .f32)
    (hs : S3x128x128.Slices ![o, 0, 0] S1x128x128) (p q : Fin 128) :
    shapeCast S128x128 (extractStridedSlice S1x128x128 ![o, 0, 0] X hs) shapeCasts_S1x128x128_S128x128 (ix2 p q)
      = X (ix3 l p q) := by
  refine (shapeCast_1ab_ab_apply _ _ p q).trans ?_
  exact extractStridedSlice_apply ![o, 0, 0] X hs (ix3 (0 : Fin 1) p q) (ix3 l p q) (fun a => match a with
    | ⟨0, _⟩ => by show l.val = o + 0; omega
    | ⟨1, _⟩ => by show p.val = 0 + p.val; omega
    | ⟨2, _⟩ => by show q.val = 0 + q.val; omega)

theorem vecSlice_apply (o : Nat) (l : Fin 3) (hl : l.val = o) (B : FVec Ideal S3x128 .f32)
    (hb : S3x128.Slices ![o, 0] S1x128) (q : Fin 128) :
    shapeCast S128 (extractStridedSlice S1x128 ![o, 0] B hb) shapeCasts_S1x128_S128 (ix1 q) = B (ix2 l q) := by
  refine (shapeCast_1a_a_apply _ _ q).trans ?_
  exact slice2_axis0_apply o B hb (0 : Fin 1) q l (by show l.val = o + 0; omega)

theorem rowBcast_apply (v : FVec Ideal S128 .f32) (u : Fin 1) (q : Fin 128) :
    broadcastInDim S1x128 ![1] bcast_S128_S1x128_1 v (ix2 u q) = v (ix1 q) :=
  broadcastInDim_apply _ bcast_S128_S1x128_1 v (ix2 u q) (ix1 q) (fun a => match a with
    | ⟨0, _⟩ => by show q.val = if (128 : Nat) = 1 then 0 else q.val; rw [if_neg (by decide)])

theorem colSum_apply (h : FVec Ideal S50000x128 .f32) (k : Fin 128) :
    Host.reduceAdd (F := Ideal) h (constant (F := Ideal) S_ .f32 0x00000000#32) reducesTo_S50000x128_S128_d0 h_S_ (ix1 k)
      = 0 + ∑ n : Fin 50000, h (ix2 n k) := by
  rw [hostReduceAdd_apply, Ideal.hostReduceAdd_single reducesTo_S50000x128_S128_d0 (by decide), constant_apply, Ideal.ofBits_zero_f32]
  refine congrArg (_ + ·) (Finset.sum_congr rfl fun n _ => ?_)
  exact congrArg h (funext fun a => Fin.ext (by match a with | ⟨0, _⟩ => rfl | ⟨1, _⟩ => rfl))

theorem lhs_row_0 (i : S1x128.Idx) (q : dot_S1x128_S128x128_S1x128_1_0_0_1_n_n.contr.Idx) :
    (dot_S1x128_S128x128_S1x128_1_0_0_1_n_n.lhsIdx i q 0).val = (i 0).val := by
  unfold DotDims.lhsIdx
  rw [dif_neg (show ¬(0 : Fin S1x128.rank) ∈ dot_S1x128_S128x128_S1x128_1_0_0_1_n_n.lhsBatch by decide), dif_pos (show (0 : Fin S1x128.rank) ∈ dot_S1x128_S128x128_S1x128_1_0_0_1_n_n.lhsNonContracting by decide)]
  rfl
theorem lhs_row_1 (i : S1x128.Idx) (q : dot_S1x128_S128x128_S1x128_1_0_0_1_n_n.contr.Idx) :
    (dot_S1x128_S128x128_S1x128_1_0_0_1_n_n.lhsIdx i q 1).val = (q ⟨0, by decide⟩).val :=
  dot_S1x128_S128x128_S1x128_1_0_0_1_n_n.lhsIdx_val_of_single rfl i q
theorem rhs_row_0 (i : S1x128.Idx) (q : dot_S1x128_S128x128_S1x128_1_0_0_1_n_n.contr.Idx) :
    (dot_S1x128_S128x128_S1x128_1_0_0_1_n_n.rhsIdx i q 0).val = (q ⟨0, by decide⟩).val :=
  dot_S1x128_S128x128_S1x128_1_0_0_1_n_n.rhsIdx_val_of_single rfl i q
theorem rhs_row_1 (i : S1x128.Idx) (q : dot_S1x128_S128x128_S1x128_1_0_0_1_n_n.contr.Idx) :
    (dot_S1x128_S128x128_S1x128_1_0_0_1_n_n.rhsIdx i q 1).val = (i 1).val := by
  unfold DotDims.rhsIdx
  rw [dif_neg (show ¬(1 : Fin S128x128.rank) ∈ dot_S1x128_S128x128_S1x128_1_0_0_1_n_n.rhsBatch by decide), dif_pos (show (1 : Fin S128x128.rank) ∈ dot_S1x128_S128x128_S1x128_1_0_0_1_n_n.rhsNonContracting by decide)]
  rfl

theorem dotRow_apply (L : FVec Ideal S1x128 .f32) (R : FVec Ideal S128x128 .f32) (u : Fin 1) (q : Fin 128) :
    Host.dotGeneral (F := Ideal) dot_S1x128_S128x128_S1x128_1_0_0_1_n_n none L R (ix2 u q)
      = ∑ k : Fin 128, L (ix2 u k) * R (ix2 k q) := by
  simp only [Host.dotGeneral]
  rw [Ideal.dotGeneral_apply, ← Equiv.sum_comp (contrEquiv1 dot_S1x128_S128x128_S1x128_1_0_0_1_n_n 128 rfl rfl).symm]
  refine Finset.sum_congr rfl fun k _ => ?_
  have hk := contrEquiv1_symm_val dot_S1x128_S128x128_S1x128_1_0_0_1_n_n 128 rfl rfl k
  have el : dot_S1x128_S128x128_S1x128_1_0_0_1_n_n.lhsIdx (ix2 u q) ((contrEquiv1 dot_S1x128_S128x128_S1x128_1_0_0_1_n_n 128 rfl rfl).symm k) = ix2 u k := funext fun a => Fin.ext (by
    match a with
    | ⟨0, _⟩ => exact lhs_row_0 _ _
    | ⟨1, _⟩ => exact (lhs_row_1 _ _).trans hk)
  have er : dot_S1x128_S128x128_S1x128_1_0_0_1_n_n.rhsIdx (ix2 u q) ((contrEquiv1 dot_S1x128_S128x128_S1x128_1_0_0_1_n_n 128 rfl rfl).symm k) = ix2 k q := funext fun a => Fin.ext (by
    match a with
    | ⟨0, _⟩ => exact (rhs_row_0 _ _).trans hk
    | ⟨1, _⟩ => exact rhs_row_1 _ _)
  rw [el, er]

theorem lhs_head_0 (i : S50000x2.Idx) (q : dot_S50000x128_S128x2_S50000x2_1_0_0_1_n_n.contr.Idx) :
    (dot_S50000x128_S128x2_S50000x2_1_0_0_1_n_n.lhsIdx i q 0).val = (i 0).val := by
  unfold DotDims.lhsIdx
  rw [dif_neg (show ¬(0 : Fin S50000x128.rank) ∈ dot_S50000x128_S128x2_S50000x2_1_0_0_1_n_n.lhsBatch by decide), dif_pos (show (0 : Fin S50000x128.rank) ∈ dot_S50000x128_S128x2_S50000x2_1_0_0_1_n_n.lhsNonContracting by decide)]
  rfl
theorem lhs_head_1 (i : S50000x2.Idx) (q : dot_S50000x128_S128x2_S50000x2_1_0_0_1_n_n.contr.Idx) :
    (dot_S50000x128_S128x2_S50000x2_1_0_0_1_n_n.lhsIdx i q 1).val = (q ⟨0, by decide⟩).val :=
  dot_S50000x128_S128x2_S50000x2_1_0_0_1_n_n.lhsIdx_val_of_single rfl i q
theorem rhs_head_0 (i : S50000x2.Idx) (q : dot_S50000x128_S128x2_S50000x2_1_0_0_1_n_n.contr.Idx) :
    (dot_S50000x128_S128x2_S50000x2_1_0_0_1_n_n.rhsIdx i q 0).val = (q ⟨0, by decide⟩).val :=
  dot_S50000x128_S128x2_S50000x2_1_0_0_1_n_n.rhsIdx_val_of_single rfl i q
theorem rhs_head_1 (i : S50000x2.Idx) (q : dot_S50000x128_S128x2_S50000x2_1_0_0_1_n_n.contr.Idx) :
    (dot_S50000x128_S128x2_S50000x2_1_0_0_1_n_n.rhsIdx i q 1).val = (i 1).val := by
  unfold DotDims.rhsIdx
  rw [dif_neg (show ¬(1 : Fin S128x2.rank) ∈ dot_S50000x128_S128x2_S50000x2_1_0_0_1_n_n.rhsBatch by decide), dif_pos (show (1 : Fin S128x2.rank) ∈ dot_S50000x128_S128x2_S50000x2_1_0_0_1_n_n.rhsNonContracting by decide)]
  rfl

theorem dotHead_apply (L : FVec Ideal S50000x128 .f32) (R : FVec Ideal S128x2 .f32) (n : Fin 50000) (c : Fin 2) :
    Host.dotGeneral (F := Ideal) dot_S50000x128_S128x2_S50000x2_1_0_0_1_n_n none L R (ix2 n c)
      = ∑ k : Fin 128, L (ix2 n k) * R (ix2 k c) := by
  simp only [Host.dotGeneral]
  rw [Ideal.dotGeneral_apply, ← Equiv.sum_comp (contrEquiv1 dot_S50000x128_S128x2_S50000x2_1_0_0_1_n_n 128 rfl rfl).symm]
  refine Finset.sum_congr rfl fun k _ => ?_
  have hk := contrEquiv1_symm_val dot_S50000x128_S128x2_S50000x2_1_0_0_1_n_n 128 rfl rfl k
  have el : dot_S50000x128_S128x2_S50000x2_1_0_0_1_n_n.lhsIdx (ix2 n c) ((contrEquiv1 dot_S50000x128_S128x2_S50000x2_1_0_0_1_n_n 128 rfl rfl).symm k) = ix2 n k := funext fun a => Fin.ext (by
    match a with
    | ⟨0, _⟩ => exact lhs_head_0 _ _
    | ⟨1, _⟩ => exact (lhs_head_1 _ _).trans hk)
  have er : dot_S50000x128_S128x2_S50000x2_1_0_0_1_n_n.rhsIdx (ix2 n c) ((contrEquiv1 dot_S50000x128_S128x2_S50000x2_1_0_0_1_n_n 128 rfl rfl).symm k) = ix2 k c := funext fun a => Fin.ext (by
    match a with
    | ⟨0, _⟩ => exact (rhs_head_0 _ _).trans hk
    | ⟨1, _⟩ => exact rhs_head_1 _ _)
  rw [el, er]

def rowTermOps (o : Nat) (h : FVec Ideal S50000x128 .f32) (Rw : FVec Ideal S3x128x128 .f32) (Rb : FVec Ideal S3x128 .f32)
    (hs : S3x128x128.Slices ![o, 0, 0] S1x128x128) (hb : S3x128.Slices ![o, 0] S1x128) : FVec Ideal S1x128 .f32 :=
  addf
    (Host.dotGeneral (F := Ideal) dot_S1x128_S128x128_S1x128_1_0_0_1_n_n none
      (broadcastInDim S1x128 ![1] bcast_S128_S1x128_1
        (Host.reduceAdd (F := Ideal) h (constant (F := Ideal) S_ .f32 0x00000000#32) reducesTo_S50000x128_S128_d0 h_S_))
      (transpose S128x128 [1, 0]
        (shapeCast S128x128 (extractStridedSlice S1x128x128 ![o, 0, 0] Rw hs) shapeCasts_S1x128x128_S128x128)
        transposes_S128x128_S128x128_1_0))
    (broadcastInDim S1x128 ![1] bcast_S128_S1x128_1
      (shapeCast S128 (extractStridedSlice S1x128 ![o, 0] Rb hb) shapeCasts_S1x128_S128))

theorem rowTermOps_eq (o : Nat) (l : Fin 3) (hl : l.val = o) (h : FVec Ideal S50000x128 .f32) (Rw : FVec Ideal S3x128x128 .f32)
    (Rb : FVec Ideal S3x128 .f32) (hs : S3x128x128.Slices ![o, 0, 0] S1x128x128) (hb : S3x128.Slices ![o, 0] S1x128) :
    (rowTermOps o h Rw Rb hs hb : Cert.Spec.SR.Idx → EReal)
      = Cert.Spec.readoutTerm (Cert.Spec.readout h) (Cert.Spec.matT Rw l) (Cert.Spec.vecAt Rb l) := by
  funext j
  obtain ⟨u, q, rfl⟩ : ∃ (u : Fin 1) (q : Fin 128), j = ix2 u q := ⟨j 0, j 1, eq_ix2 j⟩
  unfold rowTermOps Cert.Spec.readoutTerm
  rw [addf_apply, dotRow_apply, rowBcast_apply, vecSlice_apply o l hl]
  refine congrArg₂ (· + ·) (Finset.sum_congr rfl fun k _ => ?_) rfl
  rw [rowBcast_apply, colSum_apply, transpose_ix2_apply, matSlice_apply o l hl]
  rfl

theorem matSlice_eq (o : Nat) (l : Fin 3) (hl : l.val = o) (X : FVec Ideal S3x128x128 .f32)
    (hs : S3x128x128.Slices ![o, 0, 0] S1x128x128) :
    (shapeCast S128x128 (extractStridedSlice S1x128x128 ![o, 0, 0] X hs) shapeCasts_S1x128x128_S128x128 : Cert.Spec.SW.Idx → EReal)
      = fun j => X (ix3 l (j 0) (j 1)) := by
  funext j
  obtain ⟨p, q, rfl⟩ : ∃ (p : Fin 128) (q : Fin 128), j = ix2 p q := ⟨j 0, j 1, eq_ix2 j⟩
  exact matSlice_apply o l hl X hs p q

theorem vecSlice_eq (o : Nat) (l : Fin 3) (hl : l.val = o) (B : FVec Ideal S3x128 .f32) (hb : S3x128.Slices ![o, 0] S1x128) :
    (shapeCast S128 (extractStridedSlice S1x128 ![o, 0] B hb) shapeCasts_S1x128_S128 : Cert.Spec.SB.Idx → EReal)
      = Cert.Spec.vecAt B l := by
  funext j
  obtain ⟨q, rfl⟩ : ∃ q : Fin 128, j = ix1 q := ⟨j 0, eq_ix1 j⟩
  exact vecSlice_apply o l hl B hb q

def headOps (h : FVec Ideal S50000x128 .f32) (ow : FVec Ideal S2x128 .f32) (ob : FVec Ideal S2 .f32) : FVec Ideal S50000x2 .f32 :=
  Host.divf (F := Ideal)
    (broadcastInDim S50000x2 ![] bcast_S_S50000x2 (constant (F := Ideal) S_ .f32 0x3F800000#32))
    (addf
      (broadcastInDim S50000x2 ![] bcast_S_S50000x2 (constant (F := Ideal) S_ .f32 0x3F800000#32))
      (Host.exp (F := Ideal) (Host.negf (F := Ideal) (addf
        (Host.dotGeneral (F := Ideal) dot_S50000x128_S128x2_S50000x2_1_0_0_1_n_n none h
          (transpose S128x2 [1, 0] ow transposes_S2x128_S128x2_1_0))
        (broadcastInDim S50000x2 ![0, 1] bcast_S1x2_S50000x2_0_1 (broadcastInDim S1x2 ![1] bcast_S2_S1x2_1 ob))))))

theorem headBias_apply (ob : FVec Ideal S2 .f32) (n : Fin 50000) (c : Fin 2) :
    broadcastInDim S50000x2 ![0, 1] bcast_S1x2_S50000x2_0_1 (broadcastInDim S1x2 ![1] bcast_S2_S1x2_1 ob) (ix2 n c) = ob (ix1 c) := by
  refine (broadcastInDim_apply _ bcast_S1x2_S50000x2_0_1 _ (ix2 n c) (ix2 (0 : Fin 1) c) (fun a => match a with
    | ⟨0, _⟩ => by show 0 = if (1 : Nat) = 1 then 0 else n.val; rw [if_pos rfl]
    | ⟨1, _⟩ => by show c.val = if (2 : Nat) = 1 then 0 else c.val; rw [if_neg (by decide)])).trans ?_
  exact broadcastInDim_apply _ bcast_S2_S1x2_1 ob (ix2 (0 : Fin 1) c) (ix1 c) (fun a => match a with
    | ⟨0, _⟩ => by show c.val = if (2 : Nat) = 1 then 0 else c.val; rw [if_neg (by decide)])

theorem headOps_eq (h : FVec Ideal S50000x128 .f32) (ow : FVec Ideal S2x128 .f32) (ob : FVec Ideal S2 .f32) :
    (headOps h ow ob : Cert.Spec.SO.Idx → EReal) = Cert.Spec.head h ow ob := by
  funext j
  obtain ⟨n, c, rfl⟩ : ∃ (n : Fin 50000) (c : Fin 2), j = ix2 n c := ⟨j 0, j 1, eq_ix2 j⟩
  unfold headOps Cert.Spec.head Cert.Spec.logistic Cert.Spec.one
  rw [hostDivf_apply, addf_apply, broadcastInDim_scalar_apply, constant_apply]
  refine congrArg (fun z => Ideal.div _ (_ + Ideal.exp (-z))) ?_
  rw [addf_apply, dotHead_apply, headBias_apply]
  refine congrArg₂ (· + ·) (Finset.sum_congr rfl fun k _ => ?_) rfl
  rw [transpose_ix2_apply]

variable (W : Valuation τ sig (Elt Ideal))

theorem host0_v0 :
    (StableHlo.after hostOps0 W main_v0 : Cert.Spec.SW3.Idx → EReal)
      = fun j => (W main_arg3 : Cert.Spec.SW3.Idx → EReal) (ix3 (j 0) (j 2) (j 1)) := by
  have e : (StableHlo.after hostOps0 W main_v0 : Cert.Spec.SW3.Idx → EReal)
      = transpose S3x128x128 [0, 2, 1] (W main_arg3) transposes_S3x128x128_S3x128x128_0_2_1 := by
    simp only [hostOps0]; after_results <;> rfl
  exact e.trans (tr021_eq _)

theorem host0_v1 :
    (StableHlo.after hostOps0 W main_v1 : Cert.Spec.SW3.Idx → EReal)
      = fun j => (W main_arg5 : Cert.Spec.SW3.Idx → EReal) (ix3 (j 0) (j 2) (j 1)) := by
  have e : (StableHlo.after hostOps0 W main_v1 : Cert.Spec.SW3.Idx → EReal)
      = transpose S3x128x128 [0, 2, 1] (W main_arg5) transposes_S3x128x128_S3x128x128_0_2_1 := by
    simp only [hostOps0]; after_results <;> rfl
  exact e.trans (tr021_eq _)

theorem host0_v2 :
    (StableHlo.after hostOps0 W main_v2 : Cert.Spec.SN.Idx → EReal) = (W main_arg0 : Cert.Spec.SN.Idx → EReal) := by
  simp only [hostOps0]; after_results <;> rfl

theorem host1_r :
    (StableHlo.after hostOps1 W main_v13 : Cert.Spec.SR.Idx → EReal)
      = Cert.Spec.readoutTerm (Cert.Spec.readout (W main_arg0)) (Cert.Spec.matT (W main_arg7) 0) (Cert.Spec.vecAt (W main_arg8) 0) := by
  have e : (StableHlo.after hostOps1 W main_v13 : Cert.Spec.SR.Idx → EReal)
      = rowTermOps 0 (W main_arg0) (W main_arg7) (W main_arg8) slices_S3x128x128_S1x128x128_0_0_0 slices_S3x128_S1x128_0_0 := by
    simp only [hostOps1]; after_results <;> rfl
  exact e.trans (rowTermOps_eq 0 0 rfl _ _ _ _ _)

theorem host1_vw :
    (StableHlo.after hostOps1 W main_v15 : Cert.Spec.SW.Idx → EReal)
      = fun j => (W main_v0 : Cert.Spec.SW3.Idx → EReal) (ix3 0 (j 0) (j 1)) := by
  have e : (StableHlo.after hostOps1 W main_v15 : Cert.Spec.SW.Idx → EReal)
      = shapeCast S128x128 (extractStridedSlice S1x128x128 ![0, 0, 0] (W main_v0) slices_S3x128x128_S1x128x128_0_0_0) shapeCasts_S1x128x128_S128x128 := by
    simp only [hostOps1]; after_results <;> rfl
  exact e.trans (matSlice_eq 0 0 rfl _ _)

theorem host1_vb :
    (StableHlo.after hostOps1 W main_v17 : Cert.Spec.SB.Idx → EReal) = Cert.Spec.vecAt (W main_arg4) 0 := by
  have e : (StableHlo.after hostOps1 W main_v17 : Cert.Spec.SB.Idx → EReal)
      = shapeCast S128 (extractStridedSlice S1x128 ![0, 0] (W main_arg4) slices_S3x128_S1x128_0_0) shapeCasts_S1x128_S128 := by
    simp only [hostOps1]; after_results <;> rfl
  exact e.trans (vecSlice_eq 0 0 rfl _ _)

theorem host1_aw :
    (StableHlo.after hostOps1 W main_v19 : Cert.Spec.SW.Idx → EReal)
      = fun j => (W main_v1 : Cert.Spec.SW3.Idx → EReal) (ix3 0 (j 0) (j 1)) := by
  have e : (StableHlo.after hostOps1 W main_v19 : Cert.Spec.SW.Idx → EReal)
      = shapeCast S128x128 (extractStridedSlice S1x128x128 ![0, 0, 0] (W main_v1) slices_S3x128x128_S1x128x128_0_0_0) shapeCasts_S1x128x128_S128x128 := by
    simp only [hostOps1]; after_results <;> rfl
  exact e.trans (matSlice_eq 0 0 rfl _ _)

theorem host1_ab :
    (StableHlo.after hostOps1 W main_v21 : Cert.Spec.SB.Idx → EReal) = Cert.Spec.vecAt (W main_arg6) 0 := by
  have e : (StableHlo.after hostOps1 W main_v21 : Cert.Spec.SB.Idx → EReal)
      = shapeCast S128 (extractStridedSlice S1x128 ![0, 0] (W main_arg6) slices_S3x128_S1x128_0_0) shapeCasts_S1x128_S128 := by
    simp only [hostOps1]; after_results <;> rfl
  exact e.trans (vecSlice_eq 0 0 rfl _ _)

theorem host2_v23 :
    (StableHlo.after hostOps2 W main_v23 : Cert.Spec.SN.Idx → EReal) = (W main_v22 : Cert.Spec.SN.Idx → EReal) := by
  simp only [hostOps2]; after_results <;> rfl

theorem host3_r :
    (StableHlo.after hostOps3 W main_v34 : Cert.Spec.SR.Idx → EReal)
      = Cert.Spec.readoutTerm (Cert.Spec.readout (W main_v22)) (Cert.Spec.matT (W main_arg7) 1) (Cert.Spec.vecAt (W main_arg8) 1) := by
  have e : (StableHlo.after hostOps3 W main_v34 : Cert.Spec.SR.Idx → EReal)
      = rowTermOps 1 (W main_v22) (W main_arg7) (W main_arg8) slices_S3x128x128_S1x128x128_1_0_0 slices_S3x128_S1x128_1_0 := by
    simp only [hostOps3]; after_results <;> rfl
  exact e.trans (rowTermOps_eq 1 1 rfl _ _ _ _ _)

theorem host3_vw :
    (StableHlo.after hostOps3 W main_v36 : Cert.Spec.SW.Idx → EReal)
      = fun j => (W main_v0 : Cert.Spec.SW3.Idx → EReal) (ix3 1 (j 0) (j 1)) := by
  have e : (StableHlo.after hostOps3 W main_v36 : Cert.Spec.SW.Idx → EReal)
      = shapeCast S128x128 (extractStridedSlice S1x128x128 ![1, 0, 0] (W main_v0) slices_S3x128x128_S1x128x128_1_0_0) shapeCasts_S1x128x128_S128x128 := by
    simp only [hostOps3]; after_results <;> rfl
  exact e.trans (matSlice_eq 1 1 rfl _ _)

theorem host3_vb :
    (StableHlo.after hostOps3 W main_v38 : Cert.Spec.SB.Idx → EReal) = Cert.Spec.vecAt (W main_arg4) 1 := by
  have e : (StableHlo.after hostOps3 W main_v38 : Cert.Spec.SB.Idx → EReal)
      = shapeCast S128 (extractStridedSlice S1x128 ![1, 0] (W main_arg4) slices_S3x128_S1x128_1_0) shapeCasts_S1x128_S128 := by
    simp only [hostOps3]; after_results <;> rfl
  exact e.trans (vecSlice_eq 1 1 rfl _ _)

theorem host3_aw :
    (StableHlo.after hostOps3 W main_v40 : Cert.Spec.SW.Idx → EReal)
      = fun j => (W main_v1 : Cert.Spec.SW3.Idx → EReal) (ix3 1 (j 0) (j 1)) := by
  have e : (StableHlo.after hostOps3 W main_v40 : Cert.Spec.SW.Idx → EReal)
      = shapeCast S128x128 (extractStridedSlice S1x128x128 ![1, 0, 0] (W main_v1) slices_S3x128x128_S1x128x128_1_0_0) shapeCasts_S1x128x128_S128x128 := by
    simp only [hostOps3]; after_results <;> rfl
  exact e.trans (matSlice_eq 1 1 rfl _ _)

theorem host3_ab :
    (StableHlo.after hostOps3 W main_v42 : Cert.Spec.SB.Idx → EReal) = Cert.Spec.vecAt (W main_arg6) 1 := by
  have e : (StableHlo.after hostOps3 W main_v42 : Cert.Spec.SB.Idx → EReal)
      = shapeCast S128 (extractStridedSlice S1x128 ![1, 0] (W main_arg6) slices_S3x128_S1x128_1_0) shapeCasts_S1x128_S128 := by
    simp only [hostOps3]; after_results <;> rfl
  exact e.trans (vecSlice_eq 1 1 rfl _ _)

theorem host4_v44 :
    (StableHlo.after hostOps4 W main_v44 : Cert.Spec.SN.Idx → EReal) = (W main_v43 : Cert.Spec.SN.Idx → EReal) := by
  simp only [hostOps4]; after_results <;> rfl

theorem host5_r :
    (StableHlo.after hostOps5 W main_v55 : Cert.Spec.SR.Idx → EReal)
      = Cert.Spec.readoutTerm (Cert.Spec.readout (W main_v43)) (Cert.Spec.matT (W main_arg7) 2) (Cert.Spec.vecAt (W main_arg8) 2) := by
  have e : (StableHlo.after hostOps5 W main_v55 : Cert.Spec.SR.Idx → EReal)
      = rowTermOps 2 (W main_v43) (W main_arg7) (W main_arg8) slices_S3x128x128_S1x128x128_2_0_0 slices_S3x128_S1x128_2_0 := by
    simp only [hostOps5]; after_results <;> rfl
  exact e.trans (rowTermOps_eq 2 2 rfl _ _ _ _ _)

theorem host5_vw :
    (StableHlo.after hostOps5 W main_v57 : Cert.Spec.SW.Idx → EReal)
      = fun j => (W main_v0 : Cert.Spec.SW3.Idx → EReal) (ix3 2 (j 0) (j 1)) := by
  have e : (StableHlo.after hostOps5 W main_v57 : Cert.Spec.SW.Idx → EReal)
      = shapeCast S128x128 (extractStridedSlice S1x128x128 ![2, 0, 0] (W main_v0) slices_S3x128x128_S1x128x128_2_0_0) shapeCasts_S1x128x128_S128x128 := by
    simp only [hostOps5]; after_results <;> rfl
  exact e.trans (matSlice_eq 2 2 rfl _ _)

theorem host5_vb :
    (StableHlo.after hostOps5 W main_v59 : Cert.Spec.SB.Idx → EReal) = Cert.Spec.vecAt (W main_arg4) 2 := by
  have e : (StableHlo.after hostOps5 W main_v59 : Cert.Spec.SB.Idx → EReal)
      = shapeCast S128 (extractStridedSlice S1x128 ![2, 0] (W main_arg4) slices_S3x128_S1x128_2_0) shapeCasts_S1x128_S128 := by
    simp only [hostOps5]; after_results <;> rfl
  exact e.trans (vecSlice_eq 2 2 rfl _ _)

theorem host5_aw :
    (StableHlo.after hostOps5 W main_v61 : Cert.Spec.SW.Idx → EReal)
      = fun j => (W main_v1 : Cert.Spec.SW3.Idx → EReal) (ix3 2 (j 0) (j 1)) := by
  have e : (StableHlo.after hostOps5 W main_v61 : Cert.Spec.SW.Idx → EReal)
      = shapeCast S128x128 (extractStridedSlice S1x128x128 ![2, 0, 0] (W main_v1) slices_S3x128x128_S1x128x128_2_0_0) shapeCasts_S1x128x128_S128x128 := by
    simp only [hostOps5]; after_results <;> rfl
  exact e.trans (matSlice_eq 2 2 rfl _ _)

theorem host5_ab :
    (StableHlo.after hostOps5 W main_v63 : Cert.Spec.SB.Idx → EReal) = Cert.Spec.vecAt (W main_arg6) 2 := by
  have e : (StableHlo.after hostOps5 W main_v63 : Cert.Spec.SB.Idx → EReal)
      = shapeCast S128 (extractStridedSlice S1x128 ![2, 0] (W main_arg6) slices_S3x128_S1x128_2_0) shapeCasts_S1x128_S128 := by
    simp only [hostOps5]; after_results <;> rfl
  exact e.trans (vecSlice_eq 2 2 rfl _ _)

theorem host6_out :
    (StableHlo.after hostOps6 W main_v75 : Cert.Spec.SO.Idx → EReal)
      = Cert.Spec.head (W main_v64) (W main_arg9) (W main_arg10) := by
  have e : (StableHlo.after hostOps6 W main_v75 : Cert.Spec.SO.Idx → EReal)
      = headOps (W main_v64) (W main_arg9) (W main_arg10) := by
    simp only [hostOps6]; after_results <;> rfl
  exact e.trans (headOps_eq _ _ _)

end Cert.KernelIdeal.Hand

end
-- ==== Proof.KI.Pay0.lean ====
import proofs.«415291_j87935160418912_3_alg».proof.Proof.KI.Case0
import proofs.«415291_j87935160418912_3_alg».proof.Proof.Spec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.Tactic
open Idealize.ShloMosaic.ValueIdx

section Pieces
variable {F : FTy → Type} [FloatOps F]
variable (c : Dev nD) (i : grid0.Coords) (arg2 : Memref sig .tc .vmem S256 .i32) (harg2 : arg2.IsWhole) (arg3 : Memref sig .tc .vmem S10000x128 .bf16) (harg3 : arg3.IsWhole) (arg4 : Memref sig .tc .vmem S256x128 .bf16) (harg4 : arg4.IsWhole) (arg5 : Memref sig .tc .vmem S256x128 .f32) (harg5 : arg5.IsWhole)

theorem hzR0 : (![0, 0] : Fin 2 → Nat) = fun _ => 0 := funext fun a => by fin_cases a <;> rfl
theorem hzOneR0 : (![0] : Fin 1 → Nat) = fun _ => 0 := funext fun a => by fin_cases a; rfl

theorem sacc0_B_eq (hc0 : ¬first0 i) (hc1 : ¬last0 i) (x0 : Vec F S256 .i32) (x1 : Vec F S10000x128 .bf16) (xs : Vec F S256x128 .f32) :
    sacc0_B c i arg2 harg2 arg3 harg3 arg4 harg4 arg5 harg5 hc0 hc1 x0 x1 xs = k0_pay2 i x0 xs x1 := by
  unfold sacc0_B
  unfold run0_B
  dsimp only
  sl_unfold_words
  rw [View.canon_unit_zero hzR0]
  simp only [View.readAt_eq_ld, harg2.read_unread, harg3.read_unread, harg5.read_unread, View.ld_unit_zero (S := S256x128) hzR0, View.ld_unit_zero (S := S256) hzOneR0, View.ld_unit_zero (S := S10000x128) hzR0]

theorem sacc0_A_eq (hc0 : first0 i) (hc1 : ¬last0 i) (x0 : Vec F S256 .i32) (x1 : Vec F S10000x128 .bf16) :
    sacc0_A c i arg2 harg2 arg3 harg3 arg4 harg4 arg5 harg5 hc0 hc1 x0 x1 = k0_pay2 i x0 (k0_pay1 (F := F)) x1 := by
  unfold sacc0_A
  unfold run0_A
  dsimp only
  sl_unfold_words
  rw [View.canon_cons_unit_zero (S := S256x128) hzR0, View.readCov_unit_zero (S := S256x128) _ hzR0]
  simp only [View.readAt_eq_ld, harg2.read_unread, harg3.read_unread, harg5.read_unread, View.ld_unit_zero (S := S256x128) hzR0, View.ld_unit_zero (S := S256) hzOneR0, View.ld_unit_zero (S := S10000x128) hzR0]

theorem sacc0_C_eq (hc0 : ¬first0 i) (hc1 : last0 i) (x0 : Vec F S256 .i32) (x1 : Vec F S10000x128 .bf16) (xs : Vec F S256x128 .f32) :
    sacc0_C c i arg2 harg2 arg3 harg3 arg4 harg4 arg5 harg5 hc0 hc1 x0 x1 xs = k0_pay2 i x0 xs x1 := by
  unfold sacc0_C
  unfold run0_C
  dsimp only
  sl_unfold_words
  rw [View.canon_unit_zero hzR0]
  simp only [View.readAt_eq_ld, harg2.read_unread, harg3.read_unread, harg5.read_unread, View.ld_unit_zero (S := S256x128) hzR0, View.ld_unit_zero (S := S256) hzOneR0, View.ld_unit_zero (S := S10000x128) hzR0]

theorem out0_C_eq (hc0 : ¬first0 i) (hc1 : last0 i) (x0 : Vec F S256 .i32) (x1 : Vec F S10000x128 .bf16) (xs : Vec F S256x128 .f32) :
    out0_C c i arg2 harg2 arg3 harg3 arg4 harg4 arg5 harg5 hc0 hc1 x0 x1 xs = k0_pay3 (k0_pay2 i x0 xs x1) := by
  unfold out0_C
  unfold run0_C
  dsimp only
  sl_unfold_words
  rw [View.canon_unit_zero hzR0, View.readCov_unit_zero (S := S256x128) _ hzR0]
  simp only [View.readAt_eq_ld, harg2.read_unread, harg3.read_unread, harg5.read_unread, View.ld_unit_zero (S := S256x128) hzR0, View.ld_unit_zero (S := S256) hzOneR0, View.ld_unit_zero (S := S10000x128) hzR0]

end Pieces

section Reads

theorem dotR0_lhsRow (j : S256x128.Idx) (k : dot_S256x10000_S10000x128_S256x128_1_0_0_1_n_n.contr.Idx) :
    (dot_S256x10000_S10000x128_S256x128_1_0_0_1_n_n.lhsIdx j k 0).val = (j 0).val := by
  unfold DotDims.lhsIdx
  rw [dif_neg (show ¬(0 : Fin S256x10000.rank) ∈ dot_S256x10000_S10000x128_S256x128_1_0_0_1_n_n.lhsBatch by decide), dif_pos (show (0 : Fin S256x10000.rank) ∈ dot_S256x10000_S10000x128_S256x128_1_0_0_1_n_n.lhsNonContracting by decide)]
  rfl
theorem dotR0_lhsCol (j : S256x128.Idx) (k : dot_S256x10000_S10000x128_S256x128_1_0_0_1_n_n.contr.Idx) :
    (dot_S256x10000_S10000x128_S256x128_1_0_0_1_n_n.lhsIdx j k 1).val = (k ⟨0, by decide⟩).val :=
  dot_S256x10000_S10000x128_S256x128_1_0_0_1_n_n.lhsIdx_val_of_single rfl j k
theorem dotR0_rhsRow (j : S256x128.Idx) (k : dot_S256x10000_S10000x128_S256x128_1_0_0_1_n_n.contr.Idx) :
    (dot_S256x10000_S10000x128_S256x128_1_0_0_1_n_n.rhsIdx j k 0).val = (k ⟨0, by decide⟩).val :=
  dot_S256x10000_S10000x128_S256x128_1_0_0_1_n_n.rhsIdx_val_of_single rfl j k
theorem dotR0_rhsCol (j : S256x128.Idx) (k : dot_S256x10000_S10000x128_S256x128_1_0_0_1_n_n.contr.Idx) :
    (dot_S256x10000_S10000x128_S256x128_1_0_0_1_n_n.rhsIdx j k 1).val = (j 1).val := by
  unfold DotDims.rhsIdx
  rw [dif_neg (show ¬(1 : Fin S10000x128.rank) ∈ dot_S256x10000_S10000x128_S256x128_1_0_0_1_n_n.rhsBatch by decide), dif_pos (show (1 : Fin S10000x128.rank) ∈ dot_S256x10000_S10000x128_S256x128_1_0_0_1_n_n.rhsNonContracting by decide)]
  rfl

theorem hotR0_srcAt (x0 : S256.Idx → BitVec 32) (p : Fin 256) (k : Fin 10000) :
    broadcastTo S256x10000 (shapeCast S256x1 x0 shapeCasts_S256_S256x1) broadcasts_S256x1_S256x10000 (ix2 p k) = x0 (ix1 p) := by
  refine (broadcastTo_apply _ _ (ix2 p k) (ix2 p (0 : Fin 1)) (fun a => ?_)).trans ?_
  · match a with
    | ⟨0, _⟩ => rfl
    | ⟨1, _⟩ => rfl
  · refine shapeCast_apply x0 _ (ix2 p (0 : Fin 1)) (ix1 p) ?_
    rw [Shape.rowMajor_val_one, Shape.rowMajor_val_two]
    show p.val = p.val * 1 + 0
    omega

theorem hotR0_idAt (v3 : BitVec 32) (p : Fin 256) (k : Fin 10000) :
    broadcastTo S256x10000 (addi (broadcast S1x10000 v3) (iota .tc S1x10000 32 [1] iota_S1x10000_d1_w32)) broadcasts_S1x10000_S256x10000 (ix2 p k)
      = v3 + BitVec.ofNat 32 k.val := by
  refine (broadcastTo_apply _ _ (ix2 p k) (ix2 (0 : Fin 1) k) (fun a => ?_)).trans ?_
  · match a with
    | ⟨0, _⟩ => rfl
    | ⟨1, _⟩ => rfl
  · show IntOp.addi v3 (iota .tc S1x10000 32 [1] iota_S1x10000_d1_w32 (ix2 (0 : Fin 1) k)) = _
    rw [iota_single_apply]
    rfl

theorem hotR0_entry (a b : BitVec 32) :
    (FloatOps.sitofp (F := Ideal) .f32 ((IntOp.cmpi .eq a b).setWidth 32) : EReal) = if a = b then 1 else 0 := by
  show (((BitVec.setWidth 32 (BitVec.ofBool (a == b))).toInt : ℝ) : EReal) = _
  by_cases h : a = b
  · rw [if_pos h, show (a == b) = true from by simpa using h]
    rw [show (BitVec.setWidth 32 (BitVec.ofBool true)).toInt = 1 from by decide]
    simp
  · rw [if_neg h, show (a == b) = false from by simpa using h]
    rw [show (BitVec.setWidth 32 (BitVec.ofBool false)).toInt = 0 from by decide]
    simp

-- At an index the accumulating payload is the old entry plus the sum over the block's rows of a 0/1 factor times the row's entry.
theorem k0_pay2_apply (i : grid0.Coords) (x0 : Vec Ideal S256 .i32) (xs : Vec Ideal S256x128 .f32) (x1 : Vec Ideal S10000x128 .bf16) (p : Fin 256) (q : Fin 128) :
    (k0_pay2 (F := Ideal) i x0 xs x1 : S256x128.Idx → EReal) (ix2 p q)
      = xs (ix2 p q) + ∑ k : Fin 10000, (if x0 (ix1 p) = BitVec.ofNat 32 (i 1).val * 10000#32 + BitVec.ofNat 32 k.val then (1 : EReal) else 0) * x1 (ix2 k q) := by
  unfold k0_pay2
  dsimp only
  refine (congrFun (shapeCast_self _ _) (ix2 p q)).trans ?_
  refine (addf_apply _ _ _).trans ?_
  refine congrArg (xs (ix2 p q) + ·) ?_
  refine (Ideal.matmul_constant_zero_apply dot_S256x10000_S10000x128_S256x128_1_0_0_1_n_n none _ _ (ix2 p q)).trans ?_
  rw [← Equiv.sum_comp (contrEquiv1 dot_S256x10000_S10000x128_S256x128_1_0_0_1_n_n 10000 rfl rfl).symm]
  refine Finset.sum_congr rfl fun k _ => ?_
  have hk := contrEquiv1_symm_val dot_S256x10000_S10000x128_S256x128_1_0_0_1_n_n 10000 rfl rfl k
  have el : dot_S256x10000_S10000x128_S256x128_1_0_0_1_n_n.lhsIdx (ix2 p q) ((contrEquiv1 dot_S256x10000_S10000x128_S256x128_1_0_0_1_n_n 10000 rfl rfl).symm k) = (ix2 p k : S256x10000.Idx) := funext fun a => Fin.ext (by
    match a with
    | ⟨0, _⟩ => exact dotR0_lhsRow _ _
    | ⟨1, _⟩ => exact (dotR0_lhsCol _ _).trans hk)
  have er : dot_S256x10000_S10000x128_S256x128_1_0_0_1_n_n.rhsIdx (ix2 p q) ((contrEquiv1 dot_S256x10000_S10000x128_S256x128_1_0_0_1_n_n 10000 rfl rfl).symm k) = (ix2 k q : S10000x128.Idx) := funext fun a => Fin.ext (by
    match a with
    | ⟨0, _⟩ => exact (dotR0_rhsRow _ _).trans hk
    | ⟨1, _⟩ => exact dotR0_rhsCol _ _)
  rw [el, er]
  refine congrArg₂ (· * ·) ?_ (congrFun (shapeCast_self _ _) (ix2 k q))
  exact (congrArg₂ (fun a b => (FloatOps.sitofp (F := Ideal) .f32 ((IntOp.cmpi .eq a b).setWidth 32) : EReal)) (hotR0_srcAt x0 p k) (hotR0_idAt _ p k)).trans (hotR0_entry _ _)

theorem k0_pay1_apply (j : S256x128.Idx) : (k0_pay1 (F := Ideal) : S256x128.Idx → EReal) j = 0 := by
  unfold k0_pay1
  refine (congrFun (shapeCast_self _ _) j).trans ?_
  exact Ideal.ofBits_zero_f32

theorem k0_pay3_apply (v : Vec Ideal S256x128 .f32) (j : S256x128.Idx) : (k0_pay3 (F := Ideal) v : S256x128.Idx → EReal) j = v j := rfl

-- A sum whose terms carry a 0/1 factor picks the one row whose id matches and is 0 when none does: 0 · x = 0 and 1 · x = x for every extended real.
theorem pickR0 (s : BitVec 32) (b : ℕ) (hb : b < 5) (R : Fin 10000 → EReal) :
    (∑ k : Fin 10000, (if s = BitVec.ofNat 32 b * 10000#32 + BitVec.ofNat 32 k.val then (1 : EReal) else 0) * R k)
      = if h : b * 10000 ≤ s.toNat ∧ s.toNat < (b + 1) * 10000 then R ⟨s.toNat - b * 10000, by omega⟩ else 0 := by
  have key : ∀ k : Fin 10000, (s = BitVec.ofNat 32 b * 10000#32 + BitVec.ofNat 32 k.val) ↔ s.toNat = b * 10000 + k.val := by
    intro k
    have hk := k.isLt
    have hX : (BitVec.ofNat 32 b * 10000#32 + BitVec.ofNat 32 k.val).toNat = b * 10000 + k.val := by
      rw [BitVec.toNat_add, BitVec.toNat_mul, BitVec.toNat_ofNat, BitVec.toNat_ofNat, BitVec.toNat_ofNat]
      rw [Nat.mod_eq_of_lt (show b < 2 ^ 32 by omega), Nat.mod_eq_of_lt (show 10000 < 2 ^ 32 by omega), Nat.mod_eq_of_lt (show k.val < 2 ^ 32 by omega),
        Nat.mod_eq_of_lt (show b * 10000 < 2 ^ 32 by omega), Nat.mod_eq_of_lt (show b * 10000 + k.val < 2 ^ 32 by omega)]
    rw [← hX]
    exact BitVec.toNat_inj.symm
  split
  · rename_i h
    rw [Finset.sum_eq_single (⟨s.toNat - b * 10000, by omega⟩ : Fin 10000)]
    · rw [if_pos ((key _).mpr (by dsimp only; omega)), one_mul]
    · intro k _ hne
      rw [if_neg (fun hh => hne (Fin.ext (by have := (key k).mp hh; dsimp only; omega))), zero_mul]
    · intro h'; exact absurd (Finset.mem_univ _) h'
  · rename_i h
    refine Finset.sum_eq_zero fun k _ => ?_
    rw [if_neg (fun hh => h (by have := (key k).mp hh; have := k.isLt; omega)), zero_mul]

theorem stepR0 (i : grid0.Coords) (b : ℕ) (hb : (i 1).val = b) (hb5 : b < 5) (x0 : Vec Ideal S256 .i32) (xs : Vec Ideal S256x128 .f32)
    (x1 : Vec Ideal S10000x128 .bf16) (p : Fin 256) (q : Fin 128) :
    (k0_pay2 (F := Ideal) i x0 xs x1 : S256x128.Idx → EReal) (ix2 p q)
      = xs (ix2 p q) + if h : b * 10000 ≤ (x0 (ix1 p)).toNat ∧ (x0 (ix1 p)).toNat < (b + 1) * 10000
          then x1 (ix2 ⟨(x0 (ix1 p)).toNat - b * 10000, by omega⟩ q) else 0 := by
  rw [k0_pay2_apply, hb]
  exact congrArg (xs (ix2 p q) + ·) (pickR0 (x0 (ix1 p)) b hb5 (fun k => x1 (ix2 k q)))

theorem entryR0 (b : ℕ) (hb5 : b < 5) (s : BitVec 32) (x1 : Vec Ideal S10000x128 .bf16) (rows : Cert.Spec.SN.Idx → EReal) (q : Fin 128) (a : EReal)
    (ha : a = if s.toNat < b * 10000 then rows (ix2 (Cert.Spec.rowOf s) q) else 0)
    (hrow : ∀ (k : Fin 10000) (n : Fin 50000), n.val = b * 10000 + k.val → (x1 (ix2 k q) : EReal) = rows (ix2 n q)) :
    (a + if h : b * 10000 ≤ s.toNat ∧ s.toNat < (b + 1) * 10000 then (x1 (ix2 ⟨s.toNat - b * 10000, by omega⟩ q) : EReal) else 0)
      = if s.toNat < (b + 1) * 10000 then rows (ix2 (Cert.Spec.rowOf s) q) else 0 := by
  subst ha
  by_cases h : b * 10000 ≤ s.toNat ∧ s.toNat < (b + 1) * 10000
  · rw [dif_pos h, if_neg (show ¬s.toNat < b * 10000 by omega), zero_add, if_pos h.2]
    refine hrow _ (Cert.Spec.rowOf s) ?_
    rw [Cert.Spec.rowOf_val_of_lt s (by omega)]
    dsimp only
    omega
  · rw [dif_neg h, add_zero]
    by_cases h2 : s.toNat < b * 10000
    · rw [if_pos h2, if_pos (lt_of_lt_of_le h2 (Nat.mul_le_mul_right _ (Nat.le_succ b)))]
    · rw [if_neg h2, if_neg (fun hB => h ⟨Nat.le_of_not_lt h2, hB⟩)]

theorem pointR0 (i : grid0.Coords) (b : ℕ) (hb : (i 1).val = b) (hb5 : b < 5) (x0 : Vec Ideal S256 .i32) (xs : Vec Ideal S256x128 .f32)
    (x1 : Vec Ideal S10000x128 .bf16) (p : Fin 256) (q : Fin 128) (s : BitVec 32) (hs : x0 (ix1 p) = s) (rows : Cert.Spec.SN.Idx → EReal)
    (ha : (xs (ix2 p q) : EReal) = if s.toNat < b * 10000 then rows (ix2 (Cert.Spec.rowOf s) q) else 0)
    (hrow : ∀ (k : Fin 10000) (n : Fin 50000), n.val = b * 10000 + k.val → (x1 (ix2 k q) : EReal) = rows (ix2 n q)) :
    (k0_pay2 (F := Ideal) i x0 xs x1 : S256x128.Idx → EReal) (ix2 p q)
      = if s.toNat < (b + 1) * 10000 then rows (ix2 (Cert.Spec.rowOf s) q) else 0 := by
  subst hs
  rw [stepR0 i b hb hb5]
  exact entryR0 b hb5 _ x1 rows q _ ha hrow

end Reads

end Cert.KernelIdeal.Hand

end
-- ==== Proof.KI.Val0.lean ====
import proofs.«415291_j87935160418912_3_alg».proof.Proof.KI.Dat0
import proofs.«415291_j87935160418912_3_alg».proof.Proof.KI.Pay0
import proofs.«415291_j87935160418912_3_alg».proof.Proof.Spec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.Tactic
open Idealize.ShloMosaic.ValueIdx

section Blocks
variable (V : (c : Dev nD) → (b : Ref sig .tc) → Buf (Elt Ideal) ((c : Thread nD τ).loc b))

abbrev srcR0 (c : Dev nD) : Cert.Spec.SE.Idx → BitVec 32 := V c (Pipeline.arrRef spec0 0)
abbrev rowsR0 (c : Dev nD) : Cert.Spec.SN.Idx → EReal := V c (Pipeline.arrRef spec0 1)
abbrev sblkR0 (c : Dev nD) (t : Fin cfg0.N) : Vec Ideal S256 .i32 := iblk0 V c 0 t
abbrev nblkR0 (c : Dev nD) (t : Fin cfg0.N) : Vec Ideal S10000x128 .bf16 := iblk0 V c 1 t

theorem blk0_srcIdx (t : Fin cfg0.N) : win0_0.index t = ![t.val / 5 % 3125] := by
  have h0 : ((grid0.coords t) 0).val = t.val / 5 % 3125 := by
    show t.val / grid0.stride 0 % 3125 = _
    rw [show grid0.stride 0 = 5 from by decide]
  show cc0_transform_0 (grid0.coords t) = _
  unfold cc0_transform_0
  dsimp only
  rw [h0, BitVec.toNat_ofNat, Nat.mod_eq_of_lt (by omega : t.val / 5 % 3125 < 2 ^ 32)]

theorem blk0_nodeIdx (t : Fin cfg0.N) : win0_1.index t = ![t.val % 5, 0] := by
  show cc0_transform_1 (grid0.coords t) = _
  unfold cc0_transform_1
  dsimp only
  rw [coord0_1 t, BitVec.toNat_ofNat, Nat.mod_eq_of_lt (by omega : t.val % 5 < 2 ^ 32)]
  rfl

theorem blk0_src (c : Dev nD) (t : Fin cfg0.N) (p : Fin 256) (e : Fin 800000) (he : e.val = t.val / 5 * 256 + p.val) :
    sblkR0 V c t (ix1 p) = srcR0 V c (ix1 e) := by
  have hN : cfg0.N = 15625 := N_0
  have ht := t.isLt
  unfold sblkR0 iblk0
  rw [View.read_apply]
  show srcR0 V c _ = _
  congr 1
  funext a
  apply Fin.ext
  match a with
  | ⟨0, _⟩ =>
    show win0_0.index t 0 * 256 + 1 * p.val = e.val
    rw [blk0_srcIdx t, he]
    show t.val / 5 % 3125 * 256 + 1 * p.val = _
    omega

theorem blk0_row (c : Dev nD) (t : Fin cfg0.N) (k : Fin 10000) (q : Fin 128) (n : Fin 50000) (hn : n.val = t.val % 5 * 10000 + k.val) :
    (nblkR0 V c t (ix2 k q) : EReal) = rowsR0 V c (ix2 n q) := by
  unfold nblkR0 iblk0
  rw [View.read_apply]
  show rowsR0 V c _ = _
  congr 1
  funext a
  apply Fin.ext
  match a with
  | ⟨0, _⟩ =>
    show win0_1.index t 0 * 10000 + 1 * k.val = n.val
    rw [blk0_nodeIdx t, hn]
    show t.val % 5 * 10000 + 1 * k.val = _
    omega
  | ⟨1, _⟩ =>
    show win0_1.index t 1 * 128 + 1 * q.val = q.val
    rw [blk0_nodeIdx t]
    show 0 * 128 + 1 * q.val = _
    omega

end Blocks

section Value
variable (V : (c : Dev nD) → (b : Ref sig .tc) → Buf (Elt Ideal) ((c : Thread nD τ).loc b))

theorem updR0 (c : Dev nD) (t : Fin cfg0.N) (xs : Vec Ideal S256x128 .f32) (p : Fin 256) (q : Fin 128) (e : Fin 800000)
    (he : e.val = t.val / 5 * 256 + p.val)
    (ha : (xs (ix2 p q) : EReal) = if (srcR0 V c (ix1 e)).toNat < t.val % 5 * 10000 then rowsR0 V c (ix2 (Cert.Spec.rowOf (srcR0 V c (ix1 e))) q) else 0) :
    (k0_pay2 (F := Ideal) (grid0.coords t) (sblkR0 V c t) xs (nblkR0 V c t) : S256x128.Idx → EReal) (ix2 p q)
      = if (srcR0 V c (ix1 e)).toNat < (t.val % 5 + 1) * 10000 then rowsR0 V c (ix2 (Cert.Spec.rowOf (srcR0 V c (ix1 e))) q) else 0 :=
  pointR0 (grid0.coords t) (t.val % 5) (coord0_1 t) (Nat.mod_lt _ (by decide)) (sblkR0 V c t) xs (nblkR0 V c t) p q (srcR0 V c (ix1 e))
    (blk0_src V c t p e he) (rowsR0 V c) ha (fun k n hn => blk0_row V c t k q n hn)

theorem accR0_eq (c : Dev nD) (n : ℕ) : ∀ (hn : n < cfg0.N) (p : Fin 256) (q : Fin 128) (e : Fin 800000) (he : e.val = n / 5 * 256 + p.val),
    (((outsAt0 V c n hn).2 : Vec Ideal S256x128 .f32) (ix2 p q) : EReal)
      = if (srcR0 V c (ix1 e)).toNat < (n % 5 + 1) * 10000 then rowsR0 V c (ix2 (Cert.Spec.rowOf (srcR0 V c (ix1 e))) q) else 0 := by
  induction n using Nat.strong_induction_on with
  | _ n ih =>
    intro hn p q e he
    obtain ⟨t, rfl⟩ : ∃ t : Fin cfg0.N, t.val = n := ⟨⟨n, hn⟩, rfl⟩
    by_cases h0 : t.val % 5 = 0
    · have h1 : ¬t.val % 5 = 4 := by omega
      rw [outsAt0_A V c t h0 h1]
      dsimp only
      unfold accA0
      refine (congrFun (sacc0_A_eq (F := Ideal) c (grid0.coords t) (stg0_0 t) (hstg0_0 t) (stg0_1 t) (hstg0_1 t) (stg0_2 t) (hstg0_2 t) acc0 (Memref.isWhole_whole _) ((hfirst0 t).mpr h0) (fun h => h1 ((hlast0 t).mp h)) (iblk0 V c 0 t) (iblk0 V c 1 t)) (ix2 p q)).trans ?_
      refine updR0 V c t (k0_pay1 (F := Ideal)) p q e he ?_
      exact (k0_pay1_apply _).trans (if_neg (by rw [h0, Nat.zero_mul]; exact Nat.not_lt_zero _)).symm
    · have hprev := ih (t.val - 1) (by omega) (by omega) p q e (by omega)
      rw [show (t.val - 1) % 5 + 1 = t.val % 5 from by omega] at hprev
      by_cases h1 : t.val % 5 = 4
      · rw [outsAt0_C V c t h0 h1]
        dsimp only
        unfold accC0
        refine (congrFun (sacc0_C_eq (F := Ideal) c (grid0.coords t) (stg0_0 t) (hstg0_0 t) (stg0_1 t) (hstg0_1 t) (stg0_2 t) (hstg0_2 t) acc0 (Memref.isWhole_whole _) (fun h => h0 ((hfirst0 t).mp h)) ((hlast0 t).mpr h1) (iblk0 V c 0 t) (iblk0 V c 1 t) (outsAt0 V c (t.val - 1) (Nat.lt_of_le_of_lt (Nat.sub_le _ _) t.isLt)).2) (ix2 p q)).trans ?_
        exact updR0 V c t _ p q e he hprev
      · rw [outsAt0_B V c t h0 h1]
        dsimp only
        unfold accB0
        refine (congrFun (sacc0_B_eq (F := Ideal) c (grid0.coords t) (stg0_0 t) (hstg0_0 t) (stg0_1 t) (hstg0_1 t) (stg0_2 t) (hstg0_2 t) acc0 (Memref.isWhole_whole _) (fun h => h0 ((hfirst0 t).mp h)) (fun h => h1 ((hlast0 t).mp h)) (iblk0 V c 0 t) (iblk0 V c 1 t) (outsAt0 V c (t.val - 1) (Nat.lt_of_le_of_lt (Nat.sub_le _ _) t.isLt)).2) (ix2 p q)).trans ?_
        exact updR0 V c t _ p q e he hprev

theorem blk0_outEmb (t : Fin cfg0.N) (p : Fin 256) (q : Fin 128) (e : Fin 800000) (he : e.val = t.val / 5 * 256 + p.val) :
    (((cfg0.win 2).blk t).view.emb (ix2 p q) : Cert.Spec.SG.Idx) = ix2 e q := by
  have hN : cfg0.N = 15625 := N_0
  have ht := t.isLt
  funext a
  apply Fin.ext
  match a with
  | ⟨0, _⟩ =>
    show win0_2.index t 0 * 256 + 1 * p.val = e.val
    rw [blk0_out t, he]
    show t.val / 5 % 3125 * 256 + 1 * p.val = _
    omega
  | ⟨1, _⟩ =>
    show win0_2.index t 1 * 128 + 1 * q.val = q.val
    rw [blk0_out t]
    show 0 * 128 + 1 * q.val = _
    omega

theorem flushedR0_eq (c : Dev nD) (hsrc : ∀ e : Cert.Spec.SE.Idx, (srcR0 V c e).toNat < 50000) (t : Fin cfg0.N) (hf : (cfg0.win 2).flush t = true) :
    (dat0 (F := Ideal) V c).flushed 2 t = ((cfg0.win 2).blk t).view.read (Elt Ideal) (Cert.Spec.gathered (srcR0 V c) (rowsR0 V c)) := by
  have hN : cfg0.N = 15625 := N_0
  have ht := t.isLt
  have h4 : t.val % 5 = 4 := (flushOut0 t).mp hf
  have h0 : ¬t.val % 5 = 0 := by omega
  show (cfg0.win 2).cut (grid0.coords t) ((dat0 V c).after 2 t) = _
  rw [after0_2, outsAt0_C V c t h0 h4]
  dsimp only
  funext y
  obtain ⟨p, q, rfl⟩ : ∃ (p : Fin 256) (q : Fin 128), y = (ix2 p q : S256x128.Idx) := ⟨y 0, y 1, eq_ix2 (n0 := 256) (n1 := 128) y⟩
  rw [View.read_apply]
  have he : (⟨t.val / 5 * 256 + p.val, by omega⟩ : Fin 800000).val = t.val / 5 * 256 + p.val := rfl
  show (outC0 V c t h0 h4 (outsAt0 V c (t.val - 1) (Nat.lt_of_le_of_lt (Nat.sub_le _ _) t.isLt)).2 : S256x128.Idx → EReal) (ix2 p q)
    = Cert.Spec.gathered (srcR0 V c) (rowsR0 V c) (((cfg0.win 2).blk t).view.emb (ix2 p q))
  rw [blk0_outEmb t p q _ he]
  unfold outC0
  refine (congrFun (out0_C_eq (F := Ideal) c (grid0.coords t) (stg0_0 t) (hstg0_0 t) (stg0_1 t) (hstg0_1 t) (stg0_2 t) (hstg0_2 t) acc0 (Memref.isWhole_whole _) (fun h => h0 ((hfirst0 t).mp h)) ((hlast0 t).mpr h4) (iblk0 V c 0 t) (iblk0 V c 1 t) (outsAt0 V c (t.val - 1) (Nat.lt_of_le_of_lt (Nat.sub_le _ _) t.isLt)).2) (ix2 p q)).trans ?_
  refine (k0_pay3_apply _ (ix2 p q)).trans ?_
  have hprev := accR0_eq V c (t.val - 1) (by omega) p q _ (show (⟨t.val / 5 * 256 + p.val, by omega⟩ : Fin 800000).val = (t.val - 1) / 5 * 256 + p.val by dsimp only; omega)
  rw [show (t.val - 1) % 5 + 1 = t.val % 5 from by omega] at hprev
  refine (updR0 V c t _ p q _ he hprev).trans ?_
  rw [if_pos (by rw [h4]; exact hsrc _)]
  rfl

end Value

-- After the region the output array holds, for every edge, the row of the edge's source node.
theorem gather_val0 (V : (c : Dev nD) → (b : Ref sig .tc) → Buf (Elt Ideal) ((c : Thread nD τ).loc b)) (c : Dev nD)
    (hsrc : ∀ e : Cert.Spec.SE.Idx, ((V c (Pipeline.arrRef spec0 0) : Cert.Spec.SE.Idx → BitVec 32) e).toNat < 50000) :
    ((dat0 (F := Ideal) V c).arrAt 2 cfg0.N : Cert.Spec.SG.Idx → EReal)
      = Cert.Spec.gathered (V c (Pipeline.arrRef spec0 0)) (V c (Pipeline.arrRef spec0 1)) :=
  (dat0 (F := Ideal) V c).arrAt_eq_of_cover 2 (Cert.Spec.gathered (srcR0 V c) (rowsR0 V c)) (flushedR0_eq V c hsrc) fun i => by
    have hN : cfg0.N = 15625 := N_0
    have hi0 : (i 0).val < 800000 := (i 0).isLt
    have hi1 : (i 1).val < 128 := (i 1).isLt
    have hlt : 5 * ((i 0).val / 256) + 4 < cfg0.N := by omega
    have hp : (i 0).val % 256 < 256 := Nat.mod_lt _ (by decide)
    refine ⟨⟨5 * ((i 0).val / 256) + 4, hlt⟩, (flushOut0 ⟨5 * ((i 0).val / 256) + 4, hlt⟩).mpr (by dsimp only; omega), ?_⟩
    have hi : (i : Cert.Spec.SG.Idx) = ix2 (⟨(i 0).val, hi0⟩ : Fin 800000) (⟨(i 1).val, hi1⟩ : Fin 128) := eq_ix2 (n0 := 800000) (n1 := 128) i
    have hmem := View.emb_mem_set ((cfg0.win 2).blk ⟨5 * ((i 0).val / 256) + 4, hlt⟩).view (ix2 (⟨(i 0).val % 256, hp⟩ : Fin 256) (⟨(i 1).val, hi1⟩ : Fin 128))
    rw [blk0_outEmb ⟨5 * ((i 0).val / 256) + 4, hlt⟩ ⟨(i 0).val % 256, hp⟩ ⟨(i 1).val, hi1⟩ ⟨(i 0).val, hi0⟩ (by dsimp only; omega), ← hi] at hmem
    exact hmem

end Cert.KernelIdeal.Hand

end
-- ==== Proof.KI.Pay1.lean ====
import proofs.«415291_j87935160418912_3_alg».proof.Proof.KI.Case1
import proofs.«415291_j87935160418912_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.ShloMosaic.ValueIdx

variable {F : FTy → Type} [FloatOps F]

section Pieces
variable (c : Dev nD) (i : grid1.Coords) (arg2 : Memref sig .tc .vmem S256x128 .bf16) (harg2 : arg2.IsWhole) (arg3 : Memref sig .tc .vmem S256 .i32) (harg3 : arg3.IsWhole) (arg4 : Memref sig .tc .vmem S5000x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S1x128 .f32) (harg9 : arg9.IsWhole) (arg10 : Memref sig .tc .vmem S5000x128 .f32) (harg10 : arg10.IsWhole) (arg11 : Memref sig .tc .vmem S5000x128 .f32) (harg11 : arg11.IsWhole)

theorem hzAR1 : (![0] : Fin 1 → Nat) = fun _ => 0 := funext fun a => by fin_cases a; rfl
theorem hzBR1 : (![0, 0] : Fin 2 → Nat) = fun _ => 0 := funext fun a => by fin_cases a <;> rfl

theorem sacc1_A_eq (hc0 : first1 i) (hc1 : ¬last1 i) (x0 : Vec F S256x128 .bf16) (x1 : Vec F S256 .i32) (x2 : Vec F S5000x128 .f32) (x3 : Vec F S128x128 .f32) (x4 : Vec F S128 .f32) (x5 : Vec F S128x128 .f32) (x6 : Vec F S128 .f32) (x7 : Vec F S1x128 .f32) :
    sacc1_A c i arg2 harg2 arg3 harg3 arg4 harg4 arg5 harg5 arg6 harg6 arg7 harg7 arg8 harg8 arg9 harg9 arg10 harg10 arg11 harg11 hc0 hc1 x0 x1 x2 x3 x4 x5 x6 x7 = k1_pay2 i x1 x0 (k1_pay1 (F := F)) := by
  unfold sacc1_A
  unfold run1_A
  dsimp only
  sl_unfold_words
  rw [View.canon_cons_unit_zero (S := S5000x128) hzBR1, View.readCov_unit_zero (S := S5000x128) _ hzBR1]
  simp only [View.readAt_eq_ld, harg3.read_unread, harg2.read_unread, View.ld_unit_zero (S := S256) hzAR1, View.ld_unit_zero (S := S256x128) hzBR1]

theorem sacc1_B_eq (hc0 : ¬first1 i) (hc1 : ¬last1 i) (x0 : Vec F S256x128 .bf16) (x1 : Vec F S256 .i32) (x2 : Vec F S5000x128 .f32) (x3 : Vec F S128x128 .f32) (x4 : Vec F S128 .f32) (x5 : Vec F S128x128 .f32) (x6 : Vec F S128 .f32) (x7 : Vec F S1x128 .f32) (xs : Vec F S5000x128 .f32) :
    sacc1_B c i arg2 harg2 arg3 harg3 arg4 harg4 arg5 harg5 arg6 harg6 arg7 harg7 arg8 harg8 arg9 harg9 arg10 harg10 arg11 harg11 hc0 hc1 x0 x1 x2 x3 x4 x5 x6 x7 xs = k1_pay2 i x1 x0 xs := by
  unfold sacc1_B
  unfold run1_B
  dsimp only
  sl_unfold_words
  rw [View.canon_unit_zero (S := S5000x128) hzBR1]
  simp only [View.readAt_eq_ld, harg2.read_unread, harg3.read_unread, harg4.read_unread, harg5.read_unread, harg6.read_unread, harg7.read_unread, harg8.read_unread, harg9.read_unread, harg11.read_unread, View.ld_unit_zero (S := S256) hzAR1, View.ld_unit_zero (S := S128) hzAR1, View.ld_unit_zero (S := S256x128) hzBR1, View.ld_unit_zero (S := S5000x128) hzBR1, View.ld_unit_zero (S := S128x128) hzBR1, View.ld_unit_zero (S := S1x128) hzBR1]

theorem sacc1_C_eq (hc0 : ¬first1 i) (hc1 : last1 i) (x0 : Vec F S256x128 .bf16) (x1 : Vec F S256 .i32) (x2 : Vec F S5000x128 .f32) (x3 : Vec F S128x128 .f32) (x4 : Vec F S128 .f32) (x5 : Vec F S128x128 .f32) (x6 : Vec F S128 .f32) (x7 : Vec F S1x128 .f32) (xs : Vec F S5000x128 .f32) :
    sacc1_C c i arg2 harg2 arg3 harg3 arg4 harg4 arg5 harg5 arg6 harg6 arg7 harg7 arg8 harg8 arg9 harg9 arg10 harg10 arg11 harg11 hc0 hc1 x0 x1 x2 x3 x4 x5 x6 x7 xs = k1_pay2 i x1 x0 xs := by
  unfold sacc1_C
  unfold run1_C
  dsimp only
  sl_unfold_words
  rw [View.canon_unit_zero (S := S5000x128) hzBR1]
  simp only [View.readAt_eq_ld, harg2.read_unread, harg3.read_unread, harg4.read_unread, harg5.read_unread, harg6.read_unread, harg7.read_unread, harg8.read_unread, harg9.read_unread, harg11.read_unread, View.ld_unit_zero (S := S256) hzAR1, View.ld_unit_zero (S := S128) hzAR1, View.ld_unit_zero (S := S256x128) hzBR1, View.ld_unit_zero (S := S5000x128) hzBR1, View.ld_unit_zero (S := S128x128) hzBR1, View.ld_unit_zero (S := S1x128) hzBR1]

theorem out1_C_eq (hc0 : ¬first1 i) (hc1 : last1 i) (x0 : Vec F S256x128 .bf16) (x1 : Vec F S256 .i32) (x2 : Vec F S5000x128 .f32) (x3 : Vec F S128x128 .f32) (x4 : Vec F S128 .f32) (x5 : Vec F S128x128 .f32) (x6 : Vec F S128 .f32) (x7 : Vec F S1x128 .f32) (xs : Vec F S5000x128 .f32) :
    out1_C c i arg2 harg2 arg3 harg3 arg4 harg4 arg5 harg5 arg6 harg6 arg7 harg7 arg8 harg8 arg9 harg9 arg10 harg10 arg11 harg11 hc0 hc1 x0 x1 x2 x3 x4 x5 x6 x7 xs = k1_pay3 x2 (k1_pay2 i x1 x0 xs) x3 x4 x5 x6 x7 := by
  unfold out1_C
  unfold run1_C
  dsimp only
  sl_unfold_words
  rw [View.canon_unit_zero (S := S5000x128) hzBR1, View.readCov_unit_zero (S := S5000x128) _ hzBR1]
  simp only [View.readAt_eq_ld, harg2.read_unread, harg3.read_unread, harg4.read_unread, harg5.read_unread, harg6.read_unread, harg7.read_unread, harg8.read_unread, harg9.read_unread, harg11.read_unread, View.ld_unit_zero (S := S256) hzAR1, View.ld_unit_zero (S := S128) hzAR1, View.ld_unit_zero (S := S256x128) hzBR1, View.ld_unit_zero (S := S5000x128) hzBR1, View.ld_unit_zero (S := S128x128) hzBR1, View.ld_unit_zero (S := S1x128) hzBR1]
end Pieces

abbrev dotAR1 := dot_S5000x256_S256x128_S5000x128_1_0_0_1_n_n

theorem onehotR1_scalar (a b : BitVec 32) :
    (FloatOps.sitofp (F := Ideal) .f32 ((Scalar.cmpi .eq a b).setWidth 32) : EReal) = if a = b then 1 else 0 := by
  by_cases h : a = b
  · subst h
    rw [if_pos rfl]
    have e : (Scalar.cmpi .eq a a).setWidth 32 = 1#32 := by simp [Scalar.cmpi, IntOp.cmpi]
    rw [e]
    show (((1#32 : BitVec 32).toInt : ℝ) : EReal) = 1
    rw [show (1#32 : BitVec 32).toInt = 1 from by decide]
    simp
  · rw [if_neg h]
    have e : (Scalar.cmpi .eq a b).setWidth 32 = 0#32 := by
      have hb : (a == b) = false := beq_eq_false_iff_ne.mpr h
      show BitVec.setWidth 32 (BitVec.ofBool (a == b)) = 0#32
      rw [hb]; rfl
    rw [e]
    show (((0#32 : BitVec 32).toInt : ℝ) : EReal) = 0
    rw [show (0#32 : BitVec 32).toInt = 0 from by decide]
    simp

theorem onehotR1_entry (w : BitVec 32) (d : Vec Ideal S256 .i32) (p : Fin 5000) (k : Fin 256) :
    (truncf .bf16 (sitofp .f32 (extui 32 (cmpi .eq (broadcastTo S5000x256 (addi (broadcast S5000x1 w) (iota .tc S5000x1 32 [0] iota_S5000x1_d0_w32)) broadcasts_S5000x1_S5000x256) (broadcastTo S5000x256 (shapeCast S1x256 d shapeCasts_S256_S1x256) broadcasts_S1x256_S5000x256)) natLt_1_32)) bitsLt_bf16_f32 : FVec Ideal S5000x256 .bf16) (ix2 p k)
      = if w + BitVec.ofNat 32 p.val = d (ix1 k) then 1 else 0 := by
  have eA : (broadcastTo S5000x256 (addi (broadcast S5000x1 w) (iota .tc S5000x1 32 [0] iota_S5000x1_d0_w32)) broadcasts_S5000x1_S5000x256) (ix2 p k) = w + BitVec.ofNat 32 p.val := by
    refine (broadcastTo_apply _ broadcasts_S5000x1_S5000x256 (ix2 p k) (ix2 p (0 : Fin 1)) fun ax => ?_).trans ?_
    · match ax with
      | ⟨0, _⟩ => rfl
      | ⟨1, _⟩ => rfl
    · show w + iota .tc S5000x1 32 [0] iota_S5000x1_d0_w32 (ix2 p (0 : Fin 1)) = _
      rw [iota_single_apply]
  have eB : (broadcastTo S5000x256 (shapeCast S1x256 d shapeCasts_S256_S1x256) broadcasts_S1x256_S5000x256) (ix2 p k) = d (ix1 k) :=
    (broadcastTo_1b_ab_apply _ broadcasts_S1x256_S5000x256 p k).trans (shapeCast_a_1a_apply d shapeCasts_S256_S1x256 0 k)
  show FloatOps.sitofp (F := Ideal) .f32 ((Scalar.cmpi .eq _ _).setWidth 32) = _
  rw [eA, eB]
  exact onehotR1_scalar _ _

abbrev dotBR1 := dot_S5000x128_S128x128_S5000x128_1_0_0_1_n_n

theorem dotAR1_lhs (p : Fin 5000) (q : Fin 128) (k : Fin 256) :
    dotAR1.lhsIdx (ix2 p q) ((contrEquiv1 dotAR1 256 rfl rfl).symm k) = ix2 p k := by
  funext a
  match a with
  | ⟨0, _⟩ => rfl
  | ⟨1, _⟩ => rfl
theorem dotAR1_rhs (p : Fin 5000) (q : Fin 128) (k : Fin 256) :
    dotAR1.rhsIdx (ix2 p q) ((contrEquiv1 dotAR1 256 rfl rfl).symm k) = ix2 k q := by
  funext a
  match a with
  | ⟨0, _⟩ => rfl
  | ⟨1, _⟩ => rfl
theorem dotBR1_lhs (p : Fin 5000) (q : Fin 128) (k : Fin 128) :
    dotBR1.lhsIdx (ix2 p q) ((contrEquiv1 dotBR1 128 rfl rfl).symm k) = ix2 p k := by
  funext a
  match a with
  | ⟨0, _⟩ => rfl
  | ⟨1, _⟩ => rfl
theorem dotBR1_rhs (p : Fin 5000) (q : Fin 128) (k : Fin 128) :
    dotBR1.rhsIdx (ix2 p q) ((contrEquiv1 dotBR1 128 rfl rfl).symm k) = ix2 k q := by
  funext a
  match a with
  | ⟨0, _⟩ => rfl
  | ⟨1, _⟩ => rfl

def chunkTermR1 (w : BitVec 32) (d : Vec Ideal S256 .i32) (g : Vec Ideal S256x128 .bf16) (p : Fin 5000) (q : Fin 128) : EReal :=
  ∑ k : Fin 256, (if w + BitVec.ofNat 32 p.val = d (ix1 k) then (1 : EReal) else 0) * g (ix2 k q)

theorem pay2R1_apply (i : grid1.Coords) (d : Vec Ideal S256 .i32) (g : Vec Ideal S256x128 .bf16) (a : Vec Ideal S5000x128 .f32) (p : Fin 5000) (q : Fin 128) :
    (k1_pay2 (F := Ideal) i d g a) (ix2 p q) = a (ix2 p q) + chunkTermR1 (Scalar.muli (BitVec.ofNat 32 (i 0).val) 5000#32) d g p q := by
  unfold k1_pay2
  dsimp only
  refine (congrFun (shapeCast_self _ _) (ix2 p q)).trans ?_
  refine congrArg (a (ix2 p q) + ·) ?_
  refine (Ideal.matmul_constant_zero_apply dotAR1 none _ _ (ix2 p q)).trans ?_
  refine (Equiv.sum_comp (contrEquiv1 dotAR1 256 rfl rfl).symm _).symm.trans ?_
  unfold chunkTermR1
  refine Finset.sum_congr rfl fun k _ => ?_
  exact congrArg₂ (· * ·) ((congrArg _ (dotAR1_lhs p q k)).trans (onehotR1_entry _ d p k))
    ((congrArg _ (dotAR1_rhs p q k)).trans (congrFun (shapeCast_self g _) (ix2 k q)))

theorem pay3R1_apply (h a : Vec Ideal S5000x128 .f32) (W3 : Vec Ideal S128x128 .f32) (b4 : Vec Ideal S128 .f32) (W5 : Vec Ideal S128x128 .f32) (b6 : Vec Ideal S128 .f32) (r7 : Vec Ideal S1x128 .f32) (p : Fin 5000) (q : Fin 128) :
    (k1_pay3 (F := Ideal) h a W3 b4 W5 b6 r7) (ix2 p q)
      = max ((((∑ k : Fin 128, h (ix2 p k) * W3 (ix2 k q)) + b4 (ix1 q))
          + ((∑ k : Fin 128, (a (ix2 p k) + h (ix2 p k)) * W5 (ix2 k q)) + b6 (ix1 q)))
          + r7 (ix2 (0 : Fin 1) q)) 0 := by
  unfold k1_pay3
  refine (maximumf_apply _ _ (ix2 p q)).trans ?_
  refine congrArg₂ max ?_ Ideal.ofBits_zero_f32
  refine (addf_apply _ _ (ix2 p q)).trans ?_
  refine congrArg₂ (· + ·) ?_ ((broadcastTo_1b_ab_apply _ broadcasts_S1x128_S5000x128 p q).trans (congrFun (shapeCast_self r7 _) (ix2 (0 : Fin 1) q)))
  refine (addf_apply _ _ (ix2 p q)).trans ?_
  refine congrArg₂ (· + ·) ?_ ?_
  · refine (addf_apply _ _ (ix2 p q)).trans ?_
    refine congrArg₂ (· + ·) ?_ ?_
    · refine (Ideal.matmul_constant_zero_apply dotBR1 none _ _ (ix2 p q)).trans ?_
      refine (Equiv.sum_comp (contrEquiv1 dotBR1 128 rfl rfl).symm _).symm.trans ?_
      refine Finset.sum_congr rfl fun k _ => ?_
      exact congrArg₂ (· * ·) (congrArg _ (dotBR1_lhs p q k))
        ((congrArg _ (dotBR1_rhs p q k)).trans (congrFun (shapeCast_self W3 _) (ix2 k q)))
    · exact (broadcastTo_1b_ab_apply _ broadcasts_S1x128_S5000x128 p q).trans
        ((shapeCast_a_1a_apply _ shapeCasts_S128_S1x128 0 q).trans (congrFun (shapeCast_self b4 _) (ix1 q)))
  · refine (addf_apply _ _ (ix2 p q)).trans ?_
    refine congrArg₂ (· + ·) ?_ ?_
    · refine (Ideal.matmul_constant_zero_apply dotBR1 none _ _ (ix2 p q)).trans ?_
      refine (Equiv.sum_comp (contrEquiv1 dotBR1 128 rfl rfl).symm _).symm.trans ?_
      refine Finset.sum_congr rfl fun k _ => ?_
      exact congrArg₂ (· * ·) ((congrArg _ (dotBR1_lhs p q k)).trans (addf_apply a h (ix2 p k)))
        ((congrArg _ (dotBR1_rhs p q k)).trans (congrFun (shapeCast_self W5 _) (ix2 k q)))
    · exact (broadcastTo_1b_ab_apply _ broadcasts_S1x128_S5000x128 p q).trans
        ((shapeCast_a_1a_apply _ shapeCasts_S128_S1x128 0 q).trans (congrFun (shapeCast_self b6 _) (ix1 q)))

theorem pay1R1_apply (p : Fin 5000) (q : Fin 128) : (k1_pay1 (F := Ideal)) (ix2 p q) = 0 := by
  unfold k1_pay1
  exact (congrFun (shapeCast_self _ _) (ix2 p q)).trans Ideal.ofBits_zero_f32

-- 3125 chunks of 256 consecutive edges are the 800000 edges, so a sum over chunks of sums within a chunk is the sum over all edges.
theorem sumR1_chunks (E : Fin 800000 → EReal) (A : ℕ → EReal)
    (hA : ∀ s : Fin 3125, A s.val = ∑ j : Fin 256, E ⟨256 * s.val + j.val, by have := s.isLt; have := j.isLt; omega⟩) :
    ∑ s ∈ Finset.range 3125, A s = ∑ e : Fin 800000, E e := by
  rw [Finset.sum_range]
  refine Eq.trans ?_ (Equiv.sum_comp (finProdFinEquiv (m := 3125) (n := 256)) E)
  rw [Fintype.sum_prod_type]
  refine Finset.sum_congr rfl fun s _ => (hA s).trans (Finset.sum_congr rfl fun j _ => congrArg E (Fin.ext ?_))
  show 256 * s.val + j.val = ((finProdFinEquiv (s, j) : Fin (3125 * 256)) : ℕ)
  rw [finProdFinEquiv_apply_val]
  dsimp only
  omega

theorem nodeR1_word (b p : ℕ) : Scalar.muli (BitVec.ofNat 32 b) 5000#32 + BitVec.ofNat 32 p = BitVec.ofNat 32 (5000 * b + p) := by
  show BitVec.ofNat 32 b * BitVec.ofNat 32 5000 + BitVec.ofNat 32 p = _
  rw [← BitVec.ofNat_mul, ← BitVec.ofNat_add, Nat.mul_comm]

theorem combineR1_apply (h agg : Cert.Spec.SN.Idx → EReal) (vwt : Cert.Spec.SW.Idx → EReal) (vb : Cert.Spec.SB.Idx → EReal)
    (awt : Cert.Spec.SW.Idx → EReal) (ab : Cert.Spec.SB.Idx → EReal) (rr : Cert.Spec.SR.Idx → EReal) (r : Fin 50000) (q : Fin 128) :
    Cert.Spec.combine h agg vwt vb awt ab rr (ix2 r q)
      = max ((((∑ k : Fin 128, h (ix2 r k) * vwt (ix2 k q)) + vb (ix1 q))
          + ((∑ k : Fin 128, agg (ix2 r k) * awt (ix2 k q)) + ab (ix1 q)))
          + rr (ix2 (0 : Fin 1) q)) 0 := rfl

end Cert.KernelIdeal.Hand

end
-- ==== Proof.KI.Val1.lean ====
import proofs.«415291_j87935160418912_3_alg».proof.Proof.KI.Dat1
import proofs.«415291_j87935160418912_3_alg».proof.Proof.KI.Pay1
import proofs.«415291_j87935160418912_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.ShloMosaic.ValueIdx

variable {F : FTy → Type} [FloatOps F]

theorem coordR1_0 (t : Fin cfg1.N) : ((grid1.coords t) 0).val = t.val / 3125 % 10 := by
  show t.val / grid1.stride 0 % 10 = _
  rw [show grid1.stride 0 = 3125 from by decide]

theorem idxR1_0 (t : Fin cfg1.N) : win1_0.index t = ![t.val % 3125, 0] := by
  show cc1_transform_0 (grid1.coords t) = _
  unfold cc1_transform_0
  dsimp only
  rw [coord1_1 t, BitVec.toNat_ofNat, Nat.mod_eq_of_lt (by omega : t.val % 3125 < 2 ^ 32)]
  rfl
theorem idxR1_1 (t : Fin cfg1.N) : win1_1.index t = ![t.val % 3125] := by
  show cc1_transform_1 (grid1.coords t) = _
  unfold cc1_transform_1
  dsimp only
  rw [coord1_1 t, BitVec.toNat_ofNat, Nat.mod_eq_of_lt (by omega : t.val % 3125 < 2 ^ 32)]
theorem idxR1_2 (t : Fin cfg1.N) : win1_2.index t = ![t.val / 3125 % 10, 0] := by
  show cc1_transform_2 (grid1.coords t) = _
  unfold cc1_transform_2
  dsimp only
  rw [coordR1_0 t, BitVec.toNat_ofNat, Nat.mod_eq_of_lt (by omega : t.val / 3125 % 10 < 2 ^ 32)]
  rfl
theorem idxR1_3 (t : Fin cfg1.N) : win1_3.index t = ![0, 0] := rfl
theorem idxR1_4 (t : Fin cfg1.N) : win1_4.index t = ![0] := rfl
theorem idxR1_5 (t : Fin cfg1.N) : win1_5.index t = ![0, 0] := rfl
theorem idxR1_6 (t : Fin cfg1.N) : win1_6.index t = ![0] := rfl
theorem idxR1_7 (t : Fin cfg1.N) : win1_7.index t = ![0, 0] := rfl

section Region
variable (V : (c : Dev nD) → (b : Ref sig .tc) → Buf (Elt Ideal) ((c : Thread nD τ).loc b))

theorem iblkR1_0_apply (c : Dev nD) (t : Fin cfg1.N) (k : Fin 256) (q : Fin 128) (e : Fin 800000) (he : e.val = 256 * (t.val % 3125) + k.val) :
    (iblk1 V c 0 t : Vec Ideal S256x128 .bf16) (ix2 k q) = (V c (Pipeline.arrRef spec1 0) : Cert.Spec.SG.Idx → EReal) (ix2 e q) := by
  unfold iblk1
  rw [View.read_apply]
  show (V c (Pipeline.arrRef spec1 0) : Cert.Spec.SG.Idx → EReal) _ = _
  congr 1
  funext a
  apply Fin.ext
  match a with
  | ⟨0, _⟩ =>
    show win1_0.index t 0 * 256 + 1 * k.val = e.val
    rw [idxR1_0, he, show (![t.val % 3125, 0] : Fin 2 → ℕ) 0 = t.val % 3125 from rfl]; omega
  | ⟨1, _⟩ =>
    show win1_0.index t 1 * 128 + 1 * q.val = q.val
    rw [idxR1_0, show (![t.val % 3125, 0] : Fin 2 → ℕ) 1 = 0 from rfl]; omega

theorem iblkR1_1_apply (c : Dev nD) (t : Fin cfg1.N) (k : Fin 256) (e : Fin 800000) (he : e.val = 256 * (t.val % 3125) + k.val) :
    (iblk1 V c 1 t : Vec Ideal S256 .i32) (ix1 k) = (V c (Pipeline.arrRef spec1 1) : Cert.Spec.SE.Idx → BitVec 32) (ix1 e) := by
  unfold iblk1
  rw [View.read_apply]
  show (V c (Pipeline.arrRef spec1 1) : Cert.Spec.SE.Idx → BitVec 32) _ = _
  congr 1
  funext a
  apply Fin.ext
  match a with
  | ⟨0, _⟩ =>
    show win1_1.index t 0 * 256 + 1 * k.val = e.val
    rw [idxR1_1, he, show (![t.val % 3125] : Fin 1 → ℕ) 0 = t.val % 3125 from rfl]; omega

theorem iblkR1_2_apply (c : Dev nD) (t : Fin cfg1.N) (p : Fin 5000) (q : Fin 128) (r : Fin 50000) (hr : r.val = 5000 * (t.val / 3125 % 10) + p.val) :
    (iblk1 V c 2 t : Vec Ideal S5000x128 .f32) (ix2 p q) = (V c (Pipeline.arrRef spec1 2) : Cert.Spec.SN.Idx → EReal) (ix2 r q) := by
  unfold iblk1
  rw [View.read_apply]
  show (V c (Pipeline.arrRef spec1 2) : Cert.Spec.SN.Idx → EReal) _ = _
  congr 1
  funext a
  apply Fin.ext
  match a with
  | ⟨0, _⟩ =>
    show win1_2.index t 0 * 5000 + 1 * p.val = r.val
    rw [idxR1_2, hr, show (![t.val / 3125 % 10, 0] : Fin 2 → ℕ) 0 = t.val / 3125 % 10 from rfl]; omega
  | ⟨1, _⟩ =>
    show win1_2.index t 1 * 128 + 1 * q.val = q.val
    rw [idxR1_2, show (![t.val / 3125 % 10, 0] : Fin 2 → ℕ) 1 = 0 from rfl]; omega

theorem iblkR1_3_apply (c : Dev nD) (t : Fin cfg1.N) (k : Fin 128) (q : Fin 128) :
    (iblk1 V c 3 t : Vec Ideal S128x128 .f32) (ix2 k q) = (V c (Pipeline.arrRef spec1 3) : Cert.Spec.SW.Idx → EReal) (ix2 k q) := by
  unfold iblk1
  rw [View.read_apply]
  show (V c (Pipeline.arrRef spec1 3) : Cert.Spec.SW.Idx → EReal) _ = _
  congr 1
  funext a
  apply Fin.ext
  match a with
  | ⟨0, _⟩ => show win1_3.index t 0 * 128 + 1 * k.val = k.val; rw [idxR1_3, show (![0, 0] : Fin 2 → ℕ) 0 = 0 from rfl]; omega
  | ⟨1, _⟩ => show win1_3.index t 1 * 128 + 1 * q.val = q.val; rw [idxR1_3, show (![0, 0] : Fin 2 → ℕ) 1 = 0 from rfl]; omega
theorem iblkR1_4_apply (c : Dev nD) (t : Fin cfg1.N) (q : Fin 128) :
    (iblk1 V c 4 t : Vec Ideal S128 .f32) (ix1 q) = (V c (Pipeline.arrRef spec1 4) : Cert.Spec.SB.Idx → EReal) (ix1 q) := by
  unfold iblk1
  rw [View.read_apply]
  show (V c (Pipeline.arrRef spec1 4) : Cert.Spec.SB.Idx → EReal) _ = _
  congr 1
  funext a
  apply Fin.ext
  match a with
  | ⟨0, _⟩ => show win1_4.index t 0 * 128 + 1 * q.val = q.val; rw [idxR1_4, show (![0] : Fin 1 → ℕ) 0 = 0 from rfl]; omega
theorem iblkR1_5_apply (c : Dev nD) (t : Fin cfg1.N) (k : Fin 128) (q : Fin 128) :
    (iblk1 V c 5 t : Vec Ideal S128x128 .f32) (ix2 k q) = (V c (Pipeline.arrRef spec1 5) : Cert.Spec.SW.Idx → EReal) (ix2 k q) := by
  unfold iblk1
  rw [View.read_apply]
  show (V c (Pipeline.arrRef spec1 5) : Cert.Spec.SW.Idx → EReal) _ = _
  congr 1
  funext a
  apply Fin.ext
  match a with
  | ⟨0, _⟩ => show win1_5.index t 0 * 128 + 1 * k.val = k.val; rw [idxR1_5, show (![0, 0] : Fin 2 → ℕ) 0 = 0 from rfl]; omega
  | ⟨1, _⟩ => show win1_5.index t 1 * 128 + 1 * q.val = q.val; rw [idxR1_5, show (![0, 0] : Fin 2 → ℕ) 1 = 0 from rfl]; omega
theorem iblkR1_6_apply (c : Dev nD) (t : Fin cfg1.N) (q : Fin 128) :
    (iblk1 V c 6 t : Vec Ideal S128 .f32) (ix1 q) = (V c (Pipeline.arrRef spec1 6) : Cert.Spec.SB.Idx → EReal) (ix1 q) := by
  unfold iblk1
  rw [View.read_apply]
  show (V c (Pipeline.arrRef spec1 6) : Cert.Spec.SB.Idx → EReal) _ = _
  congr 1
  funext a
  apply Fin.ext
  match a with
  | ⟨0, _⟩ => show win1_6.index t 0 * 128 + 1 * q.val = q.val; rw [idxR1_6, show (![0] : Fin 1 → ℕ) 0 = 0 from rfl]; omega
theorem iblkR1_7_apply (c : Dev nD) (t : Fin cfg1.N) (q : Fin 128) :
    (iblk1 V c 7 t : Vec Ideal S1x128 .f32) (ix2 (0 : Fin 1) q) = (V c (Pipeline.arrRef spec1 7) : Cert.Spec.SR.Idx → EReal) (ix2 (0 : Fin 1) q) := by
  unfold iblk1
  rw [View.read_apply]
  show (V c (Pipeline.arrRef spec1 7) : Cert.Spec.SR.Idx → EReal) _ = _
  congr 1
  funext a
  apply Fin.ext
  match a with
  | ⟨0, _⟩ => show win1_7.index t 0 * 1 + 1 * 0 = 0; rw [idxR1_7, show (![0, 0] : Fin 2 → ℕ) 0 = 0 from rfl]
  | ⟨1, _⟩ => show win1_7.index t 1 * 128 + 1 * q.val = q.val; rw [idxR1_7, show (![0, 0] : Fin 2 → ℕ) 1 = 0 from rfl]; omega

end Region

section Region
variable (V : (c : Dev nD) → (b : Ref sig .tc) → Buf (Elt Ideal) ((c : Thread nD τ).loc b))

def addendR1 (c : Dev nD) (n : ℕ) (p : Fin 5000) (q : Fin 128) : EReal :=
  if h : n < cfg1.N then
    chunkTermR1 (Scalar.muli (BitVec.ofNat 32 ((grid1.coords ⟨n, h⟩) 0).val) 5000#32) (iblk1 V c 1 ⟨n, h⟩) (iblk1 V c 0 ⟨n, h⟩) p q
  else 0

theorem addendR1_at (c : Dev nD) (t : Fin cfg1.N) (p : Fin 5000) (q : Fin 128) :
    addendR1 V c t.val p q
      = chunkTermR1 (Scalar.muli (BitVec.ofNat 32 ((grid1.coords t) 0).val) 5000#32) (iblk1 V c 1 t) (iblk1 V c 0 t) p q := by
  unfold addendR1
  rw [dif_pos t.isLt]

theorem stepR1 (c : Dev nD) (t : Fin cfg1.N) (p : Fin 5000) (q : Fin 128) :
    (outsAt1 V c t.val t.isLt).2 (ix2 p q)
      = (if t.val % 3125 = 0 then 0 else (outsAt1 V c (t.val - 1) (Nat.lt_of_le_of_lt (Nat.sub_le _ _) t.isLt)).2 (ix2 p q))
        + addendR1 V c t.val p q := by
  rw [addendR1_at]
  by_cases h0 : t.val % 3125 = 0
  · have h1 : ¬t.val % 3125 = 3124 := by omega
    rw [outsAt1_A V c t h0 h1, if_pos h0]
    dsimp only
    unfold accA1
    refine (congrFun (sacc1_A_eq (F := Ideal) c (grid1.coords t) (stg1_0 t) (hstg1_0 t) (stg1_1 t) (hstg1_1 t) (stg1_2 t) (hstg1_2 t) (stg1_3 t) (hstg1_3 t) (stg1_4 t) (hstg1_4 t) (stg1_5 t) (hstg1_5 t) (stg1_6 t) (hstg1_6 t) (stg1_7 t) (hstg1_7 t) (stg1_8 t) (hstg1_8 t) acc1 (Memref.isWhole_whole _) ((hfirst1 t).mpr h0) (fun h => h1 ((hlast1 t).mp h)) (iblk1 V c 0 t) (iblk1 V c 1 t) (iblk1 V c 2 t) (iblk1 V c 3 t) (iblk1 V c 4 t) (iblk1 V c 5 t) (iblk1 V c 6 t) (iblk1 V c 7 t)) (ix2 p q)).trans ?_
    refine (pay2R1_apply (grid1.coords t) (iblk1 V c 1 t) (iblk1 V c 0 t) (k1_pay1 (F := Ideal)) p q).trans ?_
    rw [pay1R1_apply]
  · rw [if_neg h0]
    by_cases h1 : t.val % 3125 = 3124
    · rw [outsAt1_C V c t h0 h1]
      dsimp only
      unfold accC1
      refine (congrFun (sacc1_C_eq (F := Ideal) c (grid1.coords t) (stg1_0 t) (hstg1_0 t) (stg1_1 t) (hstg1_1 t) (stg1_2 t) (hstg1_2 t) (stg1_3 t) (hstg1_3 t) (stg1_4 t) (hstg1_4 t) (stg1_5 t) (hstg1_5 t) (stg1_6 t) (hstg1_6 t) (stg1_7 t) (hstg1_7 t) (stg1_8 t) (hstg1_8 t) acc1 (Memref.isWhole_whole _) (fun h => h0 ((hfirst1 t).mp h)) ((hlast1 t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2) (ix2 p q)).trans ?_
      exact pay2R1_apply (grid1.coords t) (iblk1 V c 1 t) (iblk1 V c 0 t) _ p q
    · rw [outsAt1_B V c t h0 h1]
      dsimp only
      unfold accB1
      refine (congrFun (sacc1_B_eq (F := Ideal) c (grid1.coords t) (stg1_0 t) (hstg1_0 t) (stg1_1 t) (hstg1_1 t) (stg1_2 t) (hstg1_2 t) (stg1_3 t) (hstg1_3 t) (stg1_4 t) (hstg1_4 t) (stg1_5 t) (hstg1_5 t) (stg1_6 t) (hstg1_6 t) (stg1_7 t) (hstg1_7 t) (stg1_8 t) (hstg1_8 t) acc1 (Memref.isWhole_whole _) (fun h => h0 ((hfirst1 t).mp h)) (fun h => h1 ((hlast1 t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2) (ix2 p q)).trans ?_
      exact pay2R1_apply (grid1.coords t) (iblk1 V c 1 t) (iblk1 V c 0 t) _ p q

end Region

section Region
variable (V : (c : Dev nD) → (b : Ref sig .tc) → Buf (Elt Ideal) ((c : Thread nD τ).loc b))

theorem accR1_eq (c : Dev nD) (p : Fin 5000) (q : Fin 128) : ∀ (n : ℕ) (hn : n < cfg1.N),
    (outsAt1 V c n hn).2 (ix2 p q) = ∑ s ∈ Finset.range (n % 3125 + 1), addendR1 V c (n - n % 3125 + s) p q := by
  intro n
  induction n with
  | zero =>
    intro hn
    refine (stepR1 V c ⟨0, hn⟩ p q).trans ?_
    dsimp only
    rw [if_pos (Nat.zero_mod _), zero_add]
    simp
  | succ m ih =>
    intro hn
    have hm : m < cfg1.N := Nat.lt_of_succ_lt hn
    refine (stepR1 V c ⟨m + 1, hn⟩ p q).trans ?_
    dsimp only
    by_cases h0 : (m + 1) % 3125 = 0
    · rw [if_pos h0, h0, zero_add, Nat.zero_add, Finset.sum_range_one, Nat.sub_zero, Nat.add_zero]
    · rw [if_neg h0]
      have same : ∀ (u : ℕ) (hu : u < cfg1.N), u = m → (outsAt1 V c u hu).2 = (outsAt1 V c m hm).2 :=
        fun u hu e => by subst e; rfl
      rw [same (m + 1 - 1) _ (Nat.add_sub_cancel m 1), ih hm]
      have e1 : m % 3125 + 1 = (m + 1) % 3125 := by omega
      have e2 : m - m % 3125 = (m + 1) - (m + 1) % 3125 := by omega
      have e3 : (m + 1) - (m + 1) % 3125 + (m + 1) % 3125 = m + 1 := by omega
      rw [Finset.sum_range_succ _ ((m + 1) % 3125), e3, ← e2, ← e1]

end Region

section Region
variable (V : (c : Dev nD) → (b : Ref sig .tc) → Buf (Elt Ideal) ((c : Thread nD τ).loc b))

theorem scatR1_eq (c : Dev nD) (t : Fin cfg1.N) (h1 : t.val % 3125 = 3124) (p : Fin 5000) (k : Fin 128) (r : Fin 50000)
    (hr : r.val = 5000 * (t.val / 3125 % 10) + p.val) :
    (outsAt1 V c t.val t.isLt).2 (ix2 p k)
      = Cert.Spec.scattered (V c (Pipeline.arrRef spec1 1)) (V c (Pipeline.arrRef spec1 0)) (ix2 r k) := by
  have hN : cfg1.N = 31250 := N_1
  have hlt : t.val < cfg1.N := t.isLt
  rw [accR1_eq V c p k t.val t.isLt, h1]
  unfold Cert.Spec.scattered
  refine sumR1_chunks (fun e => if (V c (Pipeline.arrRef spec1 1) : Cert.Spec.SE.Idx → BitVec 32) (ix1 e) = BitVec.ofNat 32 r.val
      then (V c (Pipeline.arrRef spec1 0) : Cert.Spec.SG.Idx → EReal) (ix2 e k) else 0) _ fun s => ?_
  have hs := s.isLt
  have ht' : t.val - 3124 + s.val < cfg1.N := by omega
  refine (addendR1_at V c ⟨t.val - 3124 + s.val, ht'⟩ p k).trans ?_
  unfold chunkTermR1
  refine Finset.sum_congr rfl fun j _ => ?_
  have hj := j.isLt
  have he : (⟨256 * s.val + j.val, by omega⟩ : Fin 800000).val = 256 * ((⟨t.val - 3124 + s.val, ht'⟩ : Fin cfg1.N).val % 3125) + j.val := by
    show 256 * s.val + j.val = 256 * ((t.val - 3124 + s.val) % 3125) + j.val
    omega
  rw [iblkR1_1_apply V c ⟨t.val - 3124 + s.val, ht'⟩ j ⟨256 * s.val + j.val, by omega⟩ he,
    iblkR1_0_apply V c ⟨t.val - 3124 + s.val, ht'⟩ j k ⟨256 * s.val + j.val, by omega⟩ he,
    coordR1_0 ⟨t.val - 3124 + s.val, ht'⟩, nodeR1_word]
  have hb : (⟨t.val - 3124 + s.val, ht'⟩ : Fin cfg1.N).val / 3125 % 10 = t.val / 3125 % 10 := by
    show (t.val - 3124 + s.val) / 3125 % 10 = t.val / 3125 % 10
    omega
  rw [hb, ← hr]
  by_cases hd : (V c (Pipeline.arrRef spec1 1) : Cert.Spec.SE.Idx → BitVec 32) (ix1 ⟨256 * s.val + j.val, by omega⟩) = BitVec.ofNat 32 r.val
  · rw [if_pos hd, if_pos hd.symm, one_mul]
  · rw [if_neg hd, if_neg (fun h => hd h.symm), zero_mul]

end Region

section Region
variable (V : (c : Dev nD) → (b : Ref sig .tc) → Buf (Elt Ideal) ((c : Thread nD τ).loc b))

abbrev resR1 (c : Dev nD) : Cert.Spec.SN.Idx → EReal :=
  Cert.Spec.combine (V c (Pipeline.arrRef spec1 2))
    (Cert.Spec.aggregated (V c (Pipeline.arrRef spec1 1)) (V c (Pipeline.arrRef spec1 0)) (V c (Pipeline.arrRef spec1 2)))
    (V c (Pipeline.arrRef spec1 3)) (V c (Pipeline.arrRef spec1 4)) (V c (Pipeline.arrRef spec1 5)) (V c (Pipeline.arrRef spec1 6))
    (V c (Pipeline.arrRef spec1 7))

theorem outR1_apply (c : Dev nD) (t : Fin cfg1.N) (h1 : t.val % 3125 = 3124) (p : Fin 5000) (q : Fin 128) (r : Fin 50000)
    (hr : r.val = 5000 * (t.val / 3125 % 10) + p.val) :
    (outsAt1 V c t.val t.isLt).1 (ix2 p q) = resR1 V c (ix2 r q) := by
  have h0 : ¬t.val % 3125 = 0 := by omega
  have hacc : k1_pay2 (F := Ideal) (grid1.coords t) (iblk1 V c 1 t) (iblk1 V c 0 t) (outsAt1 V c (t.val - 1) (Nat.lt_of_le_of_lt (Nat.sub_le _ _) t.isLt)).2
      = (outsAt1 V c t.val t.isLt).2 := by
    rw [outsAt1_C V c t h0 h1]
    dsimp only
    unfold accC1
    exact (sacc1_C_eq (F := Ideal) c (grid1.coords t) (stg1_0 t) (hstg1_0 t) (stg1_1 t) (hstg1_1 t) (stg1_2 t) (hstg1_2 t) (stg1_3 t) (hstg1_3 t) (stg1_4 t) (hstg1_4 t) (stg1_5 t) (hstg1_5 t) (stg1_6 t) (hstg1_6 t) (stg1_7 t) (hstg1_7 t) (stg1_8 t) (hstg1_8 t) acc1 (Memref.isWhole_whole _) (fun h => h0 ((hfirst1 t).mp h)) ((hlast1 t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2).symm
  have hout : (outsAt1 V c t.val t.isLt).1 = k1_pay3 (F := Ideal) (iblk1 V c 2 t) (outsAt1 V c t.val t.isLt).2 (iblk1 V c 3 t) (iblk1 V c 4 t) (iblk1 V c 5 t) (iblk1 V c 6 t) (iblk1 V c 7 t) := by
    rw [← hacc, outsAt1_C V c t h0 h1]
    dsimp only
    unfold outC1
    exact out1_C_eq (F := Ideal) c (grid1.coords t) (stg1_0 t) (hstg1_0 t) (stg1_1 t) (hstg1_1 t) (stg1_2 t) (hstg1_2 t) (stg1_3 t) (hstg1_3 t) (stg1_4 t) (hstg1_4 t) (stg1_5 t) (hstg1_5 t) (stg1_6 t) (hstg1_6 t) (stg1_7 t) (hstg1_7 t) (stg1_8 t) (hstg1_8 t) acc1 (Memref.isWhole_whole _) (fun h => h0 ((hfirst1 t).mp h)) ((hlast1 t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2
  rw [hout]
  refine (pay3R1_apply (iblk1 V c 2 t) (outsAt1 V c t.val t.isLt).2 (iblk1 V c 3 t) (iblk1 V c 4 t) (iblk1 V c 5 t) (iblk1 V c 6 t) (iblk1 V c 7 t) p q).trans ?_
  refine Eq.trans ?_ (combineR1_apply _ _ _ _ _ _ _ r q).symm
  refine congrArg₂ max ?_ rfl
  refine congrArg₂ (· + ·) (congrArg₂ (· + ·) (congrArg₂ (· + ·) ?_ ?_) (congrArg₂ (· + ·) ?_ ?_)) ?_
  · exact Finset.sum_congr rfl fun k _ => by rw [iblkR1_2_apply V c t p k r hr, iblkR1_3_apply V c t k q]
  · exact iblkR1_4_apply V c t q
  · refine Finset.sum_congr rfl fun k _ => ?_
    rw [scatR1_eq V c t h1 p k r hr, iblkR1_2_apply V c t p k r hr, iblkR1_5_apply V c t k q]
    rfl
  · exact iblkR1_6_apply V c t q
  · exact iblkR1_7_apply V c t q

end Region

section Region
variable (V : (c : Dev nD) → (b : Ref sig .tc) → Buf (Elt Ideal) ((c : Thread nD τ).loc b))

theorem flushedR1_eq (c : Dev nD) (t : Fin cfg1.N) (hf : (cfg1.win 8).flush t = true) :
    (dat1 V c).flushed 8 t = ((cfg1.win 8).blk t).view.read (Elt Ideal) (resR1 V c) := by
  have h1 : t.val % 3125 = 3124 := (flushOut1 t).mp hf
  have hN : cfg1.N = 31250 := N_1
  have hlt : t.val < cfg1.N := t.isLt
  funext y
  have hp : (y 0).val < 5000 := (y 0).isLt
  have hq : (y 1).val < 128 := (y 1).isLt
  have hr : 5000 * (t.val / 3125 % 10) + (y 0).val < 50000 := by omega
  have e := outR1_apply V c t h1 ⟨(y 0).val, hp⟩ ⟨(y 1).val, hq⟩ ⟨5000 * (t.val / 3125 % 10) + (y 0).val, hr⟩ rfl
  have ey : (cfg1.win 8).xinj (grid1.coords t) y = ix2 (⟨(y 0).val, hp⟩ : Fin 5000) (⟨(y 1).val, hq⟩ : Fin 128) :=
    funext fun a => match a with
      | ⟨0, _⟩ => rfl
      | ⟨1, _⟩ => rfl
  show (dat1 V c).after 8 t ((cfg1.win 8).xinj (grid1.coords t) y) = _
  rw [after1_8, View.read_apply, ey, e]
  show resR1 V c _ = resR1 V c (((cfg1.win 8).blk t).view.emb y)
  refine congrArg (resR1 V c) (funext fun a => Fin.ext ?_)
  match a with
  | ⟨0, _⟩ =>
    show 5000 * (t.val / 3125 % 10) + (y 0).val = win1_8.index t 0 * 5000 + 1 * (y 0).val
    rw [blk1_out, show (![t.val / 3125 % 10, 0] : Fin 2 → ℕ) 0 = t.val / 3125 % 10 from rfl]; omega
  | ⟨1, _⟩ =>
    show (y 1).val = win1_8.index t 1 * 128 + 1 * (y 1).val
    rw [blk1_out, show (![t.val / 3125 % 10, 0] : Fin 2 → ℕ) 1 = 0 from rfl]; omega

end Region

section Region
variable (V : (c : Dev nD) → (b : Ref sig .tc) → Buf (Elt Ideal) ((c : Thread nD τ).loc b))

theorem coverR1 (i : Cert.Spec.SN.Idx) :
    ∃ t : Fin cfg1.N, (cfg1.win 8).flush t = true ∧ i ∈ ((cfg1.win 8).blk t).view.set := by
  have hN : cfg1.N = 31250 := N_1
  have h0 : (i 0).val < 50000 := (i 0).isLt
  have h1 : (i 1).val < 128 := (i 1).isLt
  have ht : 3125 * ((i 0).val / 5000) + 3124 < cfg1.N := by omega
  refine ⟨⟨3125 * ((i 0).val / 5000) + 3124, ht⟩, (flushOut1 _).mpr (by show (3125 * ((i 0).val / 5000) + 3124) % 3125 = 3124; omega), ?_⟩
  show i ∈ ((View.whole (Pipeline.arrRef spec1 8)).slice (win1_8.rect ⟨3125 * ((i 0).val / 5000) + 3124, ht⟩)).set
  rw [View.set_slice_whole, Rect.mem_set_unit]
  intro a
  match a with
  | ⟨0, _⟩ =>
    show win1_8.index ⟨3125 * ((i 0).val / 5000) + 3124, ht⟩ 0 * 5000 ≤ (i 0).val ∧ (i 0).val < win1_8.index ⟨3125 * ((i 0).val / 5000) + 3124, ht⟩ 0 * 5000 + 5000
    rw [blk1_out, show (![(3125 * ((i 0).val / 5000) + 3124) / 3125 % 10, 0] : Fin 2 → ℕ) 0 = (3125 * ((i 0).val / 5000) + 3124) / 3125 % 10 from rfl]
    omega
  | ⟨1, _⟩ =>
    show win1_8.index ⟨3125 * ((i 0).val / 5000) + 3124, ht⟩ 1 * 128 ≤ (i 1).val ∧ (i 1).val < win1_8.index ⟨3125 * ((i 0).val / 5000) + 3124, ht⟩ 1 * 128 + 128
    rw [blk1_out, show (![(3125 * ((i 0).val / 5000) + 3124) / 3125 % 10, 0] : Fin 2 → ℕ) 1 = 0 from rfl]
    omega

-- After the region the output array is the layer's combination of the node rows with the sums over incoming edges.
theorem scatter_val1 (c : Dev nD) :
    ((dat1 (F := Ideal) V c).arrAt 8 cfg1.N : Cert.Spec.SN.Idx → EReal)
      = Cert.Spec.combine (V c (Pipeline.arrRef spec1 2))
          (Cert.Spec.aggregated (V c (Pipeline.arrRef spec1 1)) (V c (Pipeline.arrRef spec1 0)) (V c (Pipeline.arrRef spec1 2)))
          (V c (Pipeline.arrRef spec1 3)) (V c (Pipeline.arrRef spec1 4)) (V c (Pipeline.arrRef spec1 5)) (V c (Pipeline.arrRef spec1 6))
          (V c (Pipeline.arrRef spec1 7)) :=
  (dat1 (F := Ideal) V c).arrAt_eq_of_cover 8 (resR1 V c) (flushedR1_eq V c) coverR1

end Region

end Cert.KernelIdeal.Hand

end
-- ==== Proof.KI.Val2.lean ====
import proofs.«415291_j87935160418912_3_alg».proof.Proof.KI.Dat2
import proofs.«415291_j87935160418912_3_alg».proof.Proof.KI.Pay0
import proofs.«415291_j87935160418912_3_alg».proof.Proof.Spec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.Tactic
open Idealize.ShloMosaic.ValueIdx

section Blocks
variable (V : (c : Dev nD) → (b : Ref sig .tc) → Buf (Elt Ideal) ((c : Thread nD τ).loc b))

abbrev srcR2 (c : Dev nD) : Cert.Spec.SE.Idx → BitVec 32 := V c (Pipeline.arrRef spec2 0)
abbrev rowsR2 (c : Dev nD) : Cert.Spec.SN.Idx → EReal := V c (Pipeline.arrRef spec2 1)
abbrev sblkR2 (c : Dev nD) (t : Fin cfg2.N) : Vec Ideal S256 .i32 := iblk2 V c 0 t
abbrev nblkR2 (c : Dev nD) (t : Fin cfg2.N) : Vec Ideal S10000x128 .bf16 := iblk2 V c 1 t

theorem blk2_srcIdx (t : Fin cfg2.N) : win2_0.index t = ![t.val / 5 % 3125] := by
  have h0 : ((grid2.coords t) 0).val = t.val / 5 % 3125 := by
    show t.val / grid2.stride 0 % 3125 = _
    rw [show grid2.stride 0 = 5 from by decide]
  show cc2_transform_0 (grid2.coords t) = _
  unfold cc2_transform_0
  dsimp only
  rw [h0, BitVec.toNat_ofNat, Nat.mod_eq_of_lt (by omega : t.val / 5 % 3125 < 2 ^ 32)]

theorem blk2_nodeIdx (t : Fin cfg2.N) : win2_1.index t = ![t.val % 5, 0] := by
  show cc2_transform_1 (grid2.coords t) = _
  unfold cc2_transform_1
  dsimp only
  rw [coord2_1 t, BitVec.toNat_ofNat, Nat.mod_eq_of_lt (by omega : t.val % 5 < 2 ^ 32)]
  rfl

theorem blk2_src (c : Dev nD) (t : Fin cfg2.N) (p : Fin 256) (e : Fin 800000) (he : e.val = t.val / 5 * 256 + p.val) :
    sblkR2 V c t (ix1 p) = srcR2 V c (ix1 e) := by
  have hN : cfg2.N = 15625 := N_2
  have ht := t.isLt
  unfold sblkR2 iblk2
  rw [View.read_apply]
  show srcR2 V c _ = _
  congr 1
  funext a
  apply Fin.ext
  match a with
  | ⟨0, _⟩ =>
    show win2_0.index t 0 * 256 + 1 * p.val = e.val
    rw [blk2_srcIdx t, he]
    show t.val / 5 % 3125 * 256 + 1 * p.val = _
    omega

theorem blk2_row (c : Dev nD) (t : Fin cfg2.N) (k : Fin 10000) (q : Fin 128) (n : Fin 50000) (hn : n.val = t.val % 5 * 10000 + k.val) :
    (nblkR2 V c t (ix2 k q) : EReal) = rowsR2 V c (ix2 n q) := by
  unfold nblkR2 iblk2
  rw [View.read_apply]
  show rowsR2 V c _ = _
  congr 1
  funext a
  apply Fin.ext
  match a with
  | ⟨0, _⟩ =>
    show win2_1.index t 0 * 10000 + 1 * k.val = n.val
    rw [blk2_nodeIdx t, hn]
    show t.val % 5 * 10000 + 1 * k.val = _
    omega
  | ⟨1, _⟩ =>
    show win2_1.index t 1 * 128 + 1 * q.val = q.val
    rw [blk2_nodeIdx t]
    show 0 * 128 + 1 * q.val = _
    omega

end Blocks

section Value
variable (V : (c : Dev nD) → (b : Ref sig .tc) → Buf (Elt Ideal) ((c : Thread nD τ).loc b))

theorem updR2 (c : Dev nD) (t : Fin cfg2.N) (xs : Vec Ideal S256x128 .f32) (p : Fin 256) (q : Fin 128) (e : Fin 800000)
    (he : e.val = t.val / 5 * 256 + p.val)
    (ha : (xs (ix2 p q) : EReal) = if (srcR2 V c (ix1 e)).toNat < t.val % 5 * 10000 then rowsR2 V c (ix2 (Cert.Spec.rowOf (srcR2 V c (ix1 e))) q) else 0) :
    (k0_pay2 (F := Ideal) (grid2.coords t) (sblkR2 V c t) xs (nblkR2 V c t) : S256x128.Idx → EReal) (ix2 p q)
      = if (srcR2 V c (ix1 e)).toNat < (t.val % 5 + 1) * 10000 then rowsR2 V c (ix2 (Cert.Spec.rowOf (srcR2 V c (ix1 e))) q) else 0 :=
  pointR0 (grid2.coords t) (t.val % 5) (coord2_1 t) (Nat.mod_lt _ (by decide)) (sblkR2 V c t) xs (nblkR2 V c t) p q (srcR2 V c (ix1 e))
    (blk2_src V c t p e he) (rowsR2 V c) ha (fun k n hn => blk2_row V c t k q n hn)

theorem accR2_eq (c : Dev nD) (n : ℕ) : ∀ (hn : n < cfg2.N) (p : Fin 256) (q : Fin 128) (e : Fin 800000) (he : e.val = n / 5 * 256 + p.val),
    (((outsAt2 V c n hn).2 : Vec Ideal S256x128 .f32) (ix2 p q) : EReal)
      = if (srcR2 V c (ix1 e)).toNat < (n % 5 + 1) * 10000 then rowsR2 V c (ix2 (Cert.Spec.rowOf (srcR2 V c (ix1 e))) q) else 0 := by
  induction n using Nat.strong_induction_on with
  | _ n ih =>
    intro hn p q e he
    obtain ⟨t, rfl⟩ : ∃ t : Fin cfg2.N, t.val = n := ⟨⟨n, hn⟩, rfl⟩
    by_cases h0 : t.val % 5 = 0
    · have h1 : ¬t.val % 5 = 4 := by omega
      rw [outsAt2_A V c t h0 h1]
      dsimp only
      unfold accA2
      refine (congrFun (sacc0_A_eq (F := Ideal) c (grid2.coords t) (stg2_0 t) (hstg2_0 t) (stg2_1 t) (hstg2_1 t) (stg2_2 t) (hstg2_2 t) acc2 (Memref.isWhole_whole _) ((hfirst2 t).mpr h0) (fun h => h1 ((hlast2 t).mp h)) (iblk2 V c 0 t) (iblk2 V c 1 t)) (ix2 p q)).trans ?_
      refine updR2 V c t (k0_pay1 (F := Ideal)) p q e he ?_
      exact (k0_pay1_apply _).trans (if_neg (by rw [h0, Nat.zero_mul]; exact Nat.not_lt_zero _)).symm
    · have hprev := ih (t.val - 1) (by omega) (by omega) p q e (by omega)
      rw [show (t.val - 1) % 5 + 1 = t.val % 5 from by omega] at hprev
      by_cases h1 : t.val % 5 = 4
      · rw [outsAt2_C V c t h0 h1]
        dsimp only
        unfold accC2
        refine (congrFun (sacc0_C_eq (F := Ideal) c (grid2.coords t) (stg2_0 t) (hstg2_0 t) (stg2_1 t) (hstg2_1 t) (stg2_2 t) (hstg2_2 t) acc2 (Memref.isWhole_whole _) (fun h => h0 ((hfirst2 t).mp h)) ((hlast2 t).mpr h1) (iblk2 V c 0 t) (iblk2 V c 1 t) (outsAt2 V c (t.val - 1) (Nat.lt_of_le_of_lt (Nat.sub_le _ _) t.isLt)).2) (ix2 p q)).trans ?_
        exact updR2 V c t _ p q e he hprev
      · rw [outsAt2_B V c t h0 h1]
        dsimp only
        unfold accB2
        refine (congrFun (sacc0_B_eq (F := Ideal) c (grid2.coords t) (stg2_0 t) (hstg2_0 t) (stg2_1 t) (hstg2_1 t) (stg2_2 t) (hstg2_2 t) acc2 (Memref.isWhole_whole _) (fun h => h0 ((hfirst2 t).mp h)) (fun h => h1 ((hlast2 t).mp h)) (iblk2 V c 0 t) (iblk2 V c 1 t) (outsAt2 V c (t.val - 1) (Nat.lt_of_le_of_lt (Nat.sub_le _ _) t.isLt)).2) (ix2 p q)).trans ?_
        exact updR2 V c t _ p q e he hprev

theorem blk2_outEmb (t : Fin cfg2.N) (p : Fin 256) (q : Fin 128) (e : Fin 800000) (he : e.val = t.val / 5 * 256 + p.val) :
    (((cfg2.win 2).blk t).view.emb (ix2 p q) : Cert.Spec.SG.Idx) = ix2 e q := by
  have hN : cfg2.N = 15625 := N_2
  have ht := t.isLt
  funext a
  apply Fin.ext
  match a with
  | ⟨0, _⟩ =>
    show win2_2.index t 0 * 256 + 1 * p.val = e.val
    rw [blk2_out t, he]
    show t.val / 5 % 3125 * 256 + 1 * p.val = _
    omega
  | ⟨1, _⟩ =>
    show win2_2.index t 1 * 128 + 1 * q.val = q.val
    rw [blk2_out t]
    show 0 * 128 + 1 * q.val = _
    omega

theorem flushedR2_eq (c : Dev nD) (hsrc : ∀ e : Cert.Spec.SE.Idx, (srcR2 V c e).toNat < 50000) (t : Fin cfg2.N) (hf : (cfg2.win 2).flush t = true) :
    (dat2 (F := Ideal) V c).flushed 2 t = ((cfg2.win 2).blk t).view.read (Elt Ideal) (Cert.Spec.gathered (srcR2 V c) (rowsR2 V c)) := by
  have hN : cfg2.N = 15625 := N_2
  have ht := t.isLt
  have h4 : t.val % 5 = 4 := (flushOut2 t).mp hf
  have h0 : ¬t.val % 5 = 0 := by omega
  show (cfg2.win 2).cut (grid2.coords t) ((dat2 V c).after 2 t) = _
  rw [after2_2, outsAt2_C V c t h0 h4]
  dsimp only
  funext y
  obtain ⟨p, q, rfl⟩ : ∃ (p : Fin 256) (q : Fin 128), y = (ix2 p q : S256x128.Idx) := ⟨y 0, y 1, eq_ix2 (n0 := 256) (n1 := 128) y⟩
  rw [View.read_apply]
  have he : (⟨t.val / 5 * 256 + p.val, by omega⟩ : Fin 800000).val = t.val / 5 * 256 + p.val := rfl
  show (outC2 V c t h0 h4 (outsAt2 V c (t.val - 1) (Nat.lt_of_le_of_lt (Nat.sub_le _ _) t.isLt)).2 : S256x128.Idx → EReal) (ix2 p q)
    = Cert.Spec.gathered (srcR2 V c) (rowsR2 V c) (((cfg2.win 2).blk t).view.emb (ix2 p q))
  rw [blk2_outEmb t p q _ he]
  unfold outC2
  refine (congrFun (out0_C_eq (F := Ideal) c (grid2.coords t) (stg2_0 t) (hstg2_0 t) (stg2_1 t) (hstg2_1 t) (stg2_2 t) (hstg2_2 t) acc2 (Memref.isWhole_whole _) (fun h => h0 ((hfirst2 t).mp h)) ((hlast2 t).mpr h4) (iblk2 V c 0 t) (iblk2 V c 1 t) (outsAt2 V c (t.val - 1) (Nat.lt_of_le_of_lt (Nat.sub_le _ _) t.isLt)).2) (ix2 p q)).trans ?_
  refine (k0_pay3_apply _ (ix2 p q)).trans ?_
  have hprev := accR2_eq V c (t.val - 1) (by omega) p q _ (show (⟨t.val / 5 * 256 + p.val, by omega⟩ : Fin 800000).val = (t.val - 1) / 5 * 256 + p.val by dsimp only; omega)
  rw [show (t.val - 1) % 5 + 1 = t.val % 5 from by omega] at hprev
  refine (updR2 V c t _ p q _ he hprev).trans ?_
  rw [if_pos (by rw [h4]; exact hsrc _)]
  rfl

end Value

-- After the region the output array holds, for every edge, the row of the edge's source node.
theorem gather_val2 (V : (c : Dev nD) → (b : Ref sig .tc) → Buf (Elt Ideal) ((c : Thread nD τ).loc b)) (c : Dev nD)
    (hsrc : ∀ e : Cert.Spec.SE.Idx, ((V c (Pipeline.arrRef spec2 0) : Cert.Spec.SE.Idx → BitVec 32) e).toNat < 50000) :
    ((dat2 (F := Ideal) V c).arrAt 2 cfg2.N : Cert.Spec.SG.Idx → EReal)
      = Cert.Spec.gathered (V c (Pipeline.arrRef spec2 0)) (V c (Pipeline.arrRef spec2 1)) :=
  (dat2 (F := Ideal) V c).arrAt_eq_of_cover 2 (Cert.Spec.gathered (srcR2 V c) (rowsR2 V c)) (flushedR2_eq V c hsrc) fun i => by
    have hN : cfg2.N = 15625 := N_2
    have hi0 : (i 0).val < 800000 := (i 0).isLt
    have hi1 : (i 1).val < 128 := (i 1).isLt
    have hlt : 5 * ((i 0).val / 256) + 4 < cfg2.N := by omega
    have hp : (i 0).val % 256 < 256 := Nat.mod_lt _ (by decide)
    refine ⟨⟨5 * ((i 0).val / 256) + 4, hlt⟩, (flushOut2 ⟨5 * ((i 0).val / 256) + 4, hlt⟩).mpr (by dsimp only; omega), ?_⟩
    have hi : (i : Cert.Spec.SG.Idx) = ix2 (⟨(i 0).val, hi0⟩ : Fin 800000) (⟨(i 1).val, hi1⟩ : Fin 128) := eq_ix2 (n0 := 800000) (n1 := 128) i
    have hmem := View.emb_mem_set ((cfg2.win 2).blk ⟨5 * ((i 0).val / 256) + 4, hlt⟩).view (ix2 (⟨(i 0).val % 256, hp⟩ : Fin 256) (⟨(i 1).val, hi1⟩ : Fin 128))
    rw [blk2_outEmb ⟨5 * ((i 0).val / 256) + 4, hlt⟩ ⟨(i 0).val % 256, hp⟩ ⟨(i 1).val, hi1⟩ ⟨(i 0).val, hi0⟩ (by dsimp only; omega), ← hi] at hmem
    exact hmem

end Cert.KernelIdeal.Hand

end
-- ==== Proof.KI.Pay3.lean ====
import proofs.«415291_j87935160418912_3_alg».proof.Proof.KI.Case3
import proofs.«415291_j87935160418912_3_alg».proof.Proof.KI.Pay1
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.ShloMosaic.ValueIdx

variable {F : FTy → Type} [FloatOps F]

section Pieces
variable (c : Dev nD) (i : grid3.Coords) (arg2 : Memref sig .tc .vmem S256x128 .bf16) (harg2 : arg2.IsWhole) (arg3 : Memref sig .tc .vmem S256 .i32) (harg3 : arg3.IsWhole) (arg4 : Memref sig .tc .vmem S5000x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S1x128 .f32) (harg9 : arg9.IsWhole) (arg10 : Memref sig .tc .vmem S5000x128 .f32) (harg10 : arg10.IsWhole) (arg11 : Memref sig .tc .vmem S5000x128 .f32) (harg11 : arg11.IsWhole)

theorem sacc3_A_eq (hc0 : first3 i) (hc1 : ¬last3 i) (x0 : Vec F S256x128 .bf16) (x1 : Vec F S256 .i32) (x2 : Vec F S5000x128 .f32) (x3 : Vec F S128x128 .f32) (x4 : Vec F S128 .f32) (x5 : Vec F S128x128 .f32) (x6 : Vec F S128 .f32) (x7 : Vec F S1x128 .f32) :
    sacc3_A c i arg2 harg2 arg3 harg3 arg4 harg4 arg5 harg5 arg6 harg6 arg7 harg7 arg8 harg8 arg9 harg9 arg10 harg10 arg11 harg11 hc0 hc1 x0 x1 x2 x3 x4 x5 x6 x7 = k3_pay2 i x1 x0 (k3_pay1 (F := F)) := by
  unfold sacc3_A
  unfold run3_A
  dsimp only
  sl_unfold_words
  rw [View.canon_cons_unit_zero (S := S5000x128) hzBR1, View.readCov_unit_zero (S := S5000x128) _ hzBR1]
  simp only [View.readAt_eq_ld, harg3.read_unread, harg2.read_unread, View.ld_unit_zero (S := S256) hzAR1, View.ld_unit_zero (S := S256x128) hzBR1]

theorem sacc3_B_eq (hc0 : ¬first3 i) (hc1 : ¬last3 i) (x0 : Vec F S256x128 .bf16) (x1 : Vec F S256 .i32) (x2 : Vec F S5000x128 .f32) (x3 : Vec F S128x128 .f32) (x4 : Vec F S128 .f32) (x5 : Vec F S128x128 .f32) (x6 : Vec F S128 .f32) (x7 : Vec F S1x128 .f32) (xs : Vec F S5000x128 .f32) :
    sacc3_B c i arg2 harg2 arg3 harg3 arg4 harg4 arg5 harg5 arg6 harg6 arg7 harg7 arg8 harg8 arg9 harg9 arg10 harg10 arg11 harg11 hc0 hc1 x0 x1 x2 x3 x4 x5 x6 x7 xs = k3_pay2 i x1 x0 xs := by
  unfold sacc3_B
  unfold run3_B
  dsimp only
  sl_unfold_words
  rw [View.canon_unit_zero (S := S5000x128) hzBR1]
  simp only [View.readAt_eq_ld, harg2.read_unread, harg3.read_unread, harg4.read_unread, harg5.read_unread, harg6.read_unread, harg7.read_unread, harg8.read_unread, harg9.read_unread, harg11.read_unread, View.ld_unit_zero (S := S256) hzAR1, View.ld_unit_zero (S := S128) hzAR1, View.ld_unit_zero (S := S256x128) hzBR1, View.ld_unit_zero (S := S5000x128) hzBR1, View.ld_unit_zero (S := S128x128) hzBR1, View.ld_unit_zero (S := S1x128) hzBR1]

theorem sacc3_C_eq (hc0 : ¬first3 i) (hc1 : last3 i) (x0 : Vec F S256x128 .bf16) (x1 : Vec F S256 .i32) (x2 : Vec F S5000x128 .f32) (x3 : Vec F S128x128 .f32) (x4 : Vec F S128 .f32) (x5 : Vec F S128x128 .f32) (x6 : Vec F S128 .f32) (x7 : Vec F S1x128 .f32) (xs : Vec F S5000x128 .f32) :
    sacc3_C c i arg2 harg2 arg3 harg3 arg4 harg4 arg5 harg5 arg6 harg6 arg7 harg7 arg8 harg8 arg9 harg9 arg10 harg10 arg11 harg11 hc0 hc1 x0 x1 x2 x3 x4 x5 x6 x7 xs = k3_pay2 i x1 x0 xs := by
  unfold sacc3_C
  unfold run3_C
  dsimp only
  sl_unfold_words
  rw [View.canon_unit_zero (S := S5000x128) hzBR1]
  simp only [View.readAt_eq_ld, harg2.read_unread, harg3.read_unread, harg4.read_unread, harg5.read_unread, harg6.read_unread, harg7.read_unread, harg8.read_unread, harg9.read_unread, harg11.read_unread, View.ld_unit_zero (S := S256) hzAR1, View.ld_unit_zero (S := S128) hzAR1, View.ld_unit_zero (S := S256x128) hzBR1, View.ld_unit_zero (S := S5000x128) hzBR1, View.ld_unit_zero (S := S128x128) hzBR1, View.ld_unit_zero (S := S1x128) hzBR1]

theorem out3_C_eq (hc0 : ¬first3 i) (hc1 : last3 i) (x0 : Vec F S256x128 .bf16) (x1 : Vec F S256 .i32) (x2 : Vec F S5000x128 .f32) (x3 : Vec F S128x128 .f32) (x4 : Vec F S128 .f32) (x5 : Vec F S128x128 .f32) (x6 : Vec F S128 .f32) (x7 : Vec F S1x128 .f32) (xs : Vec F S5000x128 .f32) :
    out3_C c i arg2 harg2 arg3 harg3 arg4 harg4 arg5 harg5 arg6 harg6 arg7 harg7 arg8 harg8 arg9 harg9 arg10 harg10 arg11 harg11 hc0 hc1 x0 x1 x2 x3 x4 x5 x6 x7 xs = k3_pay3 x2 (k3_pay2 i x1 x0 xs) x3 x4 x5 x6 x7 := by
  unfold out3_C
  unfold run3_C
  dsimp only
  sl_unfold_words
  rw [View.canon_unit_zero (S := S5000x128) hzBR1, View.readCov_unit_zero (S := S5000x128) _ hzBR1]
  simp only [View.readAt_eq_ld, harg2.read_unread, harg3.read_unread, harg4.read_unread, harg5.read_unread, harg6.read_unread, harg7.read_unread, harg8.read_unread, harg9.read_unread, harg11.read_unread, View.ld_unit_zero (S := S256) hzAR1, View.ld_unit_zero (S := S128) hzAR1, View.ld_unit_zero (S := S256x128) hzBR1, View.ld_unit_zero (S := S5000x128) hzBR1, View.ld_unit_zero (S := S128x128) hzBR1, View.ld_unit_zero (S := S1x128) hzBR1]
end Pieces

theorem pay2R3_apply (i : grid3.Coords) (d : Vec Ideal S256 .i32) (g : Vec Ideal S256x128 .bf16) (a : Vec Ideal S5000x128 .f32) (p : Fin 5000) (q : Fin 128) :
    (k3_pay2 (F := Ideal) i d g a) (ix2 p q) = a (ix2 p q) + chunkTermR1 (Scalar.muli (BitVec.ofNat 32 (i 0).val) 5000#32) d g p q := by
  unfold k3_pay2
  dsimp only
  refine (congrFun (shapeCast_self _ _) (ix2 p q)).trans ?_
  refine congrArg (a (ix2 p q) + ·) ?_
  refine (Ideal.matmul_constant_zero_apply dotAR1 none _ _ (ix2 p q)).trans ?_
  refine (Equiv.sum_comp (contrEquiv1 dotAR1 256 rfl rfl).symm _).symm.trans ?_
  unfold chunkTermR1
  refine Finset.sum_congr rfl fun k _ => ?_
  exact congrArg₂ (· * ·) ((congrArg _ (dotAR1_lhs p q k)).trans (onehotR1_entry _ d p k))
    ((congrArg _ (dotAR1_rhs p q k)).trans (congrFun (shapeCast_self g _) (ix2 k q)))

theorem pay3R3_apply (h a : Vec Ideal S5000x128 .f32) (W3 : Vec Ideal S128x128 .f32) (b4 : Vec Ideal S128 .f32) (W5 : Vec Ideal S128x128 .f32) (b6 : Vec Ideal S128 .f32) (r7 : Vec Ideal S1x128 .f32) (p : Fin 5000) (q : Fin 128) :
    (k3_pay3 (F := Ideal) h a W3 b4 W5 b6 r7) (ix2 p q)
      = max ((((∑ k : Fin 128, h (ix2 p k) * W3 (ix2 k q)) + b4 (ix1 q))
          + ((∑ k : Fin 128, (a (ix2 p k) + h (ix2 p k)) * W5 (ix2 k q)) + b6 (ix1 q)))
          + r7 (ix2 (0 : Fin 1) q)) 0 := by
  unfold k3_pay3
  refine (maximumf_apply _ _ (ix2 p q)).trans ?_
  refine congrArg₂ max ?_ Ideal.ofBits_zero_f32
  refine (addf_apply _ _ (ix2 p q)).trans ?_
  refine congrArg₂ (· + ·) ?_ ((broadcastTo_1b_ab_apply _ broadcasts_S1x128_S5000x128 p q).trans (congrFun (shapeCast_self r7 _) (ix2 (0 : Fin 1) q)))
  refine (addf_apply _ _ (ix2 p q)).trans ?_
  refine congrArg₂ (· + ·) ?_ ?_
  · refine (addf_apply _ _ (ix2 p q)).trans ?_
    refine congrArg₂ (· + ·) ?_ ?_
    · refine (Ideal.matmul_constant_zero_apply dotBR1 none _ _ (ix2 p q)).trans ?_
      refine (Equiv.sum_comp (contrEquiv1 dotBR1 128 rfl rfl).symm _).symm.trans ?_
      refine Finset.sum_congr rfl fun k _ => ?_
      exact congrArg₂ (· * ·) ((congrArg _ (dotBR1_lhs p q k)).trans (congrFun (shapeCast_self h _) (ix2 p k)))
        ((congrArg _ (dotBR1_rhs p q k)).trans (congrFun (shapeCast_self W3 _) (ix2 k q)))
    · exact (broadcastTo_1b_ab_apply _ broadcasts_S1x128_S5000x128 p q).trans
        ((shapeCast_a_1a_apply _ shapeCasts_S128_S1x128 0 q).trans (congrFun (shapeCast_self b4 _) (ix1 q)))
  · refine (addf_apply _ _ (ix2 p q)).trans ?_
    refine congrArg₂ (· + ·) ?_ ?_
    · refine (Ideal.matmul_constant_zero_apply dotBR1 none _ _ (ix2 p q)).trans ?_
      refine (Equiv.sum_comp (contrEquiv1 dotBR1 128 rfl rfl).symm _).symm.trans ?_
      refine Finset.sum_congr rfl fun k _ => ?_
      exact congrArg₂ (· * ·) ((congrArg _ (dotBR1_lhs p q k)).trans ((addf_apply a _ (ix2 p k)).trans
          (congrArg (a (ix2 p k) + ·) (congrFun (shapeCast_self h _) (ix2 p k)))))
        ((congrArg _ (dotBR1_rhs p q k)).trans (congrFun (shapeCast_self W5 _) (ix2 k q)))
    · exact (broadcastTo_1b_ab_apply _ broadcasts_S1x128_S5000x128 p q).trans
        ((shapeCast_a_1a_apply _ shapeCasts_S128_S1x128 0 q).trans (congrFun (shapeCast_self b6 _) (ix1 q)))

theorem pay1R3_apply (p : Fin 5000) (q : Fin 128) : (k3_pay1 (F := Ideal)) (ix2 p q) = 0 := by
  unfold k3_pay1
  exact (congrFun (shapeCast_self _ _) (ix2 p q)).trans Ideal.ofBits_zero_f32

end Cert.KernelIdeal.Hand

end
-- ==== Proof.KI.Val3.lean ====
import proofs.«415291_j87935160418912_3_alg».proof.Proof.KI.Dat3
import proofs.«415291_j87935160418912_3_alg».proof.Proof.KI.Pay3
import proofs.«415291_j87935160418912_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.ShloMosaic.ValueIdx

variable {F : FTy → Type} [FloatOps F]

theorem coordR3_0 (t : Fin cfg3.N) : ((grid3.coords t) 0).val = t.val / 3125 % 10 := by
  show t.val / grid3.stride 0 % 10 = _
  rw [show grid3.stride 0 = 3125 from by decide]

theorem idxR3_0 (t : Fin cfg3.N) : win3_0.index t = ![t.val % 3125, 0] := by
  show cc3_transform_0 (grid3.coords t) = _
  unfold cc3_transform_0
  dsimp only
  rw [coord3_1 t, BitVec.toNat_ofNat, Nat.mod_eq_of_lt (by omega : t.val % 3125 < 2 ^ 32)]
  rfl
theorem idxR3_1 (t : Fin cfg3.N) : win3_1.index t = ![t.val % 3125] := by
  show cc3_transform_1 (grid3.coords t) = _
  unfold cc3_transform_1
  dsimp only
  rw [coord3_1 t, BitVec.toNat_ofNat, Nat.mod_eq_of_lt (by omega : t.val % 3125 < 2 ^ 32)]
theorem idxR3_2 (t : Fin cfg3.N) : win3_2.index t = ![t.val / 3125 % 10, 0] := by
  show cc3_transform_2 (grid3.coords t) = _
  unfold cc3_transform_2
  dsimp only
  rw [coordR3_0 t, BitVec.toNat_ofNat, Nat.mod_eq_of_lt (by omega : t.val / 3125 % 10 < 2 ^ 32)]
  rfl
theorem idxR3_3 (t : Fin cfg3.N) : win3_3.index t = ![0, 0] := rfl
theorem idxR3_4 (t : Fin cfg3.N) : win3_4.index t = ![0] := rfl
theorem idxR3_5 (t : Fin cfg3.N) : win3_5.index t = ![0, 0] := rfl
theorem idxR3_6 (t : Fin cfg3.N) : win3_6.index t = ![0] := rfl
theorem idxR3_7 (t : Fin cfg3.N) : win3_7.index t = ![0, 0] := rfl

section Region
variable (V : (c : Dev nD) → (b : Ref sig .tc) → Buf (Elt Ideal) ((c : Thread nD τ).loc b))

theorem iblkR3_0_apply (c : Dev nD) (t : Fin cfg3.N) (k : Fin 256) (q : Fin 128) (e : Fin 800000) (he : e.val = 256 * (t.val % 3125) + k.val) :
    (iblk3 V c 0 t : Vec Ideal S256x128 .bf16) (ix2 k q) = (V c (Pipeline.arrRef spec3 0) : Cert.Spec.SG.Idx → EReal) (ix2 e q) := by
  unfold iblk3
  rw [View.read_apply]
  show (V c (Pipeline.arrRef spec3 0) : Cert.Spec.SG.Idx → EReal) _ = _
  congr 1
  funext a
  apply Fin.ext
  match a with
  | ⟨0, _⟩ =>
    show win3_0.index t 0 * 256 + 1 * k.val = e.val
    rw [idxR3_0, he, show (![t.val % 3125, 0] : Fin 2 → ℕ) 0 = t.val % 3125 from rfl]; omega
  | ⟨1, _⟩ =>
    show win3_0.index t 1 * 128 + 1 * q.val = q.val
    rw [idxR3_0, show (![t.val % 3125, 0] : Fin 2 → ℕ) 1 = 0 from rfl]; omega

theorem iblkR3_1_apply (c : Dev nD) (t : Fin cfg3.N) (k : Fin 256) (e : Fin 800000) (he : e.val = 256 * (t.val % 3125) + k.val) :
    (iblk3 V c 1 t : Vec Ideal S256 .i32) (ix1 k) = (V c (Pipeline.arrRef spec3 1) : Cert.Spec.SE.Idx → BitVec 32) (ix1 e) := by
  unfold iblk3
  rw [View.read_apply]
  show (V c (Pipeline.arrRef spec3 1) : Cert.Spec.SE.Idx → BitVec 32) _ = _
  congr 1
  funext a
  apply Fin.ext
  match a with
  | ⟨0, _⟩ =>
    show win3_1.index t 0 * 256 + 1 * k.val = e.val
    rw [idxR3_1, he, show (![t.val % 3125] : Fin 1 → ℕ) 0 = t.val % 3125 from rfl]; omega

theorem iblkR3_2_apply (c : Dev nD) (t : Fin cfg3.N) (p : Fin 5000) (q : Fin 128) (r : Fin 50000) (hr : r.val = 5000 * (t.val / 3125 % 10) + p.val) :
    (iblk3 V c 2 t : Vec Ideal S5000x128 .f32) (ix2 p q) = (V c (Pipeline.arrRef spec3 2) : Cert.Spec.SN.Idx → EReal) (ix2 r q) := by
  unfold iblk3
  rw [View.read_apply]
  show (V c (Pipeline.arrRef spec3 2) : Cert.Spec.SN.Idx → EReal) _ = _
  congr 1
  funext a
  apply Fin.ext
  match a with
  | ⟨0, _⟩ =>
    show win3_2.index t 0 * 5000 + 1 * p.val = r.val
    rw [idxR3_2, hr, show (![t.val / 3125 % 10, 0] : Fin 2 → ℕ) 0 = t.val / 3125 % 10 from rfl]; omega
  | ⟨1, _⟩ =>
    show win3_2.index t 1 * 128 + 1 * q.val = q.val
    rw [idxR3_2, show (![t.val / 3125 % 10, 0] : Fin 2 → ℕ) 1 = 0 from rfl]; omega

theorem iblkR3_3_apply (c : Dev nD) (t : Fin cfg3.N) (k : Fin 128) (q : Fin 128) :
    (iblk3 V c 3 t : Vec Ideal S128x128 .f32) (ix2 k q) = (V c (Pipeline.arrRef spec3 3) : Cert.Spec.SW.Idx → EReal) (ix2 k q) := by
  unfold iblk3
  rw [View.read_apply]
  show (V c (Pipeline.arrRef spec3 3) : Cert.Spec.SW.Idx → EReal) _ = _
  congr 1
  funext a
  apply Fin.ext
  match a with
  | ⟨0, _⟩ => show win3_3.index t 0 * 128 + 1 * k.val = k.val; rw [idxR3_3, show (![0, 0] : Fin 2 → ℕ) 0 = 0 from rfl]; omega
  | ⟨1, _⟩ => show win3_3.index t 1 * 128 + 1 * q.val = q.val; rw [idxR3_3, show (![0, 0] : Fin 2 → ℕ) 1 = 0 from rfl]; omega
theorem iblkR3_4_apply (c : Dev nD) (t : Fin cfg3.N) (q : Fin 128) :
    (iblk3 V c 4 t : Vec Ideal S128 .f32) (ix1 q) = (V c (Pipeline.arrRef spec3 4) : Cert.Spec.SB.Idx → EReal) (ix1 q) := by
  unfold iblk3
  rw [View.read_apply]
  show (V c (Pipeline.arrRef spec3 4) : Cert.Spec.SB.Idx → EReal) _ = _
  congr 1
  funext a
  apply Fin.ext
  match a with
  | ⟨0, _⟩ => show win3_4.index t 0 * 128 + 1 * q.val = q.val; rw [idxR3_4, show (![0] : Fin 1 → ℕ) 0 = 0 from rfl]; omega
theorem iblkR3_5_apply (c : Dev nD) (t : Fin cfg3.N) (k : Fin 128) (q : Fin 128) :
    (iblk3 V c 5 t : Vec Ideal S128x128 .f32) (ix2 k q) = (V c (Pipeline.arrRef spec3 5) : Cert.Spec.SW.Idx → EReal) (ix2 k q) := by
  unfold iblk3
  rw [View.read_apply]
  show (V c (Pipeline.arrRef spec3 5) : Cert.Spec.SW.Idx → EReal) _ = _
  congr 1
  funext a
  apply Fin.ext
  match a with
  | ⟨0, _⟩ => show win3_5.index t 0 * 128 + 1 * k.val = k.val; rw [idxR3_5, show (![0, 0] : Fin 2 → ℕ) 0 = 0 from rfl]; omega
  | ⟨1, _⟩ => show win3_5.index t 1 * 128 + 1 * q.val = q.val; rw [idxR3_5, show (![0, 0] : Fin 2 → ℕ) 1 = 0 from rfl]; omega
theorem iblkR3_6_apply (c : Dev nD) (t : Fin cfg3.N) (q : Fin 128) :
    (iblk3 V c 6 t : Vec Ideal S128 .f32) (ix1 q) = (V c (Pipeline.arrRef spec3 6) : Cert.Spec.SB.Idx → EReal) (ix1 q) := by
  unfold iblk3
  rw [View.read_apply]
  show (V c (Pipeline.arrRef spec3 6) : Cert.Spec.SB.Idx → EReal) _ = _
  congr 1
  funext a
  apply Fin.ext
  match a with
  | ⟨0, _⟩ => show win3_6.index t 0 * 128 + 1 * q.val = q.val; rw [idxR3_6, show (![0] : Fin 1 → ℕ) 0 = 0 from rfl]; omega
theorem iblkR3_7_apply (c : Dev nD) (t : Fin cfg3.N) (q : Fin 128) :
    (iblk3 V c 7 t : Vec Ideal S1x128 .f32) (ix2 (0 : Fin 1) q) = (V c (Pipeline.arrRef spec3 7) : Cert.Spec.SR.Idx → EReal) (ix2 (0 : Fin 1) q) := by
  unfold iblk3
  rw [View.read_apply]
  show (V c (Pipeline.arrRef spec3 7) : Cert.Spec.SR.Idx → EReal) _ = _
  congr 1
  funext a
  apply Fin.ext
  match a with
  | ⟨0, _⟩ => show win3_7.index t 0 * 1 + 1 * 0 = 0; rw [idxR3_7, show (![0, 0] : Fin 2 → ℕ) 0 = 0 from rfl]
  | ⟨1, _⟩ => show win3_7.index t 1 * 128 + 1 * q.val = q.val; rw [idxR3_7, show (![0, 0] : Fin 2 → ℕ) 1 = 0 from rfl]; omega

end Region

section Region
variable (V : (c : Dev nD) → (b : Ref sig .tc) → Buf (Elt Ideal) ((c : Thread nD τ).loc b))

def addendR3 (c : Dev nD) (n : ℕ) (p : Fin 5000) (q : Fin 128) : EReal :=
  if h : n < cfg3.N then
    chunkTermR1 (Scalar.muli (BitVec.ofNat 32 ((grid3.coords ⟨n, h⟩) 0).val) 5000#32) (iblk3 V c 1 ⟨n, h⟩) (iblk3 V c 0 ⟨n, h⟩) p q
  else 0

theorem addendR3_at (c : Dev nD) (t : Fin cfg3.N) (p : Fin 5000) (q : Fin 128) :
    addendR3 V c t.val p q
      = chunkTermR1 (Scalar.muli (BitVec.ofNat 32 ((grid3.coords t) 0).val) 5000#32) (iblk3 V c 1 t) (iblk3 V c 0 t) p q := by
  unfold addendR3
  rw [dif_pos t.isLt]

theorem stepR3 (c : Dev nD) (t : Fin cfg3.N) (p : Fin 5000) (q : Fin 128) :
    (outsAt3 V c t.val t.isLt).2 (ix2 p q)
      = (if t.val % 3125 = 0 then 0 else (outsAt3 V c (t.val - 1) (Nat.lt_of_le_of_lt (Nat.sub_le _ _) t.isLt)).2 (ix2 p q))
        + addendR3 V c t.val p q := by
  rw [addendR3_at]
  by_cases h0 : t.val % 3125 = 0
  · have h1 : ¬t.val % 3125 = 3124 := by omega
    rw [outsAt3_A V c t h0 h1, if_pos h0]
    dsimp only
    unfold accA3
    refine (congrFun (sacc3_A_eq (F := Ideal) c (grid3.coords t) (stg3_0 t) (hstg3_0 t) (stg3_1 t) (hstg3_1 t) (stg3_2 t) (hstg3_2 t) (stg3_3 t) (hstg3_3 t) (stg3_4 t) (hstg3_4 t) (stg3_5 t) (hstg3_5 t) (stg3_6 t) (hstg3_6 t) (stg3_7 t) (hstg3_7 t) (stg3_8 t) (hstg3_8 t) acc3 (Memref.isWhole_whole _) ((hfirst3 t).mpr h0) (fun h => h1 ((hlast3 t).mp h)) (iblk3 V c 0 t) (iblk3 V c 1 t) (iblk3 V c 2 t) (iblk3 V c 3 t) (iblk3 V c 4 t) (iblk3 V c 5 t) (iblk3 V c 6 t) (iblk3 V c 7 t)) (ix2 p q)).trans ?_
    refine (pay2R3_apply (grid3.coords t) (iblk3 V c 1 t) (iblk3 V c 0 t) (k3_pay1 (F := Ideal)) p q).trans ?_
    rw [pay1R3_apply]
  · rw [if_neg h0]
    by_cases h1 : t.val % 3125 = 3124
    · rw [outsAt3_C V c t h0 h1]
      dsimp only
      unfold accC3
      refine (congrFun (sacc3_C_eq (F := Ideal) c (grid3.coords t) (stg3_0 t) (hstg3_0 t) (stg3_1 t) (hstg3_1 t) (stg3_2 t) (hstg3_2 t) (stg3_3 t) (hstg3_3 t) (stg3_4 t) (hstg3_4 t) (stg3_5 t) (hstg3_5 t) (stg3_6 t) (hstg3_6 t) (stg3_7 t) (hstg3_7 t) (stg3_8 t) (hstg3_8 t) acc3 (Memref.isWhole_whole _) (fun h => h0 ((hfirst3 t).mp h)) ((hlast3 t).mpr h1) (iblk3 V c 0 t) (iblk3 V c 1 t) (iblk3 V c 2 t) (iblk3 V c 3 t) (iblk3 V c 4 t) (iblk3 V c 5 t) (iblk3 V c 6 t) (iblk3 V c 7 t) (outsAt3 V c (t.val - 1) (Nat.lt_of_le_of_lt (Nat.sub_le _ _) t.isLt)).2) (ix2 p q)).trans ?_
      exact pay2R3_apply (grid3.coords t) (iblk3 V c 1 t) (iblk3 V c 0 t) _ p q
    · rw [outsAt3_B V c t h0 h1]
      dsimp only
      unfold accB3
      refine (congrFun (sacc3_B_eq (F := Ideal) c (grid3.coords t) (stg3_0 t) (hstg3_0 t) (stg3_1 t) (hstg3_1 t) (stg3_2 t) (hstg3_2 t) (stg3_3 t) (hstg3_3 t) (stg3_4 t) (hstg3_4 t) (stg3_5 t) (hstg3_5 t) (stg3_6 t) (hstg3_6 t) (stg3_7 t) (hstg3_7 t) (stg3_8 t) (hstg3_8 t) acc3 (Memref.isWhole_whole _) (fun h => h0 ((hfirst3 t).mp h)) (fun h => h1 ((hlast3 t).mp h)) (iblk3 V c 0 t) (iblk3 V c 1 t) (iblk3 V c 2 t) (iblk3 V c 3 t) (iblk3 V c 4 t) (iblk3 V c 5 t) (iblk3 V c 6 t) (iblk3 V c 7 t) (outsAt3 V c (t.val - 1) (Nat.lt_of_le_of_lt (Nat.sub_le _ _) t.isLt)).2) (ix2 p q)).trans ?_
      exact pay2R3_apply (grid3.coords t) (iblk3 V c 1 t) (iblk3 V c 0 t) _ p q

end Region

section Region
variable (V : (c : Dev nD) → (b : Ref sig .tc) → Buf (Elt Ideal) ((c : Thread nD τ).loc b))

theorem accR3_eq (c : Dev nD) (p : Fin 5000) (q : Fin 128) : ∀ (n : ℕ) (hn : n < cfg3.N),
    (outsAt3 V c n hn).2 (ix2 p q) = ∑ s ∈ Finset.range (n % 3125 + 1), addendR3 V c (n - n % 3125 + s) p q := by
  intro n
  induction n with
  | zero =>
    intro hn
    refine (stepR3 V c ⟨0, hn⟩ p q).trans ?_
    dsimp only
    rw [if_pos (Nat.zero_mod _), zero_add]
    simp
  | succ m ih =>
    intro hn
    have hm : m < cfg3.N := Nat.lt_of_succ_lt hn
    refine (stepR3 V c ⟨m + 1, hn⟩ p q).trans ?_
    dsimp only
    by_cases h0 : (m + 1) % 3125 = 0
    · rw [if_pos h0, h0, zero_add, Nat.zero_add, Finset.sum_range_one, Nat.sub_zero, Nat.add_zero]
    · rw [if_neg h0]
      have same : ∀ (u : ℕ) (hu : u < cfg3.N), u = m → (outsAt3 V c u hu).2 = (outsAt3 V c m hm).2 :=
        fun u hu e => by subst e; rfl
      rw [same (m + 1 - 1) _ (Nat.add_sub_cancel m 1), ih hm]
      have e1 : m % 3125 + 1 = (m + 1) % 3125 := by omega
      have e2 : m - m % 3125 = (m + 1) - (m + 1) % 3125 := by omega
      have e3 : (m + 1) - (m + 1) % 3125 + (m + 1) % 3125 = m + 1 := by omega
      rw [Finset.sum_range_succ _ ((m + 1) % 3125), e3, ← e2, ← e1]

end Region

section Region
variable (V : (c : Dev nD) → (b : Ref sig .tc) → Buf (Elt Ideal) ((c : Thread nD τ).loc b))

theorem scatR3_eq (c : Dev nD) (t : Fin cfg3.N) (h1 : t.val % 3125 = 3124) (p : Fin 5000) (k : Fin 128) (r : Fin 50000)
    (hr : r.val = 5000 * (t.val / 3125 % 10) + p.val) :
    (outsAt3 V c t.val t.isLt).2 (ix2 p k)
      = Cert.Spec.scattered (V c (Pipeline.arrRef spec3 1)) (V c (Pipeline.arrRef spec3 0)) (ix2 r k) := by
  have hN : cfg3.N = 31250 := N_3
  have hlt : t.val < cfg3.N := t.isLt
  rw [accR3_eq V c p k t.val t.isLt, h1]
  unfold Cert.Spec.scattered
  refine sumR1_chunks (fun e => if (V c (Pipeline.arrRef spec3 1) : Cert.Spec.SE.Idx → BitVec 32) (ix1 e) = BitVec.ofNat 32 r.val
      then (V c (Pipeline.arrRef spec3 0) : Cert.Spec.SG.Idx → EReal) (ix2 e k) else 0) _ fun s => ?_
  have hs := s.isLt
  have ht' : t.val - 3124 + s.val < cfg3.N := by omega
  refine (addendR3_at V c ⟨t.val - 3124 + s.val, ht'⟩ p k).trans ?_
  unfold chunkTermR1
  refine Finset.sum_congr rfl fun j _ => ?_
  have hj := j.isLt
  have he : (⟨256 * s.val + j.val, by omega⟩ : Fin 800000).val = 256 * ((⟨t.val - 3124 + s.val, ht'⟩ : Fin cfg3.N).val % 3125) + j.val := by
    show 256 * s.val + j.val = 256 * ((t.val - 3124 + s.val) % 3125) + j.val
    omega
  rw [iblkR3_1_apply V c ⟨t.val - 3124 + s.val, ht'⟩ j ⟨256 * s.val + j.val, by omega⟩ he,
    iblkR3_0_apply V c ⟨t.val - 3124 + s.val, ht'⟩ j k ⟨256 * s.val + j.val, by omega⟩ he,
    coordR3_0 ⟨t.val - 3124 + s.val, ht'⟩, nodeR1_word]
  have hb : (⟨t.val - 3124 + s.val, ht'⟩ : Fin cfg3.N).val / 3125 % 10 = t.val / 3125 % 10 := by
    show (t.val - 3124 + s.val) / 3125 % 10 = t.val / 3125 % 10
    omega
  rw [hb, ← hr]
  by_cases hd : (V c (Pipeline.arrRef spec3 1) : Cert.Spec.SE.Idx → BitVec 32) (ix1 ⟨256 * s.val + j.val, by omega⟩) = BitVec.ofNat 32 r.val
  · rw [if_pos hd, if_pos hd.symm, one_mul]
  · rw [if_neg hd, if_neg (fun h => hd h.symm), zero_mul]

end Region

section Region
variable (V : (c : Dev nD) → (b : Ref sig .tc) → Buf (Elt Ideal) ((c : Thread nD τ).loc b))

abbrev resR3 (c : Dev nD) : Cert.Spec.SN.Idx → EReal :=
  Cert.Spec.combine (V c (Pipeline.arrRef spec3 2))
    (Cert.Spec.aggregated (V c (Pipeline.arrRef spec3 1)) (V c (Pipeline.arrRef spec3 0)) (V c (Pipeline.arrRef spec3 2)))
    (V c (Pipeline.arrRef spec3 3)) (V c (Pipeline.arrRef spec3 4)) (V c (Pipeline.arrRef spec3 5)) (V c (Pipeline.arrRef spec3 6))
    (V c (Pipeline.arrRef spec3 7))

theorem outR3_apply (c : Dev nD) (t : Fin cfg3.N) (h1 : t.val % 3125 = 3124) (p : Fin 5000) (q : Fin 128) (r : Fin 50000)
    (hr : r.val = 5000 * (t.val / 3125 % 10) + p.val) :
    (outsAt3 V c t.val t.isLt).1 (ix2 p q) = resR3 V c (ix2 r q) := by
  have h0 : ¬t.val % 3125 = 0 := by omega
  have hacc : k3_pay2 (F := Ideal) (grid3.coords t) (iblk3 V c 1 t) (iblk3 V c 0 t) (outsAt3 V c (t.val - 1) (Nat.lt_of_le_of_lt (Nat.sub_le _ _) t.isLt)).2
      = (outsAt3 V c t.val t.isLt).2 := by
    rw [outsAt3_C V c t h0 h1]
    dsimp only
    unfold accC3
    exact (sacc3_C_eq (F := Ideal) c (grid3.coords t) (stg3_0 t) (hstg3_0 t) (stg3_1 t) (hstg3_1 t) (stg3_2 t) (hstg3_2 t) (stg3_3 t) (hstg3_3 t) (stg3_4 t) (hstg3_4 t) (stg3_5 t) (hstg3_5 t) (stg3_6 t) (hstg3_6 t) (stg3_7 t) (hstg3_7 t) (stg3_8 t) (hstg3_8 t) acc3 (Memref.isWhole_whole _) (fun h => h0 ((hfirst3 t).mp h)) ((hlast3 t).mpr h1) (iblk3 V c 0 t) (iblk3 V c 1 t) (iblk3 V c 2 t) (iblk3 V c 3 t) (iblk3 V c 4 t) (iblk3 V c 5 t) (iblk3 V c 6 t) (iblk3 V c 7 t) (outsAt3 V c (t.val - 1) (Nat.lt_of_le_of_lt (Nat.sub_le _ _) t.isLt)).2).symm
  have hout : (outsAt3 V c t.val t.isLt).1 = k3_pay3 (F := Ideal) (iblk3 V c 2 t) (outsAt3 V c t.val t.isLt).2 (iblk3 V c 3 t) (iblk3 V c 4 t) (iblk3 V c 5 t) (iblk3 V c 6 t) (iblk3 V c 7 t) := by
    rw [← hacc, outsAt3_C V c t h0 h1]
    dsimp only
    unfold outC3
    exact out3_C_eq (F := Ideal) c (grid3.coords t) (stg3_0 t) (hstg3_0 t) (stg3_1 t) (hstg3_1 t) (stg3_2 t) (hstg3_2 t) (stg3_3 t) (hstg3_3 t) (stg3_4 t) (hstg3_4 t) (stg3_5 t) (hstg3_5 t) (stg3_6 t) (hstg3_6 t) (stg3_7 t) (hstg3_7 t) (stg3_8 t) (hstg3_8 t) acc3 (Memref.isWhole_whole _) (fun h => h0 ((hfirst3 t).mp h)) ((hlast3 t).mpr h1) (iblk3 V c 0 t) (iblk3 V c 1 t) (iblk3 V c 2 t) (iblk3 V c 3 t) (iblk3 V c 4 t) (iblk3 V c 5 t) (iblk3 V c 6 t) (iblk3 V c 7 t) (outsAt3 V c (t.val - 1) (Nat.lt_of_le_of_lt (Nat.sub_le _ _) t.isLt)).2
  rw [hout]
  refine (pay3R3_apply (iblk3 V c 2 t) (outsAt3 V c t.val t.isLt).2 (iblk3 V c 3 t) (iblk3 V c 4 t) (iblk3 V c 5 t) (iblk3 V c 6 t) (iblk3 V c 7 t) p q).trans ?_
  refine Eq.trans ?_ (combineR1_apply _ _ _ _ _ _ _ r q).symm
  refine congrArg₂ max ?_ rfl
  refine congrArg₂ (· + ·) (congrArg₂ (· + ·) (congrArg₂ (· + ·) ?_ ?_) (congrArg₂ (· + ·) ?_ ?_)) ?_
  · exact Finset.sum_congr rfl fun k _ => by rw [iblkR3_2_apply V c t p k r hr, iblkR3_3_apply V c t k q]
  · exact iblkR3_4_apply V c t q
  · refine Finset.sum_congr rfl fun k _ => ?_
    rw [scatR3_eq V c t h1 p k r hr, iblkR3_2_apply V c t p k r hr, iblkR3_5_apply V c t k q]
    rfl
  · exact iblkR3_6_apply V c t q
  · exact iblkR3_7_apply V c t q

end Region

section Region
variable (V : (c : Dev nD) → (b : Ref sig .tc) → Buf (Elt Ideal) ((c : Thread nD τ).loc b))

theorem flushedR3_eq (c : Dev nD) (t : Fin cfg3.N) (hf : (cfg3.win 8).flush t = true) :
    (dat3 V c).flushed 8 t = ((cfg3.win 8).blk t).view.read (Elt Ideal) (resR3 V c) := by
  have h1 : t.val % 3125 = 3124 := (flushOut3 t).mp hf
  have hN : cfg3.N = 31250 := N_3
  have hlt : t.val < cfg3.N := t.isLt
  funext y
  have hp : (y 0).val < 5000 := (y 0).isLt
  have hq : (y 1).val < 128 := (y 1).isLt
  have hr : 5000 * (t.val / 3125 % 10) + (y 0).val < 50000 := by omega
  have e := outR3_apply V c t h1 ⟨(y 0).val, hp⟩ ⟨(y 1).val, hq⟩ ⟨5000 * (t.val / 3125 % 10) + (y 0).val, hr⟩ rfl
  have ey : (cfg3.win 8).xinj (grid3.coords t) y = ix2 (⟨(y 0).val, hp⟩ : Fin 5000) (⟨(y 1).val, hq⟩ : Fin 128) :=
    funext fun a => match a with
      | ⟨0, _⟩ => rfl
      | ⟨1, _⟩ => rfl
  show (dat3 V c).after 8 t ((cfg3.win 8).xinj (grid3.coords t) y) = _
  rw [after3_8, View.read_apply, ey, e]
  show resR3 V c _ = resR3 V c (((cfg3.win 8).blk t).view.emb y)
  refine congrArg (resR3 V c) (funext fun a => Fin.ext ?_)
  match a with
  | ⟨0, _⟩ =>
    show 5000 * (t.val / 3125 % 10) + (y 0).val = win3_8.index t 0 * 5000 + 1 * (y 0).val
    rw [blk3_out, show (![t.val / 3125 % 10, 0] : Fin 2 → ℕ) 0 = t.val / 3125 % 10 from rfl]; omega
  | ⟨1, _⟩ =>
    show (y 1).val = win3_8.index t 1 * 128 + 1 * (y 1).val
    rw [blk3_out, show (![t.val / 3125 % 10, 0] : Fin 2 → ℕ) 1 = 0 from rfl]; omega

end Region

section Region
variable (V : (c : Dev nD) → (b : Ref sig .tc) → Buf (Elt Ideal) ((c : Thread nD τ).loc b))

theorem coverR3 (i : Cert.Spec.SN.Idx) :
    ∃ t : Fin cfg3.N, (cfg3.win 8).flush t = true ∧ i ∈ ((cfg3.win 8).blk t).view.set := by
  have hN : cfg3.N = 31250 := N_3
  have h0 : (i 0).val < 50000 := (i 0).isLt
  have h1 : (i 1).val < 128 := (i 1).isLt
  have ht : 3125 * ((i 0).val / 5000) + 3124 < cfg3.N := by omega
  refine ⟨⟨3125 * ((i 0).val / 5000) + 3124, ht⟩, (flushOut3 _).mpr (by show (3125 * ((i 0).val / 5000) + 3124) % 3125 = 3124; omega), ?_⟩
  show i ∈ ((View.whole (Pipeline.arrRef spec3 8)).slice (win3_8.rect ⟨3125 * ((i 0).val / 5000) + 3124, ht⟩)).set
  rw [View.set_slice_whole, Rect.mem_set_unit]
  intro a
  match a with
  | ⟨0, _⟩ =>
    show win3_8.index ⟨3125 * ((i 0).val / 5000) + 3124, ht⟩ 0 * 5000 ≤ (i 0).val ∧ (i 0).val < win3_8.index ⟨3125 * ((i 0).val / 5000) + 3124, ht⟩ 0 * 5000 + 5000
    rw [blk3_out, show (![(3125 * ((i 0).val / 5000) + 3124) / 3125 % 10, 0] : Fin 2 → ℕ) 0 = (3125 * ((i 0).val / 5000) + 3124) / 3125 % 10 from rfl]
    omega
  | ⟨1, _⟩ =>
    show win3_8.index ⟨3125 * ((i 0).val / 5000) + 3124, ht⟩ 1 * 128 ≤ (i 1).val ∧ (i 1).val < win3_8.index ⟨3125 * ((i 0).val / 5000) + 3124, ht⟩ 1 * 128 + 128
    rw [blk3_out, show (![(3125 * ((i 0).val / 5000) + 3124) / 3125 % 10, 0] : Fin 2 → ℕ) 1 = 0 from rfl]
    omega

-- After the region the output array is the layer's combination of the node rows with the sums over incoming edges.
theorem scatter_val3 (c : Dev nD) :
    ((dat3 (F := Ideal) V c).arrAt 8 cfg3.N : Cert.Spec.SN.Idx → EReal)
      = Cert.Spec.combine (V c (Pipeline.arrRef spec3 2))
          (Cert.Spec.aggregated (V c (Pipeline.arrRef spec3 1)) (V c (Pipeline.arrRef spec3 0)) (V c (Pipeline.arrRef spec3 2)))
          (V c (Pipeline.arrRef spec3 3)) (V c (Pipeline.arrRef spec3 4)) (V c (Pipeline.arrRef spec3 5)) (V c (Pipeline.arrRef spec3 6))
          (V c (Pipeline.arrRef spec3 7)) :=
  (dat3 (F := Ideal) V c).arrAt_eq_of_cover 8 (resR3 V c) (flushedR3_eq V c) coverR3

end Region

end Cert.KernelIdeal.Hand

end
-- ==== Proof.KI.Val4.lean ====
import proofs.«415291_j87935160418912_3_alg».proof.Proof.KI.Dat4
import proofs.«415291_j87935160418912_3_alg».proof.Proof.KI.Pay0
import proofs.«415291_j87935160418912_3_alg».proof.Proof.Spec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.Tactic
open Idealize.ShloMosaic.ValueIdx

section Blocks
variable (V : (c : Dev nD) → (b : Ref sig .tc) → Buf (Elt Ideal) ((c : Thread nD τ).loc b))

abbrev srcR4 (c : Dev nD) : Cert.Spec.SE.Idx → BitVec 32 := V c (Pipeline.arrRef spec4 0)
abbrev rowsR4 (c : Dev nD) : Cert.Spec.SN.Idx → EReal := V c (Pipeline.arrRef spec4 1)
abbrev sblkR4 (c : Dev nD) (t : Fin cfg4.N) : Vec Ideal S256 .i32 := iblk4 V c 0 t
abbrev nblkR4 (c : Dev nD) (t : Fin cfg4.N) : Vec Ideal S10000x128 .bf16 := iblk4 V c 1 t

theorem blk4_srcIdx (t : Fin cfg4.N) : win4_0.index t = ![t.val / 5 % 3125] := by
  have h0 : ((grid4.coords t) 0).val = t.val / 5 % 3125 := by
    show t.val / grid4.stride 0 % 3125 = _
    rw [show grid4.stride 0 = 5 from by decide]
  show cc4_transform_0 (grid4.coords t) = _
  unfold cc4_transform_0
  dsimp only
  rw [h0, BitVec.toNat_ofNat, Nat.mod_eq_of_lt (by omega : t.val / 5 % 3125 < 2 ^ 32)]

theorem blk4_nodeIdx (t : Fin cfg4.N) : win4_1.index t = ![t.val % 5, 0] := by
  show cc4_transform_1 (grid4.coords t) = _
  unfold cc4_transform_1
  dsimp only
  rw [coord4_1 t, BitVec.toNat_ofNat, Nat.mod_eq_of_lt (by omega : t.val % 5 < 2 ^ 32)]
  rfl

theorem blk4_src (c : Dev nD) (t : Fin cfg4.N) (p : Fin 256) (e : Fin 800000) (he : e.val = t.val / 5 * 256 + p.val) :
    sblkR4 V c t (ix1 p) = srcR4 V c (ix1 e) := by
  have hN : cfg4.N = 15625 := N_4
  have ht := t.isLt
  unfold sblkR4 iblk4
  rw [View.read_apply]
  show srcR4 V c _ = _
  congr 1
  funext a
  apply Fin.ext
  match a with
  | ⟨0, _⟩ =>
    show win4_0.index t 0 * 256 + 1 * p.val = e.val
    rw [blk4_srcIdx t, he]
    show t.val / 5 % 3125 * 256 + 1 * p.val = _
    omega

theorem blk4_row (c : Dev nD) (t : Fin cfg4.N) (k : Fin 10000) (q : Fin 128) (n : Fin 50000) (hn : n.val = t.val % 5 * 10000 + k.val) :
    (nblkR4 V c t (ix2 k q) : EReal) = rowsR4 V c (ix2 n q) := by
  unfold nblkR4 iblk4
  rw [View.read_apply]
  show rowsR4 V c _ = _
  congr 1
  funext a
  apply Fin.ext
  match a with
  | ⟨0, _⟩ =>
    show win4_1.index t 0 * 10000 + 1 * k.val = n.val
    rw [blk4_nodeIdx t, hn]
    show t.val % 5 * 10000 + 1 * k.val = _
    omega
  | ⟨1, _⟩ =>
    show win4_1.index t 1 * 128 + 1 * q.val = q.val
    rw [blk4_nodeIdx t]
    show 0 * 128 + 1 * q.val = _
    omega

end Blocks

section Value
variable (V : (c : Dev nD) → (b : Ref sig .tc) → Buf (Elt Ideal) ((c : Thread nD τ).loc b))

theorem updR4 (c : Dev nD) (t : Fin cfg4.N) (xs : Vec Ideal S256x128 .f32) (p : Fin 256) (q : Fin 128) (e : Fin 800000)
    (he : e.val = t.val / 5 * 256 + p.val)
    (ha : (xs (ix2 p q) : EReal) = if (srcR4 V c (ix1 e)).toNat < t.val % 5 * 10000 then rowsR4 V c (ix2 (Cert.Spec.rowOf (srcR4 V c (ix1 e))) q) else 0) :
    (k0_pay2 (F := Ideal) (grid4.coords t) (sblkR4 V c t) xs (nblkR4 V c t) : S256x128.Idx → EReal) (ix2 p q)
      = if (srcR4 V c (ix1 e)).toNat < (t.val % 5 + 1) * 10000 then rowsR4 V c (ix2 (Cert.Spec.rowOf (srcR4 V c (ix1 e))) q) else 0 :=
  pointR0 (grid4.coords t) (t.val % 5) (coord4_1 t) (Nat.mod_lt _ (by decide)) (sblkR4 V c t) xs (nblkR4 V c t) p q (srcR4 V c (ix1 e))
    (blk4_src V c t p e he) (rowsR4 V c) ha (fun k n hn => blk4_row V c t k q n hn)

theorem accR4_eq (c : Dev nD) (n : ℕ) : ∀ (hn : n < cfg4.N) (p : Fin 256) (q : Fin 128) (e : Fin 800000) (he : e.val = n / 5 * 256 + p.val),
    (((outsAt4 V c n hn).2 : Vec Ideal S256x128 .f32) (ix2 p q) : EReal)
      = if (srcR4 V c (ix1 e)).toNat < (n % 5 + 1) * 10000 then rowsR4 V c (ix2 (Cert.Spec.rowOf (srcR4 V c (ix1 e))) q) else 0 := by
  induction n using Nat.strong_induction_on with
  | _ n ih =>
    intro hn p q e he
    obtain ⟨t, rfl⟩ : ∃ t : Fin cfg4.N, t.val = n := ⟨⟨n, hn⟩, rfl⟩
    by_cases h0 : t.val % 5 = 0
    · have h1 : ¬t.val % 5 = 4 := by omega
      rw [outsAt4_A V c t h0 h1]
      dsimp only
      unfold accA4
      refine (congrFun (sacc0_A_eq (F := Ideal) c (grid4.coords t) (stg4_0 t) (hstg4_0 t) (stg4_1 t) (hstg4_1 t) (stg4_2 t) (hstg4_2 t) acc4 (Memref.isWhole_whole _) ((hfirst4 t).mpr h0) (fun h => h1 ((hlast4 t).mp h)) (iblk4 V c 0 t) (iblk4 V c 1 t)) (ix2 p q)).trans ?_
      refine updR4 V c t (k0_pay1 (F := Ideal)) p q e he ?_
      exact (k0_pay1_apply _).trans (if_neg (by rw [h0, Nat.zero_mul]; exact Nat.not_lt_zero _)).symm
    · have hprev := ih (t.val - 1) (by omega) (by omega) p q e (by omega)
      rw [show (t.val - 1) % 5 + 1 = t.val % 5 from by omega] at hprev
      by_cases h1 : t.val % 5 = 4
      · rw [outsAt4_C V c t h0 h1]
        dsimp only
        unfold accC4
        refine (congrFun (sacc0_C_eq (F := Ideal) c (grid4.coords t) (stg4_0 t) (hstg4_0 t) (stg4_1 t) (hstg4_1 t) (stg4_2 t) (hstg4_2 t) acc4 (Memref.isWhole_whole _) (fun h => h0 ((hfirst4 t).mp h)) ((hlast4 t).mpr h1) (iblk4 V c 0 t) (iblk4 V c 1 t) (outsAt4 V c (t.val - 1) (Nat.lt_of_le_of_lt (Nat.sub_le _ _) t.isLt)).2) (ix2 p q)).trans ?_
        exact updR4 V c t _ p q e he hprev
      · rw [outsAt4_B V c t h0 h1]
        dsimp only
        unfold accB4
        refine (congrFun (sacc0_B_eq (F := Ideal) c (grid4.coords t) (stg4_0 t) (hstg4_0 t) (stg4_1 t) (hstg4_1 t) (stg4_2 t) (hstg4_2 t) acc4 (Memref.isWhole_whole _) (fun h => h0 ((hfirst4 t).mp h)) (fun h => h1 ((hlast4 t).mp h)) (iblk4 V c 0 t) (iblk4 V c 1 t) (outsAt4 V c (t.val - 1) (Nat.lt_of_le_of_lt (Nat.sub_le _ _) t.isLt)).2) (ix2 p q)).trans ?_
        exact updR4 V c t _ p q e he hprev

theorem blk4_outEmb (t : Fin cfg4.N) (p : Fin 256) (q : Fin 128) (e : Fin 800000) (he : e.val = t.val / 5 * 256 + p.val) :
    (((cfg4.win 2).blk t).view.emb (ix2 p q) : Cert.Spec.SG.Idx) = ix2 e q := by
  have hN : cfg4.N = 15625 := N_4
  have ht := t.isLt
  funext a
  apply Fin.ext
  match a with
  | ⟨0, _⟩ =>
    show win4_2.index t 0 * 256 + 1 * p.val = e.val
    rw [blk4_out t, he]
    show t.val / 5 % 3125 * 256 + 1 * p.val = _
    omega
  | ⟨1, _⟩ =>
    show win4_2.index t 1 * 128 + 1 * q.val = q.val
    rw [blk4_out t]
    show 0 * 128 + 1 * q.val = _
    omega

theorem flushedR4_eq (c : Dev nD) (hsrc : ∀ e : Cert.Spec.SE.Idx, (srcR4 V c e).toNat < 50000) (t : Fin cfg4.N) (hf : (cfg4.win 2).flush t = true) :
    (dat4 (F := Ideal) V c).flushed 2 t = ((cfg4.win 2).blk t).view.read (Elt Ideal) (Cert.Spec.gathered (srcR4 V c) (rowsR4 V c)) := by
  have hN : cfg4.N = 15625 := N_4
  have ht := t.isLt
  have h4 : t.val % 5 = 4 := (flushOut4 t).mp hf
  have h0 : ¬t.val % 5 = 0 := by omega
  show (cfg4.win 2).cut (grid4.coords t) ((dat4 V c).after 2 t) = _
  rw [after4_2, outsAt4_C V c t h0 h4]
  dsimp only
  funext y
  obtain ⟨p, q, rfl⟩ : ∃ (p : Fin 256) (q : Fin 128), y = (ix2 p q : S256x128.Idx) := ⟨y 0, y 1, eq_ix2 (n0 := 256) (n1 := 128) y⟩
  rw [View.read_apply]
  have he : (⟨t.val / 5 * 256 + p.val, by omega⟩ : Fin 800000).val = t.val / 5 * 256 + p.val := rfl
  show (outC4 V c t h0 h4 (outsAt4 V c (t.val - 1) (Nat.lt_of_le_of_lt (Nat.sub_le _ _) t.isLt)).2 : S256x128.Idx → EReal) (ix2 p q)
    = Cert.Spec.gathered (srcR4 V c) (rowsR4 V c) (((cfg4.win 2).blk t).view.emb (ix2 p q))
  rw [blk4_outEmb t p q _ he]
  unfold outC4
  refine (congrFun (out0_C_eq (F := Ideal) c (grid4.coords t) (stg4_0 t) (hstg4_0 t) (stg4_1 t) (hstg4_1 t) (stg4_2 t) (hstg4_2 t) acc4 (Memref.isWhole_whole _) (fun h => h0 ((hfirst4 t).mp h)) ((hlast4 t).mpr h4) (iblk4 V c 0 t) (iblk4 V c 1 t) (outsAt4 V c (t.val - 1) (Nat.lt_of_le_of_lt (Nat.sub_le _ _) t.isLt)).2) (ix2 p q)).trans ?_
  refine (k0_pay3_apply _ (ix2 p q)).trans ?_
  have hprev := accR4_eq V c (t.val - 1) (by omega) p q _ (show (⟨t.val / 5 * 256 + p.val, by omega⟩ : Fin 800000).val = (t.val - 1) / 5 * 256 + p.val by dsimp only; omega)
  rw [show (t.val - 1) % 5 + 1 = t.val % 5 from by omega] at hprev
  refine (updR4 V c t _ p q _ he hprev).trans ?_
  rw [if_pos (by rw [h4]; exact hsrc _)]
  rfl

end Value

-- After the region the output array holds, for every edge, the row of the edge's source node.
theorem gather_val4 (V : (c : Dev nD) → (b : Ref sig .tc) → Buf (Elt Ideal) ((c : Thread nD τ).loc b)) (c : Dev nD)
    (hsrc : ∀ e : Cert.Spec.SE.Idx, ((V c (Pipeline.arrRef spec4 0) : Cert.Spec.SE.Idx → BitVec 32) e).toNat < 50000) :
    ((dat4 (F := Ideal) V c).arrAt 2 cfg4.N : Cert.Spec.SG.Idx → EReal)
      = Cert.Spec.gathered (V c (Pipeline.arrRef spec4 0)) (V c (Pipeline.arrRef spec4 1)) :=
  (dat4 (F := Ideal) V c).arrAt_eq_of_cover 2 (Cert.Spec.gathered (srcR4 V c) (rowsR4 V c)) (flushedR4_eq V c hsrc) fun i => by
    have hN : cfg4.N = 15625 := N_4
    have hi0 : (i 0).val < 800000 := (i 0).isLt
    have hi1 : (i 1).val < 128 := (i 1).isLt
    have hlt : 5 * ((i 0).val / 256) + 4 < cfg4.N := by omega
    have hp : (i 0).val % 256 < 256 := Nat.mod_lt _ (by decide)
    refine ⟨⟨5 * ((i 0).val / 256) + 4, hlt⟩, (flushOut4 ⟨5 * ((i 0).val / 256) + 4, hlt⟩).mpr (by dsimp only; omega), ?_⟩
    have hi : (i : Cert.Spec.SG.Idx) = ix2 (⟨(i 0).val, hi0⟩ : Fin 800000) (⟨(i 1).val, hi1⟩ : Fin 128) := eq_ix2 (n0 := 800000) (n1 := 128) i
    have hmem := View.emb_mem_set ((cfg4.win 2).blk ⟨5 * ((i 0).val / 256) + 4, hlt⟩).view (ix2 (⟨(i 0).val % 256, hp⟩ : Fin 256) (⟨(i 1).val, hi1⟩ : Fin 128))
    rw [blk4_outEmb ⟨5 * ((i 0).val / 256) + 4, hlt⟩ ⟨(i 0).val % 256, hp⟩ ⟨(i 1).val, hi1⟩ ⟨(i 0).val, hi0⟩ (by dsimp only; omega), ← hi] at hmem
    exact hmem

end Cert.KernelIdeal.Hand

end
-- ==== Proof.KI.Val5.lean ====
import proofs.«415291_j87935160418912_3_alg».proof.Proof.KI.Dat5
import proofs.«415291_j87935160418912_3_alg».proof.Proof.KI.Pay3
import proofs.«415291_j87935160418912_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.ShloMosaic.ValueIdx

variable {F : FTy → Type} [FloatOps F]

theorem coordR5_0 (t : Fin cfg5.N) : ((grid5.coords t) 0).val = t.val / 3125 % 10 := by
  show t.val / grid5.stride 0 % 10 = _
  rw [show grid5.stride 0 = 3125 from by decide]

theorem idxR5_0 (t : Fin cfg5.N) : win5_0.index t = ![t.val % 3125, 0] := by
  show cc5_transform_0 (grid5.coords t) = _
  unfold cc5_transform_0
  dsimp only
  rw [coord5_1 t, BitVec.toNat_ofNat, Nat.mod_eq_of_lt (by omega : t.val % 3125 < 2 ^ 32)]
  rfl
theorem idxR5_1 (t : Fin cfg5.N) : win5_1.index t = ![t.val % 3125] := by
  show cc5_transform_1 (grid5.coords t) = _
  unfold cc5_transform_1
  dsimp only
  rw [coord5_1 t, BitVec.toNat_ofNat, Nat.mod_eq_of_lt (by omega : t.val % 3125 < 2 ^ 32)]
theorem idxR5_2 (t : Fin cfg5.N) : win5_2.index t = ![t.val / 3125 % 10, 0] := by
  show cc5_transform_2 (grid5.coords t) = _
  unfold cc5_transform_2
  dsimp only
  rw [coordR5_0 t, BitVec.toNat_ofNat, Nat.mod_eq_of_lt (by omega : t.val / 3125 % 10 < 2 ^ 32)]
  rfl
theorem idxR5_3 (t : Fin cfg5.N) : win5_3.index t = ![0, 0] := rfl
theorem idxR5_4 (t : Fin cfg5.N) : win5_4.index t = ![0] := rfl
theorem idxR5_5 (t : Fin cfg5.N) : win5_5.index t = ![0, 0] := rfl
theorem idxR5_6 (t : Fin cfg5.N) : win5_6.index t = ![0] := rfl
theorem idxR5_7 (t : Fin cfg5.N) : win5_7.index t = ![0, 0] := rfl

section Region
variable (V : (c : Dev nD) → (b : Ref sig .tc) → Buf (Elt Ideal) ((c : Thread nD τ).loc b))

theorem iblkR5_0_apply (c : Dev nD) (t : Fin cfg5.N) (k : Fin 256) (q : Fin 128) (e : Fin 800000) (he : e.val = 256 * (t.val % 3125) + k.val) :
    (iblk5 V c 0 t : Vec Ideal S256x128 .bf16) (ix2 k q) = (V c (Pipeline.arrRef spec5 0) : Cert.Spec.SG.Idx → EReal) (ix2 e q) := by
  unfold iblk5
  rw [View.read_apply]
  show (V c (Pipeline.arrRef spec5 0) : Cert.Spec.SG.Idx → EReal) _ = _
  congr 1
  funext a
  apply Fin.ext
  match a with
  | ⟨0, _⟩ =>
    show win5_0.index t 0 * 256 + 1 * k.val = e.val
    rw [idxR5_0, he, show (![t.val % 3125, 0] : Fin 2 → ℕ) 0 = t.val % 3125 from rfl]; omega
  | ⟨1, _⟩ =>
    show win5_0.index t 1 * 128 + 1 * q.val = q.val
    rw [idxR5_0, show (![t.val % 3125, 0] : Fin 2 → ℕ) 1 = 0 from rfl]; omega

theorem iblkR5_1_apply (c : Dev nD) (t : Fin cfg5.N) (k : Fin 256) (e : Fin 800000) (he : e.val = 256 * (t.val % 3125) + k.val) :
    (iblk5 V c 1 t : Vec Ideal S256 .i32) (ix1 k) = (V c (Pipeline.arrRef spec5 1) : Cert.Spec.SE.Idx → BitVec 32) (ix1 e) := by
  unfold iblk5
  rw [View.read_apply]
  show (V c (Pipeline.arrRef spec5 1) : Cert.Spec.SE.Idx → BitVec 32) _ = _
  congr 1
  funext a
  apply Fin.ext
  match a with
  | ⟨0, _⟩ =>
    show win5_1.index t 0 * 256 + 1 * k.val = e.val
    rw [idxR5_1, he, show (![t.val % 3125] : Fin 1 → ℕ) 0 = t.val % 3125 from rfl]; omega

theorem iblkR5_2_apply (c : Dev nD) (t : Fin cfg5.N) (p : Fin 5000) (q : Fin 128) (r : Fin 50000) (hr : r.val = 5000 * (t.val / 3125 % 10) + p.val) :
    (iblk5 V c 2 t : Vec Ideal S5000x128 .f32) (ix2 p q) = (V c (Pipeline.arrRef spec5 2) : Cert.Spec.SN.Idx → EReal) (ix2 r q) := by
  unfold iblk5
  rw [View.read_apply]
  show (V c (Pipeline.arrRef spec5 2) : Cert.Spec.SN.Idx → EReal) _ = _
  congr 1
  funext a
  apply Fin.ext
  match a with
  | ⟨0, _⟩ =>
    show win5_2.index t 0 * 5000 + 1 * p.val = r.val
    rw [idxR5_2, hr, show (![t.val / 3125 % 10, 0] : Fin 2 → ℕ) 0 = t.val / 3125 % 10 from rfl]; omega
  | ⟨1, _⟩ =>
    show win5_2.index t 1 * 128 + 1 * q.val = q.val
    rw [idxR5_2, show (![t.val / 3125 % 10, 0] : Fin 2 → ℕ) 1 = 0 from rfl]; omega

theorem iblkR5_3_apply (c : Dev nD) (t : Fin cfg5.N) (k : Fin 128) (q : Fin 128) :
    (iblk5 V c 3 t : Vec Ideal S128x128 .f32) (ix2 k q) = (V c (Pipeline.arrRef spec5 3) : Cert.Spec.SW.Idx → EReal) (ix2 k q) := by
  unfold iblk5
  rw [View.read_apply]
  show (V c (Pipeline.arrRef spec5 3) : Cert.Spec.SW.Idx → EReal) _ = _
  congr 1
  funext a
  apply Fin.ext
  match a with
  | ⟨0, _⟩ => show win5_3.index t 0 * 128 + 1 * k.val = k.val; rw [idxR5_3, show (![0, 0] : Fin 2 → ℕ) 0 = 0 from rfl]; omega
  | ⟨1, _⟩ => show win5_3.index t 1 * 128 + 1 * q.val = q.val; rw [idxR5_3, show (![0, 0] : Fin 2 → ℕ) 1 = 0 from rfl]; omega
theorem iblkR5_4_apply (c : Dev nD) (t : Fin cfg5.N) (q : Fin 128) :
    (iblk5 V c 4 t : Vec Ideal S128 .f32) (ix1 q) = (V c (Pipeline.arrRef spec5 4) : Cert.Spec.SB.Idx → EReal) (ix1 q) := by
  unfold iblk5
  rw [View.read_apply]
  show (V c (Pipeline.arrRef spec5 4) : Cert.Spec.SB.Idx → EReal) _ = _
  congr 1
  funext a
  apply Fin.ext
  match a with
  | ⟨0, _⟩ => show win5_4.index t 0 * 128 + 1 * q.val = q.val; rw [idxR5_4, show (![0] : Fin 1 → ℕ) 0 = 0 from rfl]; omega
theorem iblkR5_5_apply (c : Dev nD) (t : Fin cfg5.N) (k : Fin 128) (q : Fin 128) :
    (iblk5 V c 5 t : Vec Ideal S128x128 .f32) (ix2 k q) = (V c (Pipeline.arrRef spec5 5) : Cert.Spec.SW.Idx → EReal) (ix2 k q) := by
  unfold iblk5
  rw [View.read_apply]
  show (V c (Pipeline.arrRef spec5 5) : Cert.Spec.SW.Idx → EReal) _ = _
  congr 1
  funext a
  apply Fin.ext
  match a with
  | ⟨0, _⟩ => show win5_5.index t 0 * 128 + 1 * k.val = k.val; rw [idxR5_5, show (![0, 0] : Fin 2 → ℕ) 0 = 0 from rfl]; omega
  | ⟨1, _⟩ => show win5_5.index t 1 * 128 + 1 * q.val = q.val; rw [idxR5_5, show (![0, 0] : Fin 2 → ℕ) 1 = 0 from rfl]; omega
theorem iblkR5_6_apply (c : Dev nD) (t : Fin cfg5.N) (q : Fin 128) :
    (iblk5 V c 6 t : Vec Ideal S128 .f32) (ix1 q) = (V c (Pipeline.arrRef spec5 6) : Cert.Spec.SB.Idx → EReal) (ix1 q) := by
  unfold iblk5
  rw [View.read_apply]
  show (V c (Pipeline.arrRef spec5 6) : Cert.Spec.SB.Idx → EReal) _ = _
  congr 1
  funext a
  apply Fin.ext
  match a with
  | ⟨0, _⟩ => show win5_6.index t 0 * 128 + 1 * q.val = q.val; rw [idxR5_6, show (![0] : Fin 1 → ℕ) 0 = 0 from rfl]; omega
theorem iblkR5_7_apply (c : Dev nD) (t : Fin cfg5.N) (q : Fin 128) :
    (iblk5 V c 7 t : Vec Ideal S1x128 .f32) (ix2 (0 : Fin 1) q) = (V c (Pipeline.arrRef spec5 7) : Cert.Spec.SR.Idx → EReal) (ix2 (0 : Fin 1) q) := by
  unfold iblk5
  rw [View.read_apply]
  show (V c (Pipeline.arrRef spec5 7) : Cert.Spec.SR.Idx → EReal) _ = _
  congr 1
  funext a
  apply Fin.ext
  match a with
  | ⟨0, _⟩ => show win5_7.index t 0 * 1 + 1 * 0 = 0; rw [idxR5_7, show (![0, 0] : Fin 2 → ℕ) 0 = 0 from rfl]
  | ⟨1, _⟩ => show win5_7.index t 1 * 128 + 1 * q.val = q.val; rw [idxR5_7, show (![0, 0] : Fin 2 → ℕ) 1 = 0 from rfl]; omega

end Region

section Region
variable (V : (c : Dev nD) → (b : Ref sig .tc) → Buf (Elt Ideal) ((c : Thread nD τ).loc b))

def addendR5 (c : Dev nD) (n : ℕ) (p : Fin 5000) (q : Fin 128) : EReal :=
  if h : n < cfg5.N then
    chunkTermR1 (Scalar.muli (BitVec.ofNat 32 ((grid5.coords ⟨n, h⟩) 0).val) 5000#32) (iblk5 V c 1 ⟨n, h⟩) (iblk5 V c 0 ⟨n, h⟩) p q
  else 0

theorem addendR5_at (c : Dev nD) (t : Fin cfg5.N) (p : Fin 5000) (q : Fin 128) :
    addendR5 V c t.val p q
      = chunkTermR1 (Scalar.muli (BitVec.ofNat 32 ((grid5.coords t) 0).val) 5000#32) (iblk5 V c 1 t) (iblk5 V c 0 t) p q := by
  unfold addendR5
  rw [dif_pos t.isLt]

theorem stepR5 (c : Dev nD) (t : Fin cfg5.N) (p : Fin 5000) (q : Fin 128) :
    (outsAt5 V c t.val t.isLt).2 (ix2 p q)
      = (if t.val % 3125 = 0 then 0 else (outsAt5 V c (t.val - 1) (Nat.lt_of_le_of_lt (Nat.sub_le _ _) t.isLt)).2 (ix2 p q))
        + addendR5 V c t.val p q := by
  rw [addendR5_at]
  by_cases h0 : t.val % 3125 = 0
  · have h1 : ¬t.val % 3125 = 3124 := by omega
    rw [outsAt5_A V c t h0 h1, if_pos h0]
    dsimp only
    unfold accA5
    refine (congrFun (sacc3_A_eq (F := Ideal) c (grid5.coords t) (stg5_0 t) (hstg5_0 t) (stg5_1 t) (hstg5_1 t) (stg5_2 t) (hstg5_2 t) (stg5_3 t) (hstg5_3 t) (stg5_4 t) (hstg5_4 t) (stg5_5 t) (hstg5_5 t) (stg5_6 t) (hstg5_6 t) (stg5_7 t) (hstg5_7 t) (stg5_8 t) (hstg5_8 t) acc5 (Memref.isWhole_whole _) ((hfirst5 t).mpr h0) (fun h => h1 ((hlast5 t).mp h)) (iblk5 V c 0 t) (iblk5 V c 1 t) (iblk5 V c 2 t) (iblk5 V c 3 t) (iblk5 V c 4 t) (iblk5 V c 5 t) (iblk5 V c 6 t) (iblk5 V c 7 t)) (ix2 p q)).trans ?_
    refine (pay2R3_apply (grid5.coords t) (iblk5 V c 1 t) (iblk5 V c 0 t) (k3_pay1 (F := Ideal)) p q).trans ?_
    rw [pay1R3_apply]
  · rw [if_neg h0]
    by_cases h1 : t.val % 3125 = 3124
    · rw [outsAt5_C V c t h0 h1]
      dsimp only
      unfold accC5
      refine (congrFun (sacc3_C_eq (F := Ideal) c (grid5.coords t) (stg5_0 t) (hstg5_0 t) (stg5_1 t) (hstg5_1 t) (stg5_2 t) (hstg5_2 t) (stg5_3 t) (hstg5_3 t) (stg5_4 t) (hstg5_4 t) (stg5_5 t) (hstg5_5 t) (stg5_6 t) (hstg5_6 t) (stg5_7 t) (hstg5_7 t) (stg5_8 t) (hstg5_8 t) acc5 (Memref.isWhole_whole _) (fun h => h0 ((hfirst5 t).mp h)) ((hlast5 t).mpr h1) (iblk5 V c 0 t) (iblk5 V c 1 t) (iblk5 V c 2 t) (iblk5 V c 3 t) (iblk5 V c 4 t) (iblk5 V c 5 t) (iblk5 V c 6 t) (iblk5 V c 7 t) (outsAt5 V c (t.val - 1) (Nat.lt_of_le_of_lt (Nat.sub_le _ _) t.isLt)).2) (ix2 p q)).trans ?_
      exact pay2R3_apply (grid5.coords t) (iblk5 V c 1 t) (iblk5 V c 0 t) _ p q
    · rw [outsAt5_B V c t h0 h1]
      dsimp only
      unfold accB5
      refine (congrFun (sacc3_B_eq (F := Ideal) c (grid5.coords t) (stg5_0 t) (hstg5_0 t) (stg5_1 t) (hstg5_1 t) (stg5_2 t) (hstg5_2 t) (stg5_3 t) (hstg5_3 t) (stg5_4 t) (hstg5_4 t) (stg5_5 t) (hstg5_5 t) (stg5_6 t) (hstg5_6 t) (stg5_7 t) (hstg5_7 t) (stg5_8 t) (hstg5_8 t) acc5 (Memref.isWhole_whole _) (fun h => h0 ((hfirst5 t).mp h)) (fun h => h1 ((hlast5 t).mp h)) (iblk5 V c 0 t) (iblk5 V c 1 t) (iblk5 V c 2 t) (iblk5 V c 3 t) (iblk5 V c 4 t) (iblk5 V c 5 t) (iblk5 V c 6 t) (iblk5 V c 7 t) (outsAt5 V c (t.val - 1) (Nat.lt_of_le_of_lt (Nat.sub_le _ _) t.isLt)).2) (ix2 p q)).trans ?_
      exact pay2R3_apply (grid5.coords t) (iblk5 V c 1 t) (iblk5 V c 0 t) _ p q

end Region

section Region
variable (V : (c : Dev nD) → (b : Ref sig .tc) → Buf (Elt Ideal) ((c : Thread nD τ).loc b))

theorem accR5_eq (c : Dev nD) (p : Fin 5000) (q : Fin 128) : ∀ (n : ℕ) (hn : n < cfg5.N),
    (outsAt5 V c n hn).2 (ix2 p q) = ∑ s ∈ Finset.range (n % 3125 + 1), addendR5 V c (n - n % 3125 + s) p q := by
  intro n
  induction n with
  | zero =>
    intro hn
    refine (stepR5 V c ⟨0, hn⟩ p q).trans ?_
    dsimp only
    rw [if_pos (Nat.zero_mod _), zero_add]
    simp
  | succ m ih =>
    intro hn
    have hm : m < cfg5.N := Nat.lt_of_succ_lt hn
    refine (stepR5 V c ⟨m + 1, hn⟩ p q).trans ?_
    dsimp only
    by_cases h0 : (m + 1) % 3125 = 0
    · rw [if_pos h0, h0, zero_add, Nat.zero_add, Finset.sum_range_one, Nat.sub_zero, Nat.add_zero]
    · rw [if_neg h0]
      have same : ∀ (u : ℕ) (hu : u < cfg5.N), u = m → (outsAt5 V c u hu).2 = (outsAt5 V c m hm).2 :=
        fun u hu e => by subst e; rfl
      rw [same (m + 1 - 1) _ (Nat.add_sub_cancel m 1), ih hm]
      have e1 : m % 3125 + 1 = (m + 1) % 3125 := by omega
      have e2 : m - m % 3125 = (m + 1) - (m + 1) % 3125 := by omega
      have e3 : (m + 1) - (m + 1) % 3125 + (m + 1) % 3125 = m + 1 := by omega
      rw [Finset.sum_range_succ _ ((m + 1) % 3125), e3, ← e2, ← e1]

end Region

section Region
variable (V : (c : Dev nD) → (b : Ref sig .tc) → Buf (Elt Ideal) ((c : Thread nD τ).loc b))

theorem scatR5_eq (c : Dev nD) (t : Fin cfg5.N) (h1 : t.val % 3125 = 3124) (p : Fin 5000) (k : Fin 128) (r : Fin 50000)
    (hr : r.val = 5000 * (t.val / 3125 % 10) + p.val) :
    (outsAt5 V c t.val t.isLt).2 (ix2 p k)
      = Cert.Spec.scattered (V c (Pipeline.arrRef spec5 1)) (V c (Pipeline.arrRef spec5 0)) (ix2 r k) := by
  have hN : cfg5.N = 31250 := N_5
  have hlt : t.val < cfg5.N := t.isLt
  rw [accR5_eq V c p k t.val t.isLt, h1]
  unfold Cert.Spec.scattered
  refine sumR1_chunks (fun e => if (V c (Pipeline.arrRef spec5 1) : Cert.Spec.SE.Idx → BitVec 32) (ix1 e) = BitVec.ofNat 32 r.val
      then (V c (Pipeline.arrRef spec5 0) : Cert.Spec.SG.Idx → EReal) (ix2 e k) else 0) _ fun s => ?_
  have hs := s.isLt
  have ht' : t.val - 3124 + s.val < cfg5.N := by omega
  refine (addendR5_at V c ⟨t.val - 3124 + s.val, ht'⟩ p k).trans ?_
  unfold chunkTermR1
  refine Finset.sum_congr rfl fun j _ => ?_
  have hj := j.isLt
  have he : (⟨256 * s.val + j.val, by omega⟩ : Fin 800000).val = 256 * ((⟨t.val - 3124 + s.val, ht'⟩ : Fin cfg5.N).val % 3125) + j.val := by
    show 256 * s.val + j.val = 256 * ((t.val - 3124 + s.val) % 3125) + j.val
    omega
  rw [iblkR5_1_apply V c ⟨t.val - 3124 + s.val, ht'⟩ j ⟨256 * s.val + j.val, by omega⟩ he,
    iblkR5_0_apply V c ⟨t.val - 3124 + s.val, ht'⟩ j k ⟨256 * s.val + j.val, by omega⟩ he,
    coordR5_0 ⟨t.val - 3124 + s.val, ht'⟩, nodeR1_word]
  have hb : (⟨t.val - 3124 + s.val, ht'⟩ : Fin cfg5.N).val / 3125 % 10 = t.val / 3125 % 10 := by
    show (t.val - 3124 + s.val) / 3125 % 10 = t.val / 3125 % 10
    omega
  rw [hb, ← hr]
  by_cases hd : (V c (Pipeline.arrRef spec5 1) : Cert.Spec.SE.Idx → BitVec 32) (ix1 ⟨256 * s.val + j.val, by omega⟩) = BitVec.ofNat 32 r.val
  · rw [if_pos hd, if_pos hd.symm, one_mul]
  · rw [if_neg hd, if_neg (fun h => hd h.symm), zero_mul]

end Region

section Region
variable (V : (c : Dev nD) → (b : Ref sig .tc) → Buf (Elt Ideal) ((c : Thread nD τ).loc b))

abbrev resR5 (c : Dev nD) : Cert.Spec.SN.Idx → EReal :=
  Cert.Spec.combine (V c (Pipeline.arrRef spec5 2))
    (Cert.Spec.aggregated (V c (Pipeline.arrRef spec5 1)) (V c (Pipeline.arrRef spec5 0)) (V c (Pipeline.arrRef spec5 2)))
    (V c (Pipeline.arrRef spec5 3)) (V c (Pipeline.arrRef spec5 4)) (V c (Pipeline.arrRef spec5 5)) (V c (Pipeline.arrRef spec5 6))
    (V c (Pipeline.arrRef spec5 7))

theorem outR5_apply (c : Dev nD) (t : Fin cfg5.N) (h1 : t.val % 3125 = 3124) (p : Fin 5000) (q : Fin 128) (r : Fin 50000)
    (hr : r.val = 5000 * (t.val / 3125 % 10) + p.val) :
    (outsAt5 V c t.val t.isLt).1 (ix2 p q) = resR5 V c (ix2 r q) := by
  have h0 : ¬t.val % 3125 = 0 := by omega
  have hacc : k3_pay2 (F := Ideal) (grid5.coords t) (iblk5 V c 1 t) (iblk5 V c 0 t) (outsAt5 V c (t.val - 1) (Nat.lt_of_le_of_lt (Nat.sub_le _ _) t.isLt)).2
      = (outsAt5 V c t.val t.isLt).2 := by
    rw [outsAt5_C V c t h0 h1]
    dsimp only
    unfold accC5
    exact (sacc3_C_eq (F := Ideal) c (grid5.coords t) (stg5_0 t) (hstg5_0 t) (stg5_1 t) (hstg5_1 t) (stg5_2 t) (hstg5_2 t) (stg5_3 t) (hstg5_3 t) (stg5_4 t) (hstg5_4 t) (stg5_5 t) (hstg5_5 t) (stg5_6 t) (hstg5_6 t) (stg5_7 t) (hstg5_7 t) (stg5_8 t) (hstg5_8 t) acc5 (Memref.isWhole_whole _) (fun h => h0 ((hfirst5 t).mp h)) ((hlast5 t).mpr h1) (iblk5 V c 0 t) (iblk5 V c 1 t) (iblk5 V c 2 t) (iblk5 V c 3 t) (iblk5 V c 4 t) (iblk5 V c 5 t) (iblk5 V c 6 t) (iblk5 V c 7 t) (outsAt5 V c (t.val - 1) (Nat.lt_of_le_of_lt (Nat.sub_le _ _) t.isLt)).2).symm
  have hout : (outsAt5 V c t.val t.isLt).1 = k3_pay3 (F := Ideal) (iblk5 V c 2 t) (outsAt5 V c t.val t.isLt).2 (iblk5 V c 3 t) (iblk5 V c 4 t) (iblk5 V c 5 t) (iblk5 V c 6 t) (iblk5 V c 7 t) := by
    rw [← hacc, outsAt5_C V c t h0 h1]
    dsimp only
    unfold outC5
    exact out3_C_eq (F := Ideal) c (grid5.coords t) (stg5_0 t) (hstg5_0 t) (stg5_1 t) (hstg5_1 t) (stg5_2 t) (hstg5_2 t) (stg5_3 t) (hstg5_3 t) (stg5_4 t) (hstg5_4 t) (stg5_5 t) (hstg5_5 t) (stg5_6 t) (hstg5_6 t) (stg5_7 t) (hstg5_7 t) (stg5_8 t) (hstg5_8 t) acc5 (Memref.isWhole_whole _) (fun h => h0 ((hfirst5 t).mp h)) ((hlast5 t).mpr h1) (iblk5 V c 0 t) (iblk5 V c 1 t) (iblk5 V c 2 t) (iblk5 V c 3 t) (iblk5 V c 4 t) (iblk5 V c 5 t) (iblk5 V c 6 t) (iblk5 V c 7 t) (outsAt5 V c (t.val - 1) (Nat.lt_of_le_of_lt (Nat.sub_le _ _) t.isLt)).2
  rw [hout]
  refine (pay3R3_apply (iblk5 V c 2 t) (outsAt5 V c t.val t.isLt).2 (iblk5 V c 3 t) (iblk5 V c 4 t) (iblk5 V c 5 t) (iblk5 V c 6 t) (iblk5 V c 7 t) p q).trans ?_
  refine Eq.trans ?_ (combineR1_apply _ _ _ _ _ _ _ r q).symm
  refine congrArg₂ max ?_ rfl
  refine congrArg₂ (· + ·) (congrArg₂ (· + ·) (congrArg₂ (· + ·) ?_ ?_) (congrArg₂ (· + ·) ?_ ?_)) ?_
  · exact Finset.sum_congr rfl fun k _ => by rw [iblkR5_2_apply V c t p k r hr, iblkR5_3_apply V c t k q]
  · exact iblkR5_4_apply V c t q
  · refine Finset.sum_congr rfl fun k _ => ?_
    rw [scatR5_eq V c t h1 p k r hr, iblkR5_2_apply V c t p k r hr, iblkR5_5_apply V c t k q]
    rfl
  · exact iblkR5_6_apply V c t q
  · exact iblkR5_7_apply V c t q

end Region

section Region
variable (V : (c : Dev nD) → (b : Ref sig .tc) → Buf (Elt Ideal) ((c : Thread nD τ).loc b))

theorem flushedR5_eq (c : Dev nD) (t : Fin cfg5.N) (hf : (cfg5.win 8).flush t = true) :
    (dat5 V c).flushed 8 t = ((cfg5.win 8).blk t).view.read (Elt Ideal) (resR5 V c) := by
  have h1 : t.val % 3125 = 3124 := (flushOut5 t).mp hf
  have hN : cfg5.N = 31250 := N_5
  have hlt : t.val < cfg5.N := t.isLt
  funext y
  have hp : (y 0).val < 5000 := (y 0).isLt
  have hq : (y 1).val < 128 := (y 1).isLt
  have hr : 5000 * (t.val / 3125 % 10) + (y 0).val < 50000 := by omega
  have e := outR5_apply V c t h1 ⟨(y 0).val, hp⟩ ⟨(y 1).val, hq⟩ ⟨5000 * (t.val / 3125 % 10) + (y 0).val, hr⟩ rfl
  have ey : (cfg5.win 8).xinj (grid5.coords t) y = ix2 (⟨(y 0).val, hp⟩ : Fin 5000) (⟨(y 1).val, hq⟩ : Fin 128) :=
    funext fun a => match a with
      | ⟨0, _⟩ => rfl
      | ⟨1, _⟩ => rfl
  show (dat5 V c).after 8 t ((cfg5.win 8).xinj (grid5.coords t) y) = _
  rw [after5_8, View.read_apply, ey, e]
  show resR5 V c _ = resR5 V c (((cfg5.win 8).blk t).view.emb y)
  refine congrArg (resR5 V c) (funext fun a => Fin.ext ?_)
  match a with
  | ⟨0, _⟩ =>
    show 5000 * (t.val / 3125 % 10) + (y 0).val = win5_8.index t 0 * 5000 + 1 * (y 0).val
    rw [blk5_out, show (![t.val / 3125 % 10, 0] : Fin 2 → ℕ) 0 = t.val / 3125 % 10 from rfl]; omega
  | ⟨1, _⟩ =>
    show (y 1).val = win5_8.index t 1 * 128 + 1 * (y 1).val
    rw [blk5_out, show (![t.val / 3125 % 10, 0] : Fin 2 → ℕ) 1 = 0 from rfl]; omega

end Region

section Region
variable (V : (c : Dev nD) → (b : Ref sig .tc) → Buf (Elt Ideal) ((c : Thread nD τ).loc b))

theorem coverR5 (i : Cert.Spec.SN.Idx) :
    ∃ t : Fin cfg5.N, (cfg5.win 8).flush t = true ∧ i ∈ ((cfg5.win 8).blk t).view.set := by
  have hN : cfg5.N = 31250 := N_5
  have h0 : (i 0).val < 50000 := (i 0).isLt
  have h1 : (i 1).val < 128 := (i 1).isLt
  have ht : 3125 * ((i 0).val / 5000) + 3124 < cfg5.N := by omega
  refine ⟨⟨3125 * ((i 0).val / 5000) + 3124, ht⟩, (flushOut5 _).mpr (by show (3125 * ((i 0).val / 5000) + 3124) % 3125 = 3124; omega), ?_⟩
  show i ∈ ((View.whole (Pipeline.arrRef spec5 8)).slice (win5_8.rect ⟨3125 * ((i 0).val / 5000) + 3124, ht⟩)).set
  rw [View.set_slice_whole, Rect.mem_set_unit]
  intro a
  match a with
  | ⟨0, _⟩ =>
    show win5_8.index ⟨3125 * ((i 0).val / 5000) + 3124, ht⟩ 0 * 5000 ≤ (i 0).val ∧ (i 0).val < win5_8.index ⟨3125 * ((i 0).val / 5000) + 3124, ht⟩ 0 * 5000 + 5000
    rw [blk5_out, show (![(3125 * ((i 0).val / 5000) + 3124) / 3125 % 10, 0] : Fin 2 → ℕ) 0 = (3125 * ((i 0).val / 5000) + 3124) / 3125 % 10 from rfl]
    omega
  | ⟨1, _⟩ =>
    show win5_8.index ⟨3125 * ((i 0).val / 5000) + 3124, ht⟩ 1 * 128 ≤ (i 1).val ∧ (i 1).val < win5_8.index ⟨3125 * ((i 0).val / 5000) + 3124, ht⟩ 1 * 128 + 128
    rw [blk5_out, show (![(3125 * ((i 0).val / 5000) + 3124) / 3125 % 10, 0] : Fin 2 → ℕ) 1 = 0 from rfl]
    omega

-- After the region the output array is the layer's combination of the node rows with the sums over incoming edges.
theorem scatter_val5 (c : Dev nD) :
    ((dat5 (F := Ideal) V c).arrAt 8 cfg5.N : Cert.Spec.SN.Idx → EReal)
      = Cert.Spec.combine (V c (Pipeline.arrRef spec5 2))
          (Cert.Spec.aggregated (V c (Pipeline.arrRef spec5 1)) (V c (Pipeline.arrRef spec5 0)) (V c (Pipeline.arrRef spec5 2)))
          (V c (Pipeline.arrRef spec5 3)) (V c (Pipeline.arrRef spec5 4)) (V c (Pipeline.arrRef spec5 5)) (V c (Pipeline.arrRef spec5 6))
          (V c (Pipeline.arrRef spec5 7)) :=
  (dat5 (F := Ideal) V c).arrAt_eq_of_cover 8 (resR5 V c) (flushedR5_eq V c) coverR5

end Region

end Cert.KernelIdeal.Hand

end
-- ==== Proof.KI.Result.lean ====
import proofs.«415291_j87935160418912_3_alg».proof.Proof.KI.NetVal
import proofs.«415291_j87935160418912_3_alg».proof.Proof.KI.Host
import proofs.«415291_j87935160418912_3_alg».proof.Proof.KI.Val0
import proofs.«415291_j87935160418912_3_alg».proof.Proof.KI.Val1
import proofs.«415291_j87935160418912_3_alg».proof.Proof.KI.Val2
import proofs.«415291_j87935160418912_3_alg».proof.Proof.KI.Val3
import proofs.«415291_j87935160418912_3_alg».proof.Proof.KI.Val4
import proofs.«415291_j87935160418912_3_alg».proof.Proof.KI.Val5

noncomputable section

namespace Cert.KernelIdeal.Hand

open Idealize.ShloMosaic Idealize.ShloMosaic.TcCoe Idealize.ShloMosaic.Tactic

theorem result_val (m : (ℓ : Loc nD τ sig) → Buf (Elt Ideal) ℓ) (ρ : Dev nD → PrngReg) (c : Dev nD)
    (hsrc : ∀ e : Cert.Spec.SE.Idx, ((m ((c.tc : Thread nD τ).loc main_arg1) : Cert.Spec.SE.Idx → BitVec 32) e).toNat < 50000) :
    (W13 m ρ c main_v75 : Cert.Spec.SO.Idx → EReal) = Cert.Spec.net (m ((c.tc : Thread nD τ).loc main_arg0) : Cert.Spec.SN.Idx → EReal) (m ((c.tc : Thread nD τ).loc main_arg1) : Cert.Spec.SE.Idx → BitVec 32) (m ((c.tc : Thread nD τ).loc main_arg2) : Cert.Spec.SE.Idx → BitVec 32) (m ((c.tc : Thread nD τ).loc main_arg3) : Cert.Spec.SW3.Idx → EReal) (m ((c.tc : Thread nD τ).loc main_arg4) : Cert.Spec.SB3.Idx → EReal) (m ((c.tc : Thread nD τ).loc main_arg5) : Cert.Spec.SW3.Idx → EReal) (m ((c.tc : Thread nD τ).loc main_arg6) : Cert.Spec.SB3.Idx → EReal) (m ((c.tc : Thread nD τ).loc main_arg7) : Cert.Spec.SW3.Idx → EReal) (m ((c.tc : Thread nD τ).loc main_arg8) : Cert.Spec.SB3.Idx → EReal) (m ((c.tc : Thread nD τ).loc main_arg9) : Cert.Spec.SOW.Idx → EReal) (m ((c.tc : Thread nD τ).loc main_arg10) : Cert.Spec.SOB.Idx → EReal) :=
  net_of_steps m ρ c
    (host0_v0 (W0 m ρ c)) (host0_v1 (W0 m ρ c)) (host0_v2 (W0 m ρ c))
    ((W2_arr m ρ c 2).trans (gather_val0 (V1 m ρ) c (fun e => by rw [show (V1 m ρ c (Pipeline.arrRef spec0 0) : Cert.Spec.SE.Idx → BitVec 32) = m ((c.tc : Thread nD τ).loc main_arg1) from W1_arg1 m ρ c]; exact hsrc e)))
    (host1_r (W2 m ρ c)) (host1_vw (W2 m ρ c)) (host1_vb (W2 m ρ c)) (host1_aw (W2 m ρ c)) (host1_ab (W2 m ρ c))
    ((W4_arr m ρ c 8).trans (scatter_val1 (V3 m ρ) c))
    (host2_v23 (W4 m ρ c))
    ((W6_arr m ρ c 2).trans (gather_val2 (V5 m ρ) c (fun e => by rw [show (V5 m ρ c (Pipeline.arrRef spec2 0) : Cert.Spec.SE.Idx → BitVec 32) = m ((c.tc : Thread nD τ).loc main_arg1) from W5_arg1 m ρ c]; exact hsrc e)))
    (host3_r (W6 m ρ c)) (host3_vw (W6 m ρ c)) (host3_vb (W6 m ρ c)) (host3_aw (W6 m ρ c)) (host3_ab (W6 m ρ c))
    ((W8_arr m ρ c 8).trans (scatter_val3 (V7 m ρ) c))
    (host4_v44 (W8 m ρ c))
    ((W10_arr m ρ c 2).trans (gather_val4 (V9 m ρ) c (fun e => by rw [show (V9 m ρ c (Pipeline.arrRef spec4 0) : Cert.Spec.SE.Idx → BitVec 32) = m ((c.tc : Thread nD τ).loc main_arg1) from W9_arg1 m ρ c]; exact hsrc e)))
    (host5_r (W10 m ρ c)) (host5_vw (W10 m ρ c)) (host5_vb (W10 m ρ c)) (host5_aw (W10 m ρ c)) (host5_ab (W10 m ρ c))
    ((W12_arr m ρ c 8).trans (scatter_val5 (V11 m ρ) c))
    (host6_out (W12 m ρ c))

end Cert.KernelIdeal.Hand

end
-- ==== Proof.KI.PreSrc.lean ====
import proofs.«415291_j87935160418912_3_alg».proof.Defs
import proofs.«415291_j87935160418912_3_alg».proof.Proof.Gen.Pre_finite_inputs
import proofs.«415291_j87935160418912_3_alg».proof.Proof.Spec
import Idealize.ShloMosaic.Lib.ReduceAll
import Idealize.ShloMosaic.Lib.StableHlo.Predicate
import Idealize.ShloMosaic.Lib.ValueIdx

noncomputable section

namespace Cert.KernelIdeal.Hand

open Idealize.ShloMosaic Idealize.SL.Sem

instance subsingleton_scalar_idx : Subsingleton Cert.Pre_finite_inputs.S_.Idx :=
  ⟨fun a b => funext fun d => d.elim0⟩

theorem toNat_lt_of_signed_range (w : BitVec 32) (h0 : IntOp.cmpi .sge w 0#32 = 1#1)
    (h1 : IntOp.cmpi .slt w 50000#32 = 1#1) : w.toNat < 50000 := by
  rw [IntOp.cmpi_sge] at h0
  rw [IntOp.cmpi_slt] at h1
  have z : (0#32 : BitVec 32).toInt = 0 := by decide
  have k : (50000#32 : BitVec 32).toInt = 50000 := by decide
  rw [z] at h0
  rw [k] at h1
  have hw := w.isLt
  rw [BitVec.toInt_eq_toNat_cond] at h0 h1
  split at h0 <;> omega

theorem src_lt_of_fn {F : FTy → Type} [FloatOps F] [hPre : Cert.Pre_finite_inputs.Facts]
    (a0 : FVec F Cert.Pre_finite_inputs.S50000x128 .f32) (a1 a2 : IVec Cert.Pre_finite_inputs.S800000 32)
    (a3 : FVec F Cert.Pre_finite_inputs.S3x128x128 .f32) (a4 : FVec F Cert.Pre_finite_inputs.S3x128 .f32)
    (a5 : FVec F Cert.Pre_finite_inputs.S3x128x128 .f32) (a6 : FVec F Cert.Pre_finite_inputs.S3x128 .f32)
    (a7 : FVec F Cert.Pre_finite_inputs.S3x128x128 .f32) (a8 : FVec F Cert.Pre_finite_inputs.S3x128 .f32)
    (a9 : FVec F Cert.Pre_finite_inputs.S2x128 .f32) (a10 : FVec F Cert.Pre_finite_inputs.S2 .f32)
    (h : Cert.Pre_finite_inputs.fn (F := F) a0 a1 a2 a3 a4 a5 a6 a7 a8 a9 a10 = fun _ => 1#1)
    (e : Cert.Pre_finite_inputs.S800000.Idx) : (a1 e).toNat < 50000 := by
  have h0 := congrFun h ValueIdx.ix0
  dsimp only [Cert.Pre_finite_inputs.fn, Cert.Pre_finite_inputs.fn_part1, Cert.Pre_finite_inputs.fn_part2,
    Cert.Pre_finite_inputs.fn_part3] at h0

  obtain ⟨h47, hlt⟩ := IntOp.andi_eq_one.1 h0
  obtain ⟨-, hge⟩ := IntOp.andi_eq_one.1 h47
  have ge : IntOp.cmpi .sge (a1 e) 0#32 = 1#1 := Host.reduce_andi_all _ _ _ _ _ hge e
  have lt : IntOp.cmpi .slt (a1 e) 50000#32 = 1#1 := Host.reduce_andi_all _ _ _ _ _ hlt e
  exact toNat_lt_of_signed_range _ ge lt

theorem src_lt_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    ∀ e : Cert.Spec.SE.Idx, ((m ((c.tc : Thread Cert.KernelIdeal.nD Cert.KernelIdeal.τ).loc Cert.KernelIdeal.main_arg1) : Cert.Spec.SE.Idx → BitVec 32) e).toNat < 50000 :=
  fun e => src_lt_of_fn (F := Ideal) (hPre := Cert.Pre_finite_inputs.Gen.facts) _ _ _ _ _ _ _ _ _ _ _ (h c) e

theorem src_lt_of_pre_word (m : (ℓ : Loc Cert.Kernel.nD Cert.Kernel.τ Cert.Kernel.sig) → Buf (Elt Bits) ℓ)
    (h : Cert.Pre_Kernel (hPre_finite_inputs := Cert.Pre_finite_inputs.Gen.facts) m) (c : Dev Cert.Kernel.nD) :
    ∀ e : Cert.Spec.SE.Idx, ((m ((c.tc : Thread Cert.Kernel.nD Cert.Kernel.τ).loc Cert.Kernel.main_arg1) : Cert.Spec.SE.Idx → BitVec 32) e).toNat < 50000 :=
  fun e => src_lt_of_fn (F := Bits) (hPre := Cert.Pre_finite_inputs.Gen.facts) _ _ _ _ _ _ _ _ _ _ _ (h c) e

end Cert.KernelIdeal.Hand

end
-- ==== Proof.RefSide.lean ====
import proofs.«415291_j87935160418912_3_alg».proof.Proof.Gen.ReferenceIdeal.Run
import proofs.«415291_j87935160418912_3_alg».proof.Proof.Gen.ReferenceIdeal.Read
import proofs.«415291_j87935160418912_3_alg».proof.Proof.Spec
import Idealize.ShloMosaic.Lib.StableHlo.Predicate

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.Read Cert.ReferenceIdeal.Value

theorem toInt_of_small (w : BitVec 32) (h : w.toNat < 2 ^ 31) : w.toInt = (w.toNat : Int) := by
  rw [BitVec.toInt_eq_toNat_cond, if_pos (by omega)]

theorem toInt_ofNat_small (n : Nat) (hn : n < 2 ^ 31) : (BitVec.ofNat 32 n).toInt = (n : Int) := by
  rw [toInt_of_small _ (by rw [BitVec.toNat_ofNat]; omega), BitVec.toNat_ofNat]
  congr 1
  omega

theorem toInt_eq_iff (w : BitVec 32) (n : Nat) (hn : n < 2 ^ 31) : w.toInt = (n : Int) ↔ w = BitVec.ofNat 32 n :=
  ⟨fun h => BitVec.eq_of_toInt_eq (h.trans (toInt_ofNat_small n hn).symm), fun h => h ▸ toInt_ofNat_small n hn⟩

theorem ids_apply (src : (⟨S800000, .i32⟩ : BufTy).Contents (Elt Ideal)) (hsrc : ∀ e, (src e).toNat < 50000)
    (e : Fin 800000) (z : Fin 1) : val_main_v5 (F := Ideal) src (ix2 e z) = src (ix1 e) := by
  rw [val_main_v5_apply, val_main_v4_apply, val_main_v1_apply, val_main_v0_apply, val_main_c_apply]
  have hi : idx_main_v5 (ix2 e z) = ix1 e := funext fun a => Fin.ext (by match a with | ⟨0, _⟩ => rfl)
  rw [hi]
  have hlt := hsrc (ix1 e)
  have hc : IntOp.cmpi .slt (src (ix1 e)) 0#32 = 0#1 := by
    apply eq_zero_of_ne_one
    rw [Predicate.slt_iff_toNat (by omega) (by decide)]
    simp
  rw [hc, select_zero]

theorem gather_row {w : Nat} (idx : IVec S800000x1 w) (j : S800000x128.Idx) :
    (gather_S50000x128_S800000x1_S800000x128_1_0_n_n_0_1_1128.operandIdx j idx 0).val
      = min (idx (ix2 (⟨(j 0).val, (j 0).isLt⟩ : Fin 800000) (0 : Fin 1))).toInt.toNat 49999 := by
  show gather_S50000x128_S800000x1_S800000x128_1_0_n_n_0_1_1128.start j idx 0
      + gather_S50000x128_S800000x1_S800000x128_1_0_n_n_0_1_1128.batchCoord j 0
      + gather_S50000x128_S800000x1_S800000x128_1_0_n_n_0_1_1128.offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin S50000x128.rank) ∈ gather_S50000x128_S800000x1_S800000x128_1_0_n_n_0_1_1128.startIndexMap from List.mem_singleton.mpr rfl)]
  have hsi : gather_S50000x128_S800000x1_S800000x128_1_0_n_n_0_1_1128.siIdx j
      ⟨List.idxOf (0 : Fin S50000x128.rank) gather_S50000x128_S800000x1_S800000x128_1_0_n_n_0_1_1128.startIndexMap,
        List.idxOf_lt_length_iff.2 (List.mem_singleton.mpr rfl)⟩
      = ix2 (⟨(j 0).val, (j 0).isLt⟩ : Fin 800000) (0 : Fin 1) := by
    funext b; refine Fin.ext ?_
    match b with
    | ⟨0, _⟩ => rfl
    | ⟨1, _⟩ => rfl
  rw [hsi]
  rfl

theorem gather_col {w : Nat} (idx : IVec S800000x1 w) (j : S800000x128.Idx) :
    (gather_S50000x128_S800000x1_S800000x128_1_0_n_n_0_1_1128.operandIdx j idx 1).val = (j 1).val := by
  show gather_S50000x128_S800000x1_S800000x128_1_0_n_n_0_1_1128.start j idx 1
      + gather_S50000x128_S800000x1_S800000x128_1_0_n_n_0_1_1128.batchCoord j 1
      + gather_S50000x128_S800000x1_S800000x128_1_0_n_n_0_1_1128.offCoord j 1 = _
  rw [GatherDims.batchCoord_eq_zero _ _ _ List.not_mem_nil]
  unfold GatherDims.start GatherDims.offCoord
  rw [dif_neg (show ¬(1 : Fin S50000x128.rank) ∈ gather_S50000x128_S800000x1_S800000x128_1_0_n_n_0_1_1128.startIndexMap by decide),
    dif_pos (show (1 : Fin S50000x128.rank) ∈ gather_S50000x128_S800000x1_S800000x128_1_0_n_n_0_1_1128.sKept by decide)]
  simp only [Nat.zero_add, Nat.add_zero]
  rfl

theorem gather_apply {w : Nat} (h : FVec Ideal S50000x128 .f32) (idx : IVec S800000x1 w) (e : Fin 800000) (d : Fin 128) :
    Host.gather gather_S50000x128_S800000x1_S800000x128_1_0_n_n_0_1_1128 h idx (ix2 e d)
      = h (ix2 (⟨min (idx (ix2 e (0 : Fin 1))).toInt.toNat 49999, by omega⟩ : Fin 50000) d) := by
  unfold Host.gather
  refine congrArg h (funext fun a => Fin.ext ?_)
  match a with
  | ⟨0, _⟩ => exact gather_row idx (ix2 e d)
  | ⟨1, _⟩ => exact gather_col idx (ix2 e d)

theorem gathered_eq (h : FVec Ideal S50000x128 .f32) (src : (⟨S800000, .i32⟩ : BufTy).Contents (Elt Ideal))
    (hsrc : ∀ e, (src e).toNat < 50000) :
    (val_main_v6 (F := Ideal) h src : Cert.Spec.SG.Idx → EReal) = Cert.Spec.gathered src h := by
  funext j
  obtain ⟨e, d, rfl⟩ : ∃ (e : Fin 800000) (d : Fin 128), j = ix2 e d := ⟨j 0, j 1, eq_ix2 j⟩
  unfold val_main_v6
  rw [gather_apply]
  unfold Cert.Spec.gathered
  have hlt := hsrc (ix1 e)
  refine congrArg h (congrArg (fun r => ix2 r d) (Fin.ext ?_))
  show min (val_main_v5 (F := Ideal) src (ix2 e (0 : Fin 1))).toInt.toNat 49999 = (Cert.Spec.rowOf (src (ix1 e))).val
  rw [ids_apply src hsrc, Cert.Spec.rowOf_val_of_lt _ hlt, toInt_of_small _ (by omega), Int.toNat_natCast]
  omega

theorem scatter_start_0 {w : Nat} (idx : IVec S800000x1 w) (j : S800000x128.Idx) :
    scatter_S50000x128_S800000x1_S800000x128_1_0_0_1.start j idx 0
      = (idx (ix2 (⟨(j 0).val, (j 0).isLt⟩ : Fin 800000) (0 : Fin 1))).toInt := by
  unfold ScatterDims.start
  rw [dif_pos (show (0 : Fin S50000x128.rank) ∈ scatter_S50000x128_S800000x1_S800000x128_1_0_0_1.scatterDimsToOperandDims from List.mem_singleton.mpr rfl)]
  have hsi : scatter_S50000x128_S800000x1_S800000x128_1_0_0_1.siIdx j
      ⟨List.idxOf (0 : Fin S50000x128.rank) scatter_S50000x128_S800000x1_S800000x128_1_0_0_1.scatterDimsToOperandDims,
        List.idxOf_lt_length_iff.2 (List.mem_singleton.mpr rfl)⟩
      = ix2 (⟨(j 0).val, (j 0).isLt⟩ : Fin 800000) (0 : Fin 1) := by
    funext b; refine Fin.ext ?_
    match b with
    | ⟨0, _⟩ => rfl
    | ⟨1, _⟩ => rfl
  rw [hsi]

theorem scatter_start_1 {w : Nat} (idx : IVec S800000x1 w) (j : S800000x128.Idx) :
    scatter_S50000x128_S800000x1_S800000x128_1_0_0_1.start j idx 1 = 0 := by
  unfold ScatterDims.start
  rw [dif_neg (show ¬(1 : Fin S50000x128.rank) ∈ scatter_S50000x128_S800000x1_S800000x128_1_0_0_1.scatterDimsToOperandDims by decide)]

theorem scatter_window_0 (j : S800000x128.Idx) : scatter_S50000x128_S800000x1_S800000x128_1_0_0_1.window j 0 = 0 := by
  unfold ScatterDims.window
  rw [dif_neg (show ¬(0 : Fin S50000x128.rank) ∈ scatter_S50000x128_S800000x1_S800000x128_1_0_0_1.sKept by decide)]

theorem scatter_window_1 (j : S800000x128.Idx) : scatter_S50000x128_S800000x1_S800000x128_1_0_0_1.window j 1 = (j 1).val := by
  unfold ScatterDims.window
  rw [dif_pos (show (1 : Fin S50000x128.rank) ∈ scatter_S50000x128_S800000x1_S800000x128_1_0_0_1.sKept by decide)]
  rfl

theorem scatter_lands {w : Nat} (idx : IVec S800000x1 w) (e : Fin 800000) (b : Fin 128) (n : Fin 50000) (d : Fin 128) :
    scatter_S50000x128_S800000x1_S800000x128_1_0_0_1.resultIdx? (ix2 e b) idx = some (ix2 n d)
      ↔ (idx (ix2 e (0 : Fin 1))).toInt = (n.val : Int) ∧ b = d := by
  have s0 : scatter_S50000x128_S800000x1_S800000x128_1_0_0_1.start (ix2 e b) idx 0 = (idx (ix2 e (0 : Fin 1))).toInt :=
    scatter_start_0 idx (ix2 e b)
  have s1 : scatter_S50000x128_S800000x1_S800000x128_1_0_0_1.start (ix2 e b) idx 1 = 0 := scatter_start_1 idx (ix2 e b)
  have w0 : scatter_S50000x128_S800000x1_S800000x128_1_0_0_1.window (ix2 e b) 0 = 0 := scatter_window_0 (ix2 e b)
  have w1 : scatter_S50000x128_S800000x1_S800000x128_1_0_0_1.window (ix2 e b) 1 = b.val := scatter_window_1 (ix2 e b)
  have z0 : S50000x128.size 0 = 50000 := rfl
  have z1 : S50000x128.size 1 = 128 := rfl
  have hn := n.isLt
  have hb := b.isLt
  have hd := d.isLt
  unfold ScatterDims.resultIdx?
  split
  · rename_i hall
    have a0 := hall 0
    have a1 := hall 1
    rw [s0, w0, z0] at a0
    rw [s1, w1, z1] at a1
    constructor
    · intro hf
      have hf' := Option.some.inj hf
      have h0 : (scatter_S50000x128_S800000x1_S800000x128_1_0_0_1.start (ix2 e b) idx 0
          + (scatter_S50000x128_S800000x1_S800000x128_1_0_0_1.window (ix2 e b) 0 : Int)).toNat = n.val :=
        congrArg Fin.val (congrFun hf' 0)
      have h1 : (scatter_S50000x128_S800000x1_S800000x128_1_0_0_1.start (ix2 e b) idx 1
          + (scatter_S50000x128_S800000x1_S800000x128_1_0_0_1.window (ix2 e b) 1 : Int)).toNat = d.val :=
        congrArg Fin.val (congrFun hf' 1)
      rw [s0, w0] at h0
      rw [s1, w1] at h1
      exact ⟨by omega, Fin.ext (by omega)⟩
    · rintro ⟨hS, rfl⟩
      refine congrArg some (funext fun a => Fin.ext ?_)
      match a with
      | ⟨0, _⟩ =>
        show (scatter_S50000x128_S800000x1_S800000x128_1_0_0_1.start (ix2 e b) idx 0
          + (scatter_S50000x128_S800000x1_S800000x128_1_0_0_1.window (ix2 e b) 0 : Int)).toNat = n.val
        rw [s0, w0]; omega
      | ⟨1, _⟩ =>
        show (scatter_S50000x128_S800000x1_S800000x128_1_0_0_1.start (ix2 e b) idx 1
          + (scatter_S50000x128_S800000x1_S800000x128_1_0_0_1.window (ix2 e b) 1 : Int)).toNat = b.val
        rw [s1, w1]; omega
  · rename_i hall
    constructor
    · intro hf
      exact absurd hf (by simp)
    · rintro ⟨hS, rfl⟩
      exfalso
      apply hall
      intro a
      match a with
      | ⟨0, _⟩ =>
        show 0 ≤ scatter_S50000x128_S800000x1_S800000x128_1_0_0_1.start (ix2 e b) idx 0
            + (scatter_S50000x128_S800000x1_S800000x128_1_0_0_1.window (ix2 e b) 0 : Int)
          ∧ scatter_S50000x128_S800000x1_S800000x128_1_0_0_1.start (ix2 e b) idx 0
            + (scatter_S50000x128_S800000x1_S800000x128_1_0_0_1.window (ix2 e b) 0 : Int) < (S50000x128.size 0 : Int)
        rw [s0, w0, z0]; omega
      | ⟨1, _⟩ =>
        show 0 ≤ scatter_S50000x128_S800000x1_S800000x128_1_0_0_1.start (ix2 e b) idx 1
            + (scatter_S50000x128_S800000x1_S800000x128_1_0_0_1.window (ix2 e b) 1 : Int)
          ∧ scatter_S50000x128_S800000x1_S800000x128_1_0_0_1.start (ix2 e b) idx 1
            + (scatter_S50000x128_S800000x1_S800000x128_1_0_0_1.window (ix2 e b) 1 : Int) < (S50000x128.size 1 : Int)
        rw [s1, w1, z1]; omega

theorem scatter_apply {w : Nat} (z : FVec Ideal S50000x128 .f32) (idx : IVec S800000x1 w) (upd : FVec Ideal S800000x128 .f32)
    (n : Fin 50000) (d : Fin 128) :
    Host.scatterAdd (F := Ideal) scatter_S50000x128_S800000x1_S800000x128_1_0_0_1 z idx upd (ix2 n d)
      = z (ix2 n d) + ∑ e : Fin 800000, if (idx (ix2 e (0 : Fin 1))).toInt = (n.val : Int) then upd (ix2 e d) else 0 := by
  simp only [Host.scatterAdd, Ideal.hostScatterAdd_def]
  unfold Ideal.hostScatterAdd
  refine congrArg (z (ix2 n d) + ·) ?_
  rw [Finset.sum_filter, sum_idx2]
  refine Finset.sum_congr rfl fun e _ => ?_
  by_cases hS : (idx (ix2 e (0 : Fin 1))).toInt = (n.val : Int)
  · rw [if_pos hS, Finset.sum_eq_single d]
    · rw [if_pos ((scatter_lands idx e d n d).2 ⟨hS, rfl⟩)]
    · intro b _ hbd
      rw [if_neg (fun h => hbd ((scatter_lands idx e b n d).1 h).2)]
    · intro h
      exact absurd (Finset.mem_univ d) h
  · rw [if_neg hS]
    exact Finset.sum_eq_zero fun b _ => if_neg (fun h => hS ((scatter_lands idx e b n d).1 h).1)

theorem aggregated_eq (h : FVec Ideal S50000x128 .f32) (src dst : (⟨S800000, .i32⟩ : BufTy).Contents (Elt Ideal))
    (hsrc : ∀ e, (src e).toNat < 50000) :
    (val_main_v10 (F := Ideal) h src dst : Cert.Spec.SN.Idx → EReal)
      = Cert.Spec.aggregated dst (Cert.Spec.gathered src h) h := by
  funext i
  obtain ⟨n, d, rfl⟩ : ∃ (n : Fin 50000) (d : Fin 128), i = ix2 n d := ⟨i 0, i 1, eq_ix2 i⟩
  rw [val_main_v10_apply]
  unfold val_main_v9 Cert.Spec.aggregated Cert.Spec.scattered
  rw [scatter_apply, gathered_eq h src hsrc, val_main_v7_apply, val_main_cst_apply]
  show (Ideal.ofBits .f32 0x00000000#32 + _) + _ = _
  rw [Ideal.ofBits_zero_f32, zero_add]
  refine congrArg (· + h (ix2 n d)) (Finset.sum_congr rfl fun e _ => ?_)
  have hi : val_main_v8 (F := Ideal) dst (ix2 e (0 : Fin 1)) = dst (ix1 e) := by
    rw [val_main_v8_apply]
    exact congrArg dst (funext fun a => Fin.ext (by match a with | ⟨0, _⟩ => rfl))
  rw [hi]
  exact if_congr (toInt_eq_iff _ _ (by have := n.isLt; omega)) rfl rfl

theorem dot_rows_apply (x : FVec Ideal S50000x128 .f32) (wt : FVec Ideal S128x128 .f32) (n : Fin 50000) (d : Fin 128) :
    Host.dotGeneral (F := Ideal) dot_S50000x128_S128x128_S50000x128_1_0_0_1_n_n none x wt (ix2 n d)
      = ∑ k : Fin 128, x (ix2 n k) * wt (ix2 k d) := by
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 n d) ((contrEquiv1 dot_S50000x128_S128x128_S50000x128_1_0_0_1_n_n 128 rfl rfl).symm k) = ix2 n k :=
    funext fun a => Fin.ext (by
      match a with
      | ⟨0, _⟩ => exact lhs_main_v16_0 _ _
      | ⟨1, _⟩ => exact (lhs_main_v16_1 _ _).trans hk)
  have er : dot_S50000x128_S128x128_S50000x128_1_0_0_1_n_n.rhsIdx (ix2 n d) ((contrEquiv1 dot_S50000x128_S128x128_S50000x128_1_0_0_1_n_n 128 rfl rfl).symm k) = ix2 k d :=
    funext fun a => Fin.ext (by
      match a with
      | ⟨0, _⟩ => exact (rhs_main_v16_0 _ _).trans hk
      | ⟨1, _⟩ => exact rhs_main_v16_1 _ _)
  rw [el, er]

theorem dot_row_apply (x : FVec Ideal S1x128 .f32) (wt : FVec Ideal S128x128 .f32) (n : Fin 1) (d : Fin 128) :
    Host.dotGeneral (F := Ideal) dot_S1x128_S128x128_S1x128_1_0_0_1_n_n none x wt (ix2 n d)
      = ∑ k : Fin 128, x (ix2 n k) * wt (ix2 k d) := by
  simp only [Host.dotGeneral]
  rw [Ideal.dotGeneral_apply, ← Equiv.sum_comp (contrEquiv1 dot_S1x128_S128x128_S1x128_1_0_0_1_n_n 128 rfl rfl).symm]
  refine Finset.sum_congr rfl fun k _ => ?_
  have hk := contrEquiv1_symm_val dot_S1x128_S128x128_S1x128_1_0_0_1_n_n 128 rfl rfl k
  have el : dot_S1x128_S128x128_S1x128_1_0_0_1_n_n.lhsIdx (ix2 n d) ((contrEquiv1 dot_S1x128_S128x128_S1x128_1_0_0_1_n_n 128 rfl rfl).symm k) = ix2 n k :=
    funext fun a => Fin.ext (by
      match a with
      | ⟨0, _⟩ => exact lhs_main_v35_0 _ _
      | ⟨1, _⟩ => exact (lhs_main_v35_1 _ _).trans hk)
  have er : dot_S1x128_S128x128_S1x128_1_0_0_1_n_n.rhsIdx (ix2 n d) ((contrEquiv1 dot_S1x128_S128x128_S1x128_1_0_0_1_n_n 128 rfl rfl).symm k) = ix2 k d :=
    funext fun a => Fin.ext (by
      match a with
      | ⟨0, _⟩ => exact (rhs_main_v35_0 _ _).trans hk
      | ⟨1, _⟩ => exact rhs_main_v35_1 _ _)
  rw [el, er]

theorem dot_head_apply (x : FVec Ideal S50000x128 .f32) (wt : FVec Ideal S128x2 .f32) (n : Fin 50000) (d : Fin 2) :
    Host.dotGeneral (F := Ideal) dot_S50000x128_S128x2_S50000x2_1_0_0_1_n_n none x wt (ix2 n d)
      = ∑ k : Fin 128, x (ix2 n k) * wt (ix2 k d) := by
  simp only [Host.dotGeneral]
  rw [Ideal.dotGeneral_apply, ← Equiv.sum_comp (contrEquiv1 dot_S50000x128_S128x2_S50000x2_1_0_0_1_n_n 128 rfl rfl).symm]
  refine Finset.sum_congr rfl fun k _ => ?_
  have hk := contrEquiv1_symm_val dot_S50000x128_S128x2_S50000x2_1_0_0_1_n_n 128 rfl rfl k
  have el : dot_S50000x128_S128x2_S50000x2_1_0_0_1_n_n.lhsIdx (ix2 n d) ((contrEquiv1 dot_S50000x128_S128x2_S50000x2_1_0_0_1_n_n 128 rfl rfl).symm k) = ix2 n k :=
    funext fun a => Fin.ext (by
      match a with
      | ⟨0, _⟩ => exact lhs_main_v133_0 _ _
      | ⟨1, _⟩ => exact (lhs_main_v133_1 _ _).trans hk)
  have er : dot_S50000x128_S128x2_S50000x2_1_0_0_1_n_n.rhsIdx (ix2 n d) ((contrEquiv1 dot_S50000x128_S128x2_S50000x2_1_0_0_1_n_n 128 rfl rfl).symm k) = ix2 k d :=
    funext fun a => Fin.ext (by
      match a with
      | ⟨0, _⟩ => exact (rhs_main_v133_0 _ _).trans hk
      | ⟨1, _⟩ => exact rhs_main_v133_1 _ _)
  rw [el, er]

def sliceT (l : Nat) (hs : S3x128x128.Slices ![l, 0, 0] S1x128x128) (W : FVec Ideal S3x128x128 .f32) : FVec Ideal S128x128 .f32 :=
  transpose S128x128 [1, 0] (shapeCast _ (extractStridedSlice S1x128x128 ![l, 0, 0] W hs) shapeCasts_S1x128x128_S128x128)
    transposes_S128x128_S128x128_1_0

def sliceRow (l : Nat) (hs : S3x128.Slices ![l, 0] S1x128) (B : FVec Ideal S3x128 .f32) : FVec Ideal S1x128 .f32 :=
  broadcastInDim S1x128 ![1] bcast_S128_S1x128_1 (shapeCast _ (extractStridedSlice S1x128 ![l, 0] B hs) shapeCasts_S1x128_S128)

theorem matT_eq (l : Nat) (hl : l < 3) (hs : S3x128x128.Slices ![l, 0, 0] S1x128x128) (W : FVec Ideal S3x128x128 .f32) :
    (sliceT l hs W : Cert.Spec.SW.Idx → EReal) = Cert.Spec.matT W ⟨l, hl⟩ := by
  funext j
  obtain ⟨k, d, rfl⟩ : ∃ (k d : Fin 128), j = ix2 k d := ⟨j 0, j 1, eq_ix2 j⟩
  unfold sliceT
  refine (transpose_apply [1, 0] _ transposes_S128x128_S128x128_1_0 (ix2 k d) (ix2 d k) (fun b => match b with
    | ⟨0, _⟩ => rfl
    | ⟨1, _⟩ => rfl)).trans ?_
  refine (shapeCast_apply _ shapeCasts_S1x128x128_S128x128 (ix2 d k) (ix3 (0 : Fin 1) d k)
    (by rewrite [Shape.rowMajor_val_three, Shape.rowMajor_val_two]
        show (0 * 128 + d.val) * 128 + k.val = d.val * 128 + k.val
        omega)).trans ?_
  exact extractStridedSlice_apply ![l, 0, 0] W hs (ix3 (0 : Fin 1) d k) (ix3 (⟨l, hl⟩ : Fin 3) d k) (fun a => match a with
    | ⟨0, _⟩ => by show l = l + 0; omega
    | ⟨1, _⟩ => by show d.val = 0 + d.val; omega
    | ⟨2, _⟩ => by show k.val = 0 + k.val; omega)

theorem vecAt_eq (l : Nat) (hl : l < 3) (hs : S3x128.Slices ![l, 0] S1x128) (B : FVec Ideal S3x128 .f32) :
    (fun j : Cert.Spec.SB.Idx => sliceRow l hs B (ix2 (0 : Fin 1) (j 0))) = Cert.Spec.vecAt B ⟨l, hl⟩ := by
  funext j
  obtain ⟨d, rfl⟩ : ∃ d : Fin 128, j = ix1 d := ⟨j 0, eq_ix1 j⟩
  show sliceRow l hs B (ix2 (0 : Fin 1) d) = _
  unfold sliceRow
  refine (broadcastInDim_apply _ bcast_S128_S1x128_1 _ (ix2 (0 : Fin 1) d) (ix1 d) (fun a => match a with
    | ⟨0, _⟩ => by show d.val = if (128 : Nat) = 1 then 0 else d.val; rw [if_neg (by decide)])).trans ?_
  refine (shapeCast_apply _ shapeCasts_S1x128_S128 (ix1 d) (ix2 (0 : Fin 1) d)
    (by rewrite [Shape.rowMajor_val_two, Shape.rowMajor_val_one]
        show 0 * 128 + d.val = d.val
        omega)).trans ?_
  exact extractStridedSlice_apply ![l, 0] B hs (ix2 (0 : Fin 1) d) (ix2 (⟨l, hl⟩ : Fin 3) d) (fun a => match a with
    | ⟨0, _⟩ => by show l = l + 0; omega
    | ⟨1, _⟩ => by show d.val = 0 + d.val; omega)

theorem readout_eq (h : FVec Ideal S50000x128 .f32) (k : Fin 128) :
    val_main_v12 (F := Ideal) h (ix2 (0 : Fin 1) k) = Cert.Spec.readout h (ix1 k) := by
  rw [val_main_v12_apply, val_main_v11_apply, val_main_cst_1_apply]
  unfold Cert.Spec.readout
  show Ideal.ofBits .f32 0x00000000#32 + _ = _
  rw [Ideal.ofBits_zero_f32]
  exact congrArg (0 + ·) (Finset.sum_congr rfl fun n _ => congrArg h (funext fun a => Fin.ext (by
    match a with
    | ⟨0, _⟩ => rfl
    | ⟨1, _⟩ => rfl)))

theorem bcast_row_apply (v : FVec Ideal S1x128 .f32) (n : Fin 50000) (d : Fin 128) :
    broadcastInDim S50000x128 ![0, 1] bcast_S1x128_S50000x128_0_1 v (ix2 n d) = v (ix2 (0 : Fin 1) d) :=
  broadcastInDim_apply _ bcast_S1x128_S50000x128_0_1 v (ix2 n d) (ix2 (0 : Fin 1) d) (fun a => match a with
    | ⟨0, _⟩ => by show 0 = if (1 : Nat) = 1 then 0 else n.val; rw [if_pos rfl]
    | ⟨1, _⟩ => by show d.val = if (128 : Nat) = 1 then 0 else d.val; rw [if_neg (by decide)])

theorem bcast_zero_apply (i : S50000x128.Idx) :
    broadcastInDim S50000x128 ![] bcast_S_S50000x128 (constant (F := Ideal) S_ .f32 0x00000000#32) i = 0 := by
  refine (broadcastInDim_apply _ bcast_S_S50000x128 _ i ix0 (fun a => a.elim0)).trans ?_
  rw [constant_apply, Ideal.ofBits_zero_f32]

def layerOps (h : FVec Ideal S50000x128 .f32) (src dst : (⟨S800000, .i32⟩ : BufTy).Contents (Elt Ideal))
    (vw : FVec Ideal S128x128 .f32) (vb : FVec Ideal S1x128 .f32) (aw : FVec Ideal S128x128 .f32) (ab : FVec Ideal S1x128 .f32)
    (rw : FVec Ideal S128x128 .f32) (rb : FVec Ideal S1x128 .f32) : FVec Ideal S50000x128 .f32 :=
  maximumf
    (addf (addf (addf (addf (addf
      (Host.dotGeneral dot_S50000x128_S128x128_S50000x128_1_0_0_1_n_n none h vw)
      (broadcastInDim S50000x128 ![0, 1] bcast_S1x128_S50000x128_0_1 vb))
      (Host.dotGeneral (φ₁ := .f32) dot_S50000x128_S128x128_S50000x128_1_0_0_1_n_n none (val_main_v10 (F := Ideal) h src dst) aw))
      (broadcastInDim S50000x128 ![0, 1] bcast_S1x128_S50000x128_0_1 ab))
      (broadcastInDim S50000x128 ![0, 1] bcast_S1x128_S50000x128_0_1
        (Host.dotGeneral (φ₁ := .f32) dot_S1x128_S128x128_S1x128_1_0_0_1_n_n none (val_main_v12 (F := Ideal) h) rw)))
      (broadcastInDim S50000x128 ![0, 1] bcast_S1x128_S50000x128_0_1 rb))
    (broadcastInDim S50000x128 ![] bcast_S_S50000x128 (constant S_ .f32 0x00000000#32))

theorem layerOps_eq (h : FVec Ideal S50000x128 .f32) (src dst : (⟨S800000, .i32⟩ : BufTy).Contents (Elt Ideal))
    (hsrc : ∀ e, (src e).toNat < 50000)
    (vw : FVec Ideal S128x128 .f32) (vb : FVec Ideal S1x128 .f32) (aw : FVec Ideal S128x128 .f32) (ab : FVec Ideal S1x128 .f32)
    (rw : FVec Ideal S128x128 .f32) (rb : FVec Ideal S1x128 .f32) :
    (layerOps h src dst vw vb aw ab rw rb : Cert.Spec.SN.Idx → EReal)
      = Cert.Spec.layer src dst h vw (fun j => vb (ix2 (0 : Fin 1) (j 0))) aw (fun j => ab (ix2 (0 : Fin 1) (j 0)))
          rw (fun j => rb (ix2 (0 : Fin 1) (j 0))) := by
  unfold Cert.Spec.layer
  rw [← Cert.Spec.combineLeft_eq]
  funext i
  obtain ⟨n, d, rfl⟩ : ∃ (n : Fin 50000) (d : Fin 128), i = ix2 n d := ⟨i 0, i 1, eq_ix2 i⟩
  unfold layerOps Cert.Spec.combineLeft
  simp only [maximumf_apply, addf_apply]
  rw [dot_rows_apply, dot_rows_apply, bcast_row_apply, bcast_row_apply, bcast_row_apply, bcast_row_apply, dot_row_apply,
    bcast_zero_apply, aggregated_eq h src dst hsrc]
  simp only [readout_eq]

theorem layerAt_eq (l : Nat) (hl : l < 3) (hsW : S3x128x128.Slices ![l, 0, 0] S1x128x128) (hsB : S3x128.Slices ![l, 0] S1x128)
    (h : FVec Ideal S50000x128 .f32) (src dst : (⟨S800000, .i32⟩ : BufTy).Contents (Elt Ideal))
    (hsrc : ∀ e, (src e).toNat < 50000)
    (Vw : FVec Ideal S3x128x128 .f32) (Vb : FVec Ideal S3x128 .f32) (Aw : FVec Ideal S3x128x128 .f32) (Ab : FVec Ideal S3x128 .f32)
    (Rw : FVec Ideal S3x128x128 .f32) (Rb : FVec Ideal S3x128 .f32) :
    (layerOps h src dst (sliceT l hsW Vw) (sliceRow l hsB Vb) (sliceT l hsW Aw) (sliceRow l hsB Ab) (sliceT l hsW Rw)
        (sliceRow l hsB Rb) : Cert.Spec.SN.Idx → EReal)
      = Cert.Spec.layerAt src dst Vw Vb Aw Ab Rw Rb ⟨l, hl⟩ h := by
  rw [layerOps_eq h src dst hsrc, matT_eq l hl hsW Vw, matT_eq l hl hsW Aw, matT_eq l hl hsW Rw,
    vecAt_eq l hl hsB Vb, vecAt_eq l hl hsB Ab, vecAt_eq l hl hsB Rb]
  rfl

def headOps (h : FVec Ideal S50000x128 .f32) (ow : FVec Ideal S2x128 .f32) (ob : FVec Ideal S2 .f32) : FVec Ideal S50000x2 .f32 :=
  Host.divf (broadcastInDim S50000x2 ![] bcast_S_S50000x2 (constant S_ .f32 0x3F800000#32))
    (addf (broadcastInDim S50000x2 ![] bcast_S_S50000x2 (constant S_ .f32 0x3F800000#32))
      (Host.exp (Host.negf (addf
        (Host.dotGeneral dot_S50000x128_S128x2_S50000x2_1_0_0_1_n_n none h (transpose S128x2 [1, 0] ow transposes_S2x128_S128x2_1_0))
        (broadcastInDim S50000x2 ![0, 1] bcast_S1x2_S50000x2_0_1 (broadcastInDim S1x2 ![1] bcast_S2_S1x2_1 ob))))))

theorem bcast_one_apply (i : S50000x2.Idx) :
    broadcastInDim S50000x2 ![] bcast_S_S50000x2 (constant (F := Ideal) S_ .f32 0x3F800000#32) i = Cert.Spec.one :=
  broadcastInDim_apply _ bcast_S_S50000x2 _ i ix0 (fun a => a.elim0)

theorem head_matT_apply (ow : FVec Ideal S2x128 .f32) (k : Fin 128) (c : Fin 2) :
    transpose S128x2 [1, 0] ow transposes_S2x128_S128x2_1_0 (ix2 k c) = ow (ix2 c k) :=
  transpose_apply [1, 0] ow transposes_S2x128_S128x2_1_0 (ix2 k c) (ix2 c k) (fun b => match b with
    | ⟨0, _⟩ => rfl
    | ⟨1, _⟩ => rfl)

theorem head_bias_apply (ob : FVec Ideal S2 .f32) (n : Fin 50000) (c : Fin 2) :
    broadcastInDim S50000x2 ![0, 1] bcast_S1x2_S50000x2_0_1 (broadcastInDim S1x2 ![1] bcast_S2_S1x2_1 ob) (ix2 n c) = ob (ix1 c) := by
  refine (broadcastInDim_apply _ bcast_S1x2_S50000x2_0_1 _ (ix2 n c) (ix2 (0 : Fin 1) c) (fun a => match a with
    | ⟨0, _⟩ => by show 0 = if (1 : Nat) = 1 then 0 else n.val; rw [if_pos rfl]
    | ⟨1, _⟩ => by show c.val = if (2 : Nat) = 1 then 0 else c.val; rw [if_neg (by decide)])).trans ?_
  exact broadcastInDim_apply _ bcast_S2_S1x2_1 ob (ix2 (0 : Fin 1) c) (ix1 c) (fun a => match a with
    | ⟨0, _⟩ => by show c.val = if (2 : Nat) = 1 then 0 else c.val; rw [if_neg (by decide)])

theorem headOps_eq (h : FVec Ideal S50000x128 .f32) (ow : FVec Ideal S2x128 .f32) (ob : FVec Ideal S2 .f32) :
    (headOps h ow ob : Cert.Spec.SO.Idx → EReal) = Cert.Spec.head h ow ob := by
  funext i
  obtain ⟨n, c, rfl⟩ : ∃ (n : Fin 50000) (c : Fin 2), i = ix2 n c := ⟨i 0, i 1, eq_ix2 i⟩
  unfold headOps Cert.Spec.head Cert.Spec.logistic
  show Ideal.div (broadcastInDim S50000x2 ![] bcast_S_S50000x2 (constant (F := Ideal) S_ .f32 0x3F800000#32) (ix2 n c))
      (broadcastInDim S50000x2 ![] bcast_S_S50000x2 (constant (F := Ideal) S_ .f32 0x3F800000#32) (ix2 n c)
        + Ideal.exp (-(Host.dotGeneral (F := Ideal) dot_S50000x128_S128x2_S50000x2_1_0_0_1_n_n none h
              (transpose S128x2 [1, 0] ow transposes_S2x128_S128x2_1_0) (ix2 n c)
            + broadcastInDim S50000x2 ![0, 1] bcast_S1x2_S50000x2_0_1 (broadcastInDim S1x2 ![1] bcast_S2_S1x2_1 ob) (ix2 n c)))) = _
  rw [bcast_one_apply, dot_head_apply, head_bias_apply]
  refine congrArg (fun z => Ideal.div Cert.Spec.one (Cert.Spec.one + Ideal.exp (-(z + ob (ix1 c)))))
    (Finset.sum_congr rfl fun k _ => ?_)
  rw [head_matT_apply]

theorem net_eq (x0 : FVec Ideal S50000x128 .f32) (x1 x2 : (⟨S800000, .i32⟩ : BufTy).Contents (Elt Ideal))
    (x3 : FVec Ideal S3x128x128 .f32) (x4 : FVec Ideal S3x128 .f32) (x5 : FVec Ideal S3x128x128 .f32) (x6 : FVec Ideal S3x128 .f32)
    (x7 : FVec Ideal S3x128x128 .f32) (x8 : FVec Ideal S3x128 .f32) (x9 : FVec Ideal S2x128 .f32) (x10 : FVec Ideal S2 .f32)
    (hsrc : ∀ e, (x1 e).toNat < 50000) :
    (val_main_v142 (F := Ideal) x0 x1 x2 x3 x4 x5 x6 x7 x8 x9 x10 : Cert.Spec.SO.Idx → EReal)
      = Cert.Spec.net x0 x1 x2 x3 x4 x5 x6 x7 x8 x9 x10 := by
  have e1 : val_main_v43 (F := Ideal) x0 x1 x2 x3 x4 x5 x6 x7 x8
      = layerOps x0 x1 x2 (sliceT 0 slices_S3x128x128_S1x128x128_0_0_0 x3) (sliceRow 0 slices_S3x128_S1x128_0_0 x4)
          (sliceT 0 slices_S3x128x128_S1x128x128_0_0_0 x5) (sliceRow 0 slices_S3x128_S1x128_0_0 x6)
          (sliceT 0 slices_S3x128x128_S1x128x128_0_0_0 x7) (sliceRow 0 slices_S3x128_S1x128_0_0 x8) := rfl
  have e2 : val_main_v87 (F := Ideal) x0 x1 x2 x3 x4 x5 x6 x7 x8
      = layerOps (val_main_v43 (F := Ideal) x0 x1 x2 x3 x4 x5 x6 x7 x8) x1 x2
          (sliceT 1 slices_S3x128x128_S1x128x128_1_0_0 x3) (sliceRow 1 slices_S3x128_S1x128_1_0 x4)
          (sliceT 1 slices_S3x128x128_S1x128x128_1_0_0 x5) (sliceRow 1 slices_S3x128_S1x128_1_0 x6)
          (sliceT 1 slices_S3x128x128_S1x128x128_1_0_0 x7) (sliceRow 1 slices_S3x128_S1x128_1_0 x8) := rfl
  have e3 : val_main_v131 (F := Ideal) x0 x1 x2 x3 x4 x5 x6 x7 x8
      = layerOps (val_main_v87 (F := Ideal) x0 x1 x2 x3 x4 x5 x6 x7 x8) x1 x2
          (sliceT 2 slices_S3x128x128_S1x128x128_2_0_0 x3) (sliceRow 2 slices_S3x128_S1x128_2_0 x4)
          (sliceT 2 slices_S3x128x128_S1x128x128_2_0_0 x5) (sliceRow 2 slices_S3x128_S1x128_2_0 x6)
          (sliceT 2 slices_S3x128x128_S1x128x128_2_0_0 x7) (sliceRow 2 slices_S3x128_S1x128_2_0 x8) := rfl
  have e4 : val_main_v142 (F := Ideal) x0 x1 x2 x3 x4 x5 x6 x7 x8 x9 x10
      = headOps (val_main_v131 (F := Ideal) x0 x1 x2 x3 x4 x5 x6 x7 x8) x9 x10 := rfl
  rw [e4, headOps_eq, e3, layerAt_eq 2 (by decide) _ _ _ x1 x2 hsrc, e2, layerAt_eq 1 (by decide) _ _ _ x1 x2 hsrc,
    e1, layerAt_eq 0 (by decide) _ _ _ x1 x2 hsrc]
  rfl

theorem ref_net (m : (ℓ : Loc nD τ sig) → Buf (Elt Ideal) ℓ) (c : Dev nD)
    (hsrc : ∀ e : Cert.Spec.SE.Idx, ((m ((c.tc : Thread nD τ).loc main_arg1) : Cert.Spec.SE.Idx → BitVec 32) e).toNat < 50000) :
    (res_main_v142 (F := Ideal) m c : Cert.Spec.SO.Idx → EReal)
      = Cert.Spec.net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) :=
  (val_main_v142_eq m c).trans (net_eq _ _ _ _ _ _ _ _ _ _ _ hsrc)

end Cert.ReferenceIdeal.Hand

end
-- ==== Proof.Algebraic.lean ====
import proofs.«415291_j87935160418912_3_alg».proof.Defs
import proofs.«415291_j87935160418912_3_alg».proof.Proof.KI.Result
import proofs.«415291_j87935160418912_3_alg».proof.Proof.KI.PreSrc
import proofs.«415291_j87935160418912_3_alg».proof.Proof.RefSide

noncomputable section

namespace Cert.Proof

open Idealize.ShloMosaic Idealize.ShloMosaic.TcCoe Idealize.SL.Sem

set_option maxHeartbeats 1000000 in
theorem algebraic : Cert.algebraic_KernelIdeal_ReferenceIdeal := by
  intro m ρ m' ρ' hpre hagree
  have hsrc := fun c => Cert.KernelIdeal.Hand.src_lt_of_pre m hpre c
  refine ⟨fun c => Cert.KernelIdeal.Hand.W13 (F := Ideal) m ρ c (Proc.devRef .tc Cert.KernelIdeal.main_v75), ?_, ?_⟩
  · exact (θ_run (Cert.KernelIdeal.defs (F := Ideal)) _ _).mono (fun _ h c =>
      ⟨h c _ (Cert.KernelIdeal.Hand.mem_uc Cert.KernelIdeal.main_v75 (by decide)),
        (h c _ (Cert.KernelIdeal.Hand.mem_uc Cert.KernelIdeal.main_arg0 (by decide))).trans (Cert.KernelIdeal.Hand.W13_main_arg0 m ρ c),
        (h c _ (Cert.KernelIdeal.Hand.mem_uc Cert.KernelIdeal.main_arg1 (by decide))).trans (Cert.KernelIdeal.Hand.W13_main_arg1 m ρ c),
        (h c _ (Cert.KernelIdeal.Hand.mem_uc Cert.KernelIdeal.main_arg2 (by decide))).trans (Cert.KernelIdeal.Hand.W13_main_arg2 m ρ c),
        (h c _ (Cert.KernelIdeal.Hand.mem_uc Cert.KernelIdeal.main_arg3 (by decide))).trans (Cert.KernelIdeal.Hand.W13_main_arg3 m ρ c),
        (h c _ (Cert.KernelIdeal.Hand.mem_uc Cert.KernelIdeal.main_arg4 (by decide))).trans (Cert.KernelIdeal.Hand.W13_main_arg4 m ρ c),
        (h c _ (Cert.KernelIdeal.Hand.mem_uc Cert.KernelIdeal.main_arg5 (by decide))).trans (Cert.KernelIdeal.Hand.W13_main_arg5 m ρ c),
        (h c _ (Cert.KernelIdeal.Hand.mem_uc Cert.KernelIdeal.main_arg6 (by decide))).trans (Cert.KernelIdeal.Hand.W13_main_arg6 m ρ c),
        (h c _ (Cert.KernelIdeal.Hand.mem_uc Cert.KernelIdeal.main_arg7 (by decide))).trans (Cert.KernelIdeal.Hand.W13_main_arg7 m ρ c),
        (h c _ (Cert.KernelIdeal.Hand.mem_uc Cert.KernelIdeal.main_arg8 (by decide))).trans (Cert.KernelIdeal.Hand.W13_main_arg8 m ρ c),
        (h c _ (Cert.KernelIdeal.Hand.mem_uc Cert.KernelIdeal.main_arg9 (by decide))).trans (Cert.KernelIdeal.Hand.W13_main_arg9 m ρ c),
        (h c _ (Cert.KernelIdeal.Hand.mem_uc Cert.KernelIdeal.main_arg10 (by decide))).trans (Cert.KernelIdeal.Hand.W13_main_arg10 m ρ c)⟩) (Cert.KernelIdeal.Hand.run_all (F := Ideal) m ρ)
  · refine (θ_run (Cert.ReferenceIdeal.defs (F := Ideal)) _ _).mono (fun _ h c => ⟨(h c).1.trans ?_, (h c).2⟩)
      (Cert.ReferenceIdeal.Value.run (F := Ideal) m' ρ')
    have e1 := Cert.ReferenceIdeal.Hand.ref_net m' c (by rw [(hagree c).2.1]; exact hsrc c)
    have e2 := Cert.KernelIdeal.Hand.result_val m ρ c (hsrc c)
    refine e1.trans (Eq.trans ?_ e2.symm)
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

end Cert.Proof

end
-- ==== Proof.lean ====
import proofs.«415291_j87935160418912_3_alg».proof.Defs
import proofs.«415291_j87935160418912_3_alg».proof.Proof.Frames
import proofs.«415291_j87935160418912_3_alg».proof.Proof.Algebraic

noncomputable section

namespace Cert.Proof

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
